-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x128 : Shape := ⟨2, ![2048, 128]⟩
abbrev S8192x32 : Shape := ⟨2, ![8192, 32]⟩
abbrev S8192 : Shape := ⟨1, ![8192]⟩
abbrev S8192x8192 : Shape := ⟨2, ![8192, 8192]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg1 : IVec S2048 32) (main_v30 : IVec S_ 1) (main_v32 : IVec S2048 1) (main_c_12 : IVec S_ 32) : IVec S_ 1 :=
  let main_v33 : IVec S2048 32 := broadcastInDim S2048 ![] bcast_S_S2048 main_c_12
  let main_v34 : IVec S2048 1 := cmpi .slt main_arg1 main_v33
  let main_v35 : IVec S2048 1 := andi main_v32 main_v34
  let main_c_13 : IVec S_ 1 := constantI S_ 1 1#1
  let main_v36 : IVec S_ 1 := (fun x v => Host.reduce IntOp.andi x v reducesTo_S2048_S_d0 h_S_) main_v35 main_c_13
  let main_v37 : IVec S_ 1 := andi main_v30 main_v36
  main_v37

def fn_part1 {F : FTy → Type} [FloatOps F] (main_arg0 : IVec S2048 32) (main_arg1 : IVec S2048 32) (main_arg6 : FVec F S8192x8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192x8192 .f32 := Host.absf main_arg6
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_c_8 : IVec S_ 32 := constantI S_ 32 0#32
  let main_v24 : IVec S2048 32 := broadcastInDim S2048 ![] bcast_S_S2048 main_c_8
  let main_v25 : IVec S2048 1 := cmpi .sge main_arg0 main_v24
  let main_c_9 : IVec S_ 32 := constantI S_ 32 8192#32
  let main_v26 : IVec S2048 32 := broadcastInDim S2048 ![] bcast_S_S2048 main_c_9
  let main_v27 : IVec S2048 1 := cmpi .slt main_arg0 main_v26
  let main_v28 : IVec S2048 1 := andi main_v25 main_v27
  let main_c_10 : IVec S_ 1 := constantI S_ 1 1#1
  let main_v29 : IVec S_ 1 := (fun x v => Host.reduce IntOp.andi x v reducesTo_S2048_S_d0 h_S_) main_v28 main_c_10
  let main_v30 : IVec S_ 1 := andi main_v23 main_v29
  let main_c_11 : IVec S_ 32 := constantI S_ 32 0#32
  let main_v31 : IVec S2048 32 := broadcastInDim S2048 ![] bcast_S_S2048 main_c_11
  let main_v32 : IVec S2048 1 := cmpi .sge main_arg1 main_v31
  let main_c_12 : IVec S_ 32 := constantI S_ 32 8192#32
  fn_part2 (F := F) main_arg1 main_v30 main_v32 main_c_12

def fn {F : FTy → Type} [FloatOps F] (main_arg0 : IVec S2048 32) (main_arg1 : IVec S2048 32) (main_arg2 : FVec F S2048x128 .f32) (main_arg3 : FVec F S8192x32 .f32) (main_arg4 : FVec F S8192x32 .f32) (main_arg5 : FVec F S8192 .f32) (main_arg6 : FVec F S8192x8192 .f32) : IVec S_ 1 :=
  let main_v0 : FVec F S2048x128 .f32 := Host.absf main_arg2
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S8192x32 .f32 := Host.absf main_arg3
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S8192x32 .f32 := Host.absf main_arg4
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S8192 .f32 := Host.absf main_arg5
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg0 main_arg1 main_arg6 main_v13 main_v16
-- ==== Kernel.lean ====
abbrev S2048 : Shape := ⟨1, ![2048]⟩
abbrev S2048x128 : Shape := ⟨2, ![2048, 128]⟩
abbrev S8192x32 : Shape := ⟨2, ![8192, 32]⟩
abbrev S8192 : Shape := ⟨1, ![8192]⟩
abbrev S8192x8192 : Shape := ⟨2, ![8192, 8192]⟩
abbrev S2048x1 : Shape := ⟨2, ![2048, 1]⟩
abbrev S8192x1 : Shape := ⟨2, ![8192, 1]⟩
abbrev S8192x64 : Shape := ⟨2, ![8192, 64]⟩
abbrev S2048x64 : Shape := ⟨2, ![2048, 64]⟩
abbrev S2048x32 : Shape := ⟨2, ![2048, 32]⟩
abbrev S256x1 : Shape := ⟨2, ![256, 1]⟩
abbrev S256x64 : Shape := ⟨2, ![256, 64]⟩
abbrev S256x32 : Shape := ⟨2, ![256, 32]⟩
abbrev S256x2048 : Shape := ⟨2, ![256, 2048]⟩
abbrev S2048x8192 : Shape := ⟨2, ![2048, 8192]⟩
abbrev S1024x1024 : Shape := ⟨2, ![1024, 1024]⟩
abbrev S256x1024 : Shape := ⟨2, ![256, 1024]⟩
abbrev S2048x2048 : Shape := ⟨2, ![2048, 2048]⟩
abbrev S256x512 : Shape := ⟨2, ![256, 512]⟩
abbrev S2048x512 : Shape := ⟨2, ![2048, 512]⟩
abbrev S64x2048 : Shape := ⟨2, ![64, 2048]⟩
abbrev S_ : Shape := ⟨0, ![]⟩
abbrev S1x2048 : Shape := ⟨2, ![1, 2048]⟩
abbrev S1x8 : Shape := ⟨2, ![1, 8]⟩
abbrev S256x128 : Shape := ⟨2, ![256, 128]⟩
abbrev S256x16 : Shape := ⟨2, ![256, 16]⟩
abbrev S1x256x16 : Shape := ⟨3, ![1, 256, 16]⟩
abbrev S1 : Shape := ⟨1, ![1]⟩
abbrev S1x1x1 : Shape := ⟨3, ![1, 1, 1]⟩
abbrev S1x1 : Shape := ⟨2, ![1, 1]⟩
abbrev S1x256x2048 : Shape := ⟨3, ![1, 256, 2048]⟩
abbrev S256 : Shape := ⟨1, ![256]⟩

abbrev nBuf : Space → Nat
  | .hbm => 62
  | .vmem => 55
  | .smem => 0
  | _ => 0

abbrev bufTy : (tb : Table) → Fin (tcTables nBuf tb) → BufTy
  | .hbm, ⟨0, _⟩ => ⟨S2048, .i32⟩
  | .hbm, ⟨1, _⟩ => ⟨S2048, .i32⟩
  | .hbm, ⟨2, _⟩ => ⟨S2048x128, .f32⟩
  | .hbm, ⟨3, _⟩ => ⟨S8192x32, .f32⟩
  | .hbm, ⟨4, _⟩ => ⟨S8192x32, .f32⟩
  | .hbm, ⟨5, _⟩ => ⟨S8192, .f32⟩
  | .hbm, ⟨6, _⟩ => ⟨S8192x8192, .f32⟩
  | .hbm, ⟨7, _⟩ => ⟨S2048x1, .i32⟩
  | .hbm, ⟨8, _⟩ => ⟨S2048x1, .i32⟩
  | .hbm, ⟨9, _⟩ => ⟨S8192x1, .f32⟩
  | .hbm, ⟨10, _⟩ => ⟨S8192x32, .f32⟩
  | .hbm, ⟨11, _⟩ => ⟨S8192x64, .f32⟩
  | .hbm, ⟨12, _⟩ => ⟨S2048x64, .f32⟩
  | .hbm, ⟨13, _⟩ => ⟨S2048x32, .f32⟩
  | .hbm, ⟨14, _⟩ => ⟨S2048x8192, .f32⟩
  | .hbm, ⟨15, _⟩ => ⟨S2048x2048, .f32⟩
  | .hbm, ⟨16, _⟩ => ⟨S64x2048, .f32⟩
  | .hbm, ⟨17, _⟩ => ⟨S2048x128, .f32⟩
  | .hbm, ⟨18, _⟩ => ⟨S_, .f32⟩
  | .hbm, ⟨19, _⟩ => ⟨S2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S1x8, .f32⟩
  | .hbm, ⟨24, _⟩ => ⟨S1x1, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1, .f32⟩
  | .hbm, ⟨44, _⟩ => ⟨S1x2048, .f32⟩
  | .hbm, ⟨45, _⟩ => ⟨S1x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S2048x64, .f32⟩
  | .local _ .vmem, ⟨5, _⟩ => ⟨S2048x64, .f32⟩
  | .local _ .vmem, ⟨6, _⟩ => ⟨S2048x32, .f32⟩
  | .local _ .vmem, ⟨7, _⟩ => ⟨S2048x32, .f32⟩
  | .local _ .vmem, ⟨8, _⟩ => ⟨S256x64, .f32⟩
  | .local _ .vmem, ⟨9, _⟩ => ⟨S256x64, .f32⟩
  | .local _ .vmem, ⟨10, _⟩ => ⟨S256x32, .f32⟩
  | .local _ .vmem, ⟨11, _⟩ => ⟨S256x32, .f32⟩
  | .local _ .vmem, ⟨12, _⟩ => ⟨S256x64, .f32⟩
  | .local _ .vmem, ⟨13, _⟩ => ⟨S256x32, .f32⟩
  | .local _ .vmem, ⟨14, _⟩ => ⟨S256x1, .i32⟩
  | .local _ .vmem, ⟨15, _⟩ => ⟨S256x1, .i32⟩
  | .local _ .vmem, ⟨16, _⟩ => ⟨S1024x1024, .f32⟩
  | .local _ .vmem, ⟨17, _⟩ => ⟨S1024x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x512, .f32⟩
  | .local _ .vmem, ⟨22, _⟩ => ⟨S256x512, .f32⟩
  | .local _ .vmem, ⟨23, _⟩ => ⟨S2048x1, .i32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x64, .f32⟩
  | .local _ .vmem, ⟨28, _⟩ => ⟨S256x64, .f32⟩
  | .local _ .vmem, ⟨29, _⟩ => ⟨S64x2048, .f32⟩
  | .local _ .vmem, ⟨30, _⟩ => ⟨S256x32, .f32⟩
  | .local _ .vmem, ⟨31, _⟩ => ⟨S256x32, .f32⟩
  | .local _ .vmem, ⟨32, _⟩ => ⟨S256x2048, .f32⟩
  | .local _ .vmem, ⟨33, _⟩ => ⟨S256x2048, .f32⟩
  | .local _ .vmem, ⟨34, _⟩ => ⟨S256x128, .f32⟩
  | .local _ .vmem, ⟨35, _⟩ => ⟨S256x128, .f32⟩
  | .local _ .vmem, ⟨36, _⟩ => ⟨S2048x128, .f32⟩
  | .local _ .vmem, ⟨37, _⟩ => ⟨S1x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S1x8, .f32⟩
  | .local _ .vmem, ⟨43, _⟩ => ⟨S1x8, .f32⟩
  | .local _ .vmem, ⟨44, _⟩ => ⟨S256x2048, .f32⟩
  | .local _ .vmem, ⟨45, _⟩ => ⟨S256x2048, .f32⟩
  | .local _ .vmem, ⟨46, _⟩ => ⟨S1x1, .f32⟩
  | .local _ .vmem, ⟨47, _⟩ => ⟨S1x2048, .f32⟩
  | .local _ .vmem, ⟨48, _⟩ => ⟨S1x2048, .f32⟩
  | .local _ .vmem, ⟨49, _⟩ => ⟨S256x2048, .f32⟩
  | .local _ .vmem, ⟨50, _⟩ => ⟨S256x2048, .f32⟩
  | .local _ .vmem, ⟨51, _⟩ => ⟨S1x2048, .f32⟩
  | .local _ .vmem, ⟨52, _⟩ => ⟨S1x1, .f32⟩
  | .local _ .vmem, ⟨53, _⟩ => ⟨S1x1, .f32⟩
  | .local _ .vmem, ⟨54, _⟩ => ⟨S1x1, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_scratch0 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem6_0 : DmaSem sig := 33
abbrev cc3_sem7_0 : DmaSem sig := 34
abbrev cc3_sem7_1 : DmaSem sig := 35
abbrev cc3_sem8_0 : DmaSem sig := 36
abbrev cc3_sem8_1 : DmaSem sig := 37
abbrev cc3_sem9_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2048x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v598 : BitVec 1 := Scalar.cmpi .eq arg0 c7_i32
  let v599 : BitVec 32 := Scalar.extui v598
  let c0_i32_115 : BitVec 32 := 0#32
  let v600 : BitVec 1 := Scalar.cmpi .ne v599 c0_i32_115
  v600

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S2048x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x2048 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x8 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_8 : BitVec 32 := 0#32
  let v18 : BitVec 1 := Scalar.cmpi .ne v17 c0_i32_8
  v18

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![8], ![false]⟩

def k5_cond2 (i : grid5.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_10 : BitVec 32 := 0#32
  let v26 : BitVec 1 := Scalar.cmpi .ne v25 c0_i32_10
  v26

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  shapeCasts_S2048_S2048x1 : S2048.ShapeCasts S2048x1
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  concatenates_S8192x32_S8192x32_S8192x64_d1 : Shape.Concatenates [S8192x32, S8192x32] S8192x64 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x32_S256x32_0_0 : ∀ a, (![0, 0] : Fin 2 → Nat) a + S256x32.size a ≤ S256x32.size a
  h_S256x32 : 0 < S256x32.numel
  shapeCasts_S256x32_S256x32 : S256x32.ShapeCasts S256x32
  iota_S256x2048_d1_w32 : S256x2048.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  natLt_1_32 : 1 < 32
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x32_S2048x32_0_0 : ∀ a, (![0, 0] : Fin 2 → Nat) a + S2048x32.size a ≤ S2048x32.size a
  h_S2048x32 : 0 < S2048x32.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  iota_S256x1024_d1_w32 : S256x1024.Iotas .tc 32 [1]
  broadcasts_S256x1_S256x1024 : S256x1.Broadcasts S256x1024
  inb_S1024x1024_S1024x1024_0_0 : ∀ a, (![0, 0] : Fin 2 → Nat) a + S1024x1024.size a ≤ S1024x1024.size a
  h_S1024x1024 : 0 < S1024x1024.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  iota_S2048x512_d1_w32 : S2048x512.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S2048x64_S64x2048_1_0 : S2048x64.Transposes [1, 0] S64x2048
  reducesTo_S2048x128_S2048_d1 : S2048x128.ReducesTo [1] S2048
  h_S_ : 0 < S_.numel
  shapeCasts_S2048_S1x2048 : S2048.ShapeCasts S1x2048
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S256x64_S256x16_0_0 : ∀ a, (![0, 0] : Fin 2 → Nat) a + S256x16.size a ≤ S256x64.size a
  h_S256x16 : 0 < S256x16.numel
  shapeCasts_S256x16_S256x16 : S256x16.ShapeCasts S256x16
  inb_S256x64_S256x16_0_16 : ∀ a, (![0, 16] : Fin 2 → Nat) a + S256x16.size a ≤ S256x64.size a
  inb_S256x64_S256x1_0_32 : ∀ a, (![0, 32] : Fin 2 → Nat) a + S256x1.size a ≤ S256x64.size a
  inb_S256x32_S256x16_0_0 : ∀ a, (![0, 0] : Fin 2 → Nat) a + S256x16.size a ≤ S256x32.size a
  inb_S256x32_S256x16_0_16 : ∀ a, (![0, 16] : Fin 2 → Nat) a + S256x16.size a ≤ S256x32.size a
  shapeCasts_S256x16_S1x256x16 : S256x16.ShapeCasts S1x256x16
  reduces_S1x256x16_S1 : S1x256x16.Reduces [1, 2] S1
  shapeCasts_S1_S1x1x1 : S1.ShapeCasts S1x1x1
  inpos_S1x1x1_p0_0_0 : ∀ a, (![0, 0, 0] : Fin 3 → Nat) a < S1x1x1.size a
  broadcasts_S256x1_S256x16 : S256x1.Broadcasts S256x16
  iota_S256x2048_d0_w32 : S256x2048.Iotas .tc 32 [0]
  slices_S256x16_o0_0_S256x1 : S256x16.Slices ![0, 0] S256x1
  inb_S64x2048_S1x2048_0_0 : ∀ a, (![0, 0] : Fin 2 → Nat) a + S1x2048.size a ≤ S64x2048.size a
  h_S1x2048 : 0 < S1x2048.numel
  shapeCasts_S1x2048_S1x2048 : S1x2048.ShapeCasts S1x2048
  inb_S64x2048_S1x2048_16_0 : ∀ a, (![16, 0] : Fin 2 → Nat) a + S1x2048.size a ≤ S64x2048.size a
  broadcasts_S1x2048_S256x2048 : S1x2048.Broadcasts S256x2048
  shapeCasts_S256x2048_S1x256x2048 : S256x2048.ShapeCasts S1x256x2048
  reduces_S1x256x2048_S1 : S1x256x2048.Reduces [1, 2] S1
  slices_S256x16_o0_1_S256x1 : S256x16.Slices ![0, 1] S256x1
  inb_S64x2048_S1x2048_1_0 : ∀ a, (![1, 0] : Fin 2 → Nat) a + S1x2048.size a ≤ S64x2048.size a
  inb_S64x2048_S1x2048_17_0 : ∀ a, (![17, 0] : Fin 2 → Nat) a + S1x2048.size a ≤ S64x2048.size a
  slices_S256x16_o0_2_S256x1 : S256x16.Slices ![0, 2] S256x1
  inb_S64x2048_S1x2048_2_0 : ∀ a, (![2, 0] : Fin 2 → Nat) a + S1x2048.size a ≤ S64x2048.size a
  inb_S64x2048_S1x2048_18_0 : ∀ a, (![18, 0] : Fin 2 → Nat) a + S1x2048.size a ≤ S64x2048.size a
  slices_S256x16_o0_3_S256x1 : S256x16.Slices ![0, 3] S256x1
  inb_S64x2048_S1x2048_3_0 : ∀ a, (![3, 0] : Fin 2 → Nat) a + S1x2048.size a ≤ S64x2048.size a
  inb_S64x2048_S1x2048_19_0 : ∀ a, (![19, 0] : Fin 2 → Nat) a + S1x2048.size a ≤ S64x2048.size a
  slices_S256x16_o0_4_S256x1 : S256x16.Slices ![0, 4] S256x1
  inb_S64x2048_S1x2048_4_0 : ∀ a, (![4, 0] : Fin 2 → Nat) a + S1x2048.size a ≤ S64x2048.size a
  inb_S64x2048_S1x2048_20_0 : ∀ a, (![20, 0] : Fin 2 → Nat) a + S1x2048.size a ≤ S64x2048.size a
  slices_S256x16_o0_5_S256x1 : S256x16.Slices ![0, 5] S256x1
  inb_S64x2048_S1x2048_5_0 : ∀ a, (![5, 0] : Fin 2 → Nat) a + S1x2048.size a ≤ S64x2048.size a
  inb_S64x2048_S1x2048_21_0 : ∀ a, (![21, 0] : Fin 2 → Nat) a + S1x2048.size a ≤ S64x2048.size a
  slices_S256x16_o0_6_S256x1 : S256x16.Slices ![0, 6] S256x1
  inb_S64x2048_S1x2048_6_0 : ∀ a, (![6, 0] : Fin 2 → Nat) a + S1x2048.size a ≤ S64x2048.size a
  inb_S64x2048_S1x2048_22_0 : ∀ a, (![22, 0] : Fin 2 → Nat) a + S1x2048.size a ≤ S64x2048.size a
  slices_S256x16_o0_7_S256x1 : S256x16.Slices ![0, 7] S256x1
  inb_S64x2048_S1x2048_7_0 : ∀ a, (![7, 0] : Fin 2 → Nat) a + S1x2048.size a ≤ S64x2048.size a
  inb_S64x2048_S1x2048_23_0 : ∀ a, (![23, 0] : Fin 2 → Nat) a + S1x2048.size a ≤ S64x2048.size a
  slices_S256x16_o0_8_S256x1 : S256x16.Slices ![0, 8] S256x1
  inb_S64x2048_S1x2048_8_0 : ∀ a, (![8, 0] : Fin 2 → Nat) a + S1x2048.size a ≤ S64x2048.size a
  inb_S64x2048_S1x2048_24_0 : ∀ a, (![24, 0] : Fin 2 → Nat) a + S1x2048.size a ≤ S64x2048.size a
  slices_S256x16_o0_9_S256x1 : S256x16.Slices ![0, 9] S256x1
  inb_S64x2048_S1x2048_9_0 : ∀ a, (![9, 0] : Fin 2 → Nat) a + S1x2048.size a ≤ S64x2048.size a
  inb_S64x2048_S1x2048_25_0 : ∀ a, (![25, 0] : Fin 2 → Nat) a + S1x2048.size a ≤ S64x2048.size a
  slices_S256x16_o0_10_S256x1 : S256x16.Slices ![0, 10] S256x1
  inb_S64x2048_S1x2048_10_0 : ∀ a, (![10, 0] : Fin 2 → Nat) a + S1x2048.size a ≤ S64x2048.size a
  inb_S64x2048_S1x2048_26_0 : ∀ a, (![26, 0] : Fin 2 → Nat) a + S1x2048.size a ≤ S64x2048.size a
  slices_S256x16_o0_11_S256x1 : S256x16.Slices ![0, 11] S256x1
  inb_S64x2048_S1x2048_11_0 : ∀ a, (![11, 0] : Fin 2 → Nat) a + S1x2048.size a ≤ S64x2048.size a
  inb_S64x2048_S1x2048_27_0 : ∀ a, (![27, 0] : Fin 2 → Nat) a + S1x2048.size a ≤ S64x2048.size a
  slices_S256x16_o0_12_S256x1 : S256x16.Slices ![0, 12] S256x1
  inb_S64x2048_S1x2048_12_0 : ∀ a, (![12, 0] : Fin 2 → Nat) a + S1x2048.size a ≤ S64x2048.size a
  inb_S64x2048_S1x2048_28_0 : ∀ a, (![28, 0] : Fin 2 → Nat) a + S1x2048.size a ≤ S64x2048.size a
  slices_S256x16_o0_13_S256x1 : S256x16.Slices ![0, 13] S256x1
  inb_S64x2048_S1x2048_13_0 : ∀ a, (![13, 0] : Fin 2 → Nat) a + S1x2048.size a ≤ S64x2048.size a
  inb_S64x2048_S1x2048_29_0 : ∀ a, (![29, 0] : Fin 2 → Nat) a + S1x2048.size a ≤ S64x2048.size a
  slices_S256x16_o0_14_S256x1 : S256x16.Slices ![0, 14] S256x1
  inb_S64x2048_S1x2048_14_0 : ∀ a, (![14, 0] : Fin 2 → Nat) a + S1x2048.size a ≤ S64x2048.size a
  inb_S64x2048_S1x2048_30_0 : ∀ a, (![30, 0] : Fin 2 → Nat) a + S1x2048.size a ≤ S64x2048.size a
  slices_S256x16_o0_15_S256x1 : S256x16.Slices ![0, 15] S256x1
  inb_S64x2048_S1x2048_15_0 : ∀ a, (![15, 0] : Fin 2 → Nat) a + S1x2048.size a ≤ S64x2048.size a
  inb_S64x2048_S1x2048_31_0 : ∀ a, (![31, 0] : Fin 2 → Nat) a + S1x2048.size a ≤ S64x2048.size a
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  reduces_S256x128_S256 : S256x128.Reduces [1] S256
  shapeCasts_S256_S256x1 : S256.ShapeCasts S256x1
  inb_S1x2048_S1x2048_0_0 : ∀ a, (![0, 0] : Fin 2 → Nat) a + S1x2048.size a ≤ S1x2048.size a
  concatenates_S1x1_S1x1_S1x1_S1x1_S1x1_S1x1_S1x1_S1x1_S1x8_d1 : Shape.Concatenates [S1x1, S1x1, S1x1, S1x1, S1x1, S1x1, S1x1, S1x1] S1x8 1
  slices_S1x8_S1x1_0_0 : S1x8.Slices ![0, 0] S1x1
  shapeCasts_S1x1_S_ : S1x1.ShapeCasts S_
  slices_S1x8_S1x1_0_1 : S1x8.Slices ![0, 1] S1x1
  slices_S1x8_S1x1_0_2 : S1x8.Slices ![0, 2] S1x1
  slices_S1x8_S1x1_0_3 : S1x8.Slices ![0, 3] S1x1
  slices_S1x8_S1x1_0_4 : S1x8.Slices ![0, 4] S1x1
  slices_S1x8_S1x1_0_5 : S1x8.Slices ![0, 5] S1x1
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S256x2048_S2048 : S256x2048.Reduces [0] S2048
  shapeCasts_S1x1_S1x1 : S1x1.ShapeCasts S1x1
  dot_S256x2048_S2048x64_S256x64_1_0_0_1_n_n_wf : DotDims.WF S256x2048 S2048x64 S256x64 [1] [0] [0] [1] [] []
  dot_S256x2048_S2048x32_S256x32_1_0_0_1_n_n_wf : DotDims.WF S256x2048 S2048x32 S256x32 [1] [0] [0] [1] [] []
  dot_S256x1024_S1024x1024_S256x1024_1_0_0_1_n_n_wf : DotDims.WF S256x1024 S1024x1024 S256x1024 [1] [0] [0] [1] [] []
  dot_S256x512_S2048x512_S256x2048_1_1_0_0_n_n_wf : DotDims.WF S256x512 S2048x512 S256x2048 [1] [1] [0] [0] [] []
  dot_S256x128_S2048x128_S256x2048_1_1_0_0_n_n_wf : DotDims.WF S256x128 S2048x128 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S2048x1.size a
  hwx0_0 : ∀ i : grid0.Coords, EltTy.bits .i32 = 32 ∨ (Rect.block (s := S2048x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S8192x32.size a
  hwx0_3 : ∀ i : grid0.Coords, EltTy.bits .f32 = 32 ∨ (Rect.block (s := S8192x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S2048x64.size a
  hwx0_4 : ∀ i : grid0.Coords, EltTy.bits .f32 = 32 ∨ (Rect.block (s := S2048x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S2048x32.size a
  hwx0_5 : ∀ i : grid0.Coords, EltTy.bits .f32 = 32 ∨ (Rect.block (s := S2048x32) S256x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1.size a ≤ S2048x1.size a
  hwx1_0 : ∀ i : grid1.Coords, EltTy.bits .i32 = 32 ∨ (Rect.block (s := S2048x1) S256x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S2048x8192.size a
  hwx1_2 : ∀ i : grid1.Coords, EltTy.bits .f32 = 32 ∨ (Rect.block (s := S2048x8192) S256x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S2048x8192.size a
  hwx2_0 : ∀ i : grid2.Coords, EltTy.bits .f32 = 32 ∨ (Rect.block (s := S2048x8192) S256x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S2048x1.size a
  hwx2_1 : ∀ i : grid2.Coords, EltTy.bits .i32 = 32 ∨ (Rect.block (s := S2048x1) S2048x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S2048x2048.size a
  hwx2_2 : ∀ i : grid2.Coords, EltTy.bits .f32 = 32 ∨ (Rect.block (s := S2048x2048) S256x2048.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S2048x64.size a
  hwx3_0 : ∀ i : grid3.Coords, EltTy.bits .f32 = 32 ∨ (Rect.block (s := S2048x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2048.size a ≤ S64x2048.size a
  hwx3_1 : ∀ i : grid3.Coords, EltTy.bits .f32 = 32 ∨ (Rect.block (s := S64x2048) S64x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x32.size a ≤ S2048x32.size a
  hwx3_2 : ∀ i : grid3.Coords, EltTy.bits .f32 = 32 ∨ (Rect.block (s := S2048x32) S256x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .f32 = 32 ∨ (Rect.block (s := S2048x2048) S256x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S2048x128.size a
  hwx3_4 : ∀ i : grid3.Coords, EltTy.bits .f32 = 32 ∨ (Rect.block (s := S2048x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x128.size a ≤ S2048x128.size a
  hwx3_5 : ∀ i : grid3.Coords, EltTy.bits .f32 = 32 ∨ (Rect.block (s := S2048x128) S2048x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2048.size a ≤ S1x2048.size a
  hwx3_6 : ∀ i : grid3.Coords, EltTy.bits .f32 = 32 ∨ (Rect.block (s := S1x2048) S1x2048.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x2048.size a ≤ S2048x2048.size a
  hwx3_7 : ∀ i : grid3.Coords, EltTy.bits .f32 = 32 ∨ (Rect.block (s := S2048x2048) S256x2048.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x2048.size a ≤ S2048x2048.size a
  hwx3_8 : ∀ i : grid3.Coords, EltTy.bits .f32 = 32 ∨ (Rect.block (s := S2048x2048) S256x2048.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x8.size a ≤ S1x8.size a
  hwx3_9 : ∀ i : grid3.Coords, EltTy.bits .f32 = 32 ∨ (Rect.block (s := S1x8) S1x8.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x2048.size a ≤ S2048x2048.size a
  hwx4_0 : ∀ i : grid4.Coords, EltTy.bits .f32 = 32 ∨ (Rect.block (s := S2048x2048) S256x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S2048x2048.size a
  hwx5_0 : ∀ i : grid5.Coords, EltTy.bits .f32 = 32 ∨ (Rect.block (s := S2048x2048) S256x2048.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x2048.size a
  hwx5_1 : ∀ i : grid5.Coords, EltTy.bits .f32 = 32 ∨ (Rect.block (s := S1x2048) S1x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)

variable [Facts₀]

def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x2048_S2048x32_S256x32_1_0_0_1_n_n : DotDims S256x2048 S2048x32 S256x32 where
  lhsContracting := [1]
  rhsContracting := [0]
  lhsNonContracting := [0]
  rhsNonContracting := [1]
  lhsBatch := []
  rhsBatch := []
  wf := dot_S256x2048_S2048x32_S256x32_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S256x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v6) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S256x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v5_0) S256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S64x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5_1) S256x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg2) S256x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg2) S2048x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1x2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12_0) S256x2048.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v12_1) S256x2048.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v12_2) S1x8.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

abbrev win4_0 : Pipeline.Window sig grid4 :=
  Pipeline.Window.ofSpec (Memref.whole main_v12_0) S256x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x2048.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v12_1) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S1x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x1.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S2048 : Shape := ⟨1, ![2048]⟩
abbrev S2048x128 : Shape := ⟨2, ![2048, 128]⟩
abbrev S8192x32 : Shape := ⟨2, ![8192, 32]⟩
abbrev S8192 : Shape := ⟨1, ![8192]⟩
abbrev S8192x8192 : Shape := ⟨2, ![8192, 8192]⟩
abbrev S_ : Shape := ⟨0, ![]⟩
abbrev S2048x1 : Shape := ⟨2, ![2048, 1]⟩
abbrev S2048x32 : Shape := ⟨2, ![2048, 32]⟩
abbrev S2048x16 : Shape := ⟨2, ![2048, 16]⟩
abbrev S2048x2 : Shape := ⟨2, ![2048, 2]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S2048x2048 : Shape := ⟨2, ![2048, 2048]⟩
abbrev S1x2048x2048 : Shape := ⟨3, ![1, 2048, 2048]⟩
abbrev S2048x8192 : Shape := ⟨2, ![2048, 8192]⟩
abbrev S128x2048 : Shape := ⟨2, ![128, 2048]⟩
abbrev S1x2048 : Shape := ⟨2, ![1, 2048]⟩

abbrev nBuf : Space → Nat
  | .hbm => 238
  | .vmem => 0
  | .smem => 0
  | _ => 0

abbrev hbmTy0_0 (i : Nat) : BufTy := match i % 128 with
  | 0 => ⟨S2048, .i32⟩
  | 1 => ⟨S2048, .i32⟩
  | 2 => ⟨S2048x128, .f32⟩
  | 3 => ⟨S8192x32, .f32⟩
  | 4 => ⟨S8192x32, .f32⟩
  | 5 => ⟨S8192, .f32⟩
  | 6 => ⟨S8192x8192, .f32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S2048x32, .f32⟩
  | 16 => ⟨S2048x16, .f32⟩
  | 17 => ⟨S2048x16, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S_, .i32⟩
  | 27 => ⟨S2048x1, .i32⟩
  | 28 => ⟨S2048x2, .i32⟩
  | 29 => ⟨S2048x16, .f32⟩
  | 30 => ⟨S_, .f32⟩
  | 31 => ⟨S2048x16, .f32⟩
  | 32 => ⟨S2048x16, .f32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S_, .i32⟩
  | 42 => ⟨S2048x1, .i32⟩
  | 43 => ⟨S2048x2, .i32⟩
  | 44 => ⟨S2048x16, .f32⟩
  | 45 => ⟨S_, .f32⟩
  | 46 => ⟨S2048x16, .f32⟩
  | 47 => ⟨S2048x16, .f32⟩
  | 48 => ⟨S2048x16, .f32⟩
  | 49 => ⟨S_, .f32⟩
  | 50 => ⟨S2048x16, .f32⟩
  | 51 => ⟨S2048x16, .f32⟩
  | 52 => ⟨S_, .f32⟩
  | 53 => ⟨S_, .f32⟩
  | 54 => ⟨S2048x16, .f32⟩
  | 55 => ⟨S_, .f32⟩
  | 56 => ⟨S2048x16, .f32⟩
  | 57 => ⟨S2048x16, .f32⟩
  | 58 => ⟨S_, .f32⟩
  | 59 => ⟨S_, .f32⟩
  | 60 => ⟨S_, .f32⟩
  | 61 => ⟨S2048x16, .f32⟩
  | 62 => ⟨S16x2048, .f32⟩
  | 63 => ⟨S16x2048, .f32⟩
  | 64 => ⟨S16x2048x1, .f32⟩
  | 65 => ⟨S16x1x2048, .f32⟩
  | 66 => ⟨S16x2048x2048, .f32⟩
  | 67 => ⟨S16x2048x2048, .f32⟩
  | 68 => ⟨S16x2048x2048, .f32⟩
  | 69 => ⟨S16x2048x1, .f32⟩
  | 70 => ⟨S16x1x2048, .f32⟩
  | 71 => ⟨S16x2048x2048, .f32⟩
  | 72 => ⟨S16x2048x2048, .f32⟩
  | 73 => ⟨S16x2048x2048, .f32⟩
  | 74 => ⟨S2048x2048, .i32⟩
  | 75 => ⟨S2048x2048, .i32⟩
  | 76 => ⟨S_, .i32⟩
  | 77 => ⟨S2048x2048, .i32⟩
  | 78 => ⟨S2048x2048, .i32⟩
  | 79 => ⟨S2048x2048, .i1⟩
  | 80 => ⟨S2048x2048, .f32⟩
  | 81 => ⟨S_, .f32⟩
  | 82 => ⟨S2048x2048, .f32⟩
  | 83 => ⟨S2048x2048, .f32⟩
  | 84 => ⟨S16x2048x2048, .f32⟩
  | 85 => ⟨S1x2048x2048, .f32⟩
  | 86 => ⟨S16x2048x2048, .f32⟩
  | 87 => ⟨S16x2048x2048, .f32⟩
  | 88 => ⟨S_, .f32⟩
  | 89 => ⟨S16x2048x2048, .f32⟩
  | 90 => ⟨S16x2048x2048, .f32⟩
  | 91 => ⟨S16x2048, .f32⟩
  | 92 => ⟨S_, .f32⟩
  | 93 => ⟨S16x2048, .f32⟩
  | 94 => ⟨S16x2048, .f32⟩
  | 95 => ⟨S16x2048x1, .f32⟩
  | 96 => ⟨S16x2048x2048, .f32⟩
  | 97 => ⟨S16x2048x2048, .f32⟩
  | 98 => ⟨S_, .f32⟩
  | 99 => ⟨S_, .f32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S_, .i32⟩
  | 109 => ⟨S2048x1, .i32⟩
  | 110 => ⟨S2048x2, .i32⟩
  | 111 => ⟨S2048x16, .f32⟩
  | 112 => ⟨S_, .i32⟩
  | 113 => ⟨S2048, .i32⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S_, .i32⟩
  | 121 => ⟨S2048x1, .i32⟩
  | 122 => ⟨S2048x2, .i32⟩
  | 123 => ⟨S2048x16, .f32⟩
  | 124 => ⟨S2048x16, .f32⟩
  | 125 => ⟨S2048x16, .f32⟩
  | 126 => ⟨S_, .f32⟩
  | 127 => ⟨S2048x16, .f32⟩
  | _ => ⟨S2048, .i32⟩

abbrev hbmTy0_1 (i : Nat) : BufTy := match i % 128 with
  | 0 => ⟨S2048x16, .f32⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S2048x1, .i32⟩
  | 9 => ⟨S2048, .f32⟩
  | 10 => ⟨S2048x1, .f32⟩
  | 11 => ⟨S2048x16, .f32⟩
  | 12 => ⟨S2048x16, .f32⟩
  | 13 => ⟨S2048x16, .f32⟩
  | 14 => ⟨S2048x16, .f32⟩
  | 15 => ⟨S_, .f32⟩
  | 16 => ⟨S2048x16, .f32⟩
  | 17 => ⟨S2048x16, .f32⟩
  | 18 => ⟨S_, .f32⟩
  | 19 => ⟨S_, .f32⟩
  | 20 => ⟨S16x2048x1, .f32⟩
  | 21 => ⟨S16x1x2048, .f32⟩
  | 22 => ⟨S16x2048x2048, .f32⟩
  | 23 => ⟨S16x2048x2048, .f32⟩
  | 24 => ⟨S16x2048x2048, .f32⟩
  | 25 => ⟨S16x2048x2048, .f32⟩
  | 26 => ⟨S_, .f32⟩
  | 27 => ⟨S2048x2048, .f32⟩
  | 28 => ⟨S_, .i32⟩
  | 29 => ⟨S2048, .i32⟩
  | 30 => ⟨S2048, .i1⟩
  | 31 => ⟨S_, .i32⟩
  | 32 => ⟨S2048, .i32⟩
  | 33 => ⟨S2048, .i32⟩
  | 34 => ⟨S2048, .i32⟩
  | 35 => ⟨S2048x1, .i32⟩
  | 36 => ⟨S2048x8192, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S2048x2048, .f32⟩
  | 46 => ⟨S2048x2048, .f32⟩
  | 47 => ⟨S2048x2048, .f32⟩
  | 48 => ⟨S_, .f32⟩
  | 49 => ⟨S_, .f32⟩
  | 50 => ⟨S_, .f32⟩
  | 51 => ⟨S_, .f32⟩
  | 52 => ⟨S_, .f32⟩
  | 53 => ⟨S2048x2048, .f32⟩
  | 54 => ⟨S2048x2048, .f32⟩
  | 55 => ⟨S_, .f32⟩
  | 56 => ⟨S2048, .f32⟩
  | 57 => ⟨S2048x128, .f32⟩
  | 58 => ⟨S_, .f32⟩
  | 59 => ⟨S2048, .f32⟩
  | 60 => ⟨S2048x1, .f32⟩
  | 61 => ⟨S128x2048, .f32⟩
  | 62 => ⟨S2048x2048, .f32⟩
  | 63 => ⟨S_, .f32⟩
  | 64 => ⟨S2048x2048, .f32⟩
  | 65 => ⟨S2048x2048, .f32⟩
  | 66 => ⟨S2048x2048, .f32⟩
  | 67 => ⟨S2048x2048, .f32⟩
  | 68 => ⟨S1x2048, .f32⟩
  | 69 => ⟨S2048x2048, .f32⟩
  | 70 => ⟨S2048x2048, .f32⟩
  | 71 => ⟨S_, .f32⟩
  | 72 => ⟨S2048x2048, .f32⟩
  | 73 => ⟨S2048x2048, .f32⟩
  | 74 => ⟨S2048x2048, .f32⟩
  | 75 => ⟨S_, .f32⟩
  | 76 => ⟨S_, .f32⟩
  | 77 => ⟨S_, .f32⟩
  | 78 => ⟨S_, .f32⟩
  | 79 => ⟨S_, .f32⟩
  | 80 => ⟨S2048x2048, .f32⟩
  | 81 => ⟨S2048x2048, .f32⟩
  | 82 => ⟨S1x2048, .f32⟩
  | 83 => ⟨S2048x2048, .f32⟩
  | 84 => ⟨S2048x2048, .f32⟩
  | 85 => ⟨S2048x2048, .f32⟩
  | 86 => ⟨S_, .f32⟩
  | 87 => ⟨S_, .f32⟩
  | 88 => ⟨S_, .f32⟩
  | 89 => ⟨S2048x16, .f32⟩
  | 90 => ⟨S2048x16, .f32⟩
  | 91 => ⟨S_, .f32⟩
  | 92 => ⟨S2048x16, .f32⟩
  | 93 => ⟨S2048x16, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call2_cst : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_c_21 : Ref sig .tc := ⟨.hbm, 129, rfl⟩
abbrev main_v93 : Ref sig .tc := ⟨.hbm, 130, rfl⟩
abbrev main_v94 : Ref sig .tc := ⟨.hbm, 131, rfl⟩
abbrev main_c_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_25 : Ref sig .tc := ⟨.hbm, 154, rfl⟩
abbrev main_v114 : Ref sig .tc := ⟨.hbm, 155, rfl⟩
abbrev main_c_26 : Ref sig .tc := ⟨.hbm, 156, rfl⟩
abbrev main_v115 : Ref sig .tc := ⟨.hbm, 157, rfl⟩
abbrev main_v116 : Ref sig .tc := ⟨.hbm, 158, rfl⟩
abbrev main_c_27 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_28 : Ref sig .tc := ⟨.hbm, 165, rfl⟩
abbrev main_v122 : Ref sig .tc := ⟨.hbm, 166, rfl⟩
abbrev main_v123 : Ref sig .tc := ⟨.hbm, 167, rfl⟩
abbrev main_c_29 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_call3_v0 : Ref sig .tc := ⟨.hbm, 175, rfl⟩
abbrev main_call3_cst : Ref sig .tc := ⟨.hbm, 176, rfl⟩
abbrev main_call3_v1 : Ref sig .tc := ⟨.hbm, 177, rfl⟩
abbrev main_v130 : Ref sig .tc := ⟨.hbm, 178, rfl⟩
abbrev main_cst_30 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_31 : Ref sig .tc := ⟨.hbm, 183, rfl⟩
abbrev main_v134 : Ref sig .tc := ⟨.hbm, 184, rfl⟩
abbrev main_v135 : Ref sig .tc := ⟨.hbm, 185, rfl⟩
abbrev main_cst_32 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_33 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_34 : Ref sig .tc := ⟨.hbm, 199, rfl⟩
abbrev main_v147 : Ref sig .tc := ⟨.hbm, 200, rfl⟩
abbrev main_v148 : Ref sig .tc := ⟨.hbm, 201, rfl⟩
abbrev main_call4_v0 : Ref sig .tc := ⟨.hbm, 202, rfl⟩
abbrev main_call4_cst : Ref sig .tc := ⟨.hbm, 203, rfl⟩
abbrev main_call4_v1 : Ref sig .tc := ⟨.hbm, 204, rfl⟩
abbrev main_v149 : Ref sig .tc := ⟨.hbm, 205, rfl⟩
abbrev main_cst_35 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_call5_v0 : Ref sig .tc := ⟨.hbm, 213, rfl⟩
abbrev main_call5_cst : Ref sig .tc := ⟨.hbm, 214, rfl⟩
abbrev main_call5_v1 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_36 : Ref sig .tc := ⟨.hbm, 219, rfl⟩
abbrev main_v159 : Ref sig .tc := ⟨.hbm, 220, rfl⟩
abbrev main_v160 : Ref sig .tc := ⟨.hbm, 221, rfl⟩
abbrev main_cst_37 : Ref sig .tc := ⟨.hbm, 222, rfl⟩
abbrev main_v161 : Ref sig .tc := ⟨.hbm, 223, rfl⟩
abbrev main_cst_38 : Ref sig .tc := ⟨.hbm, 224, rfl⟩
abbrev main_v162 : Ref sig .tc := ⟨.hbm, 225, rfl⟩
abbrev main_cst_39 : Ref sig .tc := ⟨.hbm, 226, rfl⟩
abbrev main_v163 : Ref sig .tc := ⟨.hbm, 227, rfl⟩
abbrev main_v164 : Ref sig .tc := ⟨.hbm, 228, rfl⟩
abbrev main_cst_40 : Ref sig .tc := ⟨.hbm, 229, rfl⟩
abbrev main_v165 : Ref sig .tc := ⟨.hbm, 230, rfl⟩
abbrev main_v166 : Ref sig .tc := ⟨.hbm, 231, rfl⟩
abbrev main_cst_41 : Ref sig .tc := ⟨.hbm, 232, rfl⟩
abbrev main_v167 : Ref sig .tc := ⟨.hbm, 233, rfl⟩
abbrev main_v168 : Ref sig .tc := ⟨.hbm, 234, rfl⟩
abbrev main_cst_42 : Ref sig .tc := ⟨.hbm, 235, rfl⟩
abbrev main_v169 : Ref sig .tc := ⟨.hbm, 236, rfl⟩
abbrev main_v170 : Ref sig .tc := ⟨.hbm, 237, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  slices_S2048x32_S2048x16_0_0 : S2048x32.Slices ![0, 0] S2048x16
  slices_S2048x32_S2048x16_0_16 : S2048x32.Slices ![0, 16] S2048x16
  bcast_S_S2048x1 : S_.BroadcastsInDim S2048x1 (![] : Fin 0 → Fin S2048x1.rank)
  concatenates_S2048x1_S2048x1_S2048x2_d1 : Shape.Concatenates [S2048x1, S2048x1] S2048x2 1
  bcast_S_S2048x16 : S_.BroadcastsInDim S2048x16 (![] : Fin 0 → Fin S2048x16.rank)
  reducesTo_S2048x16_S_d0_1 : S2048x16.ReducesTo [0, 1] S_
  h_S_ : 0 < S_.numel
  transposes_S2048x16_S16x2048_1_0 : S2048x16.Transposes [1, 0] S16x2048
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S_S16x2048x2048 : S_.BroadcastsInDim S16x2048x2048 (![] : Fin 0 → Fin S16x2048x2048.rank)
  bcast_S_S16x2048 : S_.BroadcastsInDim S16x2048 (![] : Fin 0 → Fin S16x2048.rank)
  reducesTo_S16x2048x2048_S_d0_1_2 : S16x2048x2048.ReducesTo [0, 1, 2] S_
  bcast_S2048x1_S2048x16_0_1 : S2048x1.BroadcastsInDim S2048x16 (![0, 1] : Fin 2 → Fin S2048x16.rank)
  reducesTo_S16x2048x2048_S2048x2048_d0 : S16x2048x2048.ReducesTo [0] S2048x2048
  reducesTo_S2048x2048_S_d0_1 : S2048x2048.ReducesTo [0, 1] S_
  reducesTo_S2048x2048_S2048_d0 : S2048x2048.ReducesTo [0] S2048
  reducesTo_S2048x128_S2048_d1 : S2048x128.ReducesTo [1] S2048
  transposes_S2048x128_S128x2048_1_0 : S2048x128.Transposes [1, 0] S128x2048
  bcast_S2048x1_S2048x2048_0_1 : S2048x1.BroadcastsInDim S2048x2048 (![0, 1] : Fin 2 → Fin S2048x2048.rank)
  transposes_S2048x1_S1x2048_1_0 : S2048x1.Transposes [1, 0] S1x2048
  bcast_S1x2048_S2048x2048_0_1 : S1x2048.BroadcastsInDim S2048x2048 (![0, 1] : Fin 2 → Fin S2048x2048.rank)
  bcast_S2048_S1x2048_1 : S2048.BroadcastsInDim S1x2048 (![1] : Fin 1 → Fin S1x2048.rank)
  gather_S8192x32_S2048x1_S2048x32_1_0_n_n_0_1_132_wf : GatherDims.WF S8192x32 S2048x1 S2048x32 [1] [0] [] [0] [] 1 ![1, 32]
  gather_S8192x32_S2048x2_S2048x16_1_0_n_n_01_1_116_wf : GatherDims.WF S8192x32 S2048x2 S2048x16 [1] [0] [] [0, 1] [] 1 ![1, 16]
  gather_S8192_S2048x1_S2048_n_0_n_n_0_1_1_wf : GatherDims.WF S8192 S2048x1 S2048 [] [0] [] [0] [] 1 ![1]
  gather_S8192x8192_S2048x1_S2048x8192_1_0_n_n_0_1_18192_wf : GatherDims.WF S8192x8192 S2048x1 S2048x8192 [1] [0] [] [0] [] 1 ![1, 8192]
  gather_S2048x8192_S2048x1_S2048x2048_0_1_n_n_1_1_20481_wf : GatherDims.WF S2048x8192 S2048x1 S2048x2048 [0] [1] [] [1] [] 1 ![2048, 1]
  dot_S2048x128_S128x2048_S2048x2048_1_0_0_1_n_n_wf : DotDims.WF S2048x128 S128x2048 S2048x2048 [1] [0] [0] [1] [] []

variable [Facts₀]

def gather_S8192x32_S2048x1_S2048x32_1_0_n_n_0_1_132 : GatherDims S8192x32 S2048x1 S2048x32 where
  offsetDims := [1]
  collapsedSliceDims := [0]
  operandBatchingDims := []
  startIndicesBatchingDims := []
  startIndexMap := [0]
  indexVectorDim := 1
  sliceSizes := ![1, 32]
  wf := gather_S8192x32_S2048x1_S2048x32_1_0_n_n_0_1_132_wf
def gather_S8192x32_S2048x2_S2048x16_1_0_n_n_01_1_116 : GatherDims S8192x32 S2048x2 S2048x16 where
  offsetDims := [1]
  collapsedSliceDims := [0]
  operandBatchingDims := []
  startIndicesBatchingDims := []
  startIndexMap := [0, 1]
  indexVectorDim := 1
  sliceSizes := ![1, 16]
  wf := gather_S8192x32_S2048x2_S2048x16_1_0_n_n_01_1_116_wf
def gather_S8192_S2048x1_S2048_n_0_n_n_0_1_1 : GatherDims S8192 S2048x1 S2048 where
  offsetDims := []
  collapsedSliceDims := [0]
  operandBatchingDims := []
  startIndicesBatchingDims := []
  startIndexMap := [0]
  indexVectorDim := 1
  sliceSizes := ![1]
  wf := gather_S8192_S2048x1_S2048_n_0_n_n_0_1_1_wf
def gather_S8192x8192_S2048x1_S2048x8192_1_0_n_n_0_1_18192 : GatherDims S8192x8192 S2048x1 S2048x8192 where
  offsetDims := [1]
  collapsedSliceDims := [0]
  operandBatchingDims := []
  startIndicesBatchingDims := []
  startIndexMap := [0]
  indexVectorDim := 1
  sliceSizes := ![1, 8192]
  wf := gather_S8192x8192_S2048x1_S2048x8192_1_0_n_n_0_1_18192_wf
def gather_S2048x8192_S2048x1_S2048x2048_0_1_n_n_1_1_20481 : GatherDims S2048x8192 S2048x1 S2048x2048 where
  offsetDims := [0]
  collapsedSliceDims := [1]
  operandBatchingDims := []
  startIndicesBatchingDims := []
  startIndexMap := [1]
  indexVectorDim := 1
  sliceSizes := ![2048, 1]
  wf := gather_S2048x8192_S2048x1_S2048x2048_0_1_n_n_1_1_20481_wf
def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

class Facts : Prop extends Facts₀ where

variable [Facts]
-- ==== Proof.RefImports.lean ====
import proofs.«418439_j46445776339038_1_alg».proof.Proof.Gen.ReferenceIdeal.Run
import proofs.«418439_j46445776339038_1_alg».proof.Proof.Gen.ReferenceIdeal.Read
-- ==== Proof.Whole.lean ====
import Idealize.ShloMosaic.Lib.Pipeline.FrameBody
import Idealize.ShloMosaic.Lib.Pipeline.Value

namespace Cert.Hand

open Idealize.ShloMosaic Idealize.SL.Sem

variable {F : FTy → Type} [FloatOps F] {sig : RefSig} {κ : Kind} {sp : Space} {S : Shape} {e : EltTy}
  {off : Fin S.rank → Nat} (inb : ∀ a, off a + S.size a ≤ S.size a)

include inb in
/-- `off a + n ≤ n` forces `off a = 0`: a box of the shape's own extents starts at the origin. -/
theorem off_zero : off = fun _ => 0 :=
  funext fun a => by have := inb a; omega

/-- The last store covers every index, so nothing stored earlier shows through. -/
theorem read_store_whole (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero (off_zero inb) inb y⟩)).trans
    (View.canon_cons_unit_zero (off_zero inb) inb w L)

/-- A load of the whole shape returns the contents. -/
theorem readAt_whole {m : Memref sig κ sp S e} (hm : m.IsWhole) (x : Vec F S e) :
    m.view.readAt (Elt F) (Rect.unit off S.size inb).toLoadRect (hm.unread x) = x := by
  rw [View.readAt_eq_ld, hm.read_unread]; exact View.ld_unit_zero (off_zero inb) inb x

/-- Likewise right after one store of the whole shape: its payload comes back. -/
theorem readCov_whole (v : View sig κ sp S e) (w : S.Idx → Elt F e) :
    v.readCov [(⟨Rect.unit off S.size inb, w⟩ : View.Piece (Elt F) S e)] (Rect.unit off S.size inb).toLoadRect = w :=
  View.readCov_unit_zero v (off_zero inb) inb w

end Cert.Hand
-- ==== Proof.R0Frame.lean ====
import proofs.«418439_j46445776339038_1_alg».proof.Proof.Gen.KernelIdeal.Launch
import proofs.«418439_j46445776339038_1_alg».proof.Proof.Gen.KernelIdeal.Skeleton
import proofs.«418439_j46445776339038_1_alg».proof.Proof.Gen.KernelIdeal.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x32 .f32 := win0_5.stage (cfg0.slots t 5)
abbrev hs0_5 (t : Fin cfg0.N) : (ms0_5 t).IsWhole := hstage0_5 ((cfg0.slots t 5).cast nbuf0_5)
abbrev scM0_0 : Memref sig .tc .vmem S256x64 .f32 := Memref.whole cc0_scratch0
abbrev scM0_1 : Memref sig .tc .vmem S256x32 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

set_option maxHeartbeats 1000000 in
/-- `k < 3`: the accumulators end at `a0`, `a1` plus this block's products, where `a0`, `a1` are the zero fills if `k = 0` and what was found otherwise. -/
theorem run0_AB (c : Dev nD) (i : grid0.Coords) (arg2 arg3 : Memref sig .tc .vmem S256x1 .i32) (arg4 : Memref sig .tc .vmem S2048x64 .f32) (arg5 : Memref sig .tc .vmem S2048x32 .f32) (arg6 : Memref sig .tc .vmem S256x64 .f32) (arg7 : Memref sig .tc .vmem S256x32 .f32) (arg8 : Memref sig .tc .vmem S256x64 .f32) (arg9 : Memref sig .tc .vmem S256x32 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (x0 x1 : Vec F S256x1 .i32) (x2 : Vec F S2048x64 .f32) (x3 : Vec F S2048x32 .f32) (xs0 : Vec F S256x64 .f32) (xs1 : Vec F S256x32 .f32) (a0 : Vec F S256x64 .f32) (a1 : Vec F S256x32 .f32) (E : Set ℕ) (K : PUnit → sProp 𝕄) (hc1 : ¬cond0_1 i)
    (h : cond0_0 i ∧ a0 = k0_pay2 ∧ a1 = k0_pay3 ∨ ¬cond0_0 i ∧ a0 = xs0 ∧ a1 = xs1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare (k0_pay5 i x0 a0 x2) ∗ owns (c : Thread nD τ) arg9 fullShare (k0_pay1 (k0_pay6 i x1 a1 x3))) -∗ K ⟨⟩))
      ⊢ wp frame (wpE (defs₀ (F := F)) Variants.none c none) E (cc0__gather_small_kernel i arg2 harg2 arg3 harg3 arg4 harg4 arg5 harg5 arg6 harg6 arg7 harg7 arg8 harg8 arg9 harg9) K := by
  rcases h with ⟨hc0, rfl, rfl⟩ | ⟨hc0, rfl, rfl⟩ <;> (
    simp only [cc0__gather_small_kernel_eq_skeleton]; unfold cc0__gather_small_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr
      swap; · iexact HS0
      ipureintro
      try sl_unfold_words
      rw [read_store_whole]; repeat rw [readAt_whole]; repeat rw [readCov_whole]
    iexists _; isplitr
    swap; · iexact HS1
    ipureintro
    try sl_unfold_words
    rw [read_store_whole]; repeat rw [readAt_whole]; repeat rw [readCov_whole])

set_option maxHeartbeats 1000000 in
/-- `k = 3`: as for `0 < k < 3`, and both outputs end equal to the accumulators. -/
theorem run0_C (c : Dev nD) (i : grid0.Coords) (arg2 arg3 : Memref sig .tc .vmem S256x1 .i32) (arg4 : Memref sig .tc .vmem S2048x64 .f32) (arg5 : Memref sig .tc .vmem S2048x32 .f32) (arg6 : Memref sig .tc .vmem S256x64 .f32) (arg7 : Memref sig .tc .vmem S256x32 .f32) (arg8 : Memref sig .tc .vmem S256x64 .f32) (arg9 : Memref sig .tc .vmem S256x32 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (x0 x1 : Vec F S256x1 .i32) (x2 : Vec F S2048x64 .f32) (x3 : Vec F S2048x32 .f32) (xs0 : Vec F S256x64 .f32) (xs1 : Vec F S256x32 .f32) (E : Set ℕ) (K : PUnit → sProp 𝕄) (hc0 : ¬cond0_0 i) (hc1 : cond0_1 i) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 i x0 xs0 x2) ∗ owns (c : Thread nD τ) arg7 fullShare (k0_pay1 (k0_pay6 i x1 xs1 x3))
            ∗ owns (c : Thread nD τ) arg8 fullShare (k0_pay5 i x0 xs0 x2) ∗ owns (c : Thread nD τ) arg9 fullShare (k0_pay1 (k0_pay6 i x1 xs1 x3))) -∗ K ⟨⟩))
      ⊢ wp frame (wpE (defs₀ (F := F)) Variants.none c none) E (cc0__gather_small_kernel i arg2 harg2 arg3 harg3 arg4 harg4 arg5 harg5 arg6 harg6 arg7 harg7 arg8 harg8 arg9 harg9) K := by
  simp only [cc0__gather_small_kernel_eq_skeleton]; unfold cc0__gather_small_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    try sl_unfold_words
    rw [read_store_whole]; repeat rw [readAt_whole]; repeat rw [readCov_whole]
  isplitl [H5]
  · iexists _; isplitr
    swap; · iexact H5
    ipureintro
    try sl_unfold_words
    rw [read_store_whole]; repeat rw [readAt_whole]; repeat rw [readCov_whole]
  isplitl [HS0]
  · iexists _; isplitr
    swap; · iexact HS0
    ipureintro
    try sl_unfold_words
    rw [read_store_whole]; repeat rw [readAt_whole]; repeat rw [readCov_whole]
  iexists _; isplitr
  swap; · iexact HS1
  ipureintro
  try sl_unfold_words
  rw [read_store_whole]; repeat rw [readAt_whole]; repeat rw [readCov_whole]

section Region
variable (V : (c : Dev nD) → (b : Ref sig .tc) → Buf (Elt F) ((c : Thread nD τ).loc b))

/-- The block of window `w` at point `t`, cut from the array contents `V` on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One step of the accumulation: the pair `a` plus the products of point `t`'s blocks. -/
def upd0 (c : Dev nD) (t : Fin cfg0.N) (a : Vec F S256x64 .f32 × Vec F S256x32 .f32) : Vec F S256x64 .f32 × Vec F S256x32 .f32 :=
  (k0_pay5 (grid0.coords t) (iblk0 V c 0 t) a.1 (iblk0 V c 2 t), k0_pay1 (k0_pay6 (grid0.coords t) (iblk0 V c 1 t) a.2 (iblk0 V c 3 t)))

/-- The accumulators after position `n`: a step from the zero fills when `n ≡ 0 (mod 4)`, from position `n - 1` otherwise. -/
def acc0 (c : Dev nD) : (n : ℕ) → n < cfg0.N → Vec F S256x64 .f32 × Vec F S256x32 .f32
  | 0, hn => upd0 V c ⟨0, hn⟩ (k0_pay2, k0_pay3)
  | n + 1, hn => upd0 V c ⟨n + 1, hn⟩ (if (n + 1) % 4 = 0 then (k0_pay2, k0_pay3) else acc0 c n (Nat.lt_of_succ_lt hn))

theorem acc0_first (c : Dev nD) (t : Fin cfg0.N) (h0 : t.val % 4 = 0) : acc0 V c t.val t.isLt = upd0 V c t (k0_pay2, k0_pay3) := by
  obtain ⟨n, hn⟩ := t
  cases n with
  | zero => rfl
  | succ n => exact congrArg _ (if_pos h0)

theorem acc0_next (c : Dev nD) (t : Fin cfg0.N) (h0 : ¬t.val % 4 = 0) :
    acc0 V c t.val t.isLt = upd0 V c t (acc0 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The invariant with the accumulators holding the pair `a`. -/
abbrev PhiAt0 (c : Dev nD) (a : Vec F S256x64 .f32 × Vec F S256x32 .f32) : sProp 𝕄 :=
  iprop(iprop(iprop(owns (c : Thread nD τ) scM0_0 fullShare a.1 ∗ owns (c : Thread nD τ) scM0_1 fullShare a.2) ∗ rest0 c) ∗ (∃ r, prngReg c r))

/-- Before position `0` nothing is known of the accumulators; before `n + 1` they hold `acc0 n`. -/
def PhiS0 (c : Dev nD) : (n : ℕ) → n ≤ cfg0.N → sProp 𝕄
  | 0, _ => Pipeline.ΦA spec0 c
  | n + 1, hn => PhiAt0 c (acc0 V c n hn)

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) : PhiS0 V c n h = PhiAt0 c (acc0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem leaves0_0 (c : Dev nD) (t : Fin cfg0.N) : (dat0 V c).leavesExact 0 t = owns (c : Thread nD τ) (ms0_0 t) fullShare (iblk0 V c 0 t) := by
  unfold Dat.leavesExact; rw [liveAt0_0 t]; rfl
theorem leaves0_1 (c : Dev nD) (t : Fin cfg0.N) : (dat0 V c).leavesExact 1 t = owns (c : Thread nD τ) (ms0_1 t) fullShare (iblk0 V c 1 t) := by
  unfold Dat.leavesExact; rw [liveAt0_1 t]; rfl
theorem leaves0_2 (c : Dev nD) (t : Fin cfg0.N) : (dat0 V c).leavesExact 2 t = owns (c : Thread nD τ) (ms0_2 t) fullShare (iblk0 V c 2 t) := by
  unfold Dat.leavesExact; rw [liveAt0_2 t]; rfl
theorem leaves0_3 (c : Dev nD) (t : Fin cfg0.N) : (dat0 V c).leavesExact 3 t = owns (c : Thread nD τ) (ms0_3 t) fullShare (iblk0 V c 3 t) := by
  unfold Dat.leavesExact; rw [liveAt0_3 t]; rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- Each point falls in one of the three cases by `t mod 4`; the case's triple turns `acc0 (t - 1)` into `acc0 t`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiAt0 c (acc0 V c t.val t.isLt) from rfl,
    show (dat0 V c).Φ t.castSucc = PhiS0 V c t.val (Nat.le_of_lt t.isLt) from rfl,
    leaves0_0, leaves0_1, leaves0_2, leaves0_3]
  have hN : t.val < 32 := lt_of_lt_of_eq t.isLt (show cfg0.N = 32 from N_0)
  by_cases h1 : t.val % 4 = 3
  · have hc1 : cond0_1 (grid0.coords t) := (hcond0_1 t).mpr h1
    have h0 : ¬t.val % 4 = 0 := by omega
    rw [show (dat0 V c).leavesExact 4 t = owns (c : Thread nD τ) (ms0_4 t) fullShare (acc0 V c t.val t.isLt).1 from by
        unfold Dat.leavesExact; rw [liveAt0_4 t hc1]; rfl,
      show (dat0 V c).leavesExact 5 t = owns (c : Thread nD τ) (ms0_5 t) fullShare (acc0 V c t.val t.isLt).2 from by
        unfold Dat.leavesExact; rw [liveAt0_5 t hc1]; rfl,
      acc0_next V c t h0, PhiS0_pos V c _ _ (fun e => h0 (by rw [e]))]
    unfold upd0 PhiAt0; dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply (run0_C c (grid0.coords t) _ _ _ _ _ _ _ _ _ _ _ _ _ _ _ _ (iblk0 V c 0 t) (iblk0 V c 1 t) (iblk0 V c 2 t) (iblk0 V c 3 t) _ _ Set.univ _ (fun h => h0 ((hcond0_0 t).mp h)) hc1)
    iframe
    isplitl [H4]; · iexists _; iexact H4
    isplitl [H5]; · iexists _; iexact H5
    iintro ⟨H0, H1, H2, H3, H4, H5, HS0, HS1⟩
    iframe
  · have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    by_cases h0 : t.val % 4 = 0
    · rw [acc0_first V c t h0]
      unfold upd0 PhiAt0; dsimp only
      by_cases hz : t.val = 0
      · rw [PhiS0_zero V c _ _ hz, PhiA0_eq]
        iintro ⟨⟨⟨⟨⟨%e0, HS0⟩, ⟨%e1, HS1⟩⟩, Hr⟩, Hg⟩, Ho, ⟨%d0, H0⟩, ⟨%d1, H1⟩, ⟨%d2, H2⟩, ⟨%d3, H3⟩, H4, H5⟩
        iapply (run0_AB c (grid0.coords t) _ _ _ _ _ _ _ _ _ _ _ _ _ _ _ _ (iblk0 V c 0 t) (iblk0 V c 1 t) (iblk0 V c 2 t) (iblk0 V c 3 t) _ _ _ _ Set.univ _ hc1 (.inl ⟨(hcond0_0 t).mpr h0, rfl, rfl⟩))
        iframe
        iintro ⟨H0, H1, H2, H3, HS0, HS1⟩
        iframe
      · rw [PhiS0_pos V c _ _ hz]
        iintro ⟨⟨⟨⟨HS0, HS1⟩, Hr⟩, Hg⟩, Ho, ⟨%d0, H0⟩, ⟨%d1, H1⟩, ⟨%d2, H2⟩, ⟨%d3, H3⟩, H4, H5⟩
        iapply (run0_AB c (grid0.coords t) _ _ _ _ _ _ _ _ _ _ _ _ _ _ _ _ (iblk0 V c 0 t) (iblk0 V c 1 t) (iblk0 V c 2 t) (iblk0 V c 3 t) _ _ _ _ Set.univ _ hc1 (.inl ⟨(hcond0_0 t).mpr h0, rfl, rfl⟩))
        iframe
        iintro ⟨H0, H1, H2, H3, HS0, HS1⟩
        iframe
    · rw [acc0_next V c t h0, PhiS0_pos V c _ _ (fun e => h0 (by rw [e]))]
      unfold upd0 PhiAt0; dsimp only
      iintro ⟨⟨⟨⟨HS0, HS1⟩, Hr⟩, Hg⟩, Ho, ⟨%d0, H0⟩, ⟨%d1, H1⟩, ⟨%d2, H2⟩, ⟨%d3, H3⟩, H4, H5⟩
      iapply (run0_AB c (grid0.coords t) _ _ _ _ _ _ _ _ _ _ _ _ _ _ _ _ (iblk0 V c 0 t) (iblk0 V c 1 t) (iblk0 V c 2 t) (iblk0 V c 3 t) _ _ _ _ Set.univ _ hc1 (.inr ⟨fun h => h0 ((hcond0_0 t).mp h), rfl, rfl⟩))
      iframe
      iintro ⟨H0, H1, H2, H3, HS0, HS1⟩
      iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Idealize.SL.BI.Entails.refl _

/-- After the last point the accumulators' contents are forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have : cfg0.N = 32 := N_0; omega), PhiA0_eq]
  iintro ⟨⟨⟨HS0, HS1⟩, Hr⟩, Hg⟩
  iframe
  isplitl [HS0]; · iexists _; iexact HS0
  iexists _; iexact HS1

end Region

end Cert.KernelIdeal.Hand

end
-- ==== Proof.R1Frame.lean ====
import proofs.«418439_j46445776339038_1_alg».proof.Proof.Gen.KernelIdeal.Launch
import proofs.«418439_j46445776339038_1_alg».proof.Proof.Gen.KernelIdeal.Skeleton
import proofs.«418439_j46445776339038_1_alg».proof.Proof.Gen.KernelIdeal.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S256x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev scM1 : Memref sig .tc .vmem S256x1024 .f32 := Memref.whole cc1_scratch0

-- The region's invariant with the accumulator's part `A` set apart.
def Phi1 (c : Dev nD) (A : sProp 𝕄) : sProp 𝕄 :=
  iprop(iprop(A ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = Phi1 c iprop(∃ d, owns (c : Thread nD τ) scM1 fullShare d) := by
  unfold Pipeline.ΦA Phi1; rw [scopedRest1_split]; simp only [scM1, owns_whole]; try rfl

section Body
variable (c : Dev nD) {i : grid1.Coords} {arg3 : Memref sig .tc .vmem S256x1 .i32} {harg3 : arg3.IsWhole} {arg4 : Memref sig .tc .vmem S1024x1024 .f32} {harg4 : arg4.IsWhole} {arg5 arg6 : Memref sig .tc .vmem S256x1024 .f32} {harg5 : arg5.IsWhole} {harg6 : arg6.IsWhole}
  (x0 : Vec F S256x1 .i32) (x1 : Vec F S1024x1024 .f32) {xi xs : Vec F S256x1024 .f32}

set_option maxHeartbeats 1000000 in
-- The body adds the block's product to the accumulator (to zero where the accumulator is reset) and, at a last contraction block, copies the sum to the output.
theorem run1 (h01 : cond1_0 i → ¬cond1_1 i) {E : Set ℕ} {K : PUnit → sProp 𝕄} :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare (if cond1_1 i then k1_pay2 i x0 (if cond1_0 i then k1_pay1 else xs) x1 else xi) ∗ owns (c : Thread nD τ) arg6 fullShare (k1_pay2 i x0 (if cond1_0 i then k1_pay1 else xs) x1)) -∗ K ⟨⟩))
      ⊢ wp frame (wpE (defs₀ (F := F)) Variants.none c none) E (cc1__gather_rows_kernel i arg3 harg3 arg4 harg4 arg5 harg5 arg6 harg6) K := by
  by_cases hc0 : cond1_0 i <;> by_cases hc1 : cond1_1 i
  · exact absurd hc1 (h01 hc0)
  all_goals
    first | rw [if_pos hc0] | rw [if_neg hc0]
    first | rw [if_pos hc1] | rw [if_neg hc1]
    simp only [cc1__gather_rows_kernel_eq_skeleton]; unfold cc1__gather_rows_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr
      swap; · iexact H2
      ipureintro
      first
      | exact (fun _ => hf2) (hc1 : ¬cond1_1 i)
      | try sl_unfold_words
        refine (read_store_whole _ _ _ _ _).trans ((readCov_whole _ _ _).trans ?_)
        exact congr (congr (congrArg (k1_pay2 i) (readAt_whole _ harg3 x0)) (readAt_whole _ harg6 xs)) (readAt_whole _ harg4 x1)
    iexists _; isplitr
    swap; · iexact HS0
    ipureintro
    try sl_unfold_words
    refine (read_store_whole _ _ _ _ _).trans (congr (congr (congrArg (k1_pay2 i) (readAt_whole _ harg3 x0)) ?_) (readAt_whole _ harg4 x1))
    first
    | exact (fun _ => readCov_whole _ _ _) (hc0 : cond1_0 i)
    | exact readAt_whole _ harg6 xs

end Body

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The accumulator after point `n`: the point's product added to zero at a first contraction block, to what the point before left elsewhere.
def acc1 (c : Dev nD) : (n : ℕ) → n < cfg1.N → Vec F S256x1024 .f32
  | 0, hn => k1_pay2 (grid1.coords ⟨0, hn⟩) (iblk1 V c 0 ⟨0, hn⟩) (k1_pay1 (F := F)) (iblk1 V c 1 ⟨0, hn⟩)
  | n + 1, hn => k1_pay2 (grid1.coords ⟨n + 1, hn⟩) (iblk1 V c 0 ⟨n + 1, hn⟩) (if cond1_0 (grid1.coords ⟨n + 1, hn⟩) then k1_pay1 (F := F) else acc1 c n (Nat.lt_of_succ_lt hn)) (iblk1 V c 1 ⟨n + 1, hn⟩)

-- The same from any accumulator contents `xs` that are the point before's wherever there is one.
theorem acc1_eq (c : Dev nD) (t : Fin cfg1.N) (xs : Vec F S256x1024 .f32) (h : t.val ≠ 0 → xs = acc1 V c (t.val - 1) (Nat.lt_of_le_of_lt (Nat.sub_le _ _) t.isLt)) :
    acc1 V c t.val t.isLt = k1_pay2 (grid1.coords t) (iblk1 V c 0 t) (if cond1_0 (grid1.coords t) then k1_pay1 else xs) (iblk1 V c 1 t) := by
  obtain ⟨n, hn⟩ := t
  cases n with
  | zero => rw [if_pos ((hcond1_0 _).mpr rfl)]; rfl
  | succ n => rw [h (Nat.succ_ne_zero n)]; rfl

def PhiS1 (c : Dev nD) : (n : ℕ) → n ≤ cfg1.N → sProp 𝕄
  | 0, _ => Pipeline.ΦA spec1 c
  | n + 1, hn => Phi1 c (owns (c : Thread nD τ) scM1 fullShare (acc1 V c n hn))

theorem PhiS1_pos (c : Dev nD) (n : ℕ) (h : n ≤ cfg1.N) (hz : n ≠ 0) :
    PhiS1 V c n h = Phi1 c (owns (c : Thread nD τ) scM1 fullShare (acc1 V c (n - 1) (by omega))) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = acc1 V c t.val t.isLt := by dsimp only [dat1]

-- At every point the body is handed each input window's block.
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

-- What the body owes the output window: the accumulator's contents at a last contraction block, what it found elsewhere.
theorem leaves1_2 (c : Dev nD) (t : Fin cfg1.N) (d) {a : Vec F S256x1024 .f32} (ha : acc1 V c t.val t.isLt = a) :
    (owns (c : Thread nD τ) (ms1_2 t) fullShare (if cond1_1 (grid1.coords t) then a else (dat1 V c).before 2 t d) : sProp 𝕄) ⊢ (dat1 V c).leavesExact 2 t := by
  subst ha
  by_cases h1 : cond1_1 (grid1.coords t)
  · rw [if_pos h1, show (dat1 V c).leavesExact 2 t = owns (c : Thread nD τ) (ms1_2 t) fullShare ((dat1 V c).after 2 t) from by
      unfold Dat.leavesExact; rw [liveAt1_2 t h1], after1_2]
  · rw [if_neg h1, Dat.leavesExact_idle (dat1 V c) 2 t (idleAt1_2 t h1) (noFlush1_2 t h1)]
    iintro H; iexists _; iexact H

theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ => iprop((dat1 V c).Φ t.succ ∗ (dat1 V c).owesAt () t.succ
      ∗ (dat1 V c).leavesExact 0 t ∗ (dat1 V c).leavesExact 1 t ∗ (dat1 V c).leavesExact 2 t)) := by
  unfold bodyAt1
  simp only [before1_0, before1_1]
  rw [show (dat1 V c).owesAt () t.succ = (dat1 V c).owesAt () t.castSucc from rfl]
  rw [show (dat1 V c).Φ t.succ = Phi1 c (owns (c : Thread nD τ) scM1 fullShare (acc1 V c t.val t.isLt)) from rfl]
  rw [show (dat1 V c).leavesExact 0 t = owns (c : Thread nD τ) (ms1_0 t) fullShare (iblk1 V c 0 t) from by
    unfold Dat.leavesExact; rw [liveAt1_0 t]; rfl]
  rw [show (dat1 V c).leavesExact 1 t = owns (c : Thread nD τ) (ms1_1 t) fullShare (iblk1 V c 1 t) from by
    unfold Dat.leavesExact; rw [liveAt1_1 t]; rfl]
  have h01 : cond1_0 (grid1.coords t) → ¬cond1_1 (grid1.coords t) := fun a b => by
    have := (hcond1_0 t).mp a; have := (hcond1_1 t).mp b; omega
  rw [show (dat1 V c).Φ t.castSucc = PhiS1 V c t.val (Nat.le_of_lt t.isLt) from rfl]
  by_cases hz : t.val = 0
  case' pos =>
    rw [show PhiS1 V c t.val (Nat.le_of_lt t.isLt) = Pipeline.ΦA spec1 c from by
      obtain ⟨n, hn⟩ := t; subst hz; rfl, PhiA1_eq]
    unfold Phi1
    iintro ⟨⟨⟨⟨%ds, HS0⟩, Hr⟩, Hg⟩, Ho, ⟨%d0, H0⟩, ⟨%d1, H1⟩, ⟨%d2, H2⟩⟩
    have e := acc1_eq V c t ds (fun h => absurd hz h)
  case' neg =>
    rw [PhiS1_pos V c _ _ hz]
    unfold Phi1
    iintro ⟨⟨⟨HS0, Hr⟩, Hg⟩, Ho, ⟨%d0, H0⟩, ⟨%d1, H1⟩, ⟨%d2, H2⟩⟩
    have e := acc1_eq V c t _ (fun _ => rfl)
  all_goals
    rw [e]
    iapply (run1 c (iblk1 V c 0 t) (iblk1 V c 1 t) h01)
    iframe
    iintro ⟨H0, H1, H2, HS0⟩
    iframe
    iapply (leaves1_2 V c t d2 e)
    iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

-- After the last point the accumulator's contents are forgotten.
theorem hout1 (c : Dev nD) : (dat1 V c).Φ (Fin.last cfg1.N) ⊢ Pipeline.ΦA spec1 c := by
  rw [show (dat1 V c).Φ (Fin.last cfg1.N) = PhiS1 V c cfg1.N (Nat.le_refl _) from rfl, PhiS1_pos V c _ _ (by have : cfg1.N = 512 := N_1; omega), PhiA1_eq]
  unfold Phi1
  iintro ⟨⟨HS0, Hr⟩, Hg⟩
  iframe
  iexists _; iexact HS0

end Cert.KernelIdeal.Hand

end
-- ==== Proof.R2Frame.lean ====
import proofs.«418439_j46445776339038_1_alg».proof.Proof.Gen.KernelIdeal.Launch
import proofs.«418439_j46445776339038_1_alg».proof.Proof.Gen.KernelIdeal.Skeleton
import proofs.«418439_j46445776339038_1_alg».proof.Proof.Gen.KernelIdeal.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem idle2_2 : ∀ t : Fin cfg2.N, (cond2_1 (grid2.coords t) → cfg2.idle 2 (grid2.coords t) = false)
    ∧ (¬cond2_1 (grid2.coords t) → cfg2.idle 2 (grid2.coords t) = true ∧ (cfg2.win 2).flush t = false) := by decide +kernel

abbrev scM2_0 : Memref sig .tc .vmem S256x2048 .f32 := Memref.whole cc2_scratch0

theorem PhiA2_eq (c : Dev nD) :
    (Pipeline.ΦA spec2 c : sProp 𝕄)
      = iprop(iprop((∃ d, owns c.tc scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- What the body leaves in an accumulator found at `xs`: the block's product added to the zero fill at a first contraction block, to `xs` elsewhere. -/
def nxt2 (i : grid2.Coords) (x1 : Vec F S2048x1 .i32) (x0 : Vec F S256x512 .f32) (xs : Vec F S256x2048 .f32) : Vec F S256x2048 .f32 :=
  k2_pay2 i x1 x0 (if cond2_0 i then k2_pay1 else xs)

set_option maxHeartbeats 1000000 in
/-- The body at a point that is not both a first and a last contraction block: the accumulator goes from `xs` to `nxt2 … xs`; the output's block is overwritten with the same at a last contraction block and untouched elsewhere. -/
theorem run2 (c : Dev nD) (i : grid2.Coords) {a2 : Memref sig .tc .vmem S256x512 .f32} (h2 : a2.IsWhole) {a3 : Memref sig .tc .vmem S2048x1 .i32} (h3 : a3.IsWhole)
    {a4 a5 : Memref sig .tc .vmem S256x2048 .f32} (h4 : a4.IsWhole) (h5 : a5.IsWhole) (hx : cond2_0 i → ¬cond2_1 i)
    (x0 : Vec F S256x512 .f32) (x1 : Vec F S2048x1 .i32) (xi xs : Vec F S256x2048 .f32) (E : Set ℕ) (K : PUnit → sProp 𝕄) :
    iprop(owns c.tc a2 fullShare x0 ∗ owns c.tc a3 fullShare x1 ∗ owns c.tc a4 fullShare xi ∗ owns c.tc a5 fullShare xs
        ∗ (iprop(owns c.tc a2 fullShare x0 ∗ owns c.tc a3 fullShare x1 ∗ owns c.tc a4 fullShare (if cond2_1 i then nxt2 i x1 x0 xs else xi) ∗ owns c.tc a5 fullShare (nxt2 i x1 x0 xs)) -∗ K ⟨⟩))
      ⊢ wp frame (wpE (defs₀ (F := F)) Variants.none c none) E (cc2__gather_cols_kernel i a2 h2 a3 h3 a4 h4 a5 h5) K := by
  unfold nxt2
  by_cases hc0 : cond2_0 i <;> by_cases hc1 : cond2_1 i
  · exact absurd hc1 (hx hc0)
  all_goals
    first | rw [if_pos hc0] | rw [if_neg hc0]
    first | rw [if_pos hc1] | rw [if_neg hc1]
    simp only [cc2__gather_cols_kernel_eq_skeleton]; unfold cc2__gather_cols_kernel_skel owns
    iintro ⟨⟨%f0, %hf0, H0⟩, ⟨%f1, %hf1, H1⟩, ⟨%f2, %hf2, H2⟩, ⟨%f3, %hf3, H3⟩, Hk⟩
    obtain rfl := h2.eq_unread hf0; obtain rfl := h3.eq_unread hf1; obtain rfl := h4.eq_unread hf2; obtain rfl := h5.eq_unread hf3
    have hp {z z' : Vec F S256x2048 .f32} (h : z = z') :=
      congr (congr (congrArg (k2_pay2 i) (readAt_whole inb_S2048x1_S2048x1_0_0 h3 x1)) (readAt_whole inb_S256x512_S256x512_0_0 h2 x0)) h
    sl_exec (disch := first | exact hc0 | exact hc1)
    sl_step
    iapply Hk
    isplitl [H0]; · iexists _; isplitr; swap; · iexact H0
                    ipureintro; exact h2.read_unread _
    isplitl [H1]; · iexists _; isplitr; swap; · iexact H1
                    ipureintro; exact h3.read_unread _
    isplitl [H2]; · iexists _; isplitr; swap; · iexact H2
                    ipureintro; try sl_unfold_words
                    first
                      | rw [h4.read_unread]
                      | (rw [read_store_whole inb_S256x2048_S256x2048_0_0, readCov_whole inb_S256x2048_S256x2048_0_0]; exact hp (readAt_whole inb_S256x2048_S256x2048_0_0 h5 xs))
    iexists _; isplitr; swap; · iexact H3
    ipureintro; try sl_unfold_words
    rw [read_store_whole inb_S256x2048_S256x2048_0_0]
    first
      | (rw [readCov_whole inb_S256x2048_S256x2048_0_0]; exact hp rfl)
      | exact hp (readAt_whole inb_S256x2048_S256x2048_0_0 h5 xs)

/-- What the accumulator holds after the body at position `n`. -/
def acc2 (c : Dev nD) : (n : ℕ) → n < cfg2.N → Vec F S256x2048 .f32
  | 0, hn => nxt2 (grid2.coords ⟨0, hn⟩) (iblk2 V c 1 ⟨0, hn⟩) (iblk2 V c 0 ⟨0, hn⟩) k2_pay1
  | n + 1, hn => nxt2 (grid2.coords ⟨n + 1, hn⟩) (iblk2 V c 1 ⟨n + 1, hn⟩) (iblk2 V c 0 ⟨n + 1, hn⟩) (acc2 c n (Nat.lt_of_succ_lt hn))

/-- The region invariant before position `n`: the accumulator holds what the point before left, or anything before the first point. -/
def PhiS2 (c : Dev nD) (n : ℕ) (h : n ≤ cfg2.N) : sProp 𝕄 :=
  iprop(iprop((∃ d, ⌜∀ h0 : n ≠ 0, d = acc2 V c (n - 1) (by omega)⌝ ∗ owns c.tc scM2_0 fullShare d) ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem before2 (c : Dev nD) (t : Fin cfg2.N) :
    (∀ d, (dat2 V c).before 0 t d = iblk2 V c 0 t) ∧ ∀ d, (dat2 V c).before 1 t d = iblk2 V c 1 t :=
  ⟨fun d => ((dat2 V c).before_in_eq_fetched 0 rfl (fun _ => rfl) (fun _ _ _ => rfl) (fun _ => rfl) t d).trans rfl,
    fun d => ((dat2 V c).before_in_eq_fetched 1 rfl (fun _ => rfl) (fun _ _ _ => rfl) (fun _ => rfl) t d).trans rfl⟩

/-- The accumulator the body leaves, when found at the invariant's contents, is this position's. -/
theorem acc2_step (c : Dev nD) (t : Fin cfg2.N) (d) (hd : ∀ h0 : t.val ≠ 0, d = acc2 V c (t.val - 1) (by omega)) :
    nxt2 (grid2.coords t) (iblk2 V c 1 t) (iblk2 V c 0 t) d = acc2 V c t.val t.isLt := by
  obtain ⟨_ | n, hn⟩ := t
  · simp only [acc2, nxt2, if_pos ((hcond2_0 ⟨0, hn⟩).mpr rfl)]
  · rw [hd (Nat.succ_ne_zero n)]; rfl

/-- The body at any point takes the invariant's accumulator to this point's, and rewrites the output's block at a last contraction block only. -/
theorem sound_body2 (c : Dev nD) (t : Fin cfg2.N) :
    iprop(PhiS2 V c t.val (Nat.le_of_lt t.isLt) ∗ (dat2 V c).owesAt () t.castSucc
        ∗ (∃ d, owns c.tc (st2_0 t) fullShare ((dat2 V c).before 0 t d))
        ∗ (∃ d, owns c.tc (st2_1 t) fullShare ((dat2 V c).before 1 t d))
        ∗ (∃ d, owns c.tc (st2_2 t) fullShare ((dat2 V c).before 2 t d)))
      ⊢ wp frame (wpE (defs₀ (F := F)) Variants.none c none) Set.univ (bodyAt2 t) (fun _ =>
        iprop(PhiS2 V c (t.val + 1) t.isLt ∗ (dat2 V c).owesAt () t.castSucc
          ∗ owns c.tc (st2_0 t) fullShare (iblk2 V c 0 t) ∗ owns c.tc (st2_1 t) fullShare (iblk2 V c 1 t) ∗ (dat2 V c).leavesExact 2 t)) := by
  have h01 : cond2_0 (grid2.coords t) → ¬cond2_1 (grid2.coords t) := fun h0 h1 => by
    have := (hcond2_0 t).mp h0; have := (hcond2_1 t).mp h1; omega
  unfold PhiS2 bodyAt2
  simp only [(before2 V c t).1, (before2 V c t).2]
  iintro ⟨⟨⟨⟨%xs, %hd, HS0⟩, Hr⟩, Hg⟩, Ho, ⟨%d0, H0⟩, ⟨%d1, H1⟩, ⟨%d2, H2⟩⟩
  iapply (run2 c (grid2.coords t) _ _ _ _ h01 (iblk2 V c 0 t) (iblk2 V c 1 t) _ xs Set.univ _)
  iframe
  iintro ⟨H0, H1, H2, HS0⟩
  rw [acc2_step V c t xs hd]
  iframe
  isplitl [HS0]
  · iexists _; isplitr; swap; · iexact HS0
    ipureintro; exact fun _ => rfl
  by_cases hc1 : cond2_1 (grid2.coords t)
  · rw [if_pos hc1]; unfold Dat.leavesExact; rw [(idle2_2 t).1 hc1]; iexact H2
  · rw [if_neg hc1, Dat.leavesExact_idle _ 2 t ((idle2_2 t).2 hc1).1 ((idle2_2 t).2 hc1).2]; iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = PhiS2 V c 0 (Nat.zero_le _) from rfl]; unfold PhiS2
  iintro ⟨⟨⟨%d, HS0⟩, Hr⟩, Hg⟩
  iframe
  iexists d; isplitr; · ipureintro; exact fun h => absurd rfl h
  iexact HS0

theorem hout2 (c : Dev nD) : (dat2 V c).Φ (Fin.last cfg2.N) ⊢ Pipeline.ΦA spec2 c := by
  rw [PhiA2_eq, show (dat2 V c).Φ (Fin.last cfg2.N) = PhiS2 V c cfg2.N (Nat.le_refl _) from rfl]; unfold PhiS2
  iintro ⟨⟨⟨%d, -, HS0⟩, Hr⟩, Hg⟩
  iframe
  iexists _; iexact HS0

end Cert.KernelIdeal.Hand

end
-- ==== Proof.R3Body.lean ====
import proofs.«418439_j46445776339038_1_alg».proof.Proof.Gen.KernelIdeal.Skeleton

noncomputable section

namespace Cert.KernelIdeal.Hand

open Idealize.ShloMosaic Idealize.SL.Sem
open Cert.KernelIdeal Cert.KernelIdeal.Gen

variable {F : FTy → Type} [FloatOps F]

-- A load of the box `B` from contents `X` reads `X` at the box's indices.
def ld {s : Shape} {e : EltTy} (X : Vec F s e) (B : LoadRect s) : B.shape.Idx → Elt F e := fun x => X (B.idx x)

def p1_arg0 (i : grid3.Coords) : BitVec 32 := BitVec.ofNat 32 (i 0).val

variable (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32)

def p1_v3 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x0 (Rect.unit (s := S256x64) ![0, 0] S256x16.size inb_S256x64_S256x16_0_0).toLoadRect
def p1_v5 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x0 (Rect.unit (s := S256x64) ![0, 16] S256x16.size inb_S256x64_S256x16_0_16).toLoadRect
def p1_v7 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x1 .f32 := ld x0 (Rect.unit (s := S256x64) ![0, 32] S256x1.size inb_S256x64_S256x1_0_32).toLoadRect
def p1_v9 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 0] S256x16.size inb_S256x32_S256x16_0_0).toLoadRect
def p1_v13 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 16] S256x16.size inb_S256x32_S256x16_0_16).toLoadRect
def p1_v17 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 16] S256x16.size inb_S256x32_S256x16_0_16).toLoadRect
def p1_v19 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 0] S256x16.size inb_S256x32_S256x16_0_0).toLoadRect
def p1_v4 : FVec F S256x16 .f32 := k3_pay4 (p1_v3 i x0 x1 x2 x3 x4 x5 x6)
def p1_v6 : FVec F S256x16 .f32 := k3_pay5 (p1_v5 i x0 x1 x2 x3 x4 x5 x6)
def p1_v8 : FVec F S256x1 .f32 := k3_pay6 (p1_v7 i x0 x1 x2 x3 x4 x5 x6)
def p1_v21 : FVec F S256x16 .f32 := k3_pay7 (p1_v17 i x0 x1 x2 x3 x4 x5 x6) (p1_v19 i x0 x1 x2 x3 x4 x5 x6)
def p1_v22 : FVec F S256x16 .f32 := k3_pay8 (p1_v3 i x0 x1 x2 x3 x4 x5 x6) (p1_v5 i x0 x1 x2 x3 x4 x5 x6)
def p1_v24 : FVec F S256x16 .f32 := k3_pay9 (p1_v3 i x0 x1 x2 x3 x4 x5 x6) (p1_v5 i x0 x1 x2 x3 x4 x5 x6)
def p1_v32 : FVec F S1x1 .f32 := k3_pay10 (p1_v3 i x0 x1 x2 x3 x4 x5 x6) (p1_v9 i x0 x1 x2 x3 x4 x5 x6)
def p1_v35 : FVec F S256x16 .f32 := k3_pay11 (p1_v5 i x0 x1 x2 x3 x4 x5 x6) (p1_v13 i x0 x1 x2 x3 x4 x5 x6)
def p1_v78 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![0, 0] S1x2048.size inb_S64x2048_S1x2048_0_0).toLoadRect
def p1_v80 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![16, 0] S1x2048.size inb_S64x2048_S1x2048_16_0).toLoadRect
def p1_v41 : FVec F S1x1 .f32 := k3_pay12 (p1_v32 i x0 x1 x2 x3 x4 x5 x6) (p1_v35 i x0 x1 x2 x3 x4 x5 x6)
def p1_v55 : FVec F S1x1 .f32 := k3_pay13 (p1_v8 i x0 x1 x2 x3 x4 x5 x6) (p1_v21 i x0 x1 x2 x3 x4 x5 x6) (p1_v22 i x0 x1 x2 x3 x4 x5 x6)
def p1_v65 : FVec F S1x1 .f32 := k3_pay14 (p1_v22 i x0 x1 x2 x3 x4 x5 x6)
def p1_v73 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : FVec F S256x2048 .f32 := k3_pay15 (F := F) (p1_arg0 i)
def p1_v74 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : FVec F S256x2048 .f32 := k3_pay16 (F := F)
def p1_v75 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : FVec F S1x1 .f32 := k3_pay17 (F := F)
def p1_v76 : FVec F S256x1 .f32 := k3_pay18 (p1_v4 i x0 x1 x2 x3 x4 x5 x6)
def p1_v77 : FVec F S256x1 .f32 := k3_pay19 (p1_v6 i x0 x1 x2 x3 x4 x5 x6)
def p1_v79 : FVec F S1x2048 .f32 := k3_pay20 (p1_v78 i x0 x1 x2 x3 x4 x5 x6)
def p1_v81 : FVec F S1x2048 .f32 := k3_pay21 (p1_v80 i x0 x1 x2 x3 x4 x5 x6)
def p1_v108 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![1, 0] S1x2048.size inb_S64x2048_S1x2048_1_0).toLoadRect
def p1_v110 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![17, 0] S1x2048.size inb_S64x2048_S1x2048_17_0).toLoadRect
def p1_v105 : FVec F S256x2048 .f32 := k3_pay22 (p1_v74 i x0 x1 x2 x3 x4 x5 x6) (p1_v76 i x0 x1 x2 x3 x4 x5 x6) (p1_v79 i x0 x1 x2 x3 x4 x5 x6)
def p1_v130 : FVec F S1x1 .f32 := k3_pay25 (p1_v4 i x0 x1 x2 x3 x4 x5 x6) (p1_v6 i x0 x1 x2 x3 x4 x5 x6) (p1_v24 i x0 x1 x2 x3 x4 x5 x6) (p1_v73 i x0 x1 x2 x3 x4 x5 x6) (p1_v75 i x0 x1 x2 x3 x4 x5 x6) (p1_v76 i x0 x1 x2 x3 x4 x5 x6) (p1_v77 i x0 x1 x2 x3 x4 x5 x6) (p1_v79 i x0 x1 x2 x3 x4 x5 x6) (p1_v81 i x0 x1 x2 x3 x4 x5 x6) (p1_v108 i x0 x1 x2 x3 x4 x5 x6) (p1_v110 i x0 x1 x2 x3 x4 x5 x6)
def p1_v133 : FVec F S256x2048 .f32 := k3_pay26 (p1_v4 i x0 x1 x2 x3 x4 x5 x6) (p1_v108 i x0 x1 x2 x3 x4 x5 x6)
def p1_v138 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![2, 0] S1x2048.size inb_S64x2048_S1x2048_2_0).toLoadRect
def p1_v140 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![18, 0] S1x2048.size inb_S64x2048_S1x2048_18_0).toLoadRect
def p1_v168 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![3, 0] S1x2048.size inb_S64x2048_S1x2048_3_0).toLoadRect
def p1_v170 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![19, 0] S1x2048.size inb_S64x2048_S1x2048_19_0).toLoadRect
def p1_v160 : FVec F S1x1 .f32 := k3_pay29 (p1_v4 i x0 x1 x2 x3 x4 x5 x6) (p1_v6 i x0 x1 x2 x3 x4 x5 x6) (p1_v24 i x0 x1 x2 x3 x4 x5 x6) (p1_v73 i x0 x1 x2 x3 x4 x5 x6) (p1_v130 i x0 x1 x2 x3 x4 x5 x6) (p1_v138 i x0 x1 x2 x3 x4 x5 x6) (p1_v140 i x0 x1 x2 x3 x4 x5 x6)
def p1_v165 : FVec F S256x2048 .f32 := k3_pay30 (p1_v4 i x0 x1 x2 x3 x4 x5 x6) (p1_v105 i x0 x1 x2 x3 x4 x5 x6) (p1_v133 i x0 x1 x2 x3 x4 x5 x6) (p1_v138 i x0 x1 x2 x3 x4 x5 x6)
def p1_v166 : FVec F S256x1 .f32 := k3_pay31 (p1_v4 i x0 x1 x2 x3 x4 x5 x6)
def p1_v169 : FVec F S1x2048 .f32 := k3_pay32 (p1_v168 i x0 x1 x2 x3 x4 x5 x6)
def p1_v181 : FVec F S256x2048 .f32 := k3_pay33 (p1_v4 i x0 x1 x2 x3 x4 x5 x6) (p1_v6 i x0 x1 x2 x3 x4 x5 x6) (p1_v73 i x0 x1 x2 x3 x4 x5 x6) (p1_v168 i x0 x1 x2 x3 x4 x5 x6) (p1_v170 i x0 x1 x2 x3 x4 x5 x6)
def p1_v182 : FVec F S256x1 .f32 := k3_pay34 (p1_v24 i x0 x1 x2 x3 x4 x5 x6)
def p1_v198 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![4, 0] S1x2048.size inb_S64x2048_S1x2048_4_0).toLoadRect
def p1_v200 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![20, 0] S1x2048.size inb_S64x2048_S1x2048_20_0).toLoadRect
def p1_v228 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![5, 0] S1x2048.size inb_S64x2048_S1x2048_5_0).toLoadRect
def p1_v230 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![21, 0] S1x2048.size inb_S64x2048_S1x2048_21_0).toLoadRect
def p1_v220 : FVec F S1x1 .f32 := k3_pay37 (p1_v4 i x0 x1 x2 x3 x4 x5 x6) (p1_v6 i x0 x1 x2 x3 x4 x5 x6) (p1_v24 i x0 x1 x2 x3 x4 x5 x6) (p1_v73 i x0 x1 x2 x3 x4 x5 x6) (p1_v160 i x0 x1 x2 x3 x4 x5 x6) (p1_v181 i x0 x1 x2 x3 x4 x5 x6) (p1_v182 i x0 x1 x2 x3 x4 x5 x6) (p1_v198 i x0 x1 x2 x3 x4 x5 x6) (p1_v200 i x0 x1 x2 x3 x4 x5 x6)
def p1_v225 : FVec F S256x2048 .f32 := k3_pay38 (p1_v4 i x0 x1 x2 x3 x4 x5 x6) (p1_v165 i x0 x1 x2 x3 x4 x5 x6) (p1_v166 i x0 x1 x2 x3 x4 x5 x6) (p1_v169 i x0 x1 x2 x3 x4 x5 x6) (p1_v198 i x0 x1 x2 x3 x4 x5 x6)
def p1_v226 : FVec F S256x1 .f32 := k3_pay39 (p1_v4 i x0 x1 x2 x3 x4 x5 x6)
def p1_v227 : FVec F S256x1 .f32 := k3_pay40 (p1_v6 i x0 x1 x2 x3 x4 x5 x6)
def p1_v229 : FVec F S1x2048 .f32 := k3_pay41 (p1_v228 i x0 x1 x2 x3 x4 x5 x6)
def p1_v231 : FVec F S1x2048 .f32 := k3_pay42 (p1_v230 i x0 x1 x2 x3 x4 x5 x6)
def p1_v258 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![6, 0] S1x2048.size inb_S64x2048_S1x2048_6_0).toLoadRect
def p1_v260 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![22, 0] S1x2048.size inb_S64x2048_S1x2048_22_0).toLoadRect
def p1_v255 : FVec F S256x2048 .f32 := k3_pay43 (p1_v225 i x0 x1 x2 x3 x4 x5 x6) (p1_v226 i x0 x1 x2 x3 x4 x5 x6) (p1_v229 i x0 x1 x2 x3 x4 x5 x6)
def p1_v280 : FVec F S1x1 .f32 := k3_pay46 (p1_v4 i x0 x1 x2 x3 x4 x5 x6) (p1_v6 i x0 x1 x2 x3 x4 x5 x6) (p1_v24 i x0 x1 x2 x3 x4 x5 x6) (p1_v73 i x0 x1 x2 x3 x4 x5 x6) (p1_v220 i x0 x1 x2 x3 x4 x5 x6) (p1_v226 i x0 x1 x2 x3 x4 x5 x6) (p1_v227 i x0 x1 x2 x3 x4 x5 x6) (p1_v229 i x0 x1 x2 x3 x4 x5 x6) (p1_v231 i x0 x1 x2 x3 x4 x5 x6) (p1_v258 i x0 x1 x2 x3 x4 x5 x6) (p1_v260 i x0 x1 x2 x3 x4 x5 x6)
def p1_v283 : FVec F S256x2048 .f32 := k3_pay47 (p1_v4 i x0 x1 x2 x3 x4 x5 x6) (p1_v258 i x0 x1 x2 x3 x4 x5 x6)
def p1_v288 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![7, 0] S1x2048.size inb_S64x2048_S1x2048_7_0).toLoadRect
def p1_v290 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![23, 0] S1x2048.size inb_S64x2048_S1x2048_23_0).toLoadRect
def p1_v318 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![8, 0] S1x2048.size inb_S64x2048_S1x2048_8_0).toLoadRect
def p1_v320 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![24, 0] S1x2048.size inb_S64x2048_S1x2048_24_0).toLoadRect
def p1_v310 : FVec F S1x1 .f32 := k3_pay50 (p1_v4 i x0 x1 x2 x3 x4 x5 x6) (p1_v6 i x0 x1 x2 x3 x4 x5 x6) (p1_v24 i x0 x1 x2 x3 x4 x5 x6) (p1_v73 i x0 x1 x2 x3 x4 x5 x6) (p1_v280 i x0 x1 x2 x3 x4 x5 x6) (p1_v288 i x0 x1 x2 x3 x4 x5 x6) (p1_v290 i x0 x1 x2 x3 x4 x5 x6)
def p1_v315 : FVec F S256x2048 .f32 := k3_pay51 (p1_v4 i x0 x1 x2 x3 x4 x5 x6) (p1_v255 i x0 x1 x2 x3 x4 x5 x6) (p1_v283 i x0 x1 x2 x3 x4 x5 x6) (p1_v288 i x0 x1 x2 x3 x4 x5 x6)
def p1_v316 : FVec F S256x1 .f32 := k3_pay52 (p1_v4 i x0 x1 x2 x3 x4 x5 x6)
def p1_v319 : FVec F S1x2048 .f32 := k3_pay53 (p1_v318 i x0 x1 x2 x3 x4 x5 x6)
def p1_v331 : FVec F S256x2048 .f32 := k3_pay54 (p1_v4 i x0 x1 x2 x3 x4 x5 x6) (p1_v6 i x0 x1 x2 x3 x4 x5 x6) (p1_v73 i x0 x1 x2 x3 x4 x5 x6) (p1_v318 i x0 x1 x2 x3 x4 x5 x6) (p1_v320 i x0 x1 x2 x3 x4 x5 x6)
def p1_v332 : FVec F S256x1 .f32 := k3_pay55 (p1_v24 i x0 x1 x2 x3 x4 x5 x6)
def p1_v348 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![9, 0] S1x2048.size inb_S64x2048_S1x2048_9_0).toLoadRect
def p1_v350 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![25, 0] S1x2048.size inb_S64x2048_S1x2048_25_0).toLoadRect
def p1_v378 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![10, 0] S1x2048.size inb_S64x2048_S1x2048_10_0).toLoadRect
def p1_v380 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![26, 0] S1x2048.size inb_S64x2048_S1x2048_26_0).toLoadRect
def p1_v370 : FVec F S1x1 .f32 := k3_pay58 (p1_v4 i x0 x1 x2 x3 x4 x5 x6) (p1_v6 i x0 x1 x2 x3 x4 x5 x6) (p1_v24 i x0 x1 x2 x3 x4 x5 x6) (p1_v73 i x0 x1 x2 x3 x4 x5 x6) (p1_v310 i x0 x1 x2 x3 x4 x5 x6) (p1_v331 i x0 x1 x2 x3 x4 x5 x6) (p1_v332 i x0 x1 x2 x3 x4 x5 x6) (p1_v348 i x0 x1 x2 x3 x4 x5 x6) (p1_v350 i x0 x1 x2 x3 x4 x5 x6)
def p1_v375 : FVec F S256x2048 .f32 := k3_pay59 (p1_v4 i x0 x1 x2 x3 x4 x5 x6) (p1_v315 i x0 x1 x2 x3 x4 x5 x6) (p1_v316 i x0 x1 x2 x3 x4 x5 x6) (p1_v319 i x0 x1 x2 x3 x4 x5 x6) (p1_v348 i x0 x1 x2 x3 x4 x5 x6)
def p1_v376 : FVec F S256x1 .f32 := k3_pay60 (p1_v4 i x0 x1 x2 x3 x4 x5 x6)
def p1_v377 : FVec F S256x1 .f32 := k3_pay61 (p1_v6 i x0 x1 x2 x3 x4 x5 x6)
def p1_v379 : FVec F S1x2048 .f32 := k3_pay62 (p1_v378 i x0 x1 x2 x3 x4 x5 x6)
def p1_v381 : FVec F S1x2048 .f32 := k3_pay63 (p1_v380 i x0 x1 x2 x3 x4 x5 x6)
def p1_v408 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![11, 0] S1x2048.size inb_S64x2048_S1x2048_11_0).toLoadRect
def p1_v410 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![27, 0] S1x2048.size inb_S64x2048_S1x2048_27_0).toLoadRect
def p1_v405 : FVec F S256x2048 .f32 := k3_pay64 (p1_v375 i x0 x1 x2 x3 x4 x5 x6) (p1_v376 i x0 x1 x2 x3 x4 x5 x6) (p1_v379 i x0 x1 x2 x3 x4 x5 x6)
def p1_v430 : FVec F S1x1 .f32 := k3_pay67 (p1_v4 i x0 x1 x2 x3 x4 x5 x6) (p1_v6 i x0 x1 x2 x3 x4 x5 x6) (p1_v24 i x0 x1 x2 x3 x4 x5 x6) (p1_v73 i x0 x1 x2 x3 x4 x5 x6) (p1_v370 i x0 x1 x2 x3 x4 x5 x6) (p1_v376 i x0 x1 x2 x3 x4 x5 x6) (p1_v377 i x0 x1 x2 x3 x4 x5 x6) (p1_v379 i x0 x1 x2 x3 x4 x5 x6) (p1_v381 i x0 x1 x2 x3 x4 x5 x6) (p1_v408 i x0 x1 x2 x3 x4 x5 x6) (p1_v410 i x0 x1 x2 x3 x4 x5 x6)
def p1_v433 : FVec F S256x2048 .f32 := k3_pay68 (p1_v4 i x0 x1 x2 x3 x4 x5 x6) (p1_v408 i x0 x1 x2 x3 x4 x5 x6)
def p1_v438 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![12, 0] S1x2048.size inb_S64x2048_S1x2048_12_0).toLoadRect
def p1_v440 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![28, 0] S1x2048.size inb_S64x2048_S1x2048_28_0).toLoadRect
def p1_v468 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![13, 0] S1x2048.size inb_S64x2048_S1x2048_13_0).toLoadRect
def p1_v470 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![29, 0] S1x2048.size inb_S64x2048_S1x2048_29_0).toLoadRect
def p1_v460 : FVec F S1x1 .f32 := k3_pay71 (p1_v4 i x0 x1 x2 x3 x4 x5 x6) (p1_v6 i x0 x1 x2 x3 x4 x5 x6) (p1_v24 i x0 x1 x2 x3 x4 x5 x6) (p1_v73 i x0 x1 x2 x3 x4 x5 x6) (p1_v430 i x0 x1 x2 x3 x4 x5 x6) (p1_v438 i x0 x1 x2 x3 x4 x5 x6) (p1_v440 i x0 x1 x2 x3 x4 x5 x6)
def p1_v465 : FVec F S256x2048 .f32 := k3_pay72 (p1_v4 i x0 x1 x2 x3 x4 x5 x6) (p1_v405 i x0 x1 x2 x3 x4 x5 x6) (p1_v433 i x0 x1 x2 x3 x4 x5 x6) (p1_v438 i x0 x1 x2 x3 x4 x5 x6)
def p1_v466 : FVec F S256x1 .f32 := k3_pay73 (p1_v4 i x0 x1 x2 x3 x4 x5 x6)
def p1_v469 : FVec F S1x2048 .f32 := k3_pay74 (p1_v468 i x0 x1 x2 x3 x4 x5 x6)
def p1_v481 : FVec F S256x2048 .f32 := k3_pay75 (p1_v4 i x0 x1 x2 x3 x4 x5 x6) (p1_v6 i x0 x1 x2 x3 x4 x5 x6) (p1_v73 i x0 x1 x2 x3 x4 x5 x6) (p1_v468 i x0 x1 x2 x3 x4 x5 x6) (p1_v470 i x0 x1 x2 x3 x4 x5 x6)
def p1_v482 : FVec F S256x1 .f32 := k3_pay76 (p1_v24 i x0 x1 x2 x3 x4 x5 x6)
def p1_v498 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![14, 0] S1x2048.size inb_S64x2048_S1x2048_14_0).toLoadRect
def p1_v500 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![30, 0] S1x2048.size inb_S64x2048_S1x2048_30_0).toLoadRect
def p1_v528 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![15, 0] S1x2048.size inb_S64x2048_S1x2048_15_0).toLoadRect
def p1_v530 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![31, 0] S1x2048.size inb_S64x2048_S1x2048_31_0).toLoadRect
def p1_v520 : FVec F S1x1 .f32 := k3_pay79 (p1_v4 i x0 x1 x2 x3 x4 x5 x6) (p1_v6 i x0 x1 x2 x3 x4 x5 x6) (p1_v24 i x0 x1 x2 x3 x4 x5 x6) (p1_v73 i x0 x1 x2 x3 x4 x5 x6) (p1_v460 i x0 x1 x2 x3 x4 x5 x6) (p1_v481 i x0 x1 x2 x3 x4 x5 x6) (p1_v482 i x0 x1 x2 x3 x4 x5 x6) (p1_v498 i x0 x1 x2 x3 x4 x5 x6) (p1_v500 i x0 x1 x2 x3 x4 x5 x6)
def p1_v525 : FVec F S256x2048 .f32 := k3_pay80 (p1_v4 i x0 x1 x2 x3 x4 x5 x6) (p1_v465 i x0 x1 x2 x3 x4 x5 x6) (p1_v466 i x0 x1 x2 x3 x4 x5 x6) (p1_v469 i x0 x1 x2 x3 x4 x5 x6) (p1_v498 i x0 x1 x2 x3 x4 x5 x6)
def p1_v526 : FVec F S256x1 .f32 := k3_pay81 (p1_v4 i x0 x1 x2 x3 x4 x5 x6)
def p1_v527 : FVec F S256x1 .f32 := k3_pay82 (p1_v6 i x0 x1 x2 x3 x4 x5 x6)
def p1_v529 : FVec F S1x2048 .f32 := k3_pay83 (p1_v528 i x0 x1 x2 x3 x4 x5 x6)
def p1_v531 : FVec F S1x2048 .f32 := k3_pay84 (p1_v530 i x0 x1 x2 x3 x4 x5 x6)
def p1_v556 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x2048 .f32 := x3
def p1_v566 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x128 .f32 := x4
def p1_v568 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S2048x128 .f32 := x5
def p1_v550 : FVec F S1x1 .f32 := k3_pay85 (p1_v24 i x0 x1 x2 x3 x4 x5 x6) (p1_v73 i x0 x1 x2 x3 x4 x5 x6) (p1_v520 i x0 x1 x2 x3 x4 x5 x6) (p1_v526 i x0 x1 x2 x3 x4 x5 x6) (p1_v527 i x0 x1 x2 x3 x4 x5 x6) (p1_v529 i x0 x1 x2 x3 x4 x5 x6) (p1_v531 i x0 x1 x2 x3 x4 x5 x6)
def p1_v564 : FVec F S1x1 .f32 := k3_pay87 (p1_v525 i x0 x1 x2 x3 x4 x5 x6) (p1_v526 i x0 x1 x2 x3 x4 x5 x6) (p1_v529 i x0 x1 x2 x3 x4 x5 x6) (p1_v556 i x0 x1 x2 x3 x4 x5 x6)
def p1_v575 : FVec F S256x2048 .f32 := k3_pay88 (p1_v566 i x0 x1 x2 x3 x4 x5 x6) (p1_v568 i x0 x1 x2 x3 x4 x5 x6)
def p1_v576 : FVec F S256x2048 .f32 := k3_pay89 (p1_v566 i x0 x1 x2 x3 x4 x5 x6)

def p1_v578 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := x6

def p1_realD : Vec F S256x2048 .f32 := k3_pay86 (p1_v525 i x0 x1 x2 x3 x4 x5 x6) (p1_v526 i x0 x1 x2 x3 x4 x5 x6) (p1_v529 i x0 x1 x2 x3 x4 x5 x6) (p1_v556 i x0 x1 x2 x3 x4 x5 x6)

def p1_omega : Vec F S256x2048 .f32 := k3_pay1 (p1_v575 i x0 x1 x2 x3 x4 x5 x6) (p1_v576 i x0 x1 x2 x3 x4 x5 x6) (p1_v578 i x0 x1 x2 x3 x4 x5 x6)

def p1_lanes (sc : Vec F S1x8 .f32) : Vec F S1x8 .f32 := k3_pay2 (p1_v41 i x0 x1 x2 x3 x4 x5 x6) (p1_v55 i x0 x1 x2 x3 x4 x5 x6) (p1_v65 i x0 x1 x2 x3 x4 x5 x6) (p1_v550 i x0 x1 x2 x3 x4 x5 x6) (p1_v564 i x0 x1 x2 x3 x4 x5 x6) (p1_v575 i x0 x1 x2 x3 x4 x5 x6) (p1_v576 i x0 x1 x2 x3 x4 x5 x6) (p1_v578 i x0 x1 x2 x3 x4 x5 x6) sc

end Cert.KernelIdeal.Hand

end
-- ==== Proof.R3Run.lean ====
import proofs.«418439_j46445776339038_1_alg».proof.Proof.Gen.KernelIdeal.Launch
import proofs.«418439_j46445776339038_1_alg».proof.Proof.Gen.KernelIdeal.Skeleton
import proofs.«418439_j46445776339038_1_alg».proof.Proof.Gen.KernelIdeal.Points
import proofs.«418439_j46445776339038_1_alg».proof.Proof.R3Body
import proofs.«418439_j46445776339038_1_alg».proof.Proof.Whole
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

theorem ld_whole {s : Shape} {e : EltTy} (X : Vec F s e) {off : Fin s.rank → Nat}
    (inb : ∀ a, off a + s.size a ≤ s.size a) : ld X (Rect.unit off s.size inb).toLoadRect = X :=
  View.ld_unit_zero (off_zero inb) inb X

abbrev ldW3 : LoadRect S256x2048 := (Rect.unit (s := S256x2048) ![0, 0] S256x2048.size inb_S256x2048_S256x2048_0_0).toLoadRect
abbrev ldW4 : LoadRect S256x128 := (Rect.unit (s := S256x128) ![0, 0] S256x128.size inb_S256x128_S256x128_0_0).toLoadRect
abbrev ldW5 : LoadRect S2048x128 := (Rect.unit (s := S2048x128) ![0, 0] S2048x128.size inb_S2048x128_S2048x128_0_0).toLoadRect
abbrev ldW6 : LoadRect S1x2048 := (Rect.unit (s := S1x2048) ![0, 0] S1x2048.size inb_S1x2048_S1x2048_0_0).toLoadRect
abbrev ldWS : LoadRect S1x8 := (Rect.unit (s := S1x8) ![0, 0] S1x8.size inb_S1x8_S1x8_0_0).toLoadRect

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

variable (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) (y7 y8 : Vec F S256x2048 .f32) (xo9 xs : Vec F S1x8 .f32)

-- Whole-block loads of the four whole-block inputs read the blocks themselves.
theorem p1_realD_whole : p1_realD i x0 x1 x2 (ld x3 ldW3) (ld x4 ldW4) (ld x5 ldW5) (ld x6 ldW6) = p1_realD i x0 x1 x2 x3 x4 x5 x6 := by
  rw [ld_whole x3, ld_whole x4, ld_whole x5, ld_whole x6]
theorem p1_omega_whole : p1_omega i x0 x1 x2 (ld x3 ldW3) (ld x4 ldW4) (ld x5 ldW5) (ld x6 ldW6) = p1_omega i x0 x1 x2 x3 x4 x5 x6 := by
  rw [ld_whole x3, ld_whole x4, ld_whole x5, ld_whole x6]
theorem p1_lanes_whole : p1_lanes i x0 x1 x2 (ld x3 ldW3) (ld x4 ldW4) (ld x5 ldW5) (ld x6 ldW6) (ld xs ldWS) = p1_lanes i x0 x1 x2 x3 x4 x5 x6 xs := by
  rw [ld_whole x3, ld_whole x4, ld_whole x5, ld_whole x6, ld_whole xs]
-- The same with the last argument read back from a whole store of the zero vector.
theorem p1_lanes_reset {κ : Kind} {sp : Space} (v : View sig κ sp S1x8 .f32) :
    p1_lanes i x0 x1 x2 (ld x3 ldW3) (ld x4 ldW4) (ld x5 ldW5) (ld x6 ldW6)
        (v.readCov [(⟨Rect.unit (s := S1x8) ![0, 0] S1x8.size inb_S1x8_S1x8_0_0, k3_pay3 (F := F)⟩ : View.Piece (Elt F) S1x8 .f32)] ldWS)
      = p1_lanes i x0 x1 x2 x3 x4 x5 x6 (k3_pay3 (F := F)) := by
  rw [ld_whole x3, ld_whole x4, ld_whole x5, ld_whole x6, readCov_whole _ v]

variable (c : Dev nD) (E : Set ℕ) (arg1 : Memref sig .tc .vmem S256x64 .f32) (harg1 : arg1.IsWhole) (arg2 : Memref sig .tc .vmem S64x2048 .f32) (harg2 : arg2.IsWhole) (arg3 : Memref sig .tc .vmem S256x32 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S1x8 .f32) (harg10 : arg10.IsWhole) (arg11 : Memref sig .tc .vmem S1x8 .f32) (harg11 : arg11.IsWhole)

-- The body's eleven memrefs owned whole: the seven inputs at their blocks, the other four at the given contents.
def io3 (y7 y8 : Vec F S256x2048 .f32) (a b : Vec F S1x8 .f32) : sProp 𝕄 :=
  iprop((owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6) ∗ owns (c : Thread nD τ) arg8 fullShare y7 ∗ owns (c : Thread nD τ) arg9 fullShare y8
    ∗ owns (c : Thread nD τ) arg10 fullShare a ∗ owns (c : Thread nD τ) arg11 fullShare b)

set_option maxHeartbeats 4000000 in
-- The body on whole memrefs, by its two conditions (never both): under the first `p1_lanes` is added onto zero instead of `xs`, under the second the last memref's new contents also go whole into the tenth.
theorem sound_kernel3 (h : ¬(cond3_0 i ∧ cond3_1 i)) (K : PUnit → sProp 𝕄) :
    iprop(io3 x0 x1 x2 x3 x4 x5 x6 c arg1 arg2 arg3 arg4 arg5 arg6 arg7 arg8 arg9 arg10 arg11 y7 y8 xo9 xs ∗ (io3 x0 x1 x2 x3 x4 x5 x6 c arg1 arg2 arg3 arg4 arg5 arg6 arg7 arg8 arg9 arg10 arg11 (p1_realD i x0 x1 x2 x3 x4 x5 x6) (p1_omega i x0 x1 x2 x3 x4 x5 x6) (if cond3_1 i then p1_lanes i x0 x1 x2 x3 x4 x5 x6 xs else xo9) (p1_lanes i x0 x1 x2 x3 x4 x5 x6 (if cond3_0 i then k3_pay3 (F := F) else xs)) -∗ K ⟨⟩))
      ⊢ wp frame (wpE (defs₀ (F := F)) Variants.none c none) E (cc3__p1_kernel i arg1 harg1 arg2 harg2 arg3 harg3 arg4 harg4 arg5 harg5 arg6 harg6 arg7 harg7 arg8 harg8 arg9 harg9 arg10 harg10 arg11 harg11) K := by
  simp only [cc3__p1_kernel_eq_skeleton]; unfold cc3__p1_kernel_skel
  unfold io3 owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, -, H7⟩, ⟨%f8, -, H8⟩, ⟨%f9, %hf9, H9⟩, ⟨%fs, %hfs, HS⟩⟩, Hk⟩
  subst hf0 hf1 hf2 hf3 hf4 hf5 hf6 hf9 hfs
  by_cases hc0 : cond3_0 i <;> by_cases hc1 : cond3_1 i
  · exact absurd ⟨hc0, hc1⟩ h
  all_goals
    first | rw [if_pos hc0] | rw [if_neg hc0]
    first | rw [if_pos hc1] | rw [if_neg hc1]
    sl_exec_parts (disch := first | exact hc0 | exact hc1)
    sl_step
    iapply Hk
    isplitl [H0 H1 H2 H3 H4 H5 H6]; · sl_close
    isplitl [H7]
    · iexists _; isplitr; swap; iexact H7; ipureintro
      refine (read_store_whole _ _ _ _ _).trans (Eq.trans ?_ (p1_realD_whole i _ _ _ _ _ _ _)); rfl
    isplitl [H8]
    · iexists _; isplitr; swap; iexact H8; ipureintro
      refine (read_store_whole _ _ _ _ _).trans (Eq.trans ?_ (p1_omega_whole i _ _ _ _ _ _ _)); rfl
    isplitl [H9]
    · first
      | have : cond3_1 i := hc1
        iexists _; isplitr; swap; iexact H9; ipureintro
        refine (read_store_whole _ _ _ _ _).trans (Eq.trans (readCov_whole _ arg11.view _) <| Eq.trans ?_ (p1_lanes_whole i _ _ _ _ _ _ _ _)); rfl
      | sl_close
    iexists _; isplitr; swap; iexact HS; ipureintro
    first
    | have : cond3_0 i := hc0
      refine (read_store_whole _ _ _ _ _).trans (Eq.trans ?_ (p1_lanes_reset i _ _ _ _ _ _ _ arg11.view)); rfl
    | refine (read_store_whole _ _ _ _ _).trans (Eq.trans ?_ (p1_lanes_whole i _ _ _ _ _ _ _ _)); rfl

end Cert.KernelIdeal.Hand
end
-- ==== Proof.R3Frame.lean ====
import proofs.«418439_j46445776339038_1_alg».proof.Proof.R3Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

-- Window `w`'s block at point `t`, read off its array as the region finds it.
def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

-- The reset is taken at the first point only, the copy at the last only.
theorem hcond3_0 : ∀ t : Fin cfg3.N, cond3_0 (grid3.coords t) ↔ t.val % 8 = 0 :=
  (by decide +kernel : ∀ t : Fin grid3.N, cond3_0 (grid3.coords t) ↔ t.val % 8 = 0)
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3 : ∀ (w : Fin cfg3.W) (t : Fin cfg3.N), w ≠ 9 → cfg3.idle w (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9 : ∀ t : Fin cfg3.N, cond3_1 (grid3.coords t) → cfg3.idle 9 (grid3.coords t) = false := by decide +kernel

abbrev scM3 : Memref sig .tc .vmem S1x8 .f32 := Memref.whole cc3_scratch0

-- The invariant's shape: `P` for the accumulator, beside the part no point touches.
def phi3 (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq : (Pipeline.ΦA spec3 c : sProp 𝕄) = phi3 c iprop(∃ d, owns (c : Thread nD τ) scM3 fullShare d) := by
  unfold Pipeline.ΦA phi3; rw [scopedRest3_split]; simp only [scM3, owns_whole]; try rfl

-- What the accumulator holds after the body at position `n`: the body's lanes over zero at the first point, over what the point before left afterwards.
def scAt3 : (n : ℕ) → n < cfg3.N → Vec F S1x8 .f32
  | 0, hn => p1_lanes (grid3.coords ⟨0, hn⟩) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (k3_pay3 (F := F))
  | n + 1, hn => p1_lanes (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (scAt3 n (Nat.lt_of_succ_lt hn))

theorem scAt3_first (t : Fin cfg3.N) (h : t.val = 0) :
    scAt3 V c t.val t.isLt = p1_lanes (grid3.coords t) (iblk3 V c 0 t) (iblk3 V c 1 t) (iblk3 V c 2 t) (iblk3 V c 3 t) (iblk3 V c 4 t) (iblk3 V c 5 t) (iblk3 V c 6 t) (k3_pay3 (F := F)) := by
  obtain ⟨n, hn⟩ := t
  cases n with
  | zero => rfl
  | succ n => exact absurd h (Nat.succ_ne_zero n)

theorem scAt3_pos (t : Fin cfg3.N) (h : t.val ≠ 0) :
    scAt3 V c t.val t.isLt = p1_lanes (grid3.coords t) (iblk3 V c 0 t) (iblk3 V c 1 t) (iblk3 V c 2 t) (iblk3 V c 3 t) (iblk3 V c 4 t) (iblk3 V c 5 t) (iblk3 V c 6 t)
      (scAt3 V c (t.val - 1) (Nat.lt_of_le_of_lt (Nat.sub_le _ _) t.isLt)) := by
  obtain ⟨n, hn⟩ := t
  cases n with
  | zero => exact absurd rfl h
  | succ n => rfl

-- The invariant before position `n`: before the first point the class's; afterwards the accumulator at what the point before left.
def PhiS3 : (n : ℕ) → n ≤ cfg3.N → sProp 𝕄
  | 0, _ => Pipeline.ΦA spec3 c
  | n + 1, hn => phi3 c (owns (c : Thread nD τ) scM3 fullShare (scAt3 V c n hn))

theorem PhiS3_zero (n : ℕ) (h : n ≤ cfg3.N) (hz : n = 0) : PhiS3 V c n h = Pipeline.ΦA spec3 c := by
  subst hz; rfl

theorem PhiS3_pos (n : ℕ) (h : n ≤ cfg3.N) (hz : n ≠ 0) :
    PhiS3 V c n h = phi3 c (owns (c : Thread nD τ) scM3 fullShare (scAt3 V c (n - 1) (by omega))) := by
  cases n with
  | zero => exact absurd rfl hz
  | succ n => rfl

def shareL3 : PosShare TreeShare := fullShare.left
def shareR3 : PosShare TreeShare := fullShare.right
theorem share3_join : fullShare ∈ PCS.op shareL3 shareR3 := PosShare.mem_left_op_right fullShare

-- Region 3's data on core `c`: each input at its block, the two row-block outputs at the body's results, the last output at the accumulator.
def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => p1_realD (grid3.coords t) (iblk3 V c 0 t) (iblk3 V c 1 t) (iblk3 V c 2 t) (iblk3 V c 3 t) (iblk3 V c 4 t) (iblk3 V c 5 t) (iblk3 V c 6 t)
    | ⟨8, _⟩ => p1_omega (grid3.coords t) (iblk3 V c 0 t) (iblk3 V c 1 t) (iblk3 V c 2 t) (iblk3 V c 3 t) (iblk3 V c 4 t) (iblk3 V c 5 t) (iblk3 V c 6 t)
    | ⟨9, _⟩ => scAt3 V c t.val t.isLt
  Φ t := PhiS3 V c t.val (Nat.le_of_lt_succ t.isLt)
  q w := match w with
    | ⟨0, _⟩ => fullShare | ⟨1, _⟩ => fullShare | ⟨2, _⟩ => fullShare | ⟨3, _⟩ => fullShare
    | ⟨4, _⟩ => shareL3 | ⟨5, _⟩ => shareR3
    | ⟨6, _⟩ => fullShare | ⟨7, _⟩ => fullShare | ⟨8, _⟩ => fullShare | ⟨9, _⟩ => fullShare
  owed _ := 0

theorem A_eq3 (w : Fin cfg3.W) : (dat3 V c).A w = V c (Pipeline.arrRef spec3 w) := by
  dsimp only [dat3]

variable (t : Fin cfg3.N)

theorem after3_0 : (dat3 V c).after 0 t = iblk3 V c 0 t := by dsimp only [dat3]
theorem after3_1 : (dat3 V c).after 1 t = iblk3 V c 1 t := by dsimp only [dat3]
theorem after3_2 : (dat3 V c).after 2 t = iblk3 V c 2 t := by dsimp only [dat3]
theorem after3_3 : (dat3 V c).after 3 t = iblk3 V c 3 t := by dsimp only [dat3]
theorem after3_4 : (dat3 V c).after 4 t = iblk3 V c 4 t := by dsimp only [dat3]
theorem after3_5 : (dat3 V c).after 5 t = iblk3 V c 5 t := by dsimp only [dat3]
theorem after3_6 : (dat3 V c).after 6 t = iblk3 V c 6 t := by dsimp only [dat3]
theorem after3_7 : (dat3 V c).after 7 t = p1_realD (grid3.coords t) (iblk3 V c 0 t) (iblk3 V c 1 t) (iblk3 V c 2 t) (iblk3 V c 3 t) (iblk3 V c 4 t) (iblk3 V c 5 t) (iblk3 V c 6 t) := by dsimp only [dat3]
theorem after3_8 : (dat3 V c).after 8 t = p1_omega (grid3.coords t) (iblk3 V c 0 t) (iblk3 V c 1 t) (iblk3 V c 2 t) (iblk3 V c 3 t) (iblk3 V c 4 t) (iblk3 V c 5 t) (iblk3 V c 6 t) := by dsimp only [dat3]
theorem after3_9 : (dat3 V c).after 9 t = scAt3 V c t.val t.isLt := by dsimp only [dat3]

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d
theorem before3_2 (d) : (dat3 V c).before 2 t d = iblk3 V c 2 t :=
  (dat3 V c).before_in_eq_fetched 2 rfl (fun _ => rfl) (fun _ _ _ => rfl) (fun _ => rfl) t d
theorem before3_3 (d) : (dat3 V c).before 3 t d = iblk3 V c 3 t :=
  (dat3 V c).before_in_eq_fetched 3 rfl (fun _ => rfl) (fun _ _ _ => rfl) (fun _ => rfl) t d
theorem before3_4 (d) : (dat3 V c).before 4 t d = iblk3 V c 4 t :=
  (dat3 V c).before_in_eq_fetched 4 rfl (fun _ => rfl) (fun _ _ _ => rfl) (fun _ => rfl) t d
theorem before3_5 (d) : (dat3 V c).before 5 t d = iblk3 V c 5 t :=
  (dat3 V c).before_in_eq_fetched 5 rfl (fun _ => rfl) (fun _ _ _ => rfl) (fun _ => rfl) t d
theorem before3_6 (d) : (dat3 V c).before 6 t d = iblk3 V c 6 t :=
  (dat3 V c).before_in_eq_fetched 6 rfl (fun _ => rfl) (fun _ _ _ => rfl) (fun _ => rfl) t d

theorem leaves3 (w : Fin cfg3.W) (h : cfg3.idle w (grid3.coords t) = false) :
    (dat3 V c).leavesExact w t = owns (c : Thread nD τ) ((cfg3.win w).stage (cfg3.slots t w)) fullShare ((dat3 V c).after w t) := by
  unfold Dat.leavesExact; rw [h]

def pre3 (w : Fin cfg3.W) : sProp 𝕄 :=
  iprop(∃ d, owns (c : Thread nD τ) ((cfg3.win w).stage (cfg3.slots t w)) fullShare ((dat3 V c).before w t d))

set_option maxHeartbeats 4000000 in
-- The body at any point, by the case the grid coordinate puts it in: the invariant gives `scAt3` of the point before and takes back `scAt3` of this one.
theorem sound_body3 :
    iprop((dat3 V c).Φ t.castSucc ∗ (dat3 V c).owesAt () t.castSucc
      ∗ pre3 V c t 0 ∗ pre3 V c t 1 ∗ pre3 V c t 2 ∗ pre3 V c t 3 ∗ pre3 V c t 4 ∗ pre3 V c t 5 ∗ pre3 V c t 6 ∗ pre3 V c t 7 ∗ pre3 V c t 8 ∗ pre3 V c t 9)
      ⊢ wp frame (wpE (defs₀ (F := F)) Variants.none c none) Set.univ (bodyAt3 t) fun _ =>
        iprop((dat3 V c).Φ t.succ ∗ (dat3 V c).owesAt () t.succ
          ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t ∗ (dat3 V c).leavesExact 8 t ∗ (dat3 V c).leavesExact 9 t) := by
  unfold bodyAt3 pre3
  simp only [before3_0, before3_1, before3_2, before3_3, before3_4, before3_5, before3_6]
  rw [show (dat3 V c).owesAt () t.succ = (dat3 V c).owesAt () t.castSucc from rfl]
  rw [show (dat3 V c).Φ t.succ = phi3 c (owns (c : Thread nD τ) scM3 fullShare (scAt3 V c t.val t.isLt)) from rfl,
    show (dat3 V c).Φ t.castSucc = PhiS3 V c t.val (Nat.le_of_lt t.isLt) from rfl]
  have hN : t.val < 8 := lt_of_lt_of_eq t.isLt (show cfg3.N = 8 from N_3)
  rw [leaves3 V c t 0 (liveAt3 0 t (by decide)), leaves3 V c t 1 (liveAt3 1 t (by decide)), leaves3 V c t 2 (liveAt3 2 t (by decide)), leaves3 V c t 3 (liveAt3 3 t (by decide)), leaves3 V c t 4 (liveAt3 4 t (by decide)), leaves3 V c t 5 (liveAt3 5 t (by decide)), leaves3 V c t 6 (liveAt3 6 t (by decide)), leaves3 V c t 7 (liveAt3 7 t (by decide)), leaves3 V c t 8 (liveAt3 8 t (by decide))]
  simp only [after3_0, after3_1, after3_2, after3_3, after3_4, after3_5, after3_6, after3_7, after3_8]
  have hx : ¬(cond3_0 (grid3.coords t) ∧ cond3_1 (grid3.coords t)) := fun ⟨a, b⟩ => by
    have := (hcond3_0 t).mp a; have := (hcond3_1 t).mp b; omega
  by_cases h0 : t.val % 8 = 0
  · have hz : t.val = 0 := by omega
    have h1 : ¬t.val % 8 = 7 := by omega
    rw [Dat.leavesExact_idle (dat3 V c) 9 t (idleAt3_9 t (fun h => h1 ((hcond3_1 t).mp h))) (noFlush3_9 t (fun h => h1 ((hcond3_1 t).mp h)))]
    rw [scAt3_first V c t hz, PhiS3_zero V c _ _ hz, PhiA3_eq]
    unfold phi3
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel3 (grid3.coords t) (iblk3 V c 0 t) (iblk3 V c 1 t) (iblk3 V c 2 t) (iblk3 V c 3 t) (iblk3 V c 4 t) (iblk3 V c 5 t) (iblk3 V c 6 t) ((dat3 V c).before 7 t d7) ((dat3 V c).before 8 t d8) ((dat3 V c).before 9 t d9) ds c Set.univ _ _ _ _ _ _ _ _ _ _ _ _ _ _ _ _ _ _ _ _ _ _ hx _)
    rw [if_pos ((hcond3_0 t).mpr h0), if_neg (fun h => h1 ((hcond3_1 t).mp h))]
    unfold io3; iframe
    iintro ⟨⟨H0, H1, H2, H3, H4, H5, H6⟩, H7, H8, H9, HS⟩
    iframe
    iexists _; iexact H9
  · have hz : t.val ≠ 0 := by omega
    rw [scAt3_pos V c t hz, PhiS3_pos V c _ _ hz]
    unfold phi3
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel3 (grid3.coords t) (iblk3 V c 0 t) (iblk3 V c 1 t) (iblk3 V c 2 t) (iblk3 V c 3 t) (iblk3 V c 4 t) (iblk3 V c 5 t) (iblk3 V c 6 t) ((dat3 V c).before 7 t d7) ((dat3 V c).before 8 t d8) ((dat3 V c).before 9 t d9) (scAt3 V c (t.val - 1) (Nat.lt_of_le_of_lt (Nat.sub_le _ _) t.isLt)) c Set.univ _ _ _ _ _ _ _ _ _ _ _ _ _ _ _ _ _ _ _ _ _ _ hx _)
    rw [if_neg (fun h => h0 ((hcond3_0 t).mp h))]
    unfold io3; iframe
    by_cases h1 : t.val % 8 = 7
    · rw [if_pos ((hcond3_1 t).mpr h1), leaves3 V c t 9 (liveAt3_9 t ((hcond3_1 t).mpr h1)), after3_9, scAt3_pos V c t hz]
      iintro ⟨⟨H0, H1, H2, H3, H4, H5, H6⟩, H7, H8, H9, HS⟩
      iframe
    · rw [if_neg (fun h => h1 ((hcond3_1 t).mp h)), Dat.leavesExact_idle (dat3 V c) 9 t (idleAt3_9 t (fun h => h1 ((hcond3_1 t).mp h))) (noFlush3_9 t (fun h => h1 ((hcond3_1 t).mp h)))]
      iintro ⟨⟨H0, H1, H2, H3, H4, H5, H6⟩, H7, H8, H9, HS⟩
      iframe
      iexists _; iexact H9

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

-- After any point but the first the invariant gives the class's back: the accumulator's contents are forgotten.
theorem Phi_out3 (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  unfold phi3
  iintro ⟨⟨HS, HR⟩, Hg⟩
  iframe
  iexists _; iexact HS

theorem hout3 : (dat3 V c).Φ (Fin.last cfg3.N) ⊢ Pipeline.ΦA spec3 c :=
  Phi_out3 V c _ (by rw [Fin.val_last]; have : cfg3.N = 8 := N_3; omega)

end Cert.KernelIdeal.Hand
end
-- ==== Proof.R4Frame.lean ====
import proofs.«418439_j46445776339038_1_alg».proof.Proof.Gen.KernelIdeal.Launch
import proofs.«418439_j46445776339038_1_alg».proof.Proof.Gen.KernelIdeal.Skeleton
import proofs.«418439_j46445776339038_1_alg».proof.Proof.Gen.KernelIdeal.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 7 :=
  (by decide +kernel : ∀ t : Fin grid4.N, cond4_1 (grid4.coords t) ↔ t.val = 7)

theorem liveAt4_0 : ∀ t : Fin cfg4.N, cfg4.idle 0 (cfg4.grid.coords t) = false := by decide +kernel
theorem liveAt4_1 : ∀ t : Fin cfg4.N, cfg4.idle 1 (cfg4.grid.coords t) = false := by decide +kernel
theorem idleAt4_2 : ∀ t : Fin cfg4.N, ¬cond4_1 (grid4.coords t) → idle4 (2 : Fin 3) (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → idle4 (2 : Fin 3) (grid4.coords t) = false := by decide +kernel

abbrev ms4_0 (t : Fin cfg4.N) : Memref sig .tc .vmem S256x2048 .f32 := win4_0.stage (cfg4.slots t 0)
abbrev ms4_1 (t : Fin cfg4.N) : Memref sig .tc .vmem S1x1 .f32 := win4_1.stage (cfg4.slots t 1)
abbrev ms4_2 (t : Fin cfg4.N) : Memref sig .tc .vmem S1x2048 .f32 := win4_2.stage (cfg4.slots t 2)
abbrev scM4_0 : Memref sig .tc .vmem S1x2048 .f32 := Memref.whole cc4_scratch0

/-- The region invariant, with what is owned of the scratch row (`P`) set apart. -/
abbrev Phi4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

theorem PhiA4_eq (c : Dev nD) : (Pipeline.ΦA spec4 c : sProp 𝕄) = Phi4 c iprop(∃ d, owns (c : Thread nD τ) scM4_0 fullShare d) := by
  unfold Pipeline.ΦA; rw [scopedRest4_split]; simp only [scM4_0, owns_whole]; try rfl

section Body
variable (c : Dev nD) (i : grid4.Coords) (arg1 : Memref sig .tc .vmem S256x2048 .f32) (harg1 : arg1.IsWhole) (arg2 : Memref sig .tc .vmem S1x1 .f32) (harg2 : arg2.IsWhole) (arg3 : Memref sig .tc .vmem S1x2048 .f32) (harg3 : arg3.IsWhole) (arg4 : Memref sig .tc .vmem S1x2048 .f32) (harg4 : arg4.IsWhole)
  (x0 : Vec F S256x2048 .f32) (x1 : Vec F S1x1 .f32) (xs xi : Vec F S1x2048 .f32)

/-- One run of the body: the row `xs` (zeroed first at point 0) gets the block's scaled column sums added; only at point 7 is the output row overwritten, with the new row. -/
theorem run4 (hx : cond4_0 i → ¬cond4_1 i) (E : Set ℕ) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare (if cond4_1 i then k4_pay2 x1 x0 xs else xi)
            ∗ owns (c : Thread nD τ) arg4 fullShare (k4_pay2 x1 x0 (if cond4_0 i then k4_pay1 else xs))) -∗ K ⟨⟩))
      ⊢ wp frame (wpE (defs₀ (F := F)) Variants.none c none) E (cc4__p2_kernel i arg1 harg1 arg2 harg2 arg3 harg3 arg4 harg4) K := by
  by_cases hc0 : cond4_0 i <;> by_cases hc1 : cond4_1 i
  · exact absurd hc1 (hx hc0)
  all_goals
    first | rw [if_pos hc0] | rw [if_neg hc0]
    first | rw [if_pos hc1] | rw [if_neg hc1]
    simp only [cc4__p2_kernel_eq_skeleton]; unfold cc4__p2_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      try sl_unfold_words
      first
      | (refine (read_store_whole _ _ _ _ _).trans ?_
         simp only [readAt_whole _ harg1, readAt_whole _ harg2, readAt_whole _ harg4, readCov_whole _ arg4.view])
      | exact hf2
    iexists _; isplitr
    swap; · iexact HS0
    ipureintro
    try sl_unfold_words
    refine (read_store_whole _ _ _ _ _).trans ?_
    simp only [readAt_whole _ harg1, readAt_whole _ harg2, readAt_whole _ harg4, readCov_whole _ arg4.view]

end Body

variable (V : (c : Dev nD) → (b : Ref sig .tc) → Buf (Elt F) ((c : Thread nD τ).loc b))

/-- The block of array `w` that point `t` works on, taken from the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch row after point `n`: the zero row updated by blocks `0 … n` in turn. -/
def acc4 (c : Dev nD) : (n : ℕ) → n < cfg4.N → Vec F S1x2048 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩) (acc4 c n (Nat.lt_of_succ_lt hn))

/-- Before point 0 the invariant is the entry one; before point `n + 1` the scratch row holds `acc4 n`. -/
def PhiS4 (c : Dev nD) : (n : ℕ) → n ≤ cfg4.N → sProp 𝕄
  | 0, _ => Pipeline.ΦA spec4 c
  | n + 1, hn => Phi4 c (owns (c : Thread nD τ) scM4_0 fullShare (acc4 V c n hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem hin4 (c : Dev nD) : Pipeline.ΦA spec4 c ⊢ (dat4 V c).Φ 0 := Idealize.SL.BI.Entails.refl _

theorem hout4 (c : Dev nD) : (dat4 V c).Φ (Fin.last cfg4.N) ⊢ Pipeline.ΦA spec4 c := by
  rw [show (dat4 V c).Φ (Fin.last cfg4.N) = Phi4 c (owns (c : Thread nD τ) scM4_0 fullShare (acc4 V c 7 _)) from rfl, PhiA4_eq]
  unfold Phi4
  iintro ⟨⟨HS0, Hr⟩, Hg⟩
  iframe
  iexists _; iexact HS0

theorem body_obligation4 (c : Dev nD) : BodyObligation (dat4 (F := F) V c) (defs₀ (F := F)) Variants.none () Set.univ := fun t => by
  rw [bigSep_W4, bigSep_W4]
  simp only [before4_0, before4_1, liveAt4_0 t, liveAt4_1 t, show (dat4 V c).after 0 t = iblk4 V c 0 t from rfl,
    show (dat4 V c).after 1 t = iblk4 V c 1 t from rfl, show (dat4 V c).after 2 t = acc4 V c t.val t.isLt from rfl,
    show (dat4 V c).owesAt () t.succ = (dat4 V c).owesAt () t.castSucc from rfl,
    show (dat4 V c).Φ t.succ = Phi4 c (owns (c : Thread nD τ) scM4_0 fullShare (acc4 V c t.val t.isLt)) from rfl]
  show _ ⊢ wp _ _ _ (bodyAt4 t) _
  have hx : cond4_0 (grid4.coords t) → ¬cond4_1 (grid4.coords t) := fun h0 h1 => by
    have := (hcond4_0 t).mp h0; have := (hcond4_1 t).mp h1; omega
  obtain ⟨n, hn⟩ := t
  cases n with
  | zero =>
    have hc0 : cond4_0 (grid4.coords ⟨0, hn⟩) := (hcond4_0 _).mpr rfl
    have hc1 : ¬cond4_1 (grid4.coords ⟨0, hn⟩) := hx hc0
    simp only [idleAt4_2 _ hc1, noFlush4_2 _ hc1]
    rw [show (dat4 V c).Φ (Fin.castSucc ⟨0, hn⟩) = Pipeline.ΦA spec4 c from rfl, PhiA4_eq, acc4]
    unfold Phi4
    iintro ⟨⟨⟨⟨%ds, HS0⟩, Hr⟩, Hg⟩, Ho, ⟨%d0, H0⟩, ⟨%d1, H1⟩, ⟨%d2, H2⟩⟩
    iapply (run4 c _ _ _ _ _ _ _ _ _ (iblk4 V c 0 ⟨0, hn⟩) (iblk4 V c 1 ⟨0, hn⟩) ds _ hx Set.univ _)
    rw [if_pos hc0, if_neg hc1]
    iframe
    iintro ⟨H0, H1, H2, HS0⟩
    iframe
    iexists _; iexact H2
  | succ n =>
    have hc0 : ¬cond4_0 (grid4.coords ⟨n + 1, hn⟩) := fun h => absurd ((hcond4_0 _).mp h) (Nat.succ_ne_zero n)
    rw [show (dat4 V c).Φ (Fin.castSucc ⟨n + 1, hn⟩) = Phi4 c (owns (c : Thread nD τ) scM4_0 fullShare (acc4 V c n (Nat.lt_of_succ_lt hn))) from rfl]
    by_cases h1 : n + 1 = 7
    · have hc1 : cond4_1 (grid4.coords ⟨n + 1, hn⟩) := (hcond4_1 _).mpr h1
      simp only [liveAt4_2 _ hc1, acc4]
      unfold Phi4
      iintro ⟨⟨⟨HS0, Hr⟩, Hg⟩, Ho, ⟨%d0, H0⟩, ⟨%d1, H1⟩, ⟨%d2, H2⟩⟩
      iapply (run4 c _ _ _ _ _ _ _ _ _ (iblk4 V c 0 ⟨n + 1, hn⟩) (iblk4 V c 1 ⟨n + 1, hn⟩) _ _ hx Set.univ _)
      rw [if_neg hc0, if_pos hc1]
      iframe
      iintro ⟨H0, H1, H2, HS0⟩
      iframe
    · have hc1 : ¬cond4_1 (grid4.coords ⟨n + 1, hn⟩) := fun h => h1 ((hcond4_1 _).mp h)
      simp only [idleAt4_2 _ hc1, noFlush4_2 _ hc1, acc4]
      unfold Phi4
      iintro ⟨⟨⟨HS0, Hr⟩, Hg⟩, Ho, ⟨%d0, H0⟩, ⟨%d1, H1⟩, ⟨%d2, H2⟩⟩
      iapply (run4 c _ _ _ _ _ _ _ _ _ (iblk4 V c 0 ⟨n + 1, hn⟩) (iblk4 V c 1 ⟨n + 1, hn⟩) _ _ hx Set.univ _)
      rw [if_neg hc0, if_neg hc1]
      iframe
      iintro ⟨H0, H1, H2, HS0⟩
      iframe
      iexists _; iexact H2

end Cert.KernelIdeal.Hand

end
-- ==== Proof.R5Frame.lean ====
import proofs.«418439_j46445776339038_1_alg».proof.Proof.Gen.KernelIdeal.Launch
import proofs.«418439_j46445776339038_1_alg».proof.Proof.Gen.KernelIdeal.Skeleton
import proofs.«418439_j46445776339038_1_alg».proof.Proof.Gen.KernelIdeal.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Hand

variable {F : FTy → Type} [FloatOps F]

local notation "𝕄" => MT nD τ sig Unit (Elt F) ℕ (UR sig nD τ) ℕ

abbrev isFirst5 (i : grid5.Coords) : Prop :=
  (Scalar.cmpi .ne (Scalar.extui (Scalar.cmpi .eq (BitVec.ofNat 32 (i 0).val) 0#32)) 0#32) = 1#1
abbrev isLast5 (i : grid5.Coords) : Prop := k5_cond2 i = 1#1

/-- The body's first condition holds at point 0 only, its second at point 7 only. -/
theorem cond5 : ∀ t : Fin cfg5.N, (isFirst5 (grid5.coords t) ↔ t.val = 0) ∧ (isLast5 (grid5.coords t) ↔ t.val = 7) :=
  (by decide +kernel : ∀ t : Fin grid5.N, (isFirst5 (grid5.coords t) ↔ t.val = 0) ∧ (isLast5 (grid5.coords t) ↔ t.val = 7))

theorem out5_at : ∀ t : Fin cfg5.N, (t.val = 7 → cfg5.idle 3 (grid5.coords t) = false) ∧ (¬t.val = 7 → cfg5.idle 3 (grid5.coords t) = true ∧ (cfg5.win 3).flush t = false) := by decide +kernel

abbrev acc5 : Memref sig .tc .vmem S1x1 .f32 := Memref.whole cc5_scratch0

abbrev others5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns c.tc acc5 fullShare d) ∗ others5 c) ∗ (∃ r, prngReg c r)) := by
  unfold Pipeline.ΦA; rw [scopedRest5_split]; simp only [acc5, owns_whole]; try rfl

section Run
variable (c : Dev nD) (i : grid5.Coords) {a1 : Memref sig .tc .vmem S256x2048 .f32} (h1 : a1.IsWhole)
  {a2 : Memref sig .tc .vmem S1x2048 .f32} (h2 : a2.IsWhole) {a3 a4 a5 : Memref sig .tc .vmem S1x1 .f32}
  (h3 : a3.IsWhole) (h4 : a4.IsWhole) (h5 : a5.IsWhole)
  (x0 : Vec F S256x2048 .f32) (x1 : Vec F S1x2048 .f32) (x2 xo xs : Vec F S1x1 .f32)

/-- The body's triple: the output's contents go from `xo` to `yo`, the accumulator's from `xs` to `ys`. -/
abbrev Run5 (yo ys : Vec F S1x1 .f32) : Prop := ∀ (E : Set ℕ) (K : PUnit → sProp 𝕄),
  iprop(owns c.tc a1 fullShare x0 ∗ owns c.tc a2 fullShare x1 ∗ owns c.tc a3 fullShare x2 ∗ owns c.tc a4 fullShare xo ∗ owns c.tc a5 fullShare xs
      ∗ (iprop(owns c.tc a1 fullShare x0 ∗ owns c.tc a2 fullShare x1 ∗ owns c.tc a3 fullShare x2 ∗ owns c.tc a4 fullShare yo ∗ owns c.tc a5 fullShare ys) -∗ K ⟨⟩))
    ⊢ wp frame (wpE (defs₀ (F := F)) Variants.none c none) E (cc5__p3_kernel i a1 h1 a2 h2 a3 h3 a4 h4 a5 h5) K

variable {c i h1 h2 h3 h4 h5 x0 x1 x2 xo xs}

/-- The body at each kind of point: the accumulator restarts from the zero cell at the first and is updated over what it held elsewhere; the last copies it to the output. -/
theorem run5 {yo ys : Vec F S1x1 .f32}
    (h : isFirst5 i ∧ ¬isLast5 i ∧ yo = xo ∧ ys = k5_pay2 x2 x0 x1 (k5_pay1 (F := F))
      ∨ ¬isFirst5 i ∧ (¬isLast5 i ∧ yo = xo ∨ isLast5 i ∧ yo = k5_pay2 x2 x0 x1 xs) ∧ ys = k5_pay2 x2 x0 x1 xs) :
    Run5 c i h1 h2 h3 h4 h5 x0 x1 x2 xo xs yo ys := fun E K => by
  simp only [cc5__p3_kernel_eq_skeleton]; unfold cc5__p3_kernel_skel owns
  iintro ⟨⟨%f0, %e0, H0⟩, ⟨%f1, %e1, H1⟩, ⟨%f2, %e2, H2⟩, ⟨%f3, %e3, H3⟩, ⟨%fs, %es, HS⟩, Hk⟩
  obtain rfl := h1.eq_unread e0; obtain rfl := h2.eq_unread e1; obtain rfl := h3.eq_unread e2; obtain rfl := h5.eq_unread es
  rcases h with ⟨hc0, hc1, rfl, rfl⟩ | ⟨hc0, ⟨hc1, rfl⟩ | ⟨hc1, rfl⟩, rfl⟩ <;> (
    sl_exec (disch := first | exact hc0 | exact hc1)
    sl_step
    iapply Hk
    isplitl [H0]; iexists _; isplitr; ipureintro; exact h1.read_unread _; iexact H0
    isplitl [H1]; iexists _; isplitr; ipureintro; exact h2.read_unread _; iexact H1
    isplitl [H2]; iexists _; isplitr; ipureintro; exact h3.read_unread _; iexact H2
    isplitl [H3]; iexists _; isplitr; swap; iexact H3; ipureintro
    first
      | exact e3
      | (try sl_unfold_words
         refine (read_store_whole _ _ _ _ _).trans ((readCov_whole _ _ _).trans ?_)
         rw [readAt_whole _ h3, readAt_whole _ h1, readAt_whole _ h2, readAt_whole _ h5])
    iexists _; isplitr; swap; iexact HS; ipureintro
    try sl_unfold_words
    refine (read_store_whole _ _ _ _ _).trans ?_
    rw [readAt_whole _ h3, readAt_whole _ h1, readAt_whole _ h2]
    first | rw [readAt_whole _ h5] | rw [readCov_whole])

end Run

variable (V : (c : Dev nD) → (b : Ref sig .tc) → Buf (Elt F) ((c : Thread nD τ).loc b))

/-- Window `w`'s block at point `t` of the entry contents `V`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Point `t`'s update of the accumulator. -/
abbrev step5 (c : Dev nD) (t : Fin cfg5.N) : Vec F S1x1 .f32 → Vec F S1x1 .f32 :=
  k5_pay2 (iblk5 V c 2 t) (iblk5 V c 0 t) (iblk5 V c 1 t)

/-- The accumulator before point `n`: the zero cell, updated once a point. -/
def prev5 (c : Dev nD) : (n : ℕ) → n ≤ cfg5.N → Vec F S1x1 .f32
  | 0, _ => k5_pay1
  | n + 1, h => step5 V c ⟨n, h⟩ (prev5 c n (Nat.le_of_lt h))

/-- The invariant past the first point: the accumulator holds `x`. -/
abbrev inv5 (c : Dev nD) (x : Vec F S1x1 .f32) : sProp 𝕄 :=
  iprop(iprop(owns c.tc acc5 fullShare x ∗ others5 c) ∗ (∃ r, prngReg c r))

/-- The region's proof data at entry contents `V`: the output is the accumulator after the point. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => prev5 V c (t.val + 1) t.isLt
  Φ t := if t.val = 0 then Pipeline.ΦA spec5 c else inv5 c (prev5 V c t.val (Nat.le_of_lt_succ t.isLt))
  q _ := fullShare
  owed _ := 0

theorem A_eq5 (c : Dev nD) (w : Fin cfg5.W) : (dat5 V c).A w = V c (Pipeline.arrRef spec5 w) := rfl

theorem Phi5_pos (c : Dev nD) (t : Fin cfg5.N) (h : ¬t.val = 0) :
    (dat5 V c).Φ t.castSucc = inv5 c (prev5 V c t.val (Nat.le_of_lt t.isLt)) := if_neg h

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

/-- Point `t` takes the accumulator from `prev5 t` to `prev5 (t + 1)`. -/
theorem sound_body5 (c : Dev nD) (t : Fin cfg5.N) :
    iprop((dat5 V c).Φ t.castSucc ∗ (dat5 V c).owesAt () t.castSucc
        ∗ (∃ d, owns c.tc (st5_0 t) fullShare ((dat5 V c).before 0 t d))
        ∗ (∃ d, owns c.tc (st5_1 t) fullShare ((dat5 V c).before 1 t d))
        ∗ (∃ d, owns c.tc (st5_2 t) fullShare ((dat5 V c).before 2 t d))
        ∗ (∃ d, owns c.tc (st5_3 t) fullShare ((dat5 V c).before 3 t d)))
      ⊢ wp frame (wpE (defs₀ (F := F)) Variants.none c none) Set.univ (bodyAt5 t) (fun _ =>
        iprop(inv5 c (step5 V c t (prev5 V c t.val (Nat.le_of_lt t.isLt))) ∗ (dat5 V c).owesAt () t.castSucc
          ∗ owns c.tc (st5_0 t) fullShare (iblk5 V c 0 t) ∗ owns c.tc (st5_1 t) fullShare (iblk5 V c 1 t)
          ∗ owns c.tc (st5_2 t) fullShare (iblk5 V c 2 t) ∗ (dat5 V c).leavesExact 3 t)) := by
  unfold bodyAt5
  simp only [before5_0, before5_1, before5_2]
  by_cases h1 : t.val = 7
  · have h0 : ¬t.val = 0 := by omega
    rw [Phi5_pos V c t h0, show (dat5 V c).leavesExact 3 t = owns c.tc (st5_3 t) fullShare (step5 V c t (prev5 V c t.val (Nat.le_of_lt t.isLt))) from by
      unfold Dat.leavesExact; rw [(out5_at t).1 h1]; rfl]
    unfold inv5 step5
    iintro ⟨⟨⟨HS, HB⟩, Hg⟩, Ho, ⟨%d0, H0⟩, ⟨%d1, H1⟩, ⟨%d2, H2⟩, ⟨%d3, H3⟩⟩
    iapply (run5 (.inr ⟨fun h => h0 ((cond5 t).1.mp h), .inr ⟨(cond5 t).2.mpr h1, rfl⟩, rfl⟩) Set.univ _)
    iframe
    iintro ⟨H0, H1, H2, H3, HS⟩
    iframe
  · have hc1 : ¬isLast5 (grid5.coords t) := fun h => h1 ((cond5 t).2.mp h)
    rw [Dat.leavesExact_idle (dat5 V c) 3 t ((out5_at t).2 h1).1 ((out5_at t).2 h1).2]
    by_cases h0 : t.val = 0
    · rw [show (dat5 V c).Φ t.castSucc = _ from if_pos h0, PhiA5_eq, show prev5 V c t.val (Nat.le_of_lt t.isLt) = k5_pay1 from by
        obtain ⟨n, hn⟩ := t; subst h0; rfl]
      unfold inv5 step5
      iintro ⟨⟨⟨⟨%ds, HS⟩, HB⟩, Hg⟩, Ho, ⟨%d0, H0⟩, ⟨%d1, H1⟩, ⟨%d2, H2⟩, ⟨%d3, H3⟩⟩
      iapply (run5 (.inl ⟨(cond5 t).1.mpr h0, hc1, rfl, rfl⟩) Set.univ _)
      iframe
      iintro ⟨H0, H1, H2, H3, HS⟩
      iframe; iexists _; iexact H3
    · rw [Phi5_pos V c t h0]
      unfold inv5 step5
      iintro ⟨⟨⟨HS, HB⟩, Hg⟩, Ho, ⟨%d0, H0⟩, ⟨%d1, H1⟩, ⟨%d2, H2⟩, ⟨%d3, H3⟩⟩
      iapply (run5 (.inr ⟨fun h => h0 ((cond5 t).1.mp h), .inl ⟨hc1, rfl⟩, rfl⟩) Set.univ _)
      iframe
      iintro ⟨H0, H1, H2, H3, HS⟩
      iframe; iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Idealize.SL.BI.Entails.refl _

theorem hout5 (c : Dev nD) : (dat5 V c).Φ (Fin.last cfg5.N) ⊢ Pipeline.ΦA spec5 c := by
  rw [show (dat5 V c).Φ (Fin.last cfg5.N) = inv5 c (prev5 V c cfg5.N le_rfl) from rfl, PhiA5_eq]
  iintro ⟨⟨HS, HB⟩, Hg⟩
  iframe; iexists _; iexact HS

end Cert.KernelIdeal.Hand

end
-- ==== Proof.RunData.lean ====
import proofs.«418439_j46445776339038_1_alg».proof.Proof.R0Frame
import proofs.«418439_j46445776339038_1_alg».proof.Proof.R1Frame
import proofs.«418439_j46445776339038_1_alg».proof.Proof.R2Frame
import proofs.«418439_j46445776339038_1_alg».proof.Proof.R3Frame
import proofs.«418439_j46445776339038_1_alg».proof.Proof.R4Frame
import proofs.«418439_j46445776339038_1_alg».proof.Proof.R5Frame
import proofs.«418439_j46445776339038_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the core's references. -/
abbrev rd (X : Dev nD → Valuation τ sig (Elt F)) : (c : Dev nD) → (b : Ref sig .tc) → Buf (Elt F) ((c : Thread nD τ).loc b) := fun c b => X c b

/-- The contents at each boundary, spelt without unknowns: a region leaves each output array at its proof data's last contents, every other buffer as entered. -/
def X2 (m : (ℓ : Loc nD τ sig) → Buf (Elt F) ℓ) (ρ : Dev nD → PrngReg) (c : Dev nD) : Valuation τ sig (Elt F) :=
  Function.update (Function.update (Gen.V1 m c) main_v5_0 ((dat0 (rd (Gen.V1 m)) c).arrAt 4 cfg0.N)) main_v5_1 ((dat0 (rd (Gen.V1 m)) c).arrAt 5 cfg0.N)

def X3 (c : Dev nD) : Valuation τ sig (Elt F) :=
  Function.update (X2 m ρ c) main_v6 ((dat1 (rd (X2 m ρ)) c).arrAt 2 cfg1.N)

def X4 (c : Dev nD) : Valuation τ sig (Elt F) :=
  Function.update (X3 m ρ c) main_v7 ((dat2 (rd (X3 m ρ)) c).arrAt 2 cfg2.N)
abbrev X5 (c : Dev nD) : Valuation τ sig (Elt F) := StableHlo.after hostOps3 (X4 m ρ c)
def X6 (c : Dev nD) : Valuation τ sig (Elt F) :=
  Function.update (Function.update (Function.update (X5 m ρ c) main_v12_0 ((dat3 (rd (X5 m ρ)) c).arrAt 7 cfg3.N)) main_v12_1 ((dat3 (rd (X5 m ρ)) c).arrAt 8 cfg3.N)) main_v12_2 ((dat3 (rd (X5 m ρ)) c).arrAt 9 cfg3.N)
abbrev X7 (c : Dev nD) : Valuation τ sig (Elt F) := StableHlo.after hostOps4 (X6 m ρ c)

def X8 (c : Dev nD) : Valuation τ sig (Elt F) :=
  Function.update (X7 m ρ c) main_v31 ((dat4 (rd (X7 m ρ)) c).arrAt 2 cfg4.N)

def X9 (c : Dev nD) : Valuation τ sig (Elt F) :=
  Function.update (X8 m ρ c) main_v32 ((dat5 (rd (X8 m ρ)) c).arrAt 3 cfg5.N)

/-- What the regions leave, read off that fold. -/
def outsOf : Gen.Outs (F := F) := fun J r c =>
  match J with
  | 2 => X2 m ρ c r
  | 3 => X3 m ρ c r
  | 4 => X4 m ρ c r
  | 6 => X6 m ρ c r
  | 8 => X8 m ρ c r
  | 9 => X9 m ρ c r
  | _ => m (c, r)

abbrev W0 (m : (ℓ : Loc nD τ sig) → Buf (Elt F) ℓ) (ρ : Dev nD → PrngReg) := Gen.V0 m
abbrev W1 (m : (ℓ : Loc nD τ sig) → Buf (Elt F) ℓ) (ρ : Dev nD → PrngReg) := Gen.V1 m
abbrev W2 := Gen.V2 m (outsOf m ρ)
abbrev W3 := Gen.V3 m (outsOf m ρ)
abbrev W4 := Gen.V4 m (outsOf m ρ)
abbrev W5 := Gen.V5 m (outsOf m ρ)
abbrev W6 := Gen.V6 m (outsOf m ρ)
abbrev W7 := Gen.V7 m (outsOf m ρ)
abbrev W8 := Gen.V8 m (outsOf m ρ)
abbrev W9 := Gen.V9 m (outsOf m ρ)
abbrev W10 := Gen.V10 m (outsOf m ρ)
abbrev V0 := rd (W0 m ρ)
abbrev V1 := rd (W1 m ρ)
abbrev V2 := rd (W2 m ρ)
abbrev V3 := rd (W3 m ρ)
abbrev V4 := rd (W4 m ρ)
abbrev V5 := rd (W5 m ρ)
abbrev V6 := rd (W6 m ρ)
abbrev V7 := rd (W7 m ρ)
abbrev V8 := rd (W8 m ρ)
abbrev V9 := rd (W9 m ρ)
abbrev V10 := rd (W10 m ρ)

/-- The generated valuations at those unknowns are the fold, stage by stage; each output is at its proof data's last contents. -/
theorem outsOf_2_v5_0 (c : Dev nD) : outsOf m ρ 2 main_v5_0 c = (dat0 (V1 m ρ) c).arrAt 4 cfg0.N := by
  show X2 m ρ c main_v5_0 = _; unfold X2; rw [Function.update_of_ne (StableHlo.devRef_ne_of_ne (by decide : main_v5_0 ≠ main_v5_1)), Function.update_self]
theorem outsOf_2_v5_1 (c : Dev nD) : outsOf m ρ 2 main_v5_1 c = (dat0 (V1 m ρ) c).arrAt 5 cfg0.N := by
  show X2 m ρ c main_v5_1 = _; unfold X2; rw [Function.update_self]
theorem W2_eq : Gen.V2 m (outsOf m ρ) = X2 m ρ := funext fun c => by
  rw [Gen.V2, outsOf_2_v5_0, outsOf_2_v5_1]; rfl
theorem outsOf_3_v6 (c : Dev nD) : outsOf m ρ 3 main_v6 c = (dat1 (V2 m ρ) c).arrAt 2 cfg1.N := by
  rw [V2, W2, W2_eq]; show X3 m ρ c main_v6 = _; unfold X3; rw [Function.update_self]
theorem W3_eq : Gen.V3 m (outsOf m ρ) = X3 m ρ := funext fun c => by
  rw [Gen.V3, outsOf_3_v6, V2, W2, W2_eq]; rfl
theorem outsOf_4_v7 (c : Dev nD) : outsOf m ρ 4 main_v7 c = (dat2 (V3 m ρ) c).arrAt 2 cfg2.N := by
  rw [V3, W3, W3_eq]; show X4 m ρ c main_v7 = _; unfold X4; rw [Function.update_self]
theorem W4_eq : Gen.V4 m (outsOf m ρ) = X4 m ρ := funext fun c => by
  rw [Gen.V4, outsOf_4_v7, V3, W3, W3_eq]; rfl
theorem W5_eq : Gen.V5 m (outsOf m ρ) = X5 m ρ := funext fun c => congrArg (StableHlo.after hostOps3) (congrFun (W4_eq m ρ) c)
theorem outsOf_6_v12_0 (c : Dev nD) : outsOf m ρ 6 main_v12_0 c = (dat3 (V5 m ρ) c).arrAt 7 cfg3.N := by
  rw [V5, W5, W5_eq]; show X6 m ρ c main_v12_0 = _; unfold X6; rw [Function.update_of_ne (StableHlo.devRef_ne_of_ne (by decide : main_v12_0 ≠ main_v12_2)), Function.update_of_ne (StableHlo.devRef_ne_of_ne (by decide : main_v12_0 ≠ main_v12_1)), Function.update_self]
theorem outsOf_6_v12_1 (c : Dev nD) : outsOf m ρ 6 main_v12_1 c = (dat3 (V5 m ρ) c).arrAt 8 cfg3.N := by
  rw [V5, W5, W5_eq]; show X6 m ρ c main_v12_1 = _; unfold X6; rw [Function.update_of_ne (StableHlo.devRef_ne_of_ne (by decide : main_v12_1 ≠ main_v12_2)), Function.update_self]
theorem outsOf_6_v12_2 (c : Dev nD) : outsOf m ρ 6 main_v12_2 c = (dat3 (V5 m ρ) c).arrAt 9 cfg3.N := by
  rw [V5, W5, W5_eq]; show X6 m ρ c main_v12_2 = _; unfold X6; rw [Function.update_self]
theorem W6_eq : Gen.V6 m (outsOf m ρ) = X6 m ρ := funext fun c => by
  rw [Gen.V6, outsOf_6_v12_0, outsOf_6_v12_1, outsOf_6_v12_2, V5, W5, W5_eq]; rfl
theorem W7_eq : Gen.V7 m (outsOf m ρ) = X7 m ρ := funext fun c => congrArg (StableHlo.after hostOps4) (congrFun (W6_eq m ρ) c)
theorem outsOf_8_v31 (c : Dev nD) : outsOf m ρ 8 main_v31 c = (dat4 (V7 m ρ) c).arrAt 2 cfg4.N := by
  rw [V7, W7, W7_eq]; show X8 m ρ c main_v31 = _; unfold X8; rw [Function.update_self]
theorem W8_eq : Gen.V8 m (outsOf m ρ) = X8 m ρ := funext fun c => by
  rw [Gen.V8, outsOf_8_v31, V7, W7, W7_eq]; rfl
theorem outsOf_9_v32 (c : Dev nD) : outsOf m ρ 9 main_v32 c = (dat5 (V8 m ρ) c).arrAt 3 cfg5.N := by
  rw [V8, W8, W8_eq]; show X9 m ρ c main_v32 = _; unfold X9; rw [Function.update_self]
theorem W9_eq : Gen.V9 m (outsOf m ρ) = X9 m ρ := funext fun c => by
  rw [Gen.V9, outsOf_9_v32, V8, W8, W8_eq]; rfl

/-- At a region's exit an input's array is as entered, an output's is at the proof data's last contents, and every other buffer is untouched. -/
theorem hF0 (c : Dev nD) : ∀ w : Fin 6, (dat0 (V1 m ρ) c).arrAt w cfg0.N = V2 m ρ c (Pipeline.arrRef spec0 w)
  | 0 | 1 | 2 | 3 => ((dat0 _ c).arrAt_in _ rfl _).trans ((A_eq0 _ c _).trans (Gen.V2_of m _ c _ (by decide)).symm)
  | 4 => ((congrFun (congrFun (W2_eq m ρ) c) _).trans (outsOf_2_v5_0 m ρ c)).symm
  | 5 => ((congrFun (congrFun (W2_eq m ρ) c) _).trans (outsOf_2_v5_1 m ρ c)).symm
theorem hrest0 (c : Dev nD) : ∀ b, b ∉ Finset.univ.image (Pipeline.arrRef spec0) → V2 m ρ c b = V1 m ρ c b := fun b hb =>
  Gen.V2_of m _ c b fun h => hb ((by decide : ∀ r ∈ ([main_v5_0, main_v5_1] : List (Ref sig .tc)), r ∈ Finset.univ.image (Pipeline.arrRef spec0)) b h)
theorem hF1 (c : Dev nD) : ∀ w : Fin 3, (dat1 (V2 m ρ) c).arrAt w cfg1.N = V3 m ρ c (Pipeline.arrRef spec1 w)
  | 0 | 1 => ((dat1 _ c).arrAt_in _ rfl _).trans ((A_eq1 _ c _).trans (Gen.V3_of m _ c _ (by decide)).symm)
  | 2 => ((congrFun (congrFun (W3_eq m ρ) c) _).trans (outsOf_3_v6 m ρ c)).symm
theorem hrest1 (c : Dev nD) : ∀ b, b ∉ Finset.univ.image (Pipeline.arrRef spec1) → V3 m ρ c b = V2 m ρ c b := fun b hb =>
  Gen.V3_of m _ c b fun h => hb ((by decide : ∀ r ∈ ([main_v6] : List (Ref sig .tc)), r ∈ Finset.univ.image (Pipeline.arrRef spec1)) b h)
theorem hF2 (c : Dev nD) : ∀ w : Fin 3, (dat2 (V3 m ρ) c).arrAt w cfg2.N = V4 m ρ c (Pipeline.arrRef spec2 w)
  | 0 | 1 => ((dat2 _ c).arrAt_in _ rfl _).trans ((A_eq2 _ c _).trans (Gen.V4_of m _ c _ (by decide)).symm)
  | 2 => ((congrFun (congrFun (W4_eq m ρ) c) _).trans (outsOf_4_v7 m ρ c)).symm
theorem hrest2 (c : Dev nD) : ∀ b, b ∉ Finset.univ.image (Pipeline.arrRef spec2) → V4 m ρ c b = V3 m ρ c b := fun b hb =>
  Gen.V4_of m _ c b fun h => hb ((by decide : ∀ r ∈ ([main_v7] : List (Ref sig .tc)), r ∈ Finset.univ.image (Pipeline.arrRef spec2)) b h)
theorem hF3 (c : Dev nD) : ∀ w : Fin cfg3.W, (dat3 (V5 m ρ) c).arrAt w cfg3.N = V6 m ρ c (Pipeline.arrRef spec3 w)
  | 0 | 1 | 2 | 3 | 4 | 5 | 6 => ((dat3 _ c).arrAt_in _ rfl _).trans ((A_eq3 _ c _).trans (Gen.V6_of m _ c _ (by decide)).symm)
  | 7 => ((congrFun (congrFun (W6_eq m ρ) c) _).trans (outsOf_6_v12_0 m ρ c)).symm
  | 8 => ((congrFun (congrFun (W6_eq m ρ) c) _).trans (outsOf_6_v12_1 m ρ c)).symm
  | 9 => ((congrFun (congrFun (W6_eq m ρ) c) _).trans (outsOf_6_v12_2 m ρ c)).symm
  | ⟨_ + 10, h⟩ => absurd h (Nat.not_lt.2 (Nat.le_add_left _ _))
theorem hrest3 (c : Dev nD) : ∀ b, b ∉ Finset.univ.image (Pipeline.arrRef spec3) → V6 m ρ c b = V5 m ρ c b := fun b hb =>
  Gen.V6_of m _ c b fun h => hb ((by decide : ∀ r ∈ ([main_v12_0, main_v12_1, main_v12_2] : List (Ref sig .tc)), r ∈ Finset.univ.image (Pipeline.arrRef spec3)) b h)
theorem hF4 (c : Dev nD) : ∀ w : Fin 3, (dat4 (V7 m ρ) c).arrAt w cfg4.N = V8 m ρ c (Pipeline.arrRef spec4 w)
  | 0 | 1 => ((dat4 _ c).arrAt_in _ rfl _).trans ((A_eq4 _ c _).trans (Gen.V8_of m _ c _ (by decide)).symm)
  | 2 => ((congrFun (congrFun (W8_eq m ρ) c) _).trans (outsOf_8_v31 m ρ c)).symm
theorem hrest4 (c : Dev nD) : ∀ b, b ∉ Finset.univ.image (Pipeline.arrRef spec4) → V8 m ρ c b = V7 m ρ c b := fun b hb =>
  Gen.V8_of m _ c b fun h => hb ((by decide : ∀ r ∈ ([main_v31] : List (Ref sig .tc)), r ∈ Finset.univ.image (Pipeline.arrRef spec4)) b h)
theorem hF5 (c : Dev nD) : ∀ w : Fin 4, (dat5 (V8 m ρ) c).arrAt w cfg5.N = V9 m ρ c (Pipeline.arrRef spec5 w)
  | 0 | 1 | 2 => ((dat5 _ c).arrAt_in _ rfl _).trans ((A_eq5 _ c _).trans (Gen.V9_of m _ c _ (by decide)).symm)
  | 3 => ((congrFun (congrFun (W9_eq m ρ) c) _).trans (outsOf_9_v32 m ρ c)).symm
theorem hrest5 (c : Dev nD) : ∀ b, b ∉ Finset.univ.image (Pipeline.arrRef spec5) → V9 m ρ c b = V8 m ρ c b := fun b hb =>
  Gen.V9_of m _ c b fun h => hb ((by decide : ∀ r ∈ ([main_v32] : List (Ref sig .tc)), r ∈ Finset.univ.image (Pipeline.arrRef spec5)) b h)

/-- Every region's proof data at its entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
  | ⟨5, _⟩ => fun c => dat5 (V8 m ρ) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W10 m ρ c) ∗ ∃ r, prngReg c r)

end Cert.KernelIdeal.Hand

end
-- ==== Proof.Seg3Arr.lean ====
import proofs.«418439_j46445776339038_1_alg».proof.Proof.Gen.KernelIdeal.Launch

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- `arrRef spec3` takes at 5 the value it has at 4, so its image is its values on these nine indices.
def wins3 : List (Fin 10) := [0, 1, 2, 3, 4, 6, 7, 8, 9]

theorem image_arrRef3 : (Finset.univ.image (Pipeline.arrRef spec3) : Finset (Ref sig .tc))
    = (wins3.map (Pipeline.arrRef spec3)).toFinset := by decide

theorem nodup_arrRef3 : (wins3.map (Pipeline.arrRef spec3)).Nodup := by decide

section Shares
variable (c : Dev nD) (dat : Dat τ (Elt F) Unit ℕ (UR sig nD τ) ℕ cfg3 c)
  (V V₀ : (b : Ref sig .tc) → Buf (Elt F) ((c : Thread nD τ).loc b))
  (G : (w : Fin cfg3.W) → Buf (Elt F) ((cfg3.win w).arr.view.loc (c : Thread nD τ)))
  (hq : ∀ w : Fin 10, w ≠ 4 → w ≠ 5 → dat.q w = fullShare) (h45 : fullShare ∈ PCS.op (dat.q 4) (dat.q 5))
  (hG : ∀ w, G w = V (Pipeline.arrRef spec3 w))

-- The points-to of the whole location `arrRef spec3 w` names, at share `q` and the contents `V` gives it.
abbrev pt3 (q : PosShare TreeShare) (w : Fin 10) : sProp 𝕄 :=
  ((c : Thread nD τ).loc (Pipeline.arrRef spec3 w)) ↦{q} V (Pipeline.arrRef spec3 w)

theorem arrBufs3_eq : (Pipeline.arrBufs (Ix := Unit) (Name := ℕ) (U := UR sig nD τ) (Lvl := ℕ) spec3 c V : sProp 𝕄)
    = iprop(pt3 c V fullShare 0 ∗ pt3 c V fullShare 1 ∗ pt3 c V fullShare 2 ∗ pt3 c V fullShare 3 ∗ pt3 c V fullShare 4
        ∗ pt3 c V fullShare 6 ∗ pt3 c V fullShare 7 ∗ pt3 c V fullShare 8 ∗ pt3 c V fullShare 9) := by
  unfold Pipeline.arrBufs
  exact bigSep_eq_bigSepL_of_eq _ image_arrRef3 nodup_arrRef3 _

include hq in
theorem share3_full (w : Fin 10) (h : w ≠ 4 ∧ w ≠ 5 := by decide) : dat.share w = fullShare := by
  unfold Dat.share; split
  · rfl
  · exact hq w h.1 h.2

-- The arrays as ten points-tos: the full share off indices 4 and 5, whose two shares sit on one location.
include hq hG in
theorem arrays3_eq : (dat.arrays G : sProp 𝕄)
    = iprop(pt3 c V fullShare 0 ∗ pt3 c V fullShare 1 ∗ pt3 c V fullShare 2 ∗ pt3 c V fullShare 3 ∗ pt3 c V (dat.q 4) 4
        ∗ pt3 c V (dat.q 5) 4 ∗ pt3 c V fullShare 6 ∗ pt3 c V fullShare 7 ∗ pt3 c V fullShare 8 ∗ pt3 c V fullShare 9) := by
  have s := @share3_full _ _ c dat hq
  have e : (dat.arrays G : sProp 𝕄) = bigSep Finset.univ fun w : Fin 10 =>
      (((c : Thread nD τ).loc (Pipeline.arrRef spec3 w)) ↦{dat.share w} V (Pipeline.arrRef spec3 w) : sProp 𝕄) :=
    bigSep_congr fun w _ => by rw [(arr_whole3 w).set_eq_univ, hG]
  rw [e, bigSep_W3, s 0, s 1, s 2, s 3, s 6, s 7, s 8, s 9, show dat.share 4 = dat.q 4 from if_neg (by decide),
    show dat.share 5 = dat.q 5 from if_neg (by decide)]

include hq h45 hG in
theorem arrays_of_arrBufs3 :
    (Pipeline.arrBufs (Ix := Unit) (Name := ℕ) (U := UR sig nD τ) (Lvl := ℕ) spec3 c V : sProp 𝕄) ⊢ dat.arrays G := by
  rw [arrays3_eq c dat V G hq hG, arrBufs3_eq]
  iintro ⟨H0, H1, H2, H3, H4, H6, H7, H8, H9⟩
  ihave H45 := (pointsTo_share h45).1 $$ H4
  icases H45 with ⟨H4, H5⟩
  iframe

include hq h45 hG in
theorem arrBufs_of_arrays3 :
    (dat.arrays G : sProp 𝕄) ⊢ Pipeline.arrBufs (Ix := Unit) (Name := ℕ) (U := UR sig nD τ) (Lvl := ℕ) spec3 c V := by
  rw [arrays3_eq c dat V G hq hG, arrBufs3_eq]
  iintro ⟨H0, H1, H2, H3, H4, H5, H6, H7, H8, H9⟩
  ihave H45 := (pointsTo_share h45).2 $$ [H4 H5]
  · iframe
  iframe

theorem unscopedBufs_split3 : (unscopedBufs c V : sProp 𝕄)
    = iprop((Pipeline.arrBufs spec3 c V : sProp 𝕄) ∗ Pipeline.unscopedRest spec3 c V) :=
  Pipeline.unscopedBufs_split₀ cfgs 3 winFacts₀3.arr_unscoped c V

-- For the region's entry.
include hq h45 hG in
theorem arrays_of_unscopedBufs3 :
    (unscopedBufs c V : sProp 𝕄) ⊢ iprop(dat.arrays G ∗ Pipeline.unscopedRest spec3 c V) := by
  rw [unscopedBufs_split3 c V]
  exact sep_mono (arrays_of_arrBufs3 c dat V G hq h45 hG) .rfl

-- For the region's exit: `V₀` may differ from `V` on the arrays only.
include hq h45 hG in
theorem unscopedBufs_of_arrays3 (hrest : ∀ b, b ∉ Finset.univ.image (Pipeline.arrRef spec3) → V b = V₀ b) :
    iprop(dat.arrays G ∗ Pipeline.unscopedRest spec3 c V₀) ⊢ (unscopedBufs c V : sProp 𝕄) := by
  rw [unscopedBufs_split3 c V]
  refine sep_mono (arrBufs_of_arrays3 c dat V G hq h45 hG) (Entails.of_eq ?_)
  unfold Pipeline.unscopedRest
  exact bigSep_congr fun b hb => by rw [hrest b (Finset.mem_sdiff.mp hb).2]

end Shares

end Cert.KernelIdeal.Hand

end
-- ==== Proof.Seg3.lean ====
import proofs.«418439_j46445776339038_1_alg».proof.Proof.Seg3Arr
import proofs.«418439_j46445776339038_1_alg».proof.Proof.RunData

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Seg
variable (m : (ℓ : Loc nD τ sig) → Buf (Elt F) ℓ) (ρ : Dev nD → PrngReg)

section Shares3
variable (V : (c : Dev nD) → (b : Ref sig .tc) → Buf (Elt F) ((c : Thread nD τ).loc b))

theorem q3_off (c : Dev nD) : ∀ w : Fin 10, w ≠ 4 → w ≠ 5 → (dat3 V c).q w = fullShare := fun
  | 0 => fun _ _ => rfl
  | 1 => fun _ _ => rfl
  | 2 => fun _ _ => rfl
  | 3 => fun _ _ => rfl
  | 4 => fun h _ => absurd rfl h
  | 5 => fun _ h => absurd rfl h
  | 6 => fun _ _ => rfl
  | 7 => fun _ _ => rfl
  | 8 => fun _ _ => rfl
  | 9 => fun _ _ => rfl
  | ⟨_ + 10, h⟩ => absurd h (Nat.not_lt.2 (Nat.le_add_left _ _))

end Shares3

set_option backward.isDefEq.respectTransparency.types false in
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := arrays_of_unscopedBufs3 c (dat3 (V5 m ρ) c) (V5 m ρ c) ((dat3 (V5 m ρ) c).arrAt · 0)
      (q3_off (V5 m ρ) c) share3_join (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m ρ) c)
    unfold Pipeline.ΦA
    iintro ⟨Hp, -, Hr⟩
    iframe
  hout c := by
    refine (hout3 (V5 m ρ) c).trans ?_
    rw [Pipeline.ownSems0_none]; unfold Pipeline.ΦA
    iintro ⟨Hr, Hp⟩
    isplitl [Hp]; · iexact Hp
    isplitr; · iempintro
    iexact Hr
  hexit c := by
    have hjoin := unscopedBufs_of_arrays3 c (dat3 (V5 m ρ) c) (V6 m ρ c) (V5 m ρ c) ((dat3 (V5 m ρ) c).arrAt · cfg3.N)
      (q3_off (V5 m ρ) c) share3_join (hF3 m ρ c) (hrest3 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Seg

end Cert.KernelIdeal.Hand

end
-- ==== Proof.Run.lean ====
import proofs.«418439_j46445776339038_1_alg».proof.Proof.RunData
import proofs.«418439_j46445776339038_1_alg».proof.Proof.Seg3

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A region whose arrays are distinct whole buffers held at the full share, as a segment: entered from the unscoped buffers at `Wi`, left at `Wo`. -/
def reg (p : Fin 6) (lf : Pipeline.LaunchFacts (nD := nD) (τ := τ) cfgs p) (Wi Wo : Dev nD → Valuation τ sig (Elt F))
    (hb : ∀ c, BodyObligation (pdats m ρ p c) (defs₀ (F := F)) Variants.none () Set.univ)
    (hA : ∀ c w, (pdats m ρ p c).A w = Wi c (Pipeline.arrRef (cfgs p).spec w))
    (hi : ∀ c, Pipeline.ΦA (cfgs p).spec c ⊢ (pdats m ρ p c).Φ 0)
    (ho : ∀ c, (pdats m ρ p c).Φ (Fin.last (cfgs p).N) ⊢ Pipeline.ΦA (cfgs p).spec c)
    (hF : ∀ c w, (pdats m ρ p c).arrAt w (cfgs p).N = Wo c (Pipeline.arrRef (cfgs p).spec w))
    (hr : ∀ c (b : Ref sig .tc), b ∉ Finset.univ.image (Pipeline.arrRef (cfgs p).spec) → Wo c b = Wi c b)
    (hz : ∀ c t, (pdats m ρ p c).owed t = 0 := by exact fun _ _ => rfl) (hrc : ∀ c x, x ∈ (pdats m ρ p c).recorded 0 := by exact fun _ _ => trivial)
    (hq : ∀ c w, (pdats m ρ p c).q w = fullShare := by exact fun _ _ => rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    unfold Pipeline.Dat.owesAt Pipeline.owesWithin; rw [hz c 0]
    icases HO with ⟨%W, HO⟩; iexists W; isplitr; · ipureintro; exact fun _ _ => Or.inl (hrc c _)
    iexact HO
  hin c := by
    have h := hi c
    unfold Pipeline.ΦA at h
    iintro ⟨Hp, -, Hr⟩
    iapply h
    iframe
  hout c := by
    rw [Pipeline.ownSems0_none]
    have h := ho c
    unfold Pipeline.ΦA at h
    iintro H
    ihave H' := h $$ H
    icases H' with ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (hF c) (hr c)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [hz c (Fin.last _)]
    icases HO with ⟨%W, -, HO⟩; iexists W; iexact HO

/-- The five regions with distinct arrays, each at its boundary contents. -/
abbrev reg0 := reg m ρ 0 launch0 (W1 m ρ) (W2 m ρ) (body_obligation0 (V1 m ρ)) (A_eq0 (V1 m ρ)) (hin0 (V1 m ρ)) (hout0 (V1 m ρ)) (hF0 m ρ) (hrest0 m ρ)
abbrev reg1 := reg m ρ 1 launch1 (W2 m ρ) (W3 m ρ) (body_obligation1 (V2 m ρ)) (A_eq1 (V2 m ρ)) (hin1 (V2 m ρ)) (hout1 (V2 m ρ)) (hF1 m ρ) (hrest1 m ρ)
abbrev reg2 := reg m ρ 2 launch2 (W3 m ρ) (W4 m ρ) (body_obligation2 (V3 m ρ)) (A_eq2 (V3 m ρ)) (hin2 (V3 m ρ)) (hout2 (V3 m ρ)) (hF2 m ρ) (hrest2 m ρ)
abbrev reg4 := reg m ρ 4 launch4 (W7 m ρ) (W8 m ρ) (body_obligation4 (V7 m ρ)) (A_eq4 (V7 m ρ)) (hin4 (V7 m ρ)) (hout4 (V7 m ρ)) (hF4 m ρ) (hrest4 m ρ)
abbrev reg5 := reg m ρ 5 launch5 (W8 m ρ) (W9 m ρ) (body_obligation5 (V8 m ρ)) (A_eq5 (V8 m ρ)) (hin5 (V8 m ρ)) (hout5 (V8 m ρ)) (hF5 m ρ) (hrest5 m ρ)
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .region (reg5 m ρ),
    .host (hseg hostOps6 hostOps6_sub hostOps6_fresh (W9 m ρ)) ]

theorem main_run (c : Dev nD) : main (F := F) c = Pipeline.Seg.run (segs m ρ) := (main_chain c).trans (by chain_rfl)

set_option backward.isDefEq.respectTransparency.types false in
/-- Every weakly fair execution of @main terminates with each unscoped buffer at the last boundary's contents: the result at `W10`, every argument as launched. -/
theorem run_value : θ_run defs (onTc (τ := τ) (main (F := F))) ⟨m, fun _ => 0, ρ⟩ (fun r => ∀ c : Dev nD,
      r.2.mem ((c.tc : Thread nD τ).loc main_v43) = W10 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      have a {b} hb {v} (e : W10 m ρ c (Proc.devRef .tc b) = v) := (h c _ (mem_uc b hb)).trans e
      ⟨h c _ (mem_uc main_v43 (by decide)), a (by decide) (Gen.V10_main_arg0 m _ c), a (by decide) (Gen.V10_main_arg1 m _ c),
        a (by decide) (Gen.V10_main_arg2 m _ c), a (by decide) (Gen.V10_main_arg3 m _ c), a (by decide) (Gen.V10_main_arg4 m _ c),
        a (by decide) (Gen.V10_main_arg5 m _ c), a (by decide) (Gen.V10_main_arg6 m _ c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.K.R0Frame.lean ====
import proofs.«418439_j46445776339038_1_alg».proof.Proof.Gen.Kernel.Launch
import proofs.«418439_j46445776339038_1_alg».proof.Proof.Gen.Kernel.Skeleton
import proofs.«418439_j46445776339038_1_alg».proof.Proof.Gen.Kernel.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x32 .f32 := win0_5.stage (cfg0.slots t 5)
abbrev hs0_5 (t : Fin cfg0.N) : (ms0_5 t).IsWhole := hstage0_5 ((cfg0.slots t 5).cast nbuf0_5)
abbrev scM0_0 : Memref sig .tc .vmem S256x64 .f32 := Memref.whole cc0_scratch0
abbrev scM0_1 : Memref sig .tc .vmem S256x32 .f32 := Memref.whole cc0_scratch1

abbrev rest0 (c : Dev nD) : sProp 𝕄 :=
  Pipeline.scopedRestBut (Ix := Unit) (Name := ℕ) (U := UR sig nD τ) (Lvl := ℕ) (Val := Elt F) spec0 c [cc0_scratch0, cc0_scratch1]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

set_option maxHeartbeats 1000000 in
/-- `k < 3`: the accumulators end at `a0`, `a1` plus this block's products, where `a0`, `a1` are the zero fills if `k = 0` and what was found otherwise. -/
theorem run0_AB (c : Dev nD) (i : grid0.Coords) (arg2 arg3 : Memref sig .tc .vmem S256x1 .i32) (arg4 : Memref sig .tc .vmem S2048x64 .f32) (arg5 : Memref sig .tc .vmem S2048x32 .f32) (arg6 : Memref sig .tc .vmem S256x64 .f32) (arg7 : Memref sig .tc .vmem S256x32 .f32) (arg8 : Memref sig .tc .vmem S256x64 .f32) (arg9 : Memref sig .tc .vmem S256x32 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (x0 x1 : Vec F S256x1 .i32) (x2 : Vec F S2048x64 .f32) (x3 : Vec F S2048x32 .f32) (xs0 : Vec F S256x64 .f32) (xs1 : Vec F S256x32 .f32) (a0 : Vec F S256x64 .f32) (a1 : Vec F S256x32 .f32) (E : Set ℕ) (K : PUnit → sProp 𝕄) (hc1 : ¬cond0_1 i)
    (h : cond0_0 i ∧ a0 = k0_pay2 ∧ a1 = k0_pay3 ∨ ¬cond0_0 i ∧ a0 = xs0 ∧ a1 = xs1) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare (k0_pay5 i x0 a0 x2) ∗ owns (c : Thread nD τ) arg9 fullShare (k0_pay1 (k0_pay6 i x1 a1 x3))) -∗ K ⟨⟩))
      ⊢ wp frame (wpE (defs₀ (F := F)) Variants.none c none) E (cc0__gather_small_kernel i arg2 harg2 arg3 harg3 arg4 harg4 arg5 harg5 arg6 harg6 arg7 harg7 arg8 harg8 arg9 harg9) K := by
  rcases h with ⟨hc0, rfl, rfl⟩ | ⟨hc0, rfl, rfl⟩ <;> (
    simp only [cc0__gather_small_kernel_eq_skeleton]; unfold cc0__gather_small_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]
    · iexists _; isplitr
      swap; · iexact HS0
      ipureintro
      try sl_unfold_words
      rw [read_store_whole]; repeat rw [readAt_whole]; repeat rw [readCov_whole]
    iexists _; isplitr
    swap; · iexact HS1
    ipureintro
    try sl_unfold_words
    rw [read_store_whole]; repeat rw [readAt_whole]; repeat rw [readCov_whole])

set_option maxHeartbeats 1000000 in
/-- `k = 3`: as for `0 < k < 3`, and both outputs end equal to the accumulators. -/
theorem run0_C (c : Dev nD) (i : grid0.Coords) (arg2 arg3 : Memref sig .tc .vmem S256x1 .i32) (arg4 : Memref sig .tc .vmem S2048x64 .f32) (arg5 : Memref sig .tc .vmem S2048x32 .f32) (arg6 : Memref sig .tc .vmem S256x64 .f32) (arg7 : Memref sig .tc .vmem S256x32 .f32) (arg8 : Memref sig .tc .vmem S256x64 .f32) (arg9 : Memref sig .tc .vmem S256x32 .f32) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole)
    (x0 x1 : Vec F S256x1 .i32) (x2 : Vec F S2048x64 .f32) (x3 : Vec F S2048x32 .f32) (xs0 : Vec F S256x64 .f32) (xs1 : Vec F S256x32 .f32) (E : Set ℕ) (K : PUnit → sProp 𝕄) (hc0 : ¬cond0_0 i) (hc1 : cond0_1 i) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 i x0 xs0 x2) ∗ owns (c : Thread nD τ) arg7 fullShare (k0_pay1 (k0_pay6 i x1 xs1 x3))
            ∗ owns (c : Thread nD τ) arg8 fullShare (k0_pay5 i x0 xs0 x2) ∗ owns (c : Thread nD τ) arg9 fullShare (k0_pay1 (k0_pay6 i x1 xs1 x3))) -∗ K ⟨⟩))
      ⊢ wp frame (wpE (defs₀ (F := F)) Variants.none c none) E (cc0__gather_small_kernel i arg2 harg2 arg3 harg3 arg4 harg4 arg5 harg5 arg6 harg6 arg7 harg7 arg8 harg8 arg9 harg9) K := by
  simp only [cc0__gather_small_kernel_eq_skeleton]; unfold cc0__gather_small_kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    try sl_unfold_words
    rw [read_store_whole]; repeat rw [readAt_whole]; repeat rw [readCov_whole]
  isplitl [H5]
  · iexists _; isplitr
    swap; · iexact H5
    ipureintro
    try sl_unfold_words
    rw [read_store_whole]; repeat rw [readAt_whole]; repeat rw [readCov_whole]
  isplitl [HS0]
  · iexists _; isplitr
    swap; · iexact HS0
    ipureintro
    try sl_unfold_words
    rw [read_store_whole]; repeat rw [readAt_whole]; repeat rw [readCov_whole]
  iexists _; isplitr
  swap; · iexact HS1
  ipureintro
  try sl_unfold_words
  rw [read_store_whole]; repeat rw [readAt_whole]; repeat rw [readCov_whole]

section Region
variable (V : (c : Dev nD) → (b : Ref sig .tc) → Buf (Elt F) ((c : Thread nD τ).loc b))

/-- The block of window `w` at point `t`, cut from the array contents `V` on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One step of the accumulation: the pair `a` plus the products of point `t`'s blocks. -/
def upd0 (c : Dev nD) (t : Fin cfg0.N) (a : Vec F S256x64 .f32 × Vec F S256x32 .f32) : Vec F S256x64 .f32 × Vec F S256x32 .f32 :=
  (k0_pay5 (grid0.coords t) (iblk0 V c 0 t) a.1 (iblk0 V c 2 t), k0_pay1 (k0_pay6 (grid0.coords t) (iblk0 V c 1 t) a.2 (iblk0 V c 3 t)))

/-- The accumulators after position `n`: a step from the zero fills when `n ≡ 0 (mod 4)`, from position `n - 1` otherwise. -/
def acc0 (c : Dev nD) : (n : ℕ) → n < cfg0.N → Vec F S256x64 .f32 × Vec F S256x32 .f32
  | 0, hn => upd0 V c ⟨0, hn⟩ (k0_pay2, k0_pay3)
  | n + 1, hn => upd0 V c ⟨n + 1, hn⟩ (if (n + 1) % 4 = 0 then (k0_pay2, k0_pay3) else acc0 c n (Nat.lt_of_succ_lt hn))

theorem acc0_first (c : Dev nD) (t : Fin cfg0.N) (h0 : t.val % 4 = 0) : acc0 V c t.val t.isLt = upd0 V c t (k0_pay2, k0_pay3) := by
  obtain ⟨n, hn⟩ := t
  cases n with
  | zero => rfl
  | succ n => exact congrArg _ (if_pos h0)

theorem acc0_next (c : Dev nD) (t : Fin cfg0.N) (h0 : ¬t.val % 4 = 0) :
    acc0 V c t.val t.isLt = upd0 V c t (acc0 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The invariant with the accumulators holding the pair `a`. -/
abbrev PhiAt0 (c : Dev nD) (a : Vec F S256x64 .f32 × Vec F S256x32 .f32) : sProp 𝕄 :=
  iprop(iprop(iprop(owns (c : Thread nD τ) scM0_0 fullShare a.1 ∗ owns (c : Thread nD τ) scM0_1 fullShare a.2) ∗ rest0 c) ∗ (∃ r, prngReg c r))

/-- Before position `0` nothing is known of the accumulators; before `n + 1` they hold `acc0 n`. -/
def PhiS0 (c : Dev nD) : (n : ℕ) → n ≤ cfg0.N → sProp 𝕄
  | 0, _ => Pipeline.ΦA spec0 c
  | n + 1, hn => PhiAt0 c (acc0 V c n hn)

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) : PhiS0 V c n h = PhiAt0 c (acc0 V c (n - 1) (by omega)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d

theorem leaves0_0 (c : Dev nD) (t : Fin cfg0.N) : (dat0 V c).leavesExact 0 t = owns (c : Thread nD τ) (ms0_0 t) fullShare (iblk0 V c 0 t) := by
  unfold Dat.leavesExact; rw [liveAt0_0 t]; rfl
theorem leaves0_1 (c : Dev nD) (t : Fin cfg0.N) : (dat0 V c).leavesExact 1 t = owns (c : Thread nD τ) (ms0_1 t) fullShare (iblk0 V c 1 t) := by
  unfold Dat.leavesExact; rw [liveAt0_1 t]; rfl
theorem leaves0_2 (c : Dev nD) (t : Fin cfg0.N) : (dat0 V c).leavesExact 2 t = owns (c : Thread nD τ) (ms0_2 t) fullShare (iblk0 V c 2 t) := by
  unfold Dat.leavesExact; rw [liveAt0_2 t]; rfl
theorem leaves0_3 (c : Dev nD) (t : Fin cfg0.N) : (dat0 V c).leavesExact 3 t = owns (c : Thread nD τ) (ms0_3 t) fullShare (iblk0 V c 3 t) := by
  unfold Dat.leavesExact; rw [liveAt0_3 t]; rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- Each point falls in one of the three cases by `t mod 4`; the case's triple turns `acc0 (t - 1)` into `acc0 t`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    show (dat0 V c).Φ t.succ = PhiAt0 c (acc0 V c t.val t.isLt) from rfl,
    show (dat0 V c).Φ t.castSucc = PhiS0 V c t.val (Nat.le_of_lt t.isLt) from rfl,
    leaves0_0, leaves0_1, leaves0_2, leaves0_3]
  have hN : t.val < 32 := lt_of_lt_of_eq t.isLt (show cfg0.N = 32 from N_0)
  by_cases h1 : t.val % 4 = 3
  · have hc1 : cond0_1 (grid0.coords t) := (hcond0_1 t).mpr h1
    have h0 : ¬t.val % 4 = 0 := by omega
    rw [show (dat0 V c).leavesExact 4 t = owns (c : Thread nD τ) (ms0_4 t) fullShare (acc0 V c t.val t.isLt).1 from by
        unfold Dat.leavesExact; rw [liveAt0_4 t hc1]; rfl,
      show (dat0 V c).leavesExact 5 t = owns (c : Thread nD τ) (ms0_5 t) fullShare (acc0 V c t.val t.isLt).2 from by
        unfold Dat.leavesExact; rw [liveAt0_5 t hc1]; rfl,
      acc0_next V c t h0, PhiS0_pos V c _ _ (fun e => h0 (by rw [e]))]
    unfold upd0 PhiAt0; dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply (run0_C c (grid0.coords t) _ _ _ _ _ _ _ _ _ _ _ _ _ _ _ _ (iblk0 V c 0 t) (iblk0 V c 1 t) (iblk0 V c 2 t) (iblk0 V c 3 t) _ _ Set.univ _ (fun h => h0 ((hcond0_0 t).mp h)) hc1)
    iframe
    isplitl [H4]; · iexists _; iexact H4
    isplitl [H5]; · iexists _; iexact H5
    iintro ⟨H0, H1, H2, H3, H4, H5, HS0, HS1⟩
    iframe
  · have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    by_cases h0 : t.val % 4 = 0
    · rw [acc0_first V c t h0]
      unfold upd0 PhiAt0; dsimp only
      by_cases hz : t.val = 0
      · rw [PhiS0_zero V c _ _ hz, PhiA0_eq]
        iintro ⟨⟨⟨⟨⟨%e0, HS0⟩, ⟨%e1, HS1⟩⟩, Hr⟩, Hg⟩, Ho, ⟨%d0, H0⟩, ⟨%d1, H1⟩, ⟨%d2, H2⟩, ⟨%d3, H3⟩, H4, H5⟩
        iapply (run0_AB c (grid0.coords t) _ _ _ _ _ _ _ _ _ _ _ _ _ _ _ _ (iblk0 V c 0 t) (iblk0 V c 1 t) (iblk0 V c 2 t) (iblk0 V c 3 t) _ _ _ _ Set.univ _ hc1 (.inl ⟨(hcond0_0 t).mpr h0, rfl, rfl⟩))
        iframe
        iintro ⟨H0, H1, H2, H3, HS0, HS1⟩
        iframe
      · rw [PhiS0_pos V c _ _ hz]
        iintro ⟨⟨⟨⟨HS0, HS1⟩, Hr⟩, Hg⟩, Ho, ⟨%d0, H0⟩, ⟨%d1, H1⟩, ⟨%d2, H2⟩, ⟨%d3, H3⟩, H4, H5⟩
        iapply (run0_AB c (grid0.coords t) _ _ _ _ _ _ _ _ _ _ _ _ _ _ _ _ (iblk0 V c 0 t) (iblk0 V c 1 t) (iblk0 V c 2 t) (iblk0 V c 3 t) _ _ _ _ Set.univ _ hc1 (.inl ⟨(hcond0_0 t).mpr h0, rfl, rfl⟩))
        iframe
        iintro ⟨H0, H1, H2, H3, HS0, HS1⟩
        iframe
    · rw [acc0_next V c t h0, PhiS0_pos V c _ _ (fun e => h0 (by rw [e]))]
      unfold upd0 PhiAt0; dsimp only
      iintro ⟨⟨⟨⟨HS0, HS1⟩, Hr⟩, Hg⟩, Ho, ⟨%d0, H0⟩, ⟨%d1, H1⟩, ⟨%d2, H2⟩, ⟨%d3, H3⟩, H4, H5⟩
      iapply (run0_AB c (grid0.coords t) _ _ _ _ _ _ _ _ _ _ _ _ _ _ _ _ (iblk0 V c 0 t) (iblk0 V c 1 t) (iblk0 V c 2 t) (iblk0 V c 3 t) _ _ _ _ Set.univ _ hc1 (.inr ⟨fun h => h0 ((hcond0_0 t).mp h), rfl, rfl⟩))
      iframe
      iintro ⟨H0, H1, H2, H3, HS0, HS1⟩
      iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Idealize.SL.BI.Entails.refl _

/-- After the last point the accumulators' contents are forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_pos V c _ _ (by have : cfg0.N = 32 := N_0; omega), PhiA0_eq]
  iintro ⟨⟨⟨HS0, HS1⟩, Hr⟩, Hg⟩
  iframe
  isplitl [HS0]; · iexists _; iexact HS0
  iexists _; iexact HS1

end Region

end Cert.Kernel.Hand

end
-- ==== Proof.K.R1Frame.lean ====
import proofs.«418439_j46445776339038_1_alg».proof.Proof.Gen.Kernel.Launch
import proofs.«418439_j46445776339038_1_alg».proof.Proof.Gen.Kernel.Skeleton
import proofs.«418439_j46445776339038_1_alg».proof.Proof.Gen.Kernel.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S256x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev scM1 : Memref sig .tc .vmem S256x1024 .f32 := Memref.whole cc1_scratch0

-- The region's invariant with the accumulator's part `A` set apart.
def Phi1 (c : Dev nD) (A : sProp 𝕄) : sProp 𝕄 :=
  iprop(iprop(A ∗ Pipeline.scopedRestBut (Ix := Unit) (Name := ℕ) (U := UR sig nD τ) (Lvl := ℕ) (Val := Elt F) spec1 c [cc1_scratch0]) ∗ (∃ r, prngReg c r))

theorem PhiA1_eq (c : Dev nD) : (Pipeline.ΦA spec1 c : sProp 𝕄) = Phi1 c iprop(∃ d, owns (c : Thread nD τ) scM1 fullShare d) := by
  unfold Pipeline.ΦA Phi1; rw [scopedRest1_split]; simp only [scM1, owns_whole]; try rfl

section Body
variable (c : Dev nD) {i : grid1.Coords} {arg3 : Memref sig .tc .vmem S256x1 .i32} {harg3 : arg3.IsWhole} {arg4 : Memref sig .tc .vmem S1024x1024 .f32} {harg4 : arg4.IsWhole} {arg5 arg6 : Memref sig .tc .vmem S256x1024 .f32} {harg5 : arg5.IsWhole} {harg6 : arg6.IsWhole}
  (x0 : Vec F S256x1 .i32) (x1 : Vec F S1024x1024 .f32) {xi xs : Vec F S256x1024 .f32}

set_option maxHeartbeats 1000000 in
-- The body adds the block's product to the accumulator (to zero where the accumulator is reset) and, at a last contraction block, copies the sum to the output.
theorem run1 (h01 : cond1_0 i → ¬cond1_1 i) {E : Set ℕ} {K : PUnit → sProp 𝕄} :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare (if cond1_1 i then k1_pay2 i x0 (if cond1_0 i then k1_pay1 else xs) x1 else xi) ∗ owns (c : Thread nD τ) arg6 fullShare (k1_pay2 i x0 (if cond1_0 i then k1_pay1 else xs) x1)) -∗ K ⟨⟩))
      ⊢ wp frame (wpE (defs₀ (F := F)) Variants.none c none) E (cc1__gather_rows_kernel i arg3 harg3 arg4 harg4 arg5 harg5 arg6 harg6) K := by
  by_cases hc0 : cond1_0 i <;> by_cases hc1 : cond1_1 i
  · exact absurd hc1 (h01 hc0)
  all_goals
    first | rw [if_pos hc0] | rw [if_neg hc0]
    first | rw [if_pos hc1] | rw [if_neg hc1]
    simp only [cc1__gather_rows_kernel_eq_skeleton]; unfold cc1__gather_rows_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr
      swap; · iexact H2
      ipureintro
      first
      | exact (fun _ => hf2) (hc1 : ¬cond1_1 i)
      | try sl_unfold_words
        refine (read_store_whole _ _ _ _ _).trans ((readCov_whole _ _ _).trans ?_)
        exact congr (congr (congrArg (k1_pay2 i) (readAt_whole _ harg3 x0)) (readAt_whole _ harg6 xs)) (readAt_whole _ harg4 x1)
    iexists _; isplitr
    swap; · iexact HS0
    ipureintro
    try sl_unfold_words
    refine (read_store_whole _ _ _ _ _).trans (congr (congr (congrArg (k1_pay2 i) (readAt_whole _ harg3 x0)) ?_) (readAt_whole _ harg4 x1))
    first
    | exact (fun _ => readCov_whole _ _ _) (hc0 : cond1_0 i)
    | exact readAt_whole _ harg6 xs

end Body

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The accumulator after point `n`: the point's product added to zero at a first contraction block, to what the point before left elsewhere.
def acc1 (c : Dev nD) : (n : ℕ) → n < cfg1.N → Vec F S256x1024 .f32
  | 0, hn => k1_pay2 (grid1.coords ⟨0, hn⟩) (iblk1 V c 0 ⟨0, hn⟩) (k1_pay1 (F := F)) (iblk1 V c 1 ⟨0, hn⟩)
  | n + 1, hn => k1_pay2 (grid1.coords ⟨n + 1, hn⟩) (iblk1 V c 0 ⟨n + 1, hn⟩) (if cond1_0 (grid1.coords ⟨n + 1, hn⟩) then k1_pay1 (F := F) else acc1 c n (Nat.lt_of_succ_lt hn)) (iblk1 V c 1 ⟨n + 1, hn⟩)

-- The same from any accumulator contents `xs` that are the point before's wherever there is one.
theorem acc1_eq (c : Dev nD) (t : Fin cfg1.N) (xs : Vec F S256x1024 .f32) (h : t.val ≠ 0 → xs = acc1 V c (t.val - 1) (Nat.lt_of_le_of_lt (Nat.sub_le _ _) t.isLt)) :
    acc1 V c t.val t.isLt = k1_pay2 (grid1.coords t) (iblk1 V c 0 t) (if cond1_0 (grid1.coords t) then k1_pay1 else xs) (iblk1 V c 1 t) := by
  obtain ⟨n, hn⟩ := t
  cases n with
  | zero => rw [if_pos ((hcond1_0 _).mpr rfl)]; rfl
  | succ n => rw [h (Nat.succ_ne_zero n)]; rfl

def PhiS1 (c : Dev nD) : (n : ℕ) → n ≤ cfg1.N → sProp 𝕄
  | 0, _ => Pipeline.ΦA spec1 c
  | n + 1, hn => Phi1 c (owns (c : Thread nD τ) scM1 fullShare (acc1 V c n hn))

theorem PhiS1_pos (c : Dev nD) (n : ℕ) (h : n ≤ cfg1.N) (hz : n ≠ 0) :
    PhiS1 V c n h = Phi1 c (owns (c : Thread nD τ) scM1 fullShare (acc1 V c (n - 1) (by omega))) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = acc1 V c t.val t.isLt := by dsimp only [dat1]

-- At every point the body is handed each input window's block.
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

-- What the body owes the output window: the accumulator's contents at a last contraction block, what it found elsewhere.
theorem leaves1_2 (c : Dev nD) (t : Fin cfg1.N) (d) {a : Vec F S256x1024 .f32} (ha : acc1 V c t.val t.isLt = a) :
    (owns (c : Thread nD τ) (ms1_2 t) fullShare (if cond1_1 (grid1.coords t) then a else (dat1 V c).before 2 t d) : sProp 𝕄) ⊢ (dat1 V c).leavesExact 2 t := by
  subst ha
  by_cases h1 : cond1_1 (grid1.coords t)
  · rw [if_pos h1, show (dat1 V c).leavesExact 2 t = owns (c : Thread nD τ) (ms1_2 t) fullShare ((dat1 V c).after 2 t) from by
      unfold Dat.leavesExact; rw [liveAt1_2 t h1], after1_2]
  · rw [if_neg h1, Dat.leavesExact_idle (dat1 V c) 2 t (idleAt1_2 t h1) (noFlush1_2 t h1)]
    iintro H; iexists _; iexact H

theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ => iprop((dat1 V c).Φ t.succ ∗ (dat1 V c).owesAt () t.succ
      ∗ (dat1 V c).leavesExact 0 t ∗ (dat1 V c).leavesExact 1 t ∗ (dat1 V c).leavesExact 2 t)) := by
  unfold bodyAt1
  simp only [before1_0, before1_1]
  rw [show (dat1 V c).owesAt () t.succ = (dat1 V c).owesAt () t.castSucc from rfl]
  rw [show (dat1 V c).Φ t.succ = Phi1 c (owns (c : Thread nD τ) scM1 fullShare (acc1 V c t.val t.isLt)) from rfl]
  rw [show (dat1 V c).leavesExact 0 t = owns (c : Thread nD τ) (ms1_0 t) fullShare (iblk1 V c 0 t) from by
    unfold Dat.leavesExact; rw [liveAt1_0 t]; rfl]
  rw [show (dat1 V c).leavesExact 1 t = owns (c : Thread nD τ) (ms1_1 t) fullShare (iblk1 V c 1 t) from by
    unfold Dat.leavesExact; rw [liveAt1_1 t]; rfl]
  have h01 : cond1_0 (grid1.coords t) → ¬cond1_1 (grid1.coords t) := fun a b => by
    have := (hcond1_0 t).mp a; have := (hcond1_1 t).mp b; omega
  rw [show (dat1 V c).Φ t.castSucc = PhiS1 V c t.val (Nat.le_of_lt t.isLt) from rfl]
  by_cases hz : t.val = 0
  case' pos =>
    rw [show PhiS1 V c t.val (Nat.le_of_lt t.isLt) = Pipeline.ΦA spec1 c from by
      obtain ⟨n, hn⟩ := t; subst hz; rfl, PhiA1_eq]
    unfold Phi1
    iintro ⟨⟨⟨⟨%ds, HS0⟩, Hr⟩, Hg⟩, Ho, ⟨%d0, H0⟩, ⟨%d1, H1⟩, ⟨%d2, H2⟩⟩
    have e := acc1_eq V c t ds (fun h => absurd hz h)
  case' neg =>
    rw [PhiS1_pos V c _ _ hz]
    unfold Phi1
    iintro ⟨⟨⟨HS0, Hr⟩, Hg⟩, Ho, ⟨%d0, H0⟩, ⟨%d1, H1⟩, ⟨%d2, H2⟩⟩
    have e := acc1_eq V c t _ (fun _ => rfl)
  all_goals
    rw [e]
    iapply (run1 c (iblk1 V c 0 t) (iblk1 V c 1 t) h01)
    iframe
    iintro ⟨H0, H1, H2, HS0⟩
    iframe
    iapply (leaves1_2 V c t d2 e)
    iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Entails.refl _

-- After the last point the accumulator's contents are forgotten.
theorem hout1 (c : Dev nD) : (dat1 V c).Φ (Fin.last cfg1.N) ⊢ Pipeline.ΦA spec1 c := by
  rw [show (dat1 V c).Φ (Fin.last cfg1.N) = PhiS1 V c cfg1.N (Nat.le_refl _) from rfl, PhiS1_pos V c _ _ (by have : cfg1.N = 512 := N_1; omega), PhiA1_eq]
  unfold Phi1
  iintro ⟨⟨HS0, Hr⟩, Hg⟩
  iframe
  iexists _; iexact HS0

end Cert.Kernel.Hand

end
-- ==== Proof.K.R2Frame.lean ====
import proofs.«418439_j46445776339038_1_alg».proof.Proof.Gen.Kernel.Launch
import proofs.«418439_j46445776339038_1_alg».proof.Proof.Gen.Kernel.Skeleton
import proofs.«418439_j46445776339038_1_alg».proof.Proof.Gen.Kernel.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 16 = 0 :=
  (by decide +kernel : ∀ t : Fin grid2.N, cond2_0 (grid2.coords t) ↔ t.val % 16 = 0)

abbrev cond2_1 (i : grid2.Coords) : Prop := k2_cond2 i = 1#1
theorem hcond2_1 : ∀ t : Fin cfg2.N, cond2_1 (grid2.coords t) ↔ t.val % 16 = 15 :=
  (by decide +kernel : ∀ t : Fin grid2.N, cond2_1 (grid2.coords t) ↔ t.val % 16 = 15)

theorem idle2_2 : ∀ t : Fin cfg2.N, (cond2_1 (grid2.coords t) → cfg2.idle 2 (grid2.coords t) = false)
    ∧ (¬cond2_1 (grid2.coords t) → cfg2.idle 2 (grid2.coords t) = true ∧ (cfg2.win 2).flush t = false) := by decide +kernel

abbrev scM2_0 : Memref sig .tc .vmem S256x2048 .f32 := Memref.whole cc2_scratch0

theorem PhiA2_eq (c : Dev nD) :
    (Pipeline.ΦA spec2 c : sProp 𝕄)
      = iprop(iprop((∃ d, owns c.tc scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- What the body leaves in an accumulator found at `xs`: the block's product added to the zero fill at a first contraction block, to `xs` elsewhere. -/
def nxt2 (i : grid2.Coords) (x1 : Vec F S2048x1 .i32) (x0 : Vec F S256x512 .f32) (xs : Vec F S256x2048 .f32) : Vec F S256x2048 .f32 :=
  k2_pay2 i x1 x0 (if cond2_0 i then k2_pay1 else xs)

set_option maxHeartbeats 1000000 in
/-- The body at a point that is not both a first and a last contraction block: the accumulator goes from `xs` to `nxt2 … xs`; the output's block is overwritten with the same at a last contraction block and untouched elsewhere. -/
theorem run2 (c : Dev nD) (i : grid2.Coords) {a2 : Memref sig .tc .vmem S256x512 .f32} (h2 : a2.IsWhole) {a3 : Memref sig .tc .vmem S2048x1 .i32} (h3 : a3.IsWhole)
    {a4 a5 : Memref sig .tc .vmem S256x2048 .f32} (h4 : a4.IsWhole) (h5 : a5.IsWhole) (hx : cond2_0 i → ¬cond2_1 i)
    (x0 : Vec F S256x512 .f32) (x1 : Vec F S2048x1 .i32) (xi xs : Vec F S256x2048 .f32) (E : Set ℕ) (K : PUnit → sProp 𝕄) :
    iprop(owns c.tc a2 fullShare x0 ∗ owns c.tc a3 fullShare x1 ∗ owns c.tc a4 fullShare xi ∗ owns c.tc a5 fullShare xs
        ∗ (iprop(owns c.tc a2 fullShare x0 ∗ owns c.tc a3 fullShare x1 ∗ owns c.tc a4 fullShare (if cond2_1 i then nxt2 i x1 x0 xs else xi) ∗ owns c.tc a5 fullShare (nxt2 i x1 x0 xs)) -∗ K ⟨⟩))
      ⊢ wp frame (wpE (defs₀ (F := F)) Variants.none c none) E (cc2__gather_cols_kernel i a2 h2 a3 h3 a4 h4 a5 h5) K := by
  unfold nxt2
  by_cases hc0 : cond2_0 i <;> by_cases hc1 : cond2_1 i
  · exact absurd hc1 (hx hc0)
  all_goals
    first | rw [if_pos hc0] | rw [if_neg hc0]
    first | rw [if_pos hc1] | rw [if_neg hc1]
    simp only [cc2__gather_cols_kernel_eq_skeleton]; unfold cc2__gather_cols_kernel_skel owns
    iintro ⟨⟨%f0, %hf0, H0⟩, ⟨%f1, %hf1, H1⟩, ⟨%f2, %hf2, H2⟩, ⟨%f3, %hf3, H3⟩, Hk⟩
    obtain rfl := h2.eq_unread hf0; obtain rfl := h3.eq_unread hf1; obtain rfl := h4.eq_unread hf2; obtain rfl := h5.eq_unread hf3
    have hp {z z' : Vec F S256x2048 .f32} (h : z = z') :=
      congr (congr (congrArg (k2_pay2 i) (readAt_whole inb_S2048x1_S2048x1_0_0 h3 x1)) (readAt_whole inb_S256x512_S256x512_0_0 h2 x0)) h
    sl_exec (disch := first | exact hc0 | exact hc1)
    sl_step
    iapply Hk
    isplitl [H0]; · iexists _; isplitr; swap; · iexact H0
                    ipureintro; exact h2.read_unread _
    isplitl [H1]; · iexists _; isplitr; swap; · iexact H1
                    ipureintro; exact h3.read_unread _
    isplitl [H2]; · iexists _; isplitr; swap; · iexact H2
                    ipureintro; try sl_unfold_words
                    first
                      | rw [h4.read_unread]
                      | (rw [read_store_whole inb_S256x2048_S256x2048_0_0, readCov_whole inb_S256x2048_S256x2048_0_0]; exact hp (readAt_whole inb_S256x2048_S256x2048_0_0 h5 xs))
    iexists _; isplitr; swap; · iexact H3
    ipureintro; try sl_unfold_words
    rw [read_store_whole inb_S256x2048_S256x2048_0_0]
    first
      | (rw [readCov_whole inb_S256x2048_S256x2048_0_0]; exact hp rfl)
      | exact hp (readAt_whole inb_S256x2048_S256x2048_0_0 h5 xs)

/-- What the accumulator holds after the body at position `n`. -/
def acc2 (c : Dev nD) : (n : ℕ) → n < cfg2.N → Vec F S256x2048 .f32
  | 0, hn => nxt2 (grid2.coords ⟨0, hn⟩) (iblk2 V c 1 ⟨0, hn⟩) (iblk2 V c 0 ⟨0, hn⟩) k2_pay1
  | n + 1, hn => nxt2 (grid2.coords ⟨n + 1, hn⟩) (iblk2 V c 1 ⟨n + 1, hn⟩) (iblk2 V c 0 ⟨n + 1, hn⟩) (acc2 c n (Nat.lt_of_succ_lt hn))

/-- The region invariant before position `n`: the accumulator holds what the point before left, or anything before the first point. -/
def PhiS2 (c : Dev nD) (n : ℕ) (h : n ≤ cfg2.N) : sProp 𝕄 :=
  iprop(iprop((∃ d, ⌜∀ h0 : n ≠ 0, d = acc2 V c (n - 1) (by omega)⌝ ∗ owns c.tc scM2_0 fullShare d) ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem before2 (c : Dev nD) (t : Fin cfg2.N) :
    (∀ d, (dat2 V c).before 0 t d = iblk2 V c 0 t) ∧ ∀ d, (dat2 V c).before 1 t d = iblk2 V c 1 t :=
  ⟨fun d => ((dat2 V c).before_in_eq_fetched 0 rfl (fun _ => rfl) (fun _ _ _ => rfl) (fun _ => rfl) t d).trans rfl,
    fun d => ((dat2 V c).before_in_eq_fetched 1 rfl (fun _ => rfl) (fun _ _ _ => rfl) (fun _ => rfl) t d).trans rfl⟩

/-- The accumulator the body leaves, when found at the invariant's contents, is this position's. -/
theorem acc2_step (c : Dev nD) (t : Fin cfg2.N) (d) (hd : ∀ h0 : t.val ≠ 0, d = acc2 V c (t.val - 1) (by omega)) :
    nxt2 (grid2.coords t) (iblk2 V c 1 t) (iblk2 V c 0 t) d = acc2 V c t.val t.isLt := by
  obtain ⟨_ | n, hn⟩ := t
  · simp only [acc2, nxt2, if_pos ((hcond2_0 ⟨0, hn⟩).mpr rfl)]
  · rw [hd (Nat.succ_ne_zero n)]; rfl

/-- The body at any point takes the invariant's accumulator to this point's, and rewrites the output's block at a last contraction block only. -/
theorem sound_body2 (c : Dev nD) (t : Fin cfg2.N) :
    iprop(PhiS2 V c t.val (Nat.le_of_lt t.isLt) ∗ (dat2 V c).owesAt () t.castSucc
        ∗ (∃ d, owns c.tc (st2_0 t) fullShare ((dat2 V c).before 0 t d))
        ∗ (∃ d, owns c.tc (st2_1 t) fullShare ((dat2 V c).before 1 t d))
        ∗ (∃ d, owns c.tc (st2_2 t) fullShare ((dat2 V c).before 2 t d)))
      ⊢ wp frame (wpE (defs₀ (F := F)) Variants.none c none) Set.univ (bodyAt2 t) (fun _ =>
        iprop(PhiS2 V c (t.val + 1) t.isLt ∗ (dat2 V c).owesAt () t.castSucc
          ∗ owns c.tc (st2_0 t) fullShare (iblk2 V c 0 t) ∗ owns c.tc (st2_1 t) fullShare (iblk2 V c 1 t) ∗ (dat2 V c).leavesExact 2 t)) := by
  have h01 : cond2_0 (grid2.coords t) → ¬cond2_1 (grid2.coords t) := fun h0 h1 => by
    have := (hcond2_0 t).mp h0; have := (hcond2_1 t).mp h1; omega
  unfold PhiS2 bodyAt2
  simp only [(before2 V c t).1, (before2 V c t).2]
  iintro ⟨⟨⟨⟨%xs, %hd, HS0⟩, Hr⟩, Hg⟩, Ho, ⟨%d0, H0⟩, ⟨%d1, H1⟩, ⟨%d2, H2⟩⟩
  iapply (run2 c (grid2.coords t) _ _ _ _ h01 (iblk2 V c 0 t) (iblk2 V c 1 t) _ xs Set.univ _)
  iframe
  iintro ⟨H0, H1, H2, HS0⟩
  rw [acc2_step V c t xs hd]
  iframe
  isplitl [HS0]
  · iexists _; isplitr; swap; · iexact HS0
    ipureintro; exact fun _ => rfl
  by_cases hc1 : cond2_1 (grid2.coords t)
  · rw [if_pos hc1]; unfold Dat.leavesExact; rw [(idle2_2 t).1 hc1]; iexact H2
  · rw [if_neg hc1, Dat.leavesExact_idle _ 2 t ((idle2_2 t).2 hc1).1 ((idle2_2 t).2 hc1).2]; iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = PhiS2 V c 0 (Nat.zero_le _) from rfl]; unfold PhiS2
  iintro ⟨⟨⟨%d, HS0⟩, Hr⟩, Hg⟩
  iframe
  iexists d; isplitr; · ipureintro; exact fun h => absurd rfl h
  iexact HS0

theorem hout2 (c : Dev nD) : (dat2 V c).Φ (Fin.last cfg2.N) ⊢ Pipeline.ΦA spec2 c := by
  rw [PhiA2_eq, show (dat2 V c).Φ (Fin.last cfg2.N) = PhiS2 V c cfg2.N (Nat.le_refl _) from rfl]; unfold PhiS2
  iintro ⟨⟨⟨%d, -, HS0⟩, Hr⟩, Hg⟩
  iframe
  iexists _; iexact HS0

end Cert.Kernel.Hand

end
-- ==== Proof.K.R3Body.lean ====
import proofs.«418439_j46445776339038_1_alg».proof.Proof.Gen.Kernel.Skeleton

noncomputable section

namespace Cert.Kernel.Hand

open Idealize.ShloMosaic Idealize.SL.Sem
open Cert.Kernel Cert.Kernel.Gen

variable {F : FTy → Type} [FloatOps F]

-- A load of the box `B` from contents `X` reads `X` at the box's indices.
def ld {s : Shape} {e : EltTy} (X : Vec F s e) (B : LoadRect s) : B.shape.Idx → Elt F e := fun x => X (B.idx x)

def p1_arg0 (i : grid3.Coords) : BitVec 32 := BitVec.ofNat 32 (i 0).val

variable (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32)

def p1_v3 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x0 (Rect.unit (s := S256x64) ![0, 0] S256x16.size inb_S256x64_S256x16_0_0).toLoadRect
def p1_v5 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x0 (Rect.unit (s := S256x64) ![0, 16] S256x16.size inb_S256x64_S256x16_0_16).toLoadRect
def p1_v7 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x1 .f32 := ld x0 (Rect.unit (s := S256x64) ![0, 32] S256x1.size inb_S256x64_S256x1_0_32).toLoadRect
def p1_v9 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 0] S256x16.size inb_S256x32_S256x16_0_0).toLoadRect
def p1_v13 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 16] S256x16.size inb_S256x32_S256x16_0_16).toLoadRect
def p1_v17 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 16] S256x16.size inb_S256x32_S256x16_0_16).toLoadRect
def p1_v19 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x16 .f32 := ld x2 (Rect.unit (s := S256x32) ![0, 0] S256x16.size inb_S256x32_S256x16_0_0).toLoadRect
def p1_v4 : FVec F S256x16 .f32 := k3_pay4 (p1_v3 i x0 x1 x2 x3 x4 x5 x6)
def p1_v6 : FVec F S256x16 .f32 := k3_pay5 (p1_v5 i x0 x1 x2 x3 x4 x5 x6)
def p1_v8 : FVec F S256x1 .f32 := k3_pay6 (p1_v7 i x0 x1 x2 x3 x4 x5 x6)
def p1_v21 : FVec F S256x16 .f32 := k3_pay7 (p1_v17 i x0 x1 x2 x3 x4 x5 x6) (p1_v19 i x0 x1 x2 x3 x4 x5 x6)
def p1_v22 : FVec F S256x16 .f32 := k3_pay8 (p1_v3 i x0 x1 x2 x3 x4 x5 x6) (p1_v5 i x0 x1 x2 x3 x4 x5 x6)
def p1_v24 : FVec F S256x16 .f32 := k3_pay9 (p1_v3 i x0 x1 x2 x3 x4 x5 x6) (p1_v5 i x0 x1 x2 x3 x4 x5 x6)
def p1_v32 : FVec F S1x1 .f32 := k3_pay10 (p1_v3 i x0 x1 x2 x3 x4 x5 x6) (p1_v9 i x0 x1 x2 x3 x4 x5 x6)
def p1_v35 : FVec F S256x16 .f32 := k3_pay11 (p1_v5 i x0 x1 x2 x3 x4 x5 x6) (p1_v13 i x0 x1 x2 x3 x4 x5 x6)
def p1_v78 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![0, 0] S1x2048.size inb_S64x2048_S1x2048_0_0).toLoadRect
def p1_v80 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![16, 0] S1x2048.size inb_S64x2048_S1x2048_16_0).toLoadRect
def p1_v41 : FVec F S1x1 .f32 := k3_pay12 (p1_v32 i x0 x1 x2 x3 x4 x5 x6) (p1_v35 i x0 x1 x2 x3 x4 x5 x6)
def p1_v55 : FVec F S1x1 .f32 := k3_pay13 (p1_v8 i x0 x1 x2 x3 x4 x5 x6) (p1_v21 i x0 x1 x2 x3 x4 x5 x6) (p1_v22 i x0 x1 x2 x3 x4 x5 x6)
def p1_v65 : FVec F S1x1 .f32 := k3_pay14 (p1_v22 i x0 x1 x2 x3 x4 x5 x6)
def p1_v73 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : FVec F S256x2048 .f32 := k3_pay15 (F := F) (p1_arg0 i)
def p1_v74 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : FVec F S256x2048 .f32 := k3_pay16 (F := F)
def p1_v75 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : FVec F S1x1 .f32 := k3_pay17 (F := F)
def p1_v76 : FVec F S256x1 .f32 := k3_pay18 (p1_v4 i x0 x1 x2 x3 x4 x5 x6)
def p1_v77 : FVec F S256x1 .f32 := k3_pay19 (p1_v6 i x0 x1 x2 x3 x4 x5 x6)
def p1_v79 : FVec F S1x2048 .f32 := k3_pay20 (p1_v78 i x0 x1 x2 x3 x4 x5 x6)
def p1_v81 : FVec F S1x2048 .f32 := k3_pay21 (p1_v80 i x0 x1 x2 x3 x4 x5 x6)
def p1_v108 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![1, 0] S1x2048.size inb_S64x2048_S1x2048_1_0).toLoadRect
def p1_v110 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![17, 0] S1x2048.size inb_S64x2048_S1x2048_17_0).toLoadRect
def p1_v105 : FVec F S256x2048 .f32 := k3_pay22 (p1_v74 i x0 x1 x2 x3 x4 x5 x6) (p1_v76 i x0 x1 x2 x3 x4 x5 x6) (p1_v79 i x0 x1 x2 x3 x4 x5 x6)
def p1_v130 : FVec F S1x1 .f32 := k3_pay25 (p1_v4 i x0 x1 x2 x3 x4 x5 x6) (p1_v6 i x0 x1 x2 x3 x4 x5 x6) (p1_v24 i x0 x1 x2 x3 x4 x5 x6) (p1_v73 i x0 x1 x2 x3 x4 x5 x6) (p1_v75 i x0 x1 x2 x3 x4 x5 x6) (p1_v76 i x0 x1 x2 x3 x4 x5 x6) (p1_v77 i x0 x1 x2 x3 x4 x5 x6) (p1_v79 i x0 x1 x2 x3 x4 x5 x6) (p1_v81 i x0 x1 x2 x3 x4 x5 x6) (p1_v108 i x0 x1 x2 x3 x4 x5 x6) (p1_v110 i x0 x1 x2 x3 x4 x5 x6)
def p1_v133 : FVec F S256x2048 .f32 := k3_pay26 (p1_v4 i x0 x1 x2 x3 x4 x5 x6) (p1_v108 i x0 x1 x2 x3 x4 x5 x6)
def p1_v138 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![2, 0] S1x2048.size inb_S64x2048_S1x2048_2_0).toLoadRect
def p1_v140 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![18, 0] S1x2048.size inb_S64x2048_S1x2048_18_0).toLoadRect
def p1_v168 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![3, 0] S1x2048.size inb_S64x2048_S1x2048_3_0).toLoadRect
def p1_v170 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![19, 0] S1x2048.size inb_S64x2048_S1x2048_19_0).toLoadRect
def p1_v160 : FVec F S1x1 .f32 := k3_pay29 (p1_v4 i x0 x1 x2 x3 x4 x5 x6) (p1_v6 i x0 x1 x2 x3 x4 x5 x6) (p1_v24 i x0 x1 x2 x3 x4 x5 x6) (p1_v73 i x0 x1 x2 x3 x4 x5 x6) (p1_v130 i x0 x1 x2 x3 x4 x5 x6) (p1_v138 i x0 x1 x2 x3 x4 x5 x6) (p1_v140 i x0 x1 x2 x3 x4 x5 x6)
def p1_v165 : FVec F S256x2048 .f32 := k3_pay30 (p1_v4 i x0 x1 x2 x3 x4 x5 x6) (p1_v105 i x0 x1 x2 x3 x4 x5 x6) (p1_v133 i x0 x1 x2 x3 x4 x5 x6) (p1_v138 i x0 x1 x2 x3 x4 x5 x6)
def p1_v166 : FVec F S256x1 .f32 := k3_pay31 (p1_v4 i x0 x1 x2 x3 x4 x5 x6)
def p1_v169 : FVec F S1x2048 .f32 := k3_pay32 (p1_v168 i x0 x1 x2 x3 x4 x5 x6)
def p1_v181 : FVec F S256x2048 .f32 := k3_pay33 (p1_v4 i x0 x1 x2 x3 x4 x5 x6) (p1_v6 i x0 x1 x2 x3 x4 x5 x6) (p1_v73 i x0 x1 x2 x3 x4 x5 x6) (p1_v168 i x0 x1 x2 x3 x4 x5 x6) (p1_v170 i x0 x1 x2 x3 x4 x5 x6)
def p1_v182 : FVec F S256x1 .f32 := k3_pay34 (p1_v24 i x0 x1 x2 x3 x4 x5 x6)
def p1_v198 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![4, 0] S1x2048.size inb_S64x2048_S1x2048_4_0).toLoadRect
def p1_v200 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![20, 0] S1x2048.size inb_S64x2048_S1x2048_20_0).toLoadRect
def p1_v228 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![5, 0] S1x2048.size inb_S64x2048_S1x2048_5_0).toLoadRect
def p1_v230 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![21, 0] S1x2048.size inb_S64x2048_S1x2048_21_0).toLoadRect
def p1_v220 : FVec F S1x1 .f32 := k3_pay37 (p1_v4 i x0 x1 x2 x3 x4 x5 x6) (p1_v6 i x0 x1 x2 x3 x4 x5 x6) (p1_v24 i x0 x1 x2 x3 x4 x5 x6) (p1_v73 i x0 x1 x2 x3 x4 x5 x6) (p1_v160 i x0 x1 x2 x3 x4 x5 x6) (p1_v181 i x0 x1 x2 x3 x4 x5 x6) (p1_v182 i x0 x1 x2 x3 x4 x5 x6) (p1_v198 i x0 x1 x2 x3 x4 x5 x6) (p1_v200 i x0 x1 x2 x3 x4 x5 x6)
def p1_v225 : FVec F S256x2048 .f32 := k3_pay38 (p1_v4 i x0 x1 x2 x3 x4 x5 x6) (p1_v165 i x0 x1 x2 x3 x4 x5 x6) (p1_v166 i x0 x1 x2 x3 x4 x5 x6) (p1_v169 i x0 x1 x2 x3 x4 x5 x6) (p1_v198 i x0 x1 x2 x3 x4 x5 x6)
def p1_v226 : FVec F S256x1 .f32 := k3_pay39 (p1_v4 i x0 x1 x2 x3 x4 x5 x6)
def p1_v227 : FVec F S256x1 .f32 := k3_pay40 (p1_v6 i x0 x1 x2 x3 x4 x5 x6)
def p1_v229 : FVec F S1x2048 .f32 := k3_pay41 (p1_v228 i x0 x1 x2 x3 x4 x5 x6)
def p1_v231 : FVec F S1x2048 .f32 := k3_pay42 (p1_v230 i x0 x1 x2 x3 x4 x5 x6)
def p1_v258 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![6, 0] S1x2048.size inb_S64x2048_S1x2048_6_0).toLoadRect
def p1_v260 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![22, 0] S1x2048.size inb_S64x2048_S1x2048_22_0).toLoadRect
def p1_v255 : FVec F S256x2048 .f32 := k3_pay43 (p1_v225 i x0 x1 x2 x3 x4 x5 x6) (p1_v226 i x0 x1 x2 x3 x4 x5 x6) (p1_v229 i x0 x1 x2 x3 x4 x5 x6)
def p1_v280 : FVec F S1x1 .f32 := k3_pay46 (p1_v4 i x0 x1 x2 x3 x4 x5 x6) (p1_v6 i x0 x1 x2 x3 x4 x5 x6) (p1_v24 i x0 x1 x2 x3 x4 x5 x6) (p1_v73 i x0 x1 x2 x3 x4 x5 x6) (p1_v220 i x0 x1 x2 x3 x4 x5 x6) (p1_v226 i x0 x1 x2 x3 x4 x5 x6) (p1_v227 i x0 x1 x2 x3 x4 x5 x6) (p1_v229 i x0 x1 x2 x3 x4 x5 x6) (p1_v231 i x0 x1 x2 x3 x4 x5 x6) (p1_v258 i x0 x1 x2 x3 x4 x5 x6) (p1_v260 i x0 x1 x2 x3 x4 x5 x6)
def p1_v283 : FVec F S256x2048 .f32 := k3_pay47 (p1_v4 i x0 x1 x2 x3 x4 x5 x6) (p1_v258 i x0 x1 x2 x3 x4 x5 x6)
def p1_v288 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![7, 0] S1x2048.size inb_S64x2048_S1x2048_7_0).toLoadRect
def p1_v290 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![23, 0] S1x2048.size inb_S64x2048_S1x2048_23_0).toLoadRect
def p1_v318 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![8, 0] S1x2048.size inb_S64x2048_S1x2048_8_0).toLoadRect
def p1_v320 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![24, 0] S1x2048.size inb_S64x2048_S1x2048_24_0).toLoadRect
def p1_v310 : FVec F S1x1 .f32 := k3_pay50 (p1_v4 i x0 x1 x2 x3 x4 x5 x6) (p1_v6 i x0 x1 x2 x3 x4 x5 x6) (p1_v24 i x0 x1 x2 x3 x4 x5 x6) (p1_v73 i x0 x1 x2 x3 x4 x5 x6) (p1_v280 i x0 x1 x2 x3 x4 x5 x6) (p1_v288 i x0 x1 x2 x3 x4 x5 x6) (p1_v290 i x0 x1 x2 x3 x4 x5 x6)
def p1_v315 : FVec F S256x2048 .f32 := k3_pay51 (p1_v4 i x0 x1 x2 x3 x4 x5 x6) (p1_v255 i x0 x1 x2 x3 x4 x5 x6) (p1_v283 i x0 x1 x2 x3 x4 x5 x6) (p1_v288 i x0 x1 x2 x3 x4 x5 x6)
def p1_v316 : FVec F S256x1 .f32 := k3_pay52 (p1_v4 i x0 x1 x2 x3 x4 x5 x6)
def p1_v319 : FVec F S1x2048 .f32 := k3_pay53 (p1_v318 i x0 x1 x2 x3 x4 x5 x6)
def p1_v331 : FVec F S256x2048 .f32 := k3_pay54 (p1_v4 i x0 x1 x2 x3 x4 x5 x6) (p1_v6 i x0 x1 x2 x3 x4 x5 x6) (p1_v73 i x0 x1 x2 x3 x4 x5 x6) (p1_v318 i x0 x1 x2 x3 x4 x5 x6) (p1_v320 i x0 x1 x2 x3 x4 x5 x6)
def p1_v332 : FVec F S256x1 .f32 := k3_pay55 (p1_v24 i x0 x1 x2 x3 x4 x5 x6)
def p1_v348 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![9, 0] S1x2048.size inb_S64x2048_S1x2048_9_0).toLoadRect
def p1_v350 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![25, 0] S1x2048.size inb_S64x2048_S1x2048_25_0).toLoadRect
def p1_v378 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![10, 0] S1x2048.size inb_S64x2048_S1x2048_10_0).toLoadRect
def p1_v380 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![26, 0] S1x2048.size inb_S64x2048_S1x2048_26_0).toLoadRect
def p1_v370 : FVec F S1x1 .f32 := k3_pay58 (p1_v4 i x0 x1 x2 x3 x4 x5 x6) (p1_v6 i x0 x1 x2 x3 x4 x5 x6) (p1_v24 i x0 x1 x2 x3 x4 x5 x6) (p1_v73 i x0 x1 x2 x3 x4 x5 x6) (p1_v310 i x0 x1 x2 x3 x4 x5 x6) (p1_v331 i x0 x1 x2 x3 x4 x5 x6) (p1_v332 i x0 x1 x2 x3 x4 x5 x6) (p1_v348 i x0 x1 x2 x3 x4 x5 x6) (p1_v350 i x0 x1 x2 x3 x4 x5 x6)
def p1_v375 : FVec F S256x2048 .f32 := k3_pay59 (p1_v4 i x0 x1 x2 x3 x4 x5 x6) (p1_v315 i x0 x1 x2 x3 x4 x5 x6) (p1_v316 i x0 x1 x2 x3 x4 x5 x6) (p1_v319 i x0 x1 x2 x3 x4 x5 x6) (p1_v348 i x0 x1 x2 x3 x4 x5 x6)
def p1_v376 : FVec F S256x1 .f32 := k3_pay60 (p1_v4 i x0 x1 x2 x3 x4 x5 x6)
def p1_v377 : FVec F S256x1 .f32 := k3_pay61 (p1_v6 i x0 x1 x2 x3 x4 x5 x6)
def p1_v379 : FVec F S1x2048 .f32 := k3_pay62 (p1_v378 i x0 x1 x2 x3 x4 x5 x6)
def p1_v381 : FVec F S1x2048 .f32 := k3_pay63 (p1_v380 i x0 x1 x2 x3 x4 x5 x6)
def p1_v408 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![11, 0] S1x2048.size inb_S64x2048_S1x2048_11_0).toLoadRect
def p1_v410 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![27, 0] S1x2048.size inb_S64x2048_S1x2048_27_0).toLoadRect
def p1_v405 : FVec F S256x2048 .f32 := k3_pay64 (p1_v375 i x0 x1 x2 x3 x4 x5 x6) (p1_v376 i x0 x1 x2 x3 x4 x5 x6) (p1_v379 i x0 x1 x2 x3 x4 x5 x6)
def p1_v430 : FVec F S1x1 .f32 := k3_pay67 (p1_v4 i x0 x1 x2 x3 x4 x5 x6) (p1_v6 i x0 x1 x2 x3 x4 x5 x6) (p1_v24 i x0 x1 x2 x3 x4 x5 x6) (p1_v73 i x0 x1 x2 x3 x4 x5 x6) (p1_v370 i x0 x1 x2 x3 x4 x5 x6) (p1_v376 i x0 x1 x2 x3 x4 x5 x6) (p1_v377 i x0 x1 x2 x3 x4 x5 x6) (p1_v379 i x0 x1 x2 x3 x4 x5 x6) (p1_v381 i x0 x1 x2 x3 x4 x5 x6) (p1_v408 i x0 x1 x2 x3 x4 x5 x6) (p1_v410 i x0 x1 x2 x3 x4 x5 x6)
def p1_v433 : FVec F S256x2048 .f32 := k3_pay68 (p1_v4 i x0 x1 x2 x3 x4 x5 x6) (p1_v408 i x0 x1 x2 x3 x4 x5 x6)
def p1_v438 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![12, 0] S1x2048.size inb_S64x2048_S1x2048_12_0).toLoadRect
def p1_v440 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![28, 0] S1x2048.size inb_S64x2048_S1x2048_28_0).toLoadRect
def p1_v468 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![13, 0] S1x2048.size inb_S64x2048_S1x2048_13_0).toLoadRect
def p1_v470 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![29, 0] S1x2048.size inb_S64x2048_S1x2048_29_0).toLoadRect
def p1_v460 : FVec F S1x1 .f32 := k3_pay71 (p1_v4 i x0 x1 x2 x3 x4 x5 x6) (p1_v6 i x0 x1 x2 x3 x4 x5 x6) (p1_v24 i x0 x1 x2 x3 x4 x5 x6) (p1_v73 i x0 x1 x2 x3 x4 x5 x6) (p1_v430 i x0 x1 x2 x3 x4 x5 x6) (p1_v438 i x0 x1 x2 x3 x4 x5 x6) (p1_v440 i x0 x1 x2 x3 x4 x5 x6)
def p1_v465 : FVec F S256x2048 .f32 := k3_pay72 (p1_v4 i x0 x1 x2 x3 x4 x5 x6) (p1_v405 i x0 x1 x2 x3 x4 x5 x6) (p1_v433 i x0 x1 x2 x3 x4 x5 x6) (p1_v438 i x0 x1 x2 x3 x4 x5 x6)
def p1_v466 : FVec F S256x1 .f32 := k3_pay73 (p1_v4 i x0 x1 x2 x3 x4 x5 x6)
def p1_v469 : FVec F S1x2048 .f32 := k3_pay74 (p1_v468 i x0 x1 x2 x3 x4 x5 x6)
def p1_v481 : FVec F S256x2048 .f32 := k3_pay75 (p1_v4 i x0 x1 x2 x3 x4 x5 x6) (p1_v6 i x0 x1 x2 x3 x4 x5 x6) (p1_v73 i x0 x1 x2 x3 x4 x5 x6) (p1_v468 i x0 x1 x2 x3 x4 x5 x6) (p1_v470 i x0 x1 x2 x3 x4 x5 x6)
def p1_v482 : FVec F S256x1 .f32 := k3_pay76 (p1_v24 i x0 x1 x2 x3 x4 x5 x6)
def p1_v498 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![14, 0] S1x2048.size inb_S64x2048_S1x2048_14_0).toLoadRect
def p1_v500 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![30, 0] S1x2048.size inb_S64x2048_S1x2048_30_0).toLoadRect
def p1_v528 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![15, 0] S1x2048.size inb_S64x2048_S1x2048_15_0).toLoadRect
def p1_v530 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := ld x1 (Rect.unit (s := S64x2048) ![31, 0] S1x2048.size inb_S64x2048_S1x2048_31_0).toLoadRect
def p1_v520 : FVec F S1x1 .f32 := k3_pay79 (p1_v4 i x0 x1 x2 x3 x4 x5 x6) (p1_v6 i x0 x1 x2 x3 x4 x5 x6) (p1_v24 i x0 x1 x2 x3 x4 x5 x6) (p1_v73 i x0 x1 x2 x3 x4 x5 x6) (p1_v460 i x0 x1 x2 x3 x4 x5 x6) (p1_v481 i x0 x1 x2 x3 x4 x5 x6) (p1_v482 i x0 x1 x2 x3 x4 x5 x6) (p1_v498 i x0 x1 x2 x3 x4 x5 x6) (p1_v500 i x0 x1 x2 x3 x4 x5 x6)
def p1_v525 : FVec F S256x2048 .f32 := k3_pay80 (p1_v4 i x0 x1 x2 x3 x4 x5 x6) (p1_v465 i x0 x1 x2 x3 x4 x5 x6) (p1_v466 i x0 x1 x2 x3 x4 x5 x6) (p1_v469 i x0 x1 x2 x3 x4 x5 x6) (p1_v498 i x0 x1 x2 x3 x4 x5 x6)
def p1_v526 : FVec F S256x1 .f32 := k3_pay81 (p1_v4 i x0 x1 x2 x3 x4 x5 x6)
def p1_v527 : FVec F S256x1 .f32 := k3_pay82 (p1_v6 i x0 x1 x2 x3 x4 x5 x6)
def p1_v529 : FVec F S1x2048 .f32 := k3_pay83 (p1_v528 i x0 x1 x2 x3 x4 x5 x6)
def p1_v531 : FVec F S1x2048 .f32 := k3_pay84 (p1_v530 i x0 x1 x2 x3 x4 x5 x6)
def p1_v556 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x2048 .f32 := x3
def p1_v566 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S256x128 .f32 := x4
def p1_v568 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S2048x128 .f32 := x5
def p1_v550 : FVec F S1x1 .f32 := k3_pay85 (p1_v24 i x0 x1 x2 x3 x4 x5 x6) (p1_v73 i x0 x1 x2 x3 x4 x5 x6) (p1_v520 i x0 x1 x2 x3 x4 x5 x6) (p1_v526 i x0 x1 x2 x3 x4 x5 x6) (p1_v527 i x0 x1 x2 x3 x4 x5 x6) (p1_v529 i x0 x1 x2 x3 x4 x5 x6) (p1_v531 i x0 x1 x2 x3 x4 x5 x6)
def p1_v564 : FVec F S1x1 .f32 := k3_pay87 (p1_v525 i x0 x1 x2 x3 x4 x5 x6) (p1_v526 i x0 x1 x2 x3 x4 x5 x6) (p1_v529 i x0 x1 x2 x3 x4 x5 x6) (p1_v556 i x0 x1 x2 x3 x4 x5 x6)
def p1_v575 : FVec F S256x2048 .f32 := k3_pay88 (p1_v566 i x0 x1 x2 x3 x4 x5 x6) (p1_v568 i x0 x1 x2 x3 x4 x5 x6)
def p1_v576 : FVec F S256x2048 .f32 := k3_pay89 (p1_v566 i x0 x1 x2 x3 x4 x5 x6)

def p1_v578 (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) : Vec F S1x2048 .f32 := x6

def p1_realD : Vec F S256x2048 .f32 := k3_pay86 (p1_v525 i x0 x1 x2 x3 x4 x5 x6) (p1_v526 i x0 x1 x2 x3 x4 x5 x6) (p1_v529 i x0 x1 x2 x3 x4 x5 x6) (p1_v556 i x0 x1 x2 x3 x4 x5 x6)

def p1_omega : Vec F S256x2048 .f32 := k3_pay1 (p1_v575 i x0 x1 x2 x3 x4 x5 x6) (p1_v576 i x0 x1 x2 x3 x4 x5 x6) (p1_v578 i x0 x1 x2 x3 x4 x5 x6)

def p1_lanes (sc : Vec F S1x8 .f32) : Vec F S1x8 .f32 := k3_pay2 (p1_v41 i x0 x1 x2 x3 x4 x5 x6) (p1_v55 i x0 x1 x2 x3 x4 x5 x6) (p1_v65 i x0 x1 x2 x3 x4 x5 x6) (p1_v550 i x0 x1 x2 x3 x4 x5 x6) (p1_v564 i x0 x1 x2 x3 x4 x5 x6) (p1_v575 i x0 x1 x2 x3 x4 x5 x6) (p1_v576 i x0 x1 x2 x3 x4 x5 x6) (p1_v578 i x0 x1 x2 x3 x4 x5 x6) sc

end Cert.Kernel.Hand

end
-- ==== Proof.K.R3Run.lean ====
import proofs.«418439_j46445776339038_1_alg».proof.Proof.Gen.Kernel.Launch
import proofs.«418439_j46445776339038_1_alg».proof.Proof.Gen.Kernel.Skeleton
import proofs.«418439_j46445776339038_1_alg».proof.Proof.Gen.Kernel.Points
import proofs.«418439_j46445776339038_1_alg».proof.Proof.K.R3Body
import proofs.«418439_j46445776339038_1_alg».proof.Proof.Whole
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

theorem ld_whole {s : Shape} {e : EltTy} (X : Vec F s e) {off : Fin s.rank → Nat}
    (inb : ∀ a, off a + s.size a ≤ s.size a) : ld X (Rect.unit off s.size inb).toLoadRect = X :=
  View.ld_unit_zero (off_zero inb) inb X

abbrev ldW3 : LoadRect S256x2048 := (Rect.unit (s := S256x2048) ![0, 0] S256x2048.size inb_S256x2048_S256x2048_0_0).toLoadRect
abbrev ldW4 : LoadRect S256x128 := (Rect.unit (s := S256x128) ![0, 0] S256x128.size inb_S256x128_S256x128_0_0).toLoadRect
abbrev ldW5 : LoadRect S2048x128 := (Rect.unit (s := S2048x128) ![0, 0] S2048x128.size inb_S2048x128_S2048x128_0_0).toLoadRect
abbrev ldW6 : LoadRect S1x2048 := (Rect.unit (s := S1x2048) ![0, 0] S1x2048.size inb_S1x2048_S1x2048_0_0).toLoadRect
abbrev ldWS : LoadRect S1x8 := (Rect.unit (s := S1x8) ![0, 0] S1x8.size inb_S1x8_S1x8_0_0).toLoadRect

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

variable (i : grid3.Coords) (x0 : Vec F S256x64 .f32) (x1 : Vec F S64x2048 .f32) (x2 : Vec F S256x32 .f32) (x3 : Vec F S256x2048 .f32) (x4 : Vec F S256x128 .f32) (x5 : Vec F S2048x128 .f32) (x6 : Vec F S1x2048 .f32) (y7 y8 : Vec F S256x2048 .f32) (xo9 xs : Vec F S1x8 .f32)

-- Whole-block loads of the four whole-block inputs read the blocks themselves.
theorem p1_realD_whole : p1_realD i x0 x1 x2 (ld x3 ldW3) (ld x4 ldW4) (ld x5 ldW5) (ld x6 ldW6) = p1_realD i x0 x1 x2 x3 x4 x5 x6 := by
  rw [ld_whole x3, ld_whole x4, ld_whole x5, ld_whole x6]
theorem p1_omega_whole : p1_omega i x0 x1 x2 (ld x3 ldW3) (ld x4 ldW4) (ld x5 ldW5) (ld x6 ldW6) = p1_omega i x0 x1 x2 x3 x4 x5 x6 := by
  rw [ld_whole x3, ld_whole x4, ld_whole x5, ld_whole x6]
theorem p1_lanes_whole : p1_lanes i x0 x1 x2 (ld x3 ldW3) (ld x4 ldW4) (ld x5 ldW5) (ld x6 ldW6) (ld xs ldWS) = p1_lanes i x0 x1 x2 x3 x4 x5 x6 xs := by
  rw [ld_whole x3, ld_whole x4, ld_whole x5, ld_whole x6, ld_whole xs]
-- The same with the last argument read back from a whole store of the zero vector.
theorem p1_lanes_reset {κ : Kind} {sp : Space} (v : View sig κ sp S1x8 .f32) :
    p1_lanes i x0 x1 x2 (ld x3 ldW3) (ld x4 ldW4) (ld x5 ldW5) (ld x6 ldW6)
        (v.readCov [(⟨Rect.unit (s := S1x8) ![0, 0] S1x8.size inb_S1x8_S1x8_0_0, k3_pay3 (F := F)⟩ : View.Piece (Elt F) S1x8 .f32)] ldWS)
      = p1_lanes i x0 x1 x2 x3 x4 x5 x6 (k3_pay3 (F := F)) := by
  rw [ld_whole x3, ld_whole x4, ld_whole x5, ld_whole x6, readCov_whole _ v]

variable (c : Dev nD) (E : Set ℕ) (arg1 : Memref sig .tc .vmem S256x64 .f32) (harg1 : arg1.IsWhole) (arg2 : Memref sig .tc .vmem S64x2048 .f32) (harg2 : arg2.IsWhole) (arg3 : Memref sig .tc .vmem S256x32 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S1x8 .f32) (harg10 : arg10.IsWhole) (arg11 : Memref sig .tc .vmem S1x8 .f32) (harg11 : arg11.IsWhole)

-- The body's eleven memrefs owned whole: the seven inputs at their blocks, the other four at the given contents.
def io3 (y7 y8 : Vec F S256x2048 .f32) (a b : Vec F S1x8 .f32) : sProp 𝕄 :=
  iprop((owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5
    ∗ owns (c : Thread nD τ) arg7 fullShare x6) ∗ owns (c : Thread nD τ) arg8 fullShare y7 ∗ owns (c : Thread nD τ) arg9 fullShare y8
    ∗ owns (c : Thread nD τ) arg10 fullShare a ∗ owns (c : Thread nD τ) arg11 fullShare b)

set_option maxHeartbeats 4000000 in
-- The body on whole memrefs, by its two conditions (never both): under the first `p1_lanes` is added onto zero instead of `xs`, under the second the last memref's new contents also go whole into the tenth.
theorem sound_kernel3 (h : ¬(cond3_0 i ∧ cond3_1 i)) (K : PUnit → sProp 𝕄) :
    iprop(io3 x0 x1 x2 x3 x4 x5 x6 c arg1 arg2 arg3 arg4 arg5 arg6 arg7 arg8 arg9 arg10 arg11 y7 y8 xo9 xs ∗ (io3 x0 x1 x2 x3 x4 x5 x6 c arg1 arg2 arg3 arg4 arg5 arg6 arg7 arg8 arg9 arg10 arg11 (p1_realD i x0 x1 x2 x3 x4 x5 x6) (p1_omega i x0 x1 x2 x3 x4 x5 x6) (if cond3_1 i then p1_lanes i x0 x1 x2 x3 x4 x5 x6 xs else xo9) (p1_lanes i x0 x1 x2 x3 x4 x5 x6 (if cond3_0 i then k3_pay3 (F := F) else xs)) -∗ K ⟨⟩))
      ⊢ wp frame (wpE (defs₀ (F := F)) Variants.none c none) E (cc3__p1_kernel i arg1 harg1 arg2 harg2 arg3 harg3 arg4 harg4 arg5 harg5 arg6 harg6 arg7 harg7 arg8 harg8 arg9 harg9 arg10 harg10 arg11 harg11) K := by
  simp only [cc3__p1_kernel_eq_skeleton]; unfold cc3__p1_kernel_skel
  unfold io3 owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, -, H7⟩, ⟨%f8, -, H8⟩, ⟨%f9, %hf9, H9⟩, ⟨%fs, %hfs, HS⟩⟩, Hk⟩
  subst hf0 hf1 hf2 hf3 hf4 hf5 hf6 hf9 hfs
  by_cases hc0 : cond3_0 i <;> by_cases hc1 : cond3_1 i
  · exact absurd ⟨hc0, hc1⟩ h
  all_goals
    first | rw [if_pos hc0] | rw [if_neg hc0]
    first | rw [if_pos hc1] | rw [if_neg hc1]
    sl_exec_parts (disch := first | exact hc0 | exact hc1)
    sl_step
    iapply Hk
    isplitl [H0 H1 H2 H3 H4 H5 H6]; · sl_close
    isplitl [H7]
    · iexists _; isplitr; swap; iexact H7; ipureintro
      refine (read_store_whole _ _ _ _ _).trans (Eq.trans ?_ (p1_realD_whole i _ _ _ _ _ _ _)); rfl
    isplitl [H8]
    · iexists _; isplitr; swap; iexact H8; ipureintro
      refine (read_store_whole _ _ _ _ _).trans (Eq.trans ?_ (p1_omega_whole i _ _ _ _ _ _ _)); rfl
    isplitl [H9]
    · first
      | have : cond3_1 i := hc1
        iexists _; isplitr; swap; iexact H9; ipureintro
        refine (read_store_whole _ _ _ _ _).trans (Eq.trans (readCov_whole _ arg11.view _) <| Eq.trans ?_ (p1_lanes_whole i _ _ _ _ _ _ _ _)); rfl
      | sl_close
    iexists _; isplitr; swap; iexact HS; ipureintro
    first
    | have : cond3_0 i := hc0
      refine (read_store_whole _ _ _ _ _).trans (Eq.trans ?_ (p1_lanes_reset i _ _ _ _ _ _ _ arg11.view)); rfl
    | refine (read_store_whole _ _ _ _ _).trans (Eq.trans ?_ (p1_lanes_whole i _ _ _ _ _ _ _ _)); rfl

end Cert.Kernel.Hand
end
-- ==== Proof.K.R3Frame.lean ====
import proofs.«418439_j46445776339038_1_alg».proof.Proof.K.R3Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

-- Window `w`'s block at point `t`, read off its array as the region finds it.
def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

-- The reset is taken at the first point only, the copy at the last only.
theorem hcond3_0 : ∀ t : Fin cfg3.N, cond3_0 (grid3.coords t) ↔ t.val % 8 = 0 :=
  (by decide +kernel : ∀ t : Fin grid3.N, cond3_0 (grid3.coords t) ↔ t.val % 8 = 0)
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3 : ∀ (w : Fin cfg3.W) (t : Fin cfg3.N), w ≠ 9 → cfg3.idle w (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel
theorem liveAt3_9 : ∀ t : Fin cfg3.N, cond3_1 (grid3.coords t) → cfg3.idle 9 (grid3.coords t) = false := by decide +kernel

abbrev scM3 : Memref sig .tc .vmem S1x8 .f32 := Memref.whole cc3_scratch0

-- The invariant's shape: `P` for the accumulator, beside the part no point touches.
def phi3 (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq : (Pipeline.ΦA spec3 c : sProp 𝕄) = phi3 c iprop(∃ d, owns (c : Thread nD τ) scM3 fullShare d) := by
  unfold Pipeline.ΦA phi3; rw [scopedRest3_split]; simp only [scM3, owns_whole]; try rfl

-- What the accumulator holds after the body at position `n`: the body's lanes over zero at the first point, over what the point before left afterwards.
def scAt3 : (n : ℕ) → n < cfg3.N → Vec F S1x8 .f32
  | 0, hn => p1_lanes (grid3.coords ⟨0, hn⟩) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (k3_pay3 (F := F))
  | n + 1, hn => p1_lanes (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (scAt3 n (Nat.lt_of_succ_lt hn))

theorem scAt3_first (t : Fin cfg3.N) (h : t.val = 0) :
    scAt3 V c t.val t.isLt = p1_lanes (grid3.coords t) (iblk3 V c 0 t) (iblk3 V c 1 t) (iblk3 V c 2 t) (iblk3 V c 3 t) (iblk3 V c 4 t) (iblk3 V c 5 t) (iblk3 V c 6 t) (k3_pay3 (F := F)) := by
  obtain ⟨n, hn⟩ := t
  cases n with
  | zero => rfl
  | succ n => exact absurd h (Nat.succ_ne_zero n)

theorem scAt3_pos (t : Fin cfg3.N) (h : t.val ≠ 0) :
    scAt3 V c t.val t.isLt = p1_lanes (grid3.coords t) (iblk3 V c 0 t) (iblk3 V c 1 t) (iblk3 V c 2 t) (iblk3 V c 3 t) (iblk3 V c 4 t) (iblk3 V c 5 t) (iblk3 V c 6 t)
      (scAt3 V c (t.val - 1) (Nat.lt_of_le_of_lt (Nat.sub_le _ _) t.isLt)) := by
  obtain ⟨n, hn⟩ := t
  cases n with
  | zero => exact absurd rfl h
  | succ n => rfl

-- The invariant before position `n`: before the first point the class's; afterwards the accumulator at what the point before left.
def PhiS3 : (n : ℕ) → n ≤ cfg3.N → sProp 𝕄
  | 0, _ => Pipeline.ΦA spec3 c
  | n + 1, hn => phi3 c (owns (c : Thread nD τ) scM3 fullShare (scAt3 V c n hn))

theorem PhiS3_zero (n : ℕ) (h : n ≤ cfg3.N) (hz : n = 0) : PhiS3 V c n h = Pipeline.ΦA spec3 c := by
  subst hz; rfl

theorem PhiS3_pos (n : ℕ) (h : n ≤ cfg3.N) (hz : n ≠ 0) :
    PhiS3 V c n h = phi3 c (owns (c : Thread nD τ) scM3 fullShare (scAt3 V c (n - 1) (by omega))) := by
  cases n with
  | zero => exact absurd rfl hz
  | succ n => rfl

def shareL3 : PosShare TreeShare := fullShare.left
def shareR3 : PosShare TreeShare := fullShare.right
theorem share3_join : fullShare ∈ PCS.op shareL3 shareR3 := PosShare.mem_left_op_right fullShare

-- Region 3's data on core `c`: each input at its block, the two row-block outputs at the body's results, the last output at the accumulator.
def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => p1_realD (grid3.coords t) (iblk3 V c 0 t) (iblk3 V c 1 t) (iblk3 V c 2 t) (iblk3 V c 3 t) (iblk3 V c 4 t) (iblk3 V c 5 t) (iblk3 V c 6 t)
    | ⟨8, _⟩ => p1_omega (grid3.coords t) (iblk3 V c 0 t) (iblk3 V c 1 t) (iblk3 V c 2 t) (iblk3 V c 3 t) (iblk3 V c 4 t) (iblk3 V c 5 t) (iblk3 V c 6 t)
    | ⟨9, _⟩ => scAt3 V c t.val t.isLt
  Φ t := PhiS3 V c t.val (Nat.le_of_lt_succ t.isLt)
  q w := match w with
    | ⟨0, _⟩ => fullShare | ⟨1, _⟩ => fullShare | ⟨2, _⟩ => fullShare | ⟨3, _⟩ => fullShare
    | ⟨4, _⟩ => shareL3 | ⟨5, _⟩ => shareR3
    | ⟨6, _⟩ => fullShare | ⟨7, _⟩ => fullShare | ⟨8, _⟩ => fullShare | ⟨9, _⟩ => fullShare
  owed _ := 0

theorem A_eq3 (w : Fin cfg3.W) : (dat3 V c).A w = V c (Pipeline.arrRef spec3 w) := by
  dsimp only [dat3]

variable (t : Fin cfg3.N)

theorem after3_0 : (dat3 V c).after 0 t = iblk3 V c 0 t := by dsimp only [dat3]
theorem after3_1 : (dat3 V c).after 1 t = iblk3 V c 1 t := by dsimp only [dat3]
theorem after3_2 : (dat3 V c).after 2 t = iblk3 V c 2 t := by dsimp only [dat3]
theorem after3_3 : (dat3 V c).after 3 t = iblk3 V c 3 t := by dsimp only [dat3]
theorem after3_4 : (dat3 V c).after 4 t = iblk3 V c 4 t := by dsimp only [dat3]
theorem after3_5 : (dat3 V c).after 5 t = iblk3 V c 5 t := by dsimp only [dat3]
theorem after3_6 : (dat3 V c).after 6 t = iblk3 V c 6 t := by dsimp only [dat3]
theorem after3_7 : (dat3 V c).after 7 t = p1_realD (grid3.coords t) (iblk3 V c 0 t) (iblk3 V c 1 t) (iblk3 V c 2 t) (iblk3 V c 3 t) (iblk3 V c 4 t) (iblk3 V c 5 t) (iblk3 V c 6 t) := by dsimp only [dat3]
theorem after3_8 : (dat3 V c).after 8 t = p1_omega (grid3.coords t) (iblk3 V c 0 t) (iblk3 V c 1 t) (iblk3 V c 2 t) (iblk3 V c 3 t) (iblk3 V c 4 t) (iblk3 V c 5 t) (iblk3 V c 6 t) := by dsimp only [dat3]
theorem after3_9 : (dat3 V c).after 9 t = scAt3 V c t.val t.isLt := by dsimp only [dat3]

theorem before3_0 (d) : (dat3 V c).before 0 t d = iblk3 V c 0 t :=
  (dat3 V c).before_in_eq_fetched 0 rfl (fun _ => rfl) (fun _ _ _ => rfl) (fun _ => rfl) t d
theorem before3_1 (d) : (dat3 V c).before 1 t d = iblk3 V c 1 t :=
  (dat3 V c).before_in_eq_fetched 1 rfl (fun _ => rfl) (fun _ _ _ => rfl) (fun _ => rfl) t d
theorem before3_2 (d) : (dat3 V c).before 2 t d = iblk3 V c 2 t :=
  (dat3 V c).before_in_eq_fetched 2 rfl (fun _ => rfl) (fun _ _ _ => rfl) (fun _ => rfl) t d
theorem before3_3 (d) : (dat3 V c).before 3 t d = iblk3 V c 3 t :=
  (dat3 V c).before_in_eq_fetched 3 rfl (fun _ => rfl) (fun _ _ _ => rfl) (fun _ => rfl) t d
theorem before3_4 (d) : (dat3 V c).before 4 t d = iblk3 V c 4 t :=
  (dat3 V c).before_in_eq_fetched 4 rfl (fun _ => rfl) (fun _ _ _ => rfl) (fun _ => rfl) t d
theorem before3_5 (d) : (dat3 V c).before 5 t d = iblk3 V c 5 t :=
  (dat3 V c).before_in_eq_fetched 5 rfl (fun _ => rfl) (fun _ _ _ => rfl) (fun _ => rfl) t d
theorem before3_6 (d) : (dat3 V c).before 6 t d = iblk3 V c 6 t :=
  (dat3 V c).before_in_eq_fetched 6 rfl (fun _ => rfl) (fun _ _ _ => rfl) (fun _ => rfl) t d

theorem leaves3 (w : Fin cfg3.W) (h : cfg3.idle w (grid3.coords t) = false) :
    (dat3 V c).leavesExact w t = owns (c : Thread nD τ) ((cfg3.win w).stage (cfg3.slots t w)) fullShare ((dat3 V c).after w t) := by
  unfold Dat.leavesExact; rw [h]

def pre3 (w : Fin cfg3.W) : sProp 𝕄 :=
  iprop(∃ d, owns (c : Thread nD τ) ((cfg3.win w).stage (cfg3.slots t w)) fullShare ((dat3 V c).before w t d))

set_option maxHeartbeats 4000000 in
-- The body at any point, by the case the grid coordinate puts it in: the invariant gives `scAt3` of the point before and takes back `scAt3` of this one.
theorem sound_body3 :
    iprop((dat3 V c).Φ t.castSucc ∗ (dat3 V c).owesAt () t.castSucc
      ∗ pre3 V c t 0 ∗ pre3 V c t 1 ∗ pre3 V c t 2 ∗ pre3 V c t 3 ∗ pre3 V c t 4 ∗ pre3 V c t 5 ∗ pre3 V c t 6 ∗ pre3 V c t 7 ∗ pre3 V c t 8 ∗ pre3 V c t 9)
      ⊢ wp frame (wpE (defs₀ (F := F)) Variants.none c none) Set.univ (bodyAt3 t) fun _ =>
        iprop((dat3 V c).Φ t.succ ∗ (dat3 V c).owesAt () t.succ
          ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t ∗ (dat3 V c).leavesExact 8 t ∗ (dat3 V c).leavesExact 9 t) := by
  unfold bodyAt3 pre3
  simp only [before3_0, before3_1, before3_2, before3_3, before3_4, before3_5, before3_6]
  rw [show (dat3 V c).owesAt () t.succ = (dat3 V c).owesAt () t.castSucc from rfl]
  rw [show (dat3 V c).Φ t.succ = phi3 c (owns (c : Thread nD τ) scM3 fullShare (scAt3 V c t.val t.isLt)) from rfl,
    show (dat3 V c).Φ t.castSucc = PhiS3 V c t.val (Nat.le_of_lt t.isLt) from rfl]
  have hN : t.val < 8 := lt_of_lt_of_eq t.isLt (show cfg3.N = 8 from N_3)
  rw [leaves3 V c t 0 (liveAt3 0 t (by decide)), leaves3 V c t 1 (liveAt3 1 t (by decide)), leaves3 V c t 2 (liveAt3 2 t (by decide)), leaves3 V c t 3 (liveAt3 3 t (by decide)), leaves3 V c t 4 (liveAt3 4 t (by decide)), leaves3 V c t 5 (liveAt3 5 t (by decide)), leaves3 V c t 6 (liveAt3 6 t (by decide)), leaves3 V c t 7 (liveAt3 7 t (by decide)), leaves3 V c t 8 (liveAt3 8 t (by decide))]
  simp only [after3_0, after3_1, after3_2, after3_3, after3_4, after3_5, after3_6, after3_7, after3_8]
  have hx : ¬(cond3_0 (grid3.coords t) ∧ cond3_1 (grid3.coords t)) := fun ⟨a, b⟩ => by
    have := (hcond3_0 t).mp a; have := (hcond3_1 t).mp b; omega
  by_cases h0 : t.val % 8 = 0
  · have hz : t.val = 0 := by omega
    have h1 : ¬t.val % 8 = 7 := by omega
    rw [Dat.leavesExact_idle (dat3 V c) 9 t (idleAt3_9 t (fun h => h1 ((hcond3_1 t).mp h))) (noFlush3_9 t (fun h => h1 ((hcond3_1 t).mp h)))]
    rw [scAt3_first V c t hz, PhiS3_zero V c _ _ hz, PhiA3_eq]
    unfold phi3
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel3 (grid3.coords t) (iblk3 V c 0 t) (iblk3 V c 1 t) (iblk3 V c 2 t) (iblk3 V c 3 t) (iblk3 V c 4 t) (iblk3 V c 5 t) (iblk3 V c 6 t) ((dat3 V c).before 7 t d7) ((dat3 V c).before 8 t d8) ((dat3 V c).before 9 t d9) ds c Set.univ _ _ _ _ _ _ _ _ _ _ _ _ _ _ _ _ _ _ _ _ _ _ hx _)
    rw [if_pos ((hcond3_0 t).mpr h0), if_neg (fun h => h1 ((hcond3_1 t).mp h))]
    unfold io3; iframe
    iintro ⟨⟨H0, H1, H2, H3, H4, H5, H6⟩, H7, H8, H9, HS⟩
    iframe
    iexists _; iexact H9
  · have hz : t.val ≠ 0 := by omega
    rw [scAt3_pos V c t hz, PhiS3_pos V c _ _ hz]
    unfold phi3
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel3 (grid3.coords t) (iblk3 V c 0 t) (iblk3 V c 1 t) (iblk3 V c 2 t) (iblk3 V c 3 t) (iblk3 V c 4 t) (iblk3 V c 5 t) (iblk3 V c 6 t) ((dat3 V c).before 7 t d7) ((dat3 V c).before 8 t d8) ((dat3 V c).before 9 t d9) (scAt3 V c (t.val - 1) (Nat.lt_of_le_of_lt (Nat.sub_le _ _) t.isLt)) c Set.univ _ _ _ _ _ _ _ _ _ _ _ _ _ _ _ _ _ _ _ _ _ _ hx _)
    rw [if_neg (fun h => h0 ((hcond3_0 t).mp h))]
    unfold io3; iframe
    by_cases h1 : t.val % 8 = 7
    · rw [if_pos ((hcond3_1 t).mpr h1), leaves3 V c t 9 (liveAt3_9 t ((hcond3_1 t).mpr h1)), after3_9, scAt3_pos V c t hz]
      iintro ⟨⟨H0, H1, H2, H3, H4, H5, H6⟩, H7, H8, H9, HS⟩
      iframe
    · rw [if_neg (fun h => h1 ((hcond3_1 t).mp h)), Dat.leavesExact_idle (dat3 V c) 9 t (idleAt3_9 t (fun h => h1 ((hcond3_1 t).mp h))) (noFlush3_9 t (fun h => h1 ((hcond3_1 t).mp h)))]
      iintro ⟨⟨H0, H1, H2, H3, H4, H5, H6⟩, H7, H8, H9, HS⟩
      iframe
      iexists _; iexact H9

theorem body_obligation3 : BodyObligation (dat3 (F := F) V c) (defs₀ (F := F)) Variants.none () Set.univ := fun t => by
  rw [bigSep_W3, bigSep_W3]
  exact sound_body3 V c t

theorem hin3 : Pipeline.ΦA spec3 c ⊢ (dat3 V c).Φ 0 := .rfl

-- After any point but the first the invariant gives the class's back: the accumulator's contents are forgotten.
theorem Phi_out3 (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  unfold phi3
  iintro ⟨⟨HS, HR⟩, Hg⟩
  iframe
  iexists _; iexact HS

theorem hout3 : (dat3 V c).Φ (Fin.last cfg3.N) ⊢ Pipeline.ΦA spec3 c :=
  Phi_out3 V c _ (by rw [Fin.val_last]; have : cfg3.N = 8 := N_3; omega)

end Cert.Kernel.Hand
end
-- ==== Proof.K.R4Frame.lean ====
import proofs.«418439_j46445776339038_1_alg».proof.Proof.Gen.Kernel.Launch
import proofs.«418439_j46445776339038_1_alg».proof.Proof.Gen.Kernel.Skeleton
import proofs.«418439_j46445776339038_1_alg».proof.Proof.Gen.Kernel.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 7 :=
  (by decide +kernel : ∀ t : Fin grid4.N, cond4_1 (grid4.coords t) ↔ t.val = 7)

theorem liveAt4_0 : ∀ t : Fin cfg4.N, cfg4.idle 0 (cfg4.grid.coords t) = false := by decide +kernel
theorem liveAt4_1 : ∀ t : Fin cfg4.N, cfg4.idle 1 (cfg4.grid.coords t) = false := by decide +kernel
theorem idleAt4_2 : ∀ t : Fin cfg4.N, ¬cond4_1 (grid4.coords t) → idle4 (2 : Fin 3) (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → idle4 (2 : Fin 3) (grid4.coords t) = false := by decide +kernel

abbrev ms4_0 (t : Fin cfg4.N) : Memref sig .tc .vmem S256x2048 .f32 := win4_0.stage (cfg4.slots t 0)
abbrev ms4_1 (t : Fin cfg4.N) : Memref sig .tc .vmem S1x1 .f32 := win4_1.stage (cfg4.slots t 1)
abbrev ms4_2 (t : Fin cfg4.N) : Memref sig .tc .vmem S1x2048 .f32 := win4_2.stage (cfg4.slots t 2)
abbrev scM4_0 : Memref sig .tc .vmem S1x2048 .f32 := Memref.whole cc4_scratch0

/-- The region invariant, with what is owned of the scratch row (`P`) set apart. -/
abbrev Phi4 (c : Dev nD) (P : sProp 𝕄) : sProp 𝕄 :=
  iprop(iprop(P ∗ Pipeline.scopedRestBut (Ix := Unit) (Name := ℕ) (U := UR sig nD τ) (Lvl := ℕ) (Val := Elt F) spec4 c [cc4_scratch0]) ∗ (∃ r, prngReg c r))

theorem PhiA4_eq (c : Dev nD) : (Pipeline.ΦA spec4 c : sProp 𝕄) = Phi4 c iprop(∃ d, owns (c : Thread nD τ) scM4_0 fullShare d) := by
  unfold Pipeline.ΦA; rw [scopedRest4_split]; simp only [scM4_0, owns_whole]; try rfl

section Body
variable (c : Dev nD) (i : grid4.Coords) (arg1 : Memref sig .tc .vmem S256x2048 .f32) (harg1 : arg1.IsWhole) (arg2 : Memref sig .tc .vmem S1x1 .f32) (harg2 : arg2.IsWhole) (arg3 : Memref sig .tc .vmem S1x2048 .f32) (harg3 : arg3.IsWhole) (arg4 : Memref sig .tc .vmem S1x2048 .f32) (harg4 : arg4.IsWhole)
  (x0 : Vec F S256x2048 .f32) (x1 : Vec F S1x1 .f32) (xs xi : Vec F S1x2048 .f32)

/-- One run of the body: the row `xs` (zeroed first at point 0) gets the block's scaled column sums added; only at point 7 is the output row overwritten, with the new row. -/
theorem run4 (hx : cond4_0 i → ¬cond4_1 i) (E : Set ℕ) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare (if cond4_1 i then k4_pay2 x1 x0 xs else xi)
            ∗ owns (c : Thread nD τ) arg4 fullShare (k4_pay2 x1 x0 (if cond4_0 i then k4_pay1 else xs))) -∗ K ⟨⟩))
      ⊢ wp frame (wpE (defs₀ (F := F)) Variants.none c none) E (cc4__p2_kernel i arg1 harg1 arg2 harg2 arg3 harg3 arg4 harg4) K := by
  by_cases hc0 : cond4_0 i <;> by_cases hc1 : cond4_1 i
  · exact absurd hc1 (hx hc0)
  all_goals
    first | rw [if_pos hc0] | rw [if_neg hc0]
    first | rw [if_pos hc1] | rw [if_neg hc1]
    simp only [cc4__p2_kernel_eq_skeleton]; unfold cc4__p2_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      try sl_unfold_words
      first
      | (refine (read_store_whole _ _ _ _ _).trans ?_
         simp only [readAt_whole _ harg1, readAt_whole _ harg2, readAt_whole _ harg4, readCov_whole _ arg4.view])
      | exact hf2
    iexists _; isplitr
    swap; · iexact HS0
    ipureintro
    try sl_unfold_words
    refine (read_store_whole _ _ _ _ _).trans ?_
    simp only [readAt_whole _ harg1, readAt_whole _ harg2, readAt_whole _ harg4, readCov_whole _ arg4.view]

end Body

variable (V : (c : Dev nD) → (b : Ref sig .tc) → Buf (Elt F) ((c : Thread nD τ).loc b))

/-- The block of array `w` that point `t` works on, taken from the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch row after point `n`: the zero row updated by blocks `0 … n` in turn. -/
def acc4 (c : Dev nD) : (n : ℕ) → n < cfg4.N → Vec F S1x2048 .f32
  | 0, hn => k4_pay2 (iblk4 V c 1 ⟨0, hn⟩) (iblk4 V c 0 ⟨0, hn⟩) (k4_pay1 (F := F))
  | n + 1, hn => k4_pay2 (iblk4 V c 1 ⟨n + 1, hn⟩) (iblk4 V c 0 ⟨n + 1, hn⟩) (acc4 c n (Nat.lt_of_succ_lt hn))

/-- Before point 0 the invariant is the entry one; before point `n + 1` the scratch row holds `acc4 n`. -/
def PhiS4 (c : Dev nD) : (n : ℕ) → n ≤ cfg4.N → sProp 𝕄
  | 0, _ => Pipeline.ΦA spec4 c
  | n + 1, hn => Phi4 c (owns (c : Thread nD τ) scM4_0 fullShare (acc4 V c n hn))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem hin4 (c : Dev nD) : Pipeline.ΦA spec4 c ⊢ (dat4 V c).Φ 0 := Idealize.SL.BI.Entails.refl _

theorem hout4 (c : Dev nD) : (dat4 V c).Φ (Fin.last cfg4.N) ⊢ Pipeline.ΦA spec4 c := by
  rw [show (dat4 V c).Φ (Fin.last cfg4.N) = Phi4 c (owns (c : Thread nD τ) scM4_0 fullShare (acc4 V c 7 _)) from rfl, PhiA4_eq]
  unfold Phi4
  iintro ⟨⟨HS0, Hr⟩, Hg⟩
  iframe
  iexists _; iexact HS0

theorem body_obligation4 (c : Dev nD) : BodyObligation (dat4 (F := F) V c) (defs₀ (F := F)) Variants.none () Set.univ := fun t => by
  rw [bigSep_W4, bigSep_W4]
  simp only [before4_0, before4_1, liveAt4_0 t, liveAt4_1 t, show (dat4 V c).after 0 t = iblk4 V c 0 t from rfl,
    show (dat4 V c).after 1 t = iblk4 V c 1 t from rfl, show (dat4 V c).after 2 t = acc4 V c t.val t.isLt from rfl,
    show (dat4 V c).owesAt () t.succ = (dat4 V c).owesAt () t.castSucc from rfl,
    show (dat4 V c).Φ t.succ = Phi4 c (owns (c : Thread nD τ) scM4_0 fullShare (acc4 V c t.val t.isLt)) from rfl]
  show _ ⊢ wp _ _ _ (bodyAt4 t) _
  have hx : cond4_0 (grid4.coords t) → ¬cond4_1 (grid4.coords t) := fun h0 h1 => by
    have := (hcond4_0 t).mp h0; have := (hcond4_1 t).mp h1; omega
  obtain ⟨n, hn⟩ := t
  cases n with
  | zero =>
    have hc0 : cond4_0 (grid4.coords ⟨0, hn⟩) := (hcond4_0 _).mpr rfl
    have hc1 : ¬cond4_1 (grid4.coords ⟨0, hn⟩) := hx hc0
    simp only [idleAt4_2 _ hc1, noFlush4_2 _ hc1]
    rw [show (dat4 V c).Φ (Fin.castSucc ⟨0, hn⟩) = Pipeline.ΦA spec4 c from rfl, PhiA4_eq, acc4]
    unfold Phi4
    iintro ⟨⟨⟨⟨%ds, HS0⟩, Hr⟩, Hg⟩, Ho, ⟨%d0, H0⟩, ⟨%d1, H1⟩, ⟨%d2, H2⟩⟩
    iapply (run4 c _ _ _ _ _ _ _ _ _ (iblk4 V c 0 ⟨0, hn⟩) (iblk4 V c 1 ⟨0, hn⟩) ds _ hx Set.univ _)
    rw [if_pos hc0, if_neg hc1]
    iframe
    iintro ⟨H0, H1, H2, HS0⟩
    iframe
    iexists _; iexact H2
  | succ n =>
    have hc0 : ¬cond4_0 (grid4.coords ⟨n + 1, hn⟩) := fun h => absurd ((hcond4_0 _).mp h) (Nat.succ_ne_zero n)
    rw [show (dat4 V c).Φ (Fin.castSucc ⟨n + 1, hn⟩) = Phi4 c (owns (c : Thread nD τ) scM4_0 fullShare (acc4 V c n (Nat.lt_of_succ_lt hn))) from rfl]
    by_cases h1 : n + 1 = 7
    · have hc1 : cond4_1 (grid4.coords ⟨n + 1, hn⟩) := (hcond4_1 _).mpr h1
      simp only [liveAt4_2 _ hc1, acc4]
      unfold Phi4
      iintro ⟨⟨⟨HS0, Hr⟩, Hg⟩, Ho, ⟨%d0, H0⟩, ⟨%d1, H1⟩, ⟨%d2, H2⟩⟩
      iapply (run4 c _ _ _ _ _ _ _ _ _ (iblk4 V c 0 ⟨n + 1, hn⟩) (iblk4 V c 1 ⟨n + 1, hn⟩) _ _ hx Set.univ _)
      rw [if_neg hc0, if_pos hc1]
      iframe
      iintro ⟨H0, H1, H2, HS0⟩
      iframe
    · have hc1 : ¬cond4_1 (grid4.coords ⟨n + 1, hn⟩) := fun h => h1 ((hcond4_1 _).mp h)
      simp only [idleAt4_2 _ hc1, noFlush4_2 _ hc1, acc4]
      unfold Phi4
      iintro ⟨⟨⟨HS0, Hr⟩, Hg⟩, Ho, ⟨%d0, H0⟩, ⟨%d1, H1⟩, ⟨%d2, H2⟩⟩
      iapply (run4 c _ _ _ _ _ _ _ _ _ (iblk4 V c 0 ⟨n + 1, hn⟩) (iblk4 V c 1 ⟨n + 1, hn⟩) _ _ hx Set.univ _)
      rw [if_neg hc0, if_neg hc1]
      iframe
      iintro ⟨H0, H1, H2, HS0⟩
      iframe
      iexists _; iexact H2

end Cert.Kernel.Hand

end
-- ==== Proof.K.R5Frame.lean ====
import proofs.«418439_j46445776339038_1_alg».proof.Proof.Gen.Kernel.Launch
import proofs.«418439_j46445776339038_1_alg».proof.Proof.Gen.Kernel.Skeleton
import proofs.«418439_j46445776339038_1_alg».proof.Proof.Gen.Kernel.Points
import proofs.«418439_j46445776339038_1_alg».proof.Proof.Whole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Hand

variable {F : FTy → Type} [FloatOps F]

local notation "𝕄" => MT nD τ sig Unit (Elt F) ℕ (UR sig nD τ) ℕ

abbrev isFirst5 (i : grid5.Coords) : Prop :=
  (Scalar.cmpi .ne (Scalar.extui (Scalar.cmpi .eq (BitVec.ofNat 32 (i 0).val) 0#32)) 0#32) = 1#1
abbrev isLast5 (i : grid5.Coords) : Prop := k5_cond2 i = 1#1

/-- The body's first condition holds at point 0 only, its second at point 7 only. -/
theorem cond5 : ∀ t : Fin cfg5.N, (isFirst5 (grid5.coords t) ↔ t.val = 0) ∧ (isLast5 (grid5.coords t) ↔ t.val = 7) :=
  (by decide +kernel : ∀ t : Fin grid5.N, (isFirst5 (grid5.coords t) ↔ t.val = 0) ∧ (isLast5 (grid5.coords t) ↔ t.val = 7))

theorem out5_at : ∀ t : Fin cfg5.N, (t.val = 7 → cfg5.idle 3 (grid5.coords t) = false) ∧ (¬t.val = 7 → cfg5.idle 3 (grid5.coords t) = true ∧ (cfg5.win 3).flush t = false) := by decide +kernel

abbrev acc5 : Memref sig .tc .vmem S1x1 .f32 := Memref.whole cc5_scratch0

abbrev others5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns c.tc acc5 fullShare d) ∗ others5 c) ∗ (∃ r, prngReg c r)) := by
  unfold Pipeline.ΦA; rw [scopedRest5_split]; simp only [acc5, owns_whole]; try rfl

section Run
variable (c : Dev nD) (i : grid5.Coords) {a1 : Memref sig .tc .vmem S256x2048 .f32} (h1 : a1.IsWhole)
  {a2 : Memref sig .tc .vmem S1x2048 .f32} (h2 : a2.IsWhole) {a3 a4 a5 : Memref sig .tc .vmem S1x1 .f32}
  (h3 : a3.IsWhole) (h4 : a4.IsWhole) (h5 : a5.IsWhole)
  (x0 : Vec F S256x2048 .f32) (x1 : Vec F S1x2048 .f32) (x2 xo xs : Vec F S1x1 .f32)

/-- The body's triple: the output's contents go from `xo` to `yo`, the accumulator's from `xs` to `ys`. -/
abbrev Run5 (yo ys : Vec F S1x1 .f32) : Prop := ∀ (E : Set ℕ) (K : PUnit → sProp 𝕄),
  iprop(owns c.tc a1 fullShare x0 ∗ owns c.tc a2 fullShare x1 ∗ owns c.tc a3 fullShare x2 ∗ owns c.tc a4 fullShare xo ∗ owns c.tc a5 fullShare xs
      ∗ (iprop(owns c.tc a1 fullShare x0 ∗ owns c.tc a2 fullShare x1 ∗ owns c.tc a3 fullShare x2 ∗ owns c.tc a4 fullShare yo ∗ owns c.tc a5 fullShare ys) -∗ K ⟨⟩))
    ⊢ wp frame (wpE (defs₀ (F := F)) Variants.none c none) E (cc5__p3_kernel i a1 h1 a2 h2 a3 h3 a4 h4 a5 h5) K

variable {c i h1 h2 h3 h4 h5 x0 x1 x2 xo xs}

/-- The body at each kind of point: the accumulator restarts from the zero cell at the first and is updated over what it held elsewhere; the last copies it to the output. -/
theorem run5 {yo ys : Vec F S1x1 .f32}
    (h : isFirst5 i ∧ ¬isLast5 i ∧ yo = xo ∧ ys = k5_pay2 x2 x0 x1 (k5_pay1 (F := F))
      ∨ ¬isFirst5 i ∧ (¬isLast5 i ∧ yo = xo ∨ isLast5 i ∧ yo = k5_pay2 x2 x0 x1 xs) ∧ ys = k5_pay2 x2 x0 x1 xs) :
    Run5 c i h1 h2 h3 h4 h5 x0 x1 x2 xo xs yo ys := fun E K => by
  simp only [cc5__p3_kernel_eq_skeleton]; unfold cc5__p3_kernel_skel owns
  iintro ⟨⟨%f0, %e0, H0⟩, ⟨%f1, %e1, H1⟩, ⟨%f2, %e2, H2⟩, ⟨%f3, %e3, H3⟩, ⟨%fs, %es, HS⟩, Hk⟩
  obtain rfl := h1.eq_unread e0; obtain rfl := h2.eq_unread e1; obtain rfl := h3.eq_unread e2; obtain rfl := h5.eq_unread es
  rcases h with ⟨hc0, hc1, rfl, rfl⟩ | ⟨hc0, ⟨hc1, rfl⟩ | ⟨hc1, rfl⟩, rfl⟩ <;> (
    sl_exec (disch := first | exact hc0 | exact hc1)
    sl_step
    iapply Hk
    isplitl [H0]; iexists _; isplitr; ipureintro; exact h1.read_unread _; iexact H0
    isplitl [H1]; iexists _; isplitr; ipureintro; exact h2.read_unread _; iexact H1
    isplitl [H2]; iexists _; isplitr; ipureintro; exact h3.read_unread _; iexact H2
    isplitl [H3]; iexists _; isplitr; swap; iexact H3; ipureintro
    first
      | exact e3
      | (try sl_unfold_words
         refine (read_store_whole _ _ _ _ _).trans ((readCov_whole _ _ _).trans ?_)
         rw [readAt_whole _ h3, readAt_whole _ h1, readAt_whole _ h2, readAt_whole _ h5])
    iexists _; isplitr; swap; iexact HS; ipureintro
    try sl_unfold_words
    refine (read_store_whole _ _ _ _ _).trans ?_
    rw [readAt_whole _ h3, readAt_whole _ h1, readAt_whole _ h2]
    first | rw [readAt_whole _ h5] | rw [readCov_whole])

end Run

variable (V : (c : Dev nD) → (b : Ref sig .tc) → Buf (Elt F) ((c : Thread nD τ).loc b))

/-- Window `w`'s block at point `t` of the entry contents `V`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Point `t`'s update of the accumulator. -/
abbrev step5 (c : Dev nD) (t : Fin cfg5.N) : Vec F S1x1 .f32 → Vec F S1x1 .f32 :=
  k5_pay2 (iblk5 V c 2 t) (iblk5 V c 0 t) (iblk5 V c 1 t)

/-- The accumulator before point `n`: the zero cell, updated once a point. -/
def prev5 (c : Dev nD) : (n : ℕ) → n ≤ cfg5.N → Vec F S1x1 .f32
  | 0, _ => k5_pay1
  | n + 1, h => step5 V c ⟨n, h⟩ (prev5 c n (Nat.le_of_lt h))

/-- The invariant past the first point: the accumulator holds `x`. -/
abbrev inv5 (c : Dev nD) (x : Vec F S1x1 .f32) : sProp 𝕄 :=
  iprop(iprop(owns c.tc acc5 fullShare x ∗ others5 c) ∗ (∃ r, prngReg c r))

/-- The region's proof data at entry contents `V`: the output is the accumulator after the point. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => prev5 V c (t.val + 1) t.isLt
  Φ t := if t.val = 0 then Pipeline.ΦA spec5 c else inv5 c (prev5 V c t.val (Nat.le_of_lt_succ t.isLt))
  q _ := fullShare
  owed _ := 0

theorem A_eq5 (c : Dev nD) (w : Fin cfg5.W) : (dat5 V c).A w = V c (Pipeline.arrRef spec5 w) := rfl

theorem Phi5_pos (c : Dev nD) (t : Fin cfg5.N) (h : ¬t.val = 0) :
    (dat5 V c).Φ t.castSucc = inv5 c (prev5 V c t.val (Nat.le_of_lt t.isLt)) := if_neg h

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

/-- Point `t` takes the accumulator from `prev5 t` to `prev5 (t + 1)`. -/
theorem sound_body5 (c : Dev nD) (t : Fin cfg5.N) :
    iprop((dat5 V c).Φ t.castSucc ∗ (dat5 V c).owesAt () t.castSucc
        ∗ (∃ d, owns c.tc (st5_0 t) fullShare ((dat5 V c).before 0 t d))
        ∗ (∃ d, owns c.tc (st5_1 t) fullShare ((dat5 V c).before 1 t d))
        ∗ (∃ d, owns c.tc (st5_2 t) fullShare ((dat5 V c).before 2 t d))
        ∗ (∃ d, owns c.tc (st5_3 t) fullShare ((dat5 V c).before 3 t d)))
      ⊢ wp frame (wpE (defs₀ (F := F)) Variants.none c none) Set.univ (bodyAt5 t) (fun _ =>
        iprop(inv5 c (step5 V c t (prev5 V c t.val (Nat.le_of_lt t.isLt))) ∗ (dat5 V c).owesAt () t.castSucc
          ∗ owns c.tc (st5_0 t) fullShare (iblk5 V c 0 t) ∗ owns c.tc (st5_1 t) fullShare (iblk5 V c 1 t)
          ∗ owns c.tc (st5_2 t) fullShare (iblk5 V c 2 t) ∗ (dat5 V c).leavesExact 3 t)) := by
  unfold bodyAt5
  simp only [before5_0, before5_1, before5_2]
  by_cases h1 : t.val = 7
  · have h0 : ¬t.val = 0 := by omega
    rw [Phi5_pos V c t h0, show (dat5 V c).leavesExact 3 t = owns c.tc (st5_3 t) fullShare (step5 V c t (prev5 V c t.val (Nat.le_of_lt t.isLt))) from by
      unfold Dat.leavesExact; rw [(out5_at t).1 h1]; rfl]
    unfold inv5 step5
    iintro ⟨⟨⟨HS, HB⟩, Hg⟩, Ho, ⟨%d0, H0⟩, ⟨%d1, H1⟩, ⟨%d2, H2⟩, ⟨%d3, H3⟩⟩
    iapply (run5 (.inr ⟨fun h => h0 ((cond5 t).1.mp h), .inr ⟨(cond5 t).2.mpr h1, rfl⟩, rfl⟩) Set.univ _)
    iframe
    iintro ⟨H0, H1, H2, H3, HS⟩
    iframe
  · have hc1 : ¬isLast5 (grid5.coords t) := fun h => h1 ((cond5 t).2.mp h)
    rw [Dat.leavesExact_idle (dat5 V c) 3 t ((out5_at t).2 h1).1 ((out5_at t).2 h1).2]
    by_cases h0 : t.val = 0
    · rw [show (dat5 V c).Φ t.castSucc = _ from if_pos h0, PhiA5_eq, show prev5 V c t.val (Nat.le_of_lt t.isLt) = k5_pay1 from by
        obtain ⟨n, hn⟩ := t; subst h0; rfl]
      unfold inv5 step5
      iintro ⟨⟨⟨⟨%ds, HS⟩, HB⟩, Hg⟩, Ho, ⟨%d0, H0⟩, ⟨%d1, H1⟩, ⟨%d2, H2⟩, ⟨%d3, H3⟩⟩
      iapply (run5 (.inl ⟨(cond5 t).1.mpr h0, hc1, rfl, rfl⟩) Set.univ _)
      iframe
      iintro ⟨H0, H1, H2, H3, HS⟩
      iframe; iexists _; iexact H3
    · rw [Phi5_pos V c t h0]
      unfold inv5 step5
      iintro ⟨⟨⟨HS, HB⟩, Hg⟩, Ho, ⟨%d0, H0⟩, ⟨%d1, H1⟩, ⟨%d2, H2⟩, ⟨%d3, H3⟩⟩
      iapply (run5 (.inr ⟨fun h => h0 ((cond5 t).1.mp h), .inl ⟨hc1, rfl⟩, rfl⟩) Set.univ _)
      iframe
      iintro ⟨H0, H1, H2, H3, HS⟩
      iframe; iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Idealize.SL.BI.Entails.refl _

theorem hout5 (c : Dev nD) : (dat5 V c).Φ (Fin.last cfg5.N) ⊢ Pipeline.ΦA spec5 c := by
  rw [show (dat5 V c).Φ (Fin.last cfg5.N) = inv5 c (prev5 V c cfg5.N le_rfl) from rfl, PhiA5_eq]
  iintro ⟨⟨HS, HB⟩, Hg⟩
  iframe; iexists _; iexact HS

end Cert.Kernel.Hand

end
-- ==== Proof.K.RunData.lean ====
import proofs.«418439_j46445776339038_1_alg».proof.Proof.K.R0Frame
import proofs.«418439_j46445776339038_1_alg».proof.Proof.K.R1Frame
import proofs.«418439_j46445776339038_1_alg».proof.Proof.K.R2Frame
import proofs.«418439_j46445776339038_1_alg».proof.Proof.K.R3Frame
import proofs.«418439_j46445776339038_1_alg».proof.Proof.K.R4Frame
import proofs.«418439_j46445776339038_1_alg».proof.Proof.K.R5Frame
import proofs.«418439_j46445776339038_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the core's references. -/
abbrev rd (X : Dev nD → Valuation τ sig (Elt F)) : (c : Dev nD) → (b : Ref sig .tc) → Buf (Elt F) ((c : Thread nD τ).loc b) := fun c b => X c b

/-- The contents at each boundary, spelt without unknowns: a region leaves each output array at its proof data's last contents, every other buffer as entered. -/
def X2 (m : (ℓ : Loc nD τ sig) → Buf (Elt F) ℓ) (ρ : Dev nD → PrngReg) (c : Dev nD) : Valuation τ sig (Elt F) :=
  Function.update (Function.update (Gen.V1 m c) main_v5_0 ((dat0 (rd (Gen.V1 m)) c).arrAt 4 cfg0.N)) main_v5_1 ((dat0 (rd (Gen.V1 m)) c).arrAt 5 cfg0.N)

def X3 (c : Dev nD) : Valuation τ sig (Elt F) :=
  Function.update (X2 m ρ c) main_v6 ((dat1 (rd (X2 m ρ)) c).arrAt 2 cfg1.N)

def X4 (c : Dev nD) : Valuation τ sig (Elt F) :=
  Function.update (X3 m ρ c) main_v7 ((dat2 (rd (X3 m ρ)) c).arrAt 2 cfg2.N)
abbrev X5 (c : Dev nD) : Valuation τ sig (Elt F) := StableHlo.after hostOps3 (X4 m ρ c)
def X6 (c : Dev nD) : Valuation τ sig (Elt F) :=
  Function.update (Function.update (Function.update (X5 m ρ c) main_v12_0 ((dat3 (rd (X5 m ρ)) c).arrAt 7 cfg3.N)) main_v12_1 ((dat3 (rd (X5 m ρ)) c).arrAt 8 cfg3.N)) main_v12_2 ((dat3 (rd (X5 m ρ)) c).arrAt 9 cfg3.N)
abbrev X7 (c : Dev nD) : Valuation τ sig (Elt F) := StableHlo.after hostOps4 (X6 m ρ c)

def X8 (c : Dev nD) : Valuation τ sig (Elt F) :=
  Function.update (X7 m ρ c) main_v31 ((dat4 (rd (X7 m ρ)) c).arrAt 2 cfg4.N)

def X9 (c : Dev nD) : Valuation τ sig (Elt F) :=
  Function.update (X8 m ρ c) main_v32 ((dat5 (rd (X8 m ρ)) c).arrAt 3 cfg5.N)

/-- What the regions leave, read off that fold. -/
def outsOf : Gen.Outs (F := F) := fun J r c =>
  match J with
  | 2 => X2 m ρ c r
  | 3 => X3 m ρ c r
  | 4 => X4 m ρ c r
  | 6 => X6 m ρ c r
  | 8 => X8 m ρ c r
  | 9 => X9 m ρ c r
  | _ => m (c, r)

abbrev W0 (m : (ℓ : Loc nD τ sig) → Buf (Elt F) ℓ) (ρ : Dev nD → PrngReg) := Gen.V0 m
abbrev W1 (m : (ℓ : Loc nD τ sig) → Buf (Elt F) ℓ) (ρ : Dev nD → PrngReg) := Gen.V1 m
abbrev W2 := Gen.V2 m (outsOf m ρ)
abbrev W3 := Gen.V3 m (outsOf m ρ)
abbrev W4 := Gen.V4 m (outsOf m ρ)
abbrev W5 := Gen.V5 m (outsOf m ρ)
abbrev W6 := Gen.V6 m (outsOf m ρ)
abbrev W7 := Gen.V7 m (outsOf m ρ)
abbrev W8 := Gen.V8 m (outsOf m ρ)
abbrev W9 := Gen.V9 m (outsOf m ρ)
abbrev W10 := Gen.V10 m (outsOf m ρ)
abbrev V0 := rd (W0 m ρ)
abbrev V1 := rd (W1 m ρ)
abbrev V2 := rd (W2 m ρ)
abbrev V3 := rd (W3 m ρ)
abbrev V4 := rd (W4 m ρ)
abbrev V5 := rd (W5 m ρ)
abbrev V6 := rd (W6 m ρ)
abbrev V7 := rd (W7 m ρ)
abbrev V8 := rd (W8 m ρ)
abbrev V9 := rd (W9 m ρ)
abbrev V10 := rd (W10 m ρ)

/-- The generated valuations at those unknowns are the fold, stage by stage; each output is at its proof data's last contents. -/
theorem outsOf_2_v5_0 (c : Dev nD) : outsOf m ρ 2 main_v5_0 c = (dat0 (V1 m ρ) c).arrAt 4 cfg0.N := by
  show X2 m ρ c main_v5_0 = _; unfold X2; rw [Function.update_of_ne (StableHlo.devRef_ne_of_ne (by decide : main_v5_0 ≠ main_v5_1)), Function.update_self]
theorem outsOf_2_v5_1 (c : Dev nD) : outsOf m ρ 2 main_v5_1 c = (dat0 (V1 m ρ) c).arrAt 5 cfg0.N := by
  show X2 m ρ c main_v5_1 = _; unfold X2; rw [Function.update_self]
theorem W2_eq : Gen.V2 m (outsOf m ρ) = X2 m ρ := funext fun c => by
  rw [Gen.V2, outsOf_2_v5_0, outsOf_2_v5_1]; rfl
theorem outsOf_3_v6 (c : Dev nD) : outsOf m ρ 3 main_v6 c = (dat1 (V2 m ρ) c).arrAt 2 cfg1.N := by
  rw [V2, W2, W2_eq]; show X3 m ρ c main_v6 = _; unfold X3; rw [Function.update_self]
theorem W3_eq : Gen.V3 m (outsOf m ρ) = X3 m ρ := funext fun c => by
  rw [Gen.V3, outsOf_3_v6, V2, W2, W2_eq]; rfl
theorem outsOf_4_v7 (c : Dev nD) : outsOf m ρ 4 main_v7 c = (dat2 (V3 m ρ) c).arrAt 2 cfg2.N := by
  rw [V3, W3, W3_eq]; show X4 m ρ c main_v7 = _; unfold X4; rw [Function.update_self]
theorem W4_eq : Gen.V4 m (outsOf m ρ) = X4 m ρ := funext fun c => by
  rw [Gen.V4, outsOf_4_v7, V3, W3, W3_eq]; rfl
theorem W5_eq : Gen.V5 m (outsOf m ρ) = X5 m ρ := funext fun c => congrArg (StableHlo.after hostOps3) (congrFun (W4_eq m ρ) c)
theorem outsOf_6_v12_0 (c : Dev nD) : outsOf m ρ 6 main_v12_0 c = (dat3 (V5 m ρ) c).arrAt 7 cfg3.N := by
  rw [V5, W5, W5_eq]; show X6 m ρ c main_v12_0 = _; unfold X6; rw [Function.update_of_ne (StableHlo.devRef_ne_of_ne (by decide : main_v12_0 ≠ main_v12_2)), Function.update_of_ne (StableHlo.devRef_ne_of_ne (by decide : main_v12_0 ≠ main_v12_1)), Function.update_self]
theorem outsOf_6_v12_1 (c : Dev nD) : outsOf m ρ 6 main_v12_1 c = (dat3 (V5 m ρ) c).arrAt 8 cfg3.N := by
  rw [V5, W5, W5_eq]; show X6 m ρ c main_v12_1 = _; unfold X6; rw [Function.update_of_ne (StableHlo.devRef_ne_of_ne (by decide : main_v12_1 ≠ main_v12_2)), Function.update_self]
theorem outsOf_6_v12_2 (c : Dev nD) : outsOf m ρ 6 main_v12_2 c = (dat3 (V5 m ρ) c).arrAt 9 cfg3.N := by
  rw [V5, W5, W5_eq]; show X6 m ρ c main_v12_2 = _; unfold X6; rw [Function.update_self]
theorem W6_eq : Gen.V6 m (outsOf m ρ) = X6 m ρ := funext fun c => by
  rw [Gen.V6, outsOf_6_v12_0, outsOf_6_v12_1, outsOf_6_v12_2, V5, W5, W5_eq]; rfl
theorem W7_eq : Gen.V7 m (outsOf m ρ) = X7 m ρ := funext fun c => congrArg (StableHlo.after hostOps4) (congrFun (W6_eq m ρ) c)
theorem outsOf_8_v31 (c : Dev nD) : outsOf m ρ 8 main_v31 c = (dat4 (V7 m ρ) c).arrAt 2 cfg4.N := by
  rw [V7, W7, W7_eq]; show X8 m ρ c main_v31 = _; unfold X8; rw [Function.update_self]
theorem W8_eq : Gen.V8 m (outsOf m ρ) = X8 m ρ := funext fun c => by
  rw [Gen.V8, outsOf_8_v31, V7, W7, W7_eq]; rfl
theorem outsOf_9_v32 (c : Dev nD) : outsOf m ρ 9 main_v32 c = (dat5 (V8 m ρ) c).arrAt 3 cfg5.N := by
  rw [V8, W8, W8_eq]; show X9 m ρ c main_v32 = _; unfold X9; rw [Function.update_self]
theorem W9_eq : Gen.V9 m (outsOf m ρ) = X9 m ρ := funext fun c => by
  rw [Gen.V9, outsOf_9_v32, V8, W8, W8_eq]; rfl

/-- At a region's exit an input's array is as entered, an output's is at the proof data's last contents, and every other buffer is untouched. -/
theorem hF0 (c : Dev nD) : ∀ w : Fin 6, (dat0 (V1 m ρ) c).arrAt w cfg0.N = V2 m ρ c (Pipeline.arrRef spec0 w)
  | 0 | 1 | 2 | 3 => ((dat0 _ c).arrAt_in _ rfl _).trans ((A_eq0 _ c _).trans (Gen.V2_of m _ c _ (by decide)).symm)
  | 4 => ((congrFun (congrFun (W2_eq m ρ) c) _).trans (outsOf_2_v5_0 m ρ c)).symm
  | 5 => ((congrFun (congrFun (W2_eq m ρ) c) _).trans (outsOf_2_v5_1 m ρ c)).symm
theorem hrest0 (c : Dev nD) : ∀ b, b ∉ Finset.univ.image (Pipeline.arrRef spec0) → V2 m ρ c b = V1 m ρ c b := fun b hb =>
  Gen.V2_of m _ c b fun h => hb ((by decide : ∀ r ∈ ([main_v5_0, main_v5_1] : List (Ref sig .tc)), r ∈ Finset.univ.image (Pipeline.arrRef spec0)) b h)
theorem hF1 (c : Dev nD) : ∀ w : Fin 3, (dat1 (V2 m ρ) c).arrAt w cfg1.N = V3 m ρ c (Pipeline.arrRef spec1 w)
  | 0 | 1 => ((dat1 _ c).arrAt_in _ rfl _).trans ((A_eq1 _ c _).trans (Gen.V3_of m _ c _ (by decide)).symm)
  | 2 => ((congrFun (congrFun (W3_eq m ρ) c) _).trans (outsOf_3_v6 m ρ c)).symm
theorem hrest1 (c : Dev nD) : ∀ b, b ∉ Finset.univ.image (Pipeline.arrRef spec1) → V3 m ρ c b = V2 m ρ c b := fun b hb =>
  Gen.V3_of m _ c b fun h => hb ((by decide : ∀ r ∈ ([main_v6] : List (Ref sig .tc)), r ∈ Finset.univ.image (Pipeline.arrRef spec1)) b h)
theorem hF2 (c : Dev nD) : ∀ w : Fin 3, (dat2 (V3 m ρ) c).arrAt w cfg2.N = V4 m ρ c (Pipeline.arrRef spec2 w)
  | 0 | 1 => ((dat2 _ c).arrAt_in _ rfl _).trans ((A_eq2 _ c _).trans (Gen.V4_of m _ c _ (by decide)).symm)
  | 2 => ((congrFun (congrFun (W4_eq m ρ) c) _).trans (outsOf_4_v7 m ρ c)).symm
theorem hrest2 (c : Dev nD) : ∀ b, b ∉ Finset.univ.image (Pipeline.arrRef spec2) → V4 m ρ c b = V3 m ρ c b := fun b hb =>
  Gen.V4_of m _ c b fun h => hb ((by decide : ∀ r ∈ ([main_v7] : List (Ref sig .tc)), r ∈ Finset.univ.image (Pipeline.arrRef spec2)) b h)
theorem hF3 (c : Dev nD) : ∀ w : Fin cfg3.W, (dat3 (V5 m ρ) c).arrAt w cfg3.N = V6 m ρ c (Pipeline.arrRef spec3 w)
  | 0 | 1 | 2 | 3 | 4 | 5 | 6 => ((dat3 _ c).arrAt_in _ rfl _).trans ((A_eq3 _ c _).trans (Gen.V6_of m _ c _ (by decide)).symm)
  | 7 => ((congrFun (congrFun (W6_eq m ρ) c) _).trans (outsOf_6_v12_0 m ρ c)).symm
  | 8 => ((congrFun (congrFun (W6_eq m ρ) c) _).trans (outsOf_6_v12_1 m ρ c)).symm
  | 9 => ((congrFun (congrFun (W6_eq m ρ) c) _).trans (outsOf_6_v12_2 m ρ c)).symm
  | ⟨_ + 10, h⟩ => absurd h (Nat.not_lt.2 (Nat.le_add_left _ _))
theorem hrest3 (c : Dev nD) : ∀ b, b ∉ Finset.univ.image (Pipeline.arrRef spec3) → V6 m ρ c b = V5 m ρ c b := fun b hb =>
  Gen.V6_of m _ c b fun h => hb ((by decide : ∀ r ∈ ([main_v12_0, main_v12_1, main_v12_2] : List (Ref sig .tc)), r ∈ Finset.univ.image (Pipeline.arrRef spec3)) b h)
theorem hF4 (c : Dev nD) : ∀ w : Fin 3, (dat4 (V7 m ρ) c).arrAt w cfg4.N = V8 m ρ c (Pipeline.arrRef spec4 w)
  | 0 | 1 => ((dat4 _ c).arrAt_in _ rfl _).trans ((A_eq4 _ c _).trans (Gen.V8_of m _ c _ (by decide)).symm)
  | 2 => ((congrFun (congrFun (W8_eq m ρ) c) _).trans (outsOf_8_v31 m ρ c)).symm
theorem hrest4 (c : Dev nD) : ∀ b, b ∉ Finset.univ.image (Pipeline.arrRef spec4) → V8 m ρ c b = V7 m ρ c b := fun b hb =>
  Gen.V8_of m _ c b fun h => hb ((by decide : ∀ r ∈ ([main_v31] : List (Ref sig .tc)), r ∈ Finset.univ.image (Pipeline.arrRef spec4)) b h)
theorem hF5 (c : Dev nD) : ∀ w : Fin 4, (dat5 (V8 m ρ) c).arrAt w cfg5.N = V9 m ρ c (Pipeline.arrRef spec5 w)
  | 0 | 1 | 2 => ((dat5 _ c).arrAt_in _ rfl _).trans ((A_eq5 _ c _).trans (Gen.V9_of m _ c _ (by decide)).symm)
  | 3 => ((congrFun (congrFun (W9_eq m ρ) c) _).trans (outsOf_9_v32 m ρ c)).symm
theorem hrest5 (c : Dev nD) : ∀ b, b ∉ Finset.univ.image (Pipeline.arrRef spec5) → V9 m ρ c b = V8 m ρ c b := fun b hb =>
  Gen.V9_of m _ c b fun h => hb ((by decide : ∀ r ∈ ([main_v32] : List (Ref sig .tc)), r ∈ Finset.univ.image (Pipeline.arrRef spec5)) b h)

/-- Every region's proof data at its entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
  | ⟨5, _⟩ => fun c => dat5 (V8 m ρ) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W10 m ρ c) ∗ ∃ r, prngReg c r)

end Cert.Kernel.Hand

end
-- ==== Proof.K.Seg3Arr.lean ====
import proofs.«418439_j46445776339038_1_alg».proof.Proof.Gen.Kernel.Launch

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- `arrRef spec3` takes at 5 the value it has at 4, so its image is its values on these nine indices.
def wins3 : List (Fin 10) := [0, 1, 2, 3, 4, 6, 7, 8, 9]

theorem image_arrRef3 : (Finset.univ.image (Pipeline.arrRef spec3) : Finset (Ref sig .tc))
    = (wins3.map (Pipeline.arrRef spec3)).toFinset := by decide

theorem nodup_arrRef3 : (wins3.map (Pipeline.arrRef spec3)).Nodup := by decide

section Shares
variable (c : Dev nD) (dat : Dat τ (Elt F) Unit ℕ (UR sig nD τ) ℕ cfg3 c)
  (V V₀ : (b : Ref sig .tc) → Buf (Elt F) ((c : Thread nD τ).loc b))
  (G : (w : Fin cfg3.W) → Buf (Elt F) ((cfg3.win w).arr.view.loc (c : Thread nD τ)))
  (hq : ∀ w : Fin 10, w ≠ 4 → w ≠ 5 → dat.q w = fullShare) (h45 : fullShare ∈ PCS.op (dat.q 4) (dat.q 5))
  (hG : ∀ w, G w = V (Pipeline.arrRef spec3 w))

-- The points-to of the whole location `arrRef spec3 w` names, at share `q` and the contents `V` gives it.
abbrev pt3 (q : PosShare TreeShare) (w : Fin 10) : sProp 𝕄 :=
  ((c : Thread nD τ).loc (Pipeline.arrRef spec3 w)) ↦{q} V (Pipeline.arrRef spec3 w)

theorem arrBufs3_eq : (Pipeline.arrBufs (Ix := Unit) (Name := ℕ) (U := UR sig nD τ) (Lvl := ℕ) spec3 c V : sProp 𝕄)
    = iprop(pt3 c V fullShare 0 ∗ pt3 c V fullShare 1 ∗ pt3 c V fullShare 2 ∗ pt3 c V fullShare 3 ∗ pt3 c V fullShare 4
        ∗ pt3 c V fullShare 6 ∗ pt3 c V fullShare 7 ∗ pt3 c V fullShare 8 ∗ pt3 c V fullShare 9) := by
  unfold Pipeline.arrBufs
  exact bigSep_eq_bigSepL_of_eq _ image_arrRef3 nodup_arrRef3 _

include hq in
theorem share3_full (w : Fin 10) (h : w ≠ 4 ∧ w ≠ 5 := by decide) : dat.share w = fullShare := by
  unfold Dat.share; split
  · rfl
  · exact hq w h.1 h.2

-- The arrays as ten points-tos: the full share off indices 4 and 5, whose two shares sit on one location.
include hq hG in
theorem arrays3_eq : (dat.arrays G : sProp 𝕄)
    = iprop(pt3 c V fullShare 0 ∗ pt3 c V fullShare 1 ∗ pt3 c V fullShare 2 ∗ pt3 c V fullShare 3 ∗ pt3 c V (dat.q 4) 4
        ∗ pt3 c V (dat.q 5) 4 ∗ pt3 c V fullShare 6 ∗ pt3 c V fullShare 7 ∗ pt3 c V fullShare 8 ∗ pt3 c V fullShare 9) := by
  have s := @share3_full _ _ c dat hq
  have e : (dat.arrays G : sProp 𝕄) = bigSep Finset.univ fun w : Fin 10 =>
      (((c : Thread nD τ).loc (Pipeline.arrRef spec3 w)) ↦{dat.share w} V (Pipeline.arrRef spec3 w) : sProp 𝕄) :=
    bigSep_congr fun w _ => by rw [(arr_whole3 w).set_eq_univ, hG]
  rw [e, bigSep_W3, s 0, s 1, s 2, s 3, s 6, s 7, s 8, s 9, show dat.share 4 = dat.q 4 from if_neg (by decide),
    show dat.share 5 = dat.q 5 from if_neg (by decide)]

include hq h45 hG in
theorem arrays_of_arrBufs3 :
    (Pipeline.arrBufs (Ix := Unit) (Name := ℕ) (U := UR sig nD τ) (Lvl := ℕ) spec3 c V : sProp 𝕄) ⊢ dat.arrays G := by
  rw [arrays3_eq c dat V G hq hG, arrBufs3_eq]
  iintro ⟨H0, H1, H2, H3, H4, H6, H7, H8, H9⟩
  ihave H45 := (pointsTo_share h45).1 $$ H4
  icases H45 with ⟨H4, H5⟩
  iframe

include hq h45 hG in
theorem arrBufs_of_arrays3 :
    (dat.arrays G : sProp 𝕄) ⊢ Pipeline.arrBufs (Ix := Unit) (Name := ℕ) (U := UR sig nD τ) (Lvl := ℕ) spec3 c V := by
  rw [arrays3_eq c dat V G hq hG, arrBufs3_eq]
  iintro ⟨H0, H1, H2, H3, H4, H5, H6, H7, H8, H9⟩
  ihave H45 := (pointsTo_share h45).2 $$ [H4 H5]
  · iframe
  iframe

theorem unscopedBufs_split3 : (unscopedBufs c V : sProp 𝕄)
    = iprop((Pipeline.arrBufs spec3 c V : sProp 𝕄) ∗ Pipeline.unscopedRest spec3 c V) :=
  Pipeline.unscopedBufs_split₀ cfgs 3 winFacts₀3.arr_unscoped c V

-- For the region's entry.
include hq h45 hG in
theorem arrays_of_unscopedBufs3 :
    (unscopedBufs c V : sProp 𝕄) ⊢ iprop(dat.arrays G ∗ Pipeline.unscopedRest spec3 c V) := by
  rw [unscopedBufs_split3 c V]
  exact sep_mono (arrays_of_arrBufs3 c dat V G hq h45 hG) .rfl

-- For the region's exit: `V₀` may differ from `V` on the arrays only.
include hq h45 hG in
theorem unscopedBufs_of_arrays3 (hrest : ∀ b, b ∉ Finset.univ.image (Pipeline.arrRef spec3) → V b = V₀ b) :
    iprop(dat.arrays G ∗ Pipeline.unscopedRest spec3 c V₀) ⊢ (unscopedBufs c V : sProp 𝕄) := by
  rw [unscopedBufs_split3 c V]
  refine sep_mono (arrBufs_of_arrays3 c dat V G hq h45 hG) (Entails.of_eq ?_)
  unfold Pipeline.unscopedRest
  exact bigSep_congr fun b hb => by rw [hrest b (Finset.mem_sdiff.mp hb).2]

end Shares

end Cert.Kernel.Hand

end
-- ==== Proof.K.Seg3.lean ====
import proofs.«418439_j46445776339038_1_alg».proof.Proof.K.Seg3Arr
import proofs.«418439_j46445776339038_1_alg».proof.Proof.K.RunData

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Seg
variable (m : (ℓ : Loc nD τ sig) → Buf (Elt F) ℓ) (ρ : Dev nD → PrngReg)

section Shares3
variable (V : (c : Dev nD) → (b : Ref sig .tc) → Buf (Elt F) ((c : Thread nD τ).loc b))

theorem q3_off (c : Dev nD) : ∀ w : Fin 10, w ≠ 4 → w ≠ 5 → (dat3 V c).q w = fullShare := fun
  | 0 => fun _ _ => rfl
  | 1 => fun _ _ => rfl
  | 2 => fun _ _ => rfl
  | 3 => fun _ _ => rfl
  | 4 => fun h _ => absurd rfl h
  | 5 => fun _ h => absurd rfl h
  | 6 => fun _ _ => rfl
  | 7 => fun _ _ => rfl
  | 8 => fun _ _ => rfl
  | 9 => fun _ _ => rfl
  | ⟨_ + 10, h⟩ => absurd h (Nat.not_lt.2 (Nat.le_add_left _ _))

end Shares3

set_option backward.isDefEq.respectTransparency.types false in
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := arrays_of_unscopedBufs3 c (dat3 (V5 m ρ) c) (V5 m ρ c) ((dat3 (V5 m ρ) c).arrAt · 0)
      (q3_off (V5 m ρ) c) share3_join (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V5 m ρ) c)
    unfold Pipeline.ΦA
    iintro ⟨Hp, -, Hr⟩
    iframe
  hout c := by
    refine (hout3 (V5 m ρ) c).trans ?_
    rw [Pipeline.ownSems0_none]; unfold Pipeline.ΦA
    iintro ⟨Hr, Hp⟩
    isplitl [Hp]; · iexact Hp
    isplitr; · iempintro
    iexact Hr
  hexit c := by
    have hjoin := unscopedBufs_of_arrays3 c (dat3 (V5 m ρ) c) (V6 m ρ c) (V5 m ρ c) ((dat3 (V5 m ρ) c).arrAt · cfg3.N)
      (q3_off (V5 m ρ) c) share3_join (hF3 m ρ c) (hrest3 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Seg

end Cert.Kernel.Hand

end
-- ==== Proof.K.Run.lean ====
import proofs.«418439_j46445776339038_1_alg».proof.Proof.K.RunData
import proofs.«418439_j46445776339038_1_alg».proof.Proof.K.Seg3

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- A region whose arrays are distinct whole buffers held at the full share, as a segment: entered from the unscoped buffers at `Wi`, left at `Wo`. -/
def reg (p : Fin 6) (lf : Pipeline.LaunchFacts (nD := nD) (τ := τ) cfgs p) (Wi Wo : Dev nD → Valuation τ sig (Elt F))
    (hb : ∀ c, BodyObligation (pdats m ρ p c) (defs₀ (F := F)) Variants.none () Set.univ)
    (hA : ∀ c w, (pdats m ρ p c).A w = Wi c (Pipeline.arrRef (cfgs p).spec w))
    (hi : ∀ c, Pipeline.ΦA (cfgs p).spec c ⊢ (pdats m ρ p c).Φ 0)
    (ho : ∀ c, (pdats m ρ p c).Φ (Fin.last (cfgs p).N) ⊢ Pipeline.ΦA (cfgs p).spec c)
    (hF : ∀ c w, (pdats m ρ p c).arrAt w (cfgs p).N = Wo c (Pipeline.arrRef (cfgs p).spec w))
    (hr : ∀ c (b : Ref sig .tc), b ∉ Finset.univ.image (Pipeline.arrRef (cfgs p).spec) → Wo c b = Wi c b)
    (hz : ∀ c t, (pdats m ρ p c).owed t = 0 := by exact fun _ _ => rfl) (hrc : ∀ c x, x ∈ (pdats m ρ p c).recorded 0 := by exact fun _ _ => trivial)
    (hq : ∀ c w, (pdats m ρ p c).q w = fullShare := by exact fun _ _ => rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    unfold Pipeline.Dat.owesAt Pipeline.owesWithin; rw [hz c 0]
    icases HO with ⟨%W, HO⟩; iexists W; isplitr; · ipureintro; exact fun _ _ => Or.inl (hrc c _)
    iexact HO
  hin c := by
    have h := hi c
    unfold Pipeline.ΦA at h
    iintro ⟨Hp, -, Hr⟩
    iapply h
    iframe
  hout c := by
    rw [Pipeline.ownSems0_none]
    have h := ho c
    unfold Pipeline.ΦA at h
    iintro H
    ihave H' := h $$ H
    icases H' with ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · (cfgs p).N) (hF c) (hr c)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin; rw [hz c (Fin.last _)]
    icases HO with ⟨%W, -, HO⟩; iexists W; iexact HO

/-- The five regions with distinct arrays, each at its boundary contents. -/
abbrev reg0 := reg m ρ 0 launch0 (W1 m ρ) (W2 m ρ) (body_obligation0 (V1 m ρ)) (A_eq0 (V1 m ρ)) (hin0 (V1 m ρ)) (hout0 (V1 m ρ)) (hF0 m ρ) (hrest0 m ρ)
abbrev reg1 := reg m ρ 1 launch1 (W2 m ρ) (W3 m ρ) (body_obligation1 (V2 m ρ)) (A_eq1 (V2 m ρ)) (hin1 (V2 m ρ)) (hout1 (V2 m ρ)) (hF1 m ρ) (hrest1 m ρ)
abbrev reg2 := reg m ρ 2 launch2 (W3 m ρ) (W4 m ρ) (body_obligation2 (V3 m ρ)) (A_eq2 (V3 m ρ)) (hin2 (V3 m ρ)) (hout2 (V3 m ρ)) (hF2 m ρ) (hrest2 m ρ)
abbrev reg4 := reg m ρ 4 launch4 (W7 m ρ) (W8 m ρ) (body_obligation4 (V7 m ρ)) (A_eq4 (V7 m ρ)) (hin4 (V7 m ρ)) (hout4 (V7 m ρ)) (hF4 m ρ) (hrest4 m ρ)
abbrev reg5 := reg m ρ 5 launch5 (W8 m ρ) (W9 m ρ) (body_obligation5 (V8 m ρ)) (A_eq5 (V8 m ρ)) (hin5 (V8 m ρ)) (hout5 (V8 m ρ)) (hF5 m ρ) (hrest5 m ρ)
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .region (reg5 m ρ),
    .host (hseg hostOps6 hostOps6_sub hostOps6_fresh (W9 m ρ)) ]

theorem main_run (c : Dev nD) : main (F := F) c = Pipeline.Seg.run (segs m ρ) := (main_chain c).trans (by chain_rfl)

set_option backward.isDefEq.respectTransparency.types false in
/-- Every weakly fair execution of @main terminates with each unscoped buffer at the last boundary's contents: the result at `W10`, every argument as launched. -/
theorem run_value : θ_run defs (onTc (τ := τ) (main (F := F))) ⟨m, fun _ => 0, ρ⟩ (fun r => ∀ c : Dev nD,
      r.2.mem ((c.tc : Thread nD τ).loc main_v43) = W10 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      have a {b} hb {v} (e : W10 m ρ c (Proc.devRef .tc b) = v) := (h c _ (mem_uc b hb)).trans e
      ⟨h c _ (mem_uc main_v43 (by decide)), a (by decide) (Gen.V10_main_arg0 m _ c), a (by decide) (Gen.V10_main_arg1 m _ c),
        a (by decide) (Gen.V10_main_arg2 m _ c), a (by decide) (Gen.V10_main_arg3 m _ c), a (by decide) (Gen.V10_main_arg4 m _ c),
        a (by decide) (Gen.V10_main_arg5 m _ c), a (by decide) (Gen.V10_main_arg6 m _ c)⟩)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.R3ValueA.lean ====
import proofs.«418439_j46445776339038_1_alg».proof.Proof.R3Body
import Idealize.ShloMosaic.PureOps.Ideal.Laws
import Idealize.ShloMosaic.Lib.ValueIdx
import Idealize.ShloMosaic.Lib.ValueIdxCoords
import Idealize.ShloMosaic.Lib.ValueLayout
import Idealize.ShloMosaic.Lib.Pipeline.Value

noncomputable section

namespace Cert.KernelIdeal.Hand

open Idealize.ShloMosaic Idealize.SL.Sem Idealize.ShloMosaic.ValueIdx Cert.KernelIdeal Cert.KernelIdeal.Gen
open scoped BigOperators

-- A rank-two index is determined by its two coordinates.
theorem ix2_of_val {n0 n1 : Nat} (e : (⟨2, ![n0, n1]⟩ : Shape).Idx) (k0 : Fin n0) (k1 : Fin n1)
    (h0 : (e 0).val = k0.val) (h1 : (e 1).val = k1.val) : e = ix2 k0 k1 :=
  funext fun a => Fin.ext (match a with | ⟨0, _⟩ => h0 | ⟨1, _⟩ => h1)

theorem absf_apply' {s : Shape} {φ : FTy} (a : FVec Ideal s φ) (j : s.Idx) : absf a j = FloatOps.absf (a j) := rfl
theorem log_apply' {s : Shape} {φ : FTy} (a : FVec Ideal s φ) (j : s.Idx) : log a j = Ideal.log (a j) := rfl
theorem exp_apply' {s : Shape} {φ : FTy} (a : FVec Ideal s φ) (j : s.Idx) : exp a j = Ideal.exp (a j) := rfl

theorem absf_max {s : Shape} (a : FVec Ideal s .f32) (j : s.Idx) : absf a j = max (a j) (-(a j)) := rfl

theorem zero_read : (FloatOps.ofBits (F := Ideal) .f32 0x00000000#32) = (0 : EReal) := Ideal.ofBits_zero_f32

-- A one-column matrix broadcast to b columns reads, at (p, c), its entry at p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- Column o cut out of a matrix reads the matrix at that column.
theorem col_read {α : Type} {n0 n1 : Nat} (o : Nat) (X : (⟨2, ![n0, n1]⟩ : Shape).Idx → α)
    (h : (⟨2, ![n0, n1]⟩ : Shape).Slices ![0, o] ⟨2, ![n0, 1]⟩) (a : Fin n0) :
    extractStridedSlice ⟨2, ![n0, 1]⟩ ![0, o] X h (ix2 a (0 : Fin 1)) = X (ix2 a ⟨o, Nat.lt_of_succ_le (h.2 1)⟩) :=
  slice2_axis1_apply o X h a 0 _ rfl

-- Entry (a, b) of a box cut at offsets (o0, o1) is entry (o0 + a, o1 + b) of the block.
theorem ld_unit_apply {n0 n1 m0 m1 : Nat} (X : Vec Ideal ⟨2, ![n0, n1]⟩ .f32) (o0 o1 : Nat)
    (inb : ∀ a, (![o0, o1] : Fin 2 → Nat) a + (⟨2, ![m0, m1]⟩ : Shape).size a ≤ (⟨2, ![n0, n1]⟩ : Shape).size a)
    (a : Fin m0) (b : Fin m1) (k0 : Fin n0) (k1 : Fin n1) (h0 : o0 + a.val = k0.val) (h1 : o1 + b.val = k1.val) :
    ld X (Rect.unit (s := ⟨2, ![n0, n1]⟩) ![o0, o1] (⟨2, ![m0, m1]⟩ : Shape).size inb).toLoadRect (ix2 a b) = X (ix2 k0 k1) :=
  congrArg X (ix2_of_val _ k0 k1 (by show o0 + 1 * a.val = k0.val; omega) (by show o1 + 1 * b.val = k1.val; omega))

-- The one-row box at row k is row k; the box of the first sixteen columns keeps the column.
theorem row_read (x1 : Vec Ideal S64x2048 .f32) (k : ℕ)
    (inb : ∀ a, (![k, 0] : Fin 2 → Nat) a + (![1, 2048] : Fin 2 → Nat) a ≤ S64x2048.size a) (q : Fin 2048) :
    ld x1 (Rect.unit (s := S64x2048) ![k, 0] ![1, 2048] inb).toLoadRect (ix2 (0 : Fin 1) q)
      = x1 (ix2 ⟨k, Nat.lt_of_succ_le (inb 0)⟩ q) :=
  ld_unit_apply x1 k 0 inb 0 q _ q rfl (Nat.zero_add _)

theorem lo_read (x0 : Vec Ideal S256x64 .f32)
    (inb : ∀ a, (![0, 0] : Fin 2 → Nat) a + (![256, 16] : Fin 2 → Nat) a ≤ S256x64.size a) (p : Fin 256) (s : Fin 16) :
    ld x0 (Rect.unit (s := S256x64) ![0, 0] ![256, 16] inb).toLoadRect (ix2 p s)
      = x0 (ix2 p (Fin.castLE (by decide : 16 ≤ 64) s)) :=
  ld_unit_apply x0 0 0 inb p s _ _ (Nat.zero_add _) (Nat.zero_add _)

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

-- Adding up a matrix over both axes gives the double sum of its entries.
theorem total_read {a b : Nat} (v : FVec Ideal (⟨2, ![a, b]⟩ : Shape) .f32)
    (h1 : (⟨2, ![a, b]⟩ : Shape).ShapeCasts ⟨3, ![1, a, b]⟩)
    (hr : (⟨3, ![1, a, b]⟩ : Shape).Reduces [1, 2] S1) (h2 : S1.ShapeCasts S1x1x1)
    (hp : ∀ c, (![0, 0, 0] : Fin 3 → Nat) c < S1x1x1.size c) :
    extractAt ![0, 0, 0] (shapeCast S1x1x1
      (multiReduction .add [1, 2] S1 (shapeCast (⟨3, ![1, a, b]⟩ : Shape) v h1) 0x00000000#32 hr (.inl rfl) rfl) h2) hp
      = ∑ p : Fin a, ∑ s : Fin b, v (ix2 p s) := by
  unfold extractAt shapeCast
  refine (Ideal.multiReduction_add_total _ _ hr (by decide) _ _ _).trans ?_
  rw [sum_idx3, Fintype.sum_unique]
  refine Finset.sum_congr rfl fun p _ => Finset.sum_congr rfl fun s _ => ?_
  exact shapeCast_ab_1ab_apply v h1 _ p s

-- Entry L of a row plus eight concatenated one-entry pieces is the row's entry plus the L-th piece.
theorem lane_read (sc : Vec Ideal S1x8 .f32) (xs : List ((s : Shape) × (s.Idx → Ideal .f32)))
    (h : Shape.Concatenates (xs.map (·.1)) S1x8 1) (hc : S1x8.ShapeCasts S1x8) (L : Fin 8) (x : FVec Ideal S1x1 .f32)
    (hx : xs[L.val]? = some ⟨S1x1, x⟩ := by rfl)
    (hpre : (((xs.take L.val).map (·.1)).map fun s => if h : s.rank = S1x8.rank then s.size ((1 : Fin 2).cast h.symm) else 0).sum = L.val := by rfl) :
    shapeCast S1x8 (addf (F := Ideal) (φ := .f32) sc (concatenate S1x8 1 xs h)) hc (ix2 (0 : Fin 1) L)
      = sc (ix2 (0 : Fin 1) L) + x (ix2 (0 : Fin 1) (0 : Fin 1)) := by
  obtain ⟨hL, hx⟩ := List.getElem?_eq_some_iff.mp hx
  rw [shapeCast_self]
  exact congrArg (sc (ix2 0 L) + ·) (concatenate_apply_piece 1 xs h (ix2 0 L) L.val hL S1x1 x hx rfl L.val hpre (ix2 0 0)
    (fun b hb => match b with | ⟨0, _⟩ => rfl | ⟨1, _⟩ => absurd rfl hb) (Nat.add_zero _))

theorem sum16 (f : Fin 16 → EReal) :
    ∑ s, f s = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

abbrev dabs (a b : EReal) : EReal := max (a - b) (-(a - b))

-- Contracting the second axes: entry (p, q) is the inner product of row p and row q.
theorem matmul_nt_apply (A : FVec Ideal S256x128 .bf16) (B : FVec Ideal S2048x128 .bf16) (p : Fin 256) (q : Fin 2048) :
    matmul dot_S256x128_S2048x128_S256x2048_1_1_0_0_n_n none A B (constant S256x2048 .f32 0x00000000#32) (ix2 p q)
      = ∑ d : Fin 128, A (ix2 p d) * B (ix2 q d) := by
  simp only [matmul]
  rw [Ideal.matmul_constant_zero_apply,
    ← Equiv.sum_comp (contrEquiv1 dot_S256x128_S2048x128_S256x2048_1_1_0_0_n_n 128 rfl rfl).symm]
  refine Finset.sum_congr rfl fun c _ => ?_
  have c2 := contrEquiv1_symm_val dot_S256x128_S2048x128_S256x2048_1_1_0_0_n_n 128 rfl rfl c
  rw [ix2_of_val (dot_S256x128_S2048x128_S256x2048_1_1_0_0_n_n.lhsIdx (ix2 p q) ((contrEquiv1 _ 128 rfl rfl).symm c)) p c rfl c2,
    ix2_of_val (dot_S256x128_S2048x128_S256x2048_1_1_0_0_n_n.rhsIdx (ix2 p q) ((contrEquiv1 _ 128 rfl rfl).symm c)) q c rfl c2]

section
variable (i : grid3.Coords) (x0 : Vec Ideal S256x64 .f32) (x1 : Vec Ideal S64x2048 .f32) (x2 : Vec Ideal S256x32 .f32)
  (x3 : Vec Ideal S256x2048 .f32) (x4 : Vec Ideal S256x128 .f32) (x5 : Vec Ideal S2048x128 .f32) (x6 : Vec Ideal S1x2048 .f32)

-- Sixteen distances |a - b| added one after another from zero are their sum.
theorem p1_realD_apply (p : Fin 256) (q : Fin 2048) :
    p1_realD i x0 x1 x2 x3 x4 x5 x6 (ix2 p q)
      = x3 (ix2 p q) + ∑ s : Fin 16, dabs (x0 (ix2 p (Fin.castLE (by decide : 16 ≤ 64) s))) (x1 (ix2 (Fin.castLE (by decide : 16 ≤ 64) s) q)) := by
  rw [sum16]
  simp only [p1_realD, p1_v556, p1_v525, p1_v526, p1_v529, p1_v465, p1_v466, p1_v469, p1_v405, p1_v433, p1_v375, p1_v376,
    p1_v379, p1_v315, p1_v316, p1_v319, p1_v255, p1_v283, p1_v225, p1_v226, p1_v229, p1_v165, p1_v166, p1_v169, p1_v105,
    p1_v133, p1_v74, p1_v76, p1_v79, p1_v4, p1_v3, p1_v78, p1_v108, p1_v138, p1_v168, p1_v198, p1_v228, p1_v258, p1_v288, p1_v318, p1_v348, p1_v378, p1_v408, p1_v438, p1_v468, p1_v498, p1_v528,
    k3_pay86, k3_pay80, k3_pay72, k3_pay68, k3_pay64, k3_pay59, k3_pay51, k3_pay47, k3_pay43, k3_pay38, k3_pay30, k3_pay26,
    k3_pay22, k3_pay16, k3_pay4, k3_pay18, k3_pay23, k3_pay27, k3_pay31, k3_pay35, k3_pay39, k3_pay44, k3_pay48, k3_pay52,
    k3_pay56, k3_pay60, k3_pay65, k3_pay69, k3_pay73, k3_pay77, k3_pay81, k3_pay20, k3_pay24, k3_pay28, k3_pay32, k3_pay36,
    k3_pay41, k3_pay45, k3_pay49, k3_pay53, k3_pay57, k3_pay62, k3_pay66, k3_pay70, k3_pay74, k3_pay78, k3_pay83,
    addf_apply, subf_apply, absf_max, broadcast_apply, broadcastTo_a1_ab_apply, broadcastTo_1b_ab_apply, shapeCast_self,
    col_read, row_read, lo_read, zero_read]
  rfl

theorem pay88_apply (p : Fin 256) (q : Fin 2048) :
    k3_pay88 x4 x5 (ix2 p q) = Ideal.ofBits .f32 0xC0000000#32 * ∑ d : Fin 128, x4 (ix2 p d) * x5 (ix2 q d) := by
  unfold k3_pay88
  show Ideal.ofBits .f32 0xC0000000#32 * matmul dot_S256x128_S2048x128_S256x2048_1_1_0_0_n_n none _ _ (constant S256x2048 .f32 0x00000000#32) (ix2 p q) = _
  rw [matmul_nt_apply]
  rfl

-- Every entry of row p is the sum of the squares of the operand's row p.
theorem pay89_apply (p : Fin 256) (q : Fin 2048) : k3_pay89 x4 (ix2 p q) = ∑ d : Fin 128, x4 (ix2 p d) * x4 (ix2 p d) := by
  unfold k3_pay89
  rw [broadcastTo_a1_ab_apply, shapeCast_apply _ _ (ix2 p (0 : Fin 1)) (ix1 p)
    (by rw [Shape.rowMajor_val_one, Shape.rowMajor_val_two]; show p.val = p.val * 1 + 0; omega)]
  refine (Ideal.multiReduction_add_single (mulf x4 x4) _ reduces_S256x128_S256 _ _ (ix1 p)).trans ?_
  refine Finset.sum_congr rfl fun d _ => ?_
  rw [ix2_of_val (reduces_S256x128_S256.lift (ix1 p) d) p d rfl rfl]
  rfl

theorem pay1_apply (v575 v576 : FVec Ideal S256x2048 .f32) (p : Fin 256) (q : Fin 2048) :
    k3_pay1 v575 v576 x6 (ix2 p q)
      = max ((v575 (ix2 p q) + v576 (ix2 p q)) + x6 (ix2 (0 : Fin 1) q)) (Ideal.ofBits .f32 0x2EDBE6FF#32) := by
  unfold k3_pay1
  show max ((v575 (ix2 p q) + v576 (ix2 p q)) + broadcastTo S256x2048 (shapeCast S1x2048 x6 _) _ (ix2 p q)) _ = _
  rw [broadcastTo_1b_ab_apply, shapeCast_self]
  rfl

-- Entry (p, q): the larger of the small constant and -2<row p, row q> + <row p, row p> + the row vector's entry at q.
theorem p1_omega_apply (p : Fin 256) (q : Fin 2048) :
    p1_omega i x0 x1 x2 x3 x4 x5 x6 (ix2 p q)
      = max ((Ideal.ofBits .f32 0xC0000000#32 * ∑ d : Fin 128, x4 (ix2 p d) * x5 (ix2 q d)
              + ∑ d : Fin 128, x4 (ix2 p d) * x4 (ix2 p d)) + x6 (ix2 (0 : Fin 1) q))
          (Ideal.ofBits .f32 0x2EDBE6FF#32) := by
  simp only [p1_omega, p1_v575, p1_v576, p1_v578, p1_v566, p1_v568, pay1_apply, pay88_apply, pay89_apply]

-- Lanes 1 and 2 grow by the sums of squares of the two blocks.
theorem p1_lanes_lane1 (sc : Vec Ideal S1x8 .f32) :
    p1_lanes i x0 x1 x2 x3 x4 x5 x6 sc (ix2 (0 : Fin 1) (1 : Fin 8))
      = sc (ix2 (0 : Fin 1) (1 : Fin 8)) + ∑ p : Fin 256, ∑ q : Fin 2048, p1_realD i x0 x1 x2 x3 x4 x5 x6 (ix2 p q) * p1_realD i x0 x1 x2 x3 x4 x5 x6 (ix2 p q) := by
  unfold p1_lanes k3_pay2 p1_v564 k3_pay87
  refine (lane_read sc _ _ _ 1 _).trans (congrArg _ ?_)
  rw [broadcast_apply, total_read]
  rfl

theorem p1_lanes_lane2 (sc : Vec Ideal S1x8 .f32) :
    p1_lanes i x0 x1 x2 x3 x4 x5 x6 sc (ix2 (0 : Fin 1) (2 : Fin 8))
      = sc (ix2 (0 : Fin 1) (2 : Fin 8)) + ∑ p : Fin 256, ∑ q : Fin 2048, p1_omega i x0 x1 x2 x3 x4 x5 x6 (ix2 p q) * p1_omega i x0 x1 x2 x3 x4 x5 x6 (ix2 p q) := by
  unfold p1_lanes k3_pay2
  refine (lane_read sc _ _ _ 2 _).trans (congrArg _ ?_)
  rw [broadcast_apply, total_read]
  rfl

end

end Cert.KernelIdeal.Hand
-- ==== Proof.R3ValueB.lean ====
import proofs.«418439_j46445776339038_1_alg».proof.Proof.R3ValueA

noncomputable section

namespace Cert.KernelIdeal.Hand

open Idealize.ShloMosaic Idealize.SL.Sem Idealize.ShloMosaic.ValueIdx
open Cert.KernelIdeal Cert.KernelIdeal.Gen

abbrev EPS : EReal := Ideal.ofBits .f32 0x2EDBE6FF#32
abbrev CLIP : EReal := Ideal.ofBits .f32 0x501502F9#32
abbrev TWO : EReal := Ideal.ofBits .f32 0x40000000#32

-- Names for the entries read: a box row's low corner, high corner and weight, the transposed table's two corners, a parent row's two corners.
def bLo (e : (⟨2, ![256, 64]⟩ : Shape).Idx → EReal) (p : Fin 256) (s : Fin 16) : EReal := e (ix2 p ⟨s.val, by omega⟩)
def bHi (e : (⟨2, ![256, 64]⟩ : Shape).Idx → EReal) (p : Fin 256) (s : Fin 16) : EReal := e (ix2 p ⟨16 + s.val, by omega⟩)
def bDen (e : (⟨2, ![256, 64]⟩ : Shape).Idx → EReal) (p : Fin 256) : EReal := e (ix2 p ⟨32, by omega⟩)
def bLoT (eT : (⟨2, ![64, 2048]⟩ : Shape).Idx → EReal) (s : Fin 16) (j : Fin 2048) : EReal := eT (ix2 ⟨s.val, by omega⟩ j)
def bHiT (eT : (⟨2, ![64, 2048]⟩ : Shape).Idx → EReal) (s : Fin 16) (j : Fin 2048) : EReal := eT (ix2 ⟨16 + s.val, by omega⟩ j)
def bRL (r : (⟨2, ![256, 32]⟩ : Shape).Idx → EReal) (p : Fin 256) (s : Fin 16) : EReal := r (ix2 p ⟨s.val, by omega⟩)
def bRH (r : (⟨2, ![256, 32]⟩ : Shape).Idx → EReal) (p : Fin 256) (s : Fin 16) : EReal := r (ix2 p ⟨16 + s.val, by omega⟩)

-- The overlap of every box of block t with every box, over the box's width, off the diagonal.
def ovlPart (t : ℕ) (e : (⟨2, ![256, 64]⟩ : Shape).Idx → EReal) (eT : (⟨2, ![64, 2048]⟩ : Shape).Idx → EReal) : EReal :=
  ∑ p : Fin 256, ∑ s : Fin 16, ∑ j : Fin 2048,
    Ideal.div (max (min (bHi e p s) (bHiT eT s j) - max (bLo e p s) (bLoT eT s j)) 0
        * (if 256 * t + p.val = j.val then (0 : EReal) else 1))
      (max (bHi e p s - bLo e p s) EPS)

-- How far each box sticks out of its parent's widened by two, below and above.
def excPart (e : (⟨2, ![256, 64]⟩ : Shape).Idx → EReal) (r : (⟨2, ![256, 32]⟩ : Shape).Idx → EReal) : EReal :=
  (∑ p : Fin 256, ∑ s : Fin 16, max (bRL r p s + TWO - bLo e p s) 0)
    + ∑ p : Fin 256, ∑ s : Fin 16, max (bHi e p s - (bRH r p s + TWO)) 0

-- The clipped |log| of each box's width relative to its parent's, over its weight.
def shpPart (e : (⟨2, ![256, 64]⟩ : Shape).Idx → EReal) (r : (⟨2, ![256, 32]⟩ : Shape).Idx → EReal) : EReal :=
  ∑ p : Fin 256, ∑ s : Fin 16,
    min (FloatOps.absf (F := Ideal) (φ := .f32) (Ideal.log (Ideal.div
      (max (Ideal.div (bHi e p s - bLo e p s) (bRH r p s - bRL r p s)) EPS) (bDen e p)))) CLIP

-- exp(-width) of each box, kept above the small constant.
def posPart (e : (⟨2, ![256, 64]⟩ : Shape).Idx → EReal) : EReal :=
  ∑ p : Fin 256, ∑ s : Fin 16, max (Ideal.exp (0 - (bHi e p s - bLo e p s))) EPS

variable (i : grid3.Coords) (x0 : Vec Ideal S256x64 .f32) (x1 : Vec Ideal S64x2048 .f32) (x2 : Vec Ideal S256x32 .f32)
  (x3 : Vec Ideal S256x2048 .f32) (x4 : Vec Ideal S256x128 .f32) (x5 : Vec Ideal S2048x128 .f32) (x6 : Vec Ideal S1x2048 .f32)

theorem v3_read (p : Fin 256) (s : Fin 16) : p1_v3 i x0 x1 x2 x3 x4 x5 x6 (ix2 p s) = bLo x0 p s :=
  ld_unit_apply x0 0 0 _ p s _ _ (Nat.zero_add _) (Nat.zero_add _)

theorem v5_read (p : Fin 256) (s : Fin 16) : p1_v5 i x0 x1 x2 x3 x4 x5 x6 (ix2 p s) = bHi x0 p s :=
  ld_unit_apply x0 0 16 _ p s _ _ (Nat.zero_add _) rfl

theorem v7_read (p : Fin 256) : p1_v7 i x0 x1 x2 x3 x4 x5 x6 (ix2 p (0 : Fin 1)) = bDen x0 p :=
  ld_unit_apply x0 0 32 _ p 0 _ _ (Nat.zero_add _) rfl

theorem v9_read (p : Fin 256) (s : Fin 16) : p1_v9 i x0 x1 x2 x3 x4 x5 x6 (ix2 p s) = bRL x2 p s :=
  ld_unit_apply x2 0 0 _ p s _ _ (Nat.zero_add _) (Nat.zero_add _)

theorem v13_read (p : Fin 256) (s : Fin 16) : p1_v13 i x0 x1 x2 x3 x4 x5 x6 (ix2 p s) = bRH x2 p s :=
  ld_unit_apply x2 0 16 _ p s _ _ (Nat.zero_add _) rfl

theorem v17_read (p : Fin 256) (s : Fin 16) : p1_v17 i x0 x1 x2 x3 x4 x5 x6 (ix2 p s) = bRH x2 p s := v13_read i x0 x1 x2 x3 x4 x5 x6 p s

theorem v19_read (p : Fin 256) (s : Fin 16) : p1_v19 i x0 x1 x2 x3 x4 x5 x6 (ix2 p s) = bRL x2 p s := v9_read i x0 x1 x2 x3 x4 x5 x6 p s

theorem v4_read (p : Fin 256) (s : Fin 16) : p1_v4 i x0 x1 x2 x3 x4 x5 x6 (ix2 p s) = bLo x0 p s := by
  simp only [p1_v4, k3_pay4, shapeCast_self, v3_read]

theorem v6_read (p : Fin 256) (s : Fin 16) : p1_v6 i x0 x1 x2 x3 x4 x5 x6 (ix2 p s) = bHi x0 p s := by
  simp only [p1_v6, k3_pay5, shapeCast_self, v5_read]

theorem v8_read (p : Fin 256) : p1_v8 i x0 x1 x2 x3 x4 x5 x6 (ix2 p (0 : Fin 1)) = bDen x0 p := by
  simp only [p1_v8, k3_pay6, shapeCast_self, v7_read]

theorem v21_read (p : Fin 256) (s : Fin 16) : p1_v21 i x0 x1 x2 x3 x4 x5 x6 (ix2 p s) = bRH x2 p s - bRL x2 p s := by
  simp only [p1_v21, k3_pay7, shapeCast_self, subf_apply, v17_read, v19_read]

theorem v22_read (p : Fin 256) (s : Fin 16) : p1_v22 i x0 x1 x2 x3 x4 x5 x6 (ix2 p s) = bHi x0 p s - bLo x0 p s := by
  simp only [p1_v22, k3_pay8, k3_pay4, k3_pay5, shapeCast_self, subf_apply, v3_read, v5_read]

theorem v24_read (p : Fin 256) (s : Fin 16) : p1_v24 i x0 x1 x2 x3 x4 x5 x6 (ix2 p s) = max (bHi x0 p s - bLo x0 p s) EPS := by
  simp only [p1_v24, k3_pay9, k3_pay8, k3_pay4, k3_pay5, shapeCast_self, subf_apply, maximumf_apply, broadcast_apply,
    v3_read, v5_read]
  rfl

-- Row 256 t + p against column j: 0 where they are equal, 1 elsewhere.
theorem v73_read (p : Fin 256) (j : Fin 2048) :
    p1_v73 i x0 x1 x2 x3 x4 x5 x6 (ix2 p j) = if 256 * (i 0).val + p.val = j.val then (0 : EReal) else 1 := by
  have hi : (i 0).val < 8 := (i 0).isLt
  have hp := p.isLt
  have hj := j.isLt
  simp only [p1_v73, p1_arg0, k3_pay15, sitofp_apply, extui_apply]
  show FloatOps.sitofp (F := Ideal) .f32 (BitVec.setWidth 32 (IntOp.cmpi .ne (IntOp.addi (IntOp.muli (BitVec.ofNat 32 (i 0).val) 256#32) (iota .tc S256x2048 32 [0] iota_S256x2048_d0_w32 (ix2 p j))) (iota .tc S256x2048 32 [1] iota_S256x2048_d1_w32 (ix2 p j)))) = _
  rw [iota_single_apply, iota_single_apply]
  show (((BitVec.setWidth 32 (BitVec.ofBool ((BitVec.ofNat 32 (i 0).val * 256#32 + BitVec.ofNat 32 p.val) != BitVec.ofNat 32 j.val))).toInt : ℝ) : EReal) = _
  have key : ((BitVec.ofNat 32 (i 0).val * 256#32 + BitVec.ofNat 32 p.val) = BitVec.ofNat 32 j.val) ↔ 256 * (i 0).val + p.val = j.val := by
    rw [← BitVec.toNat_inj]
    simp only [BitVec.toNat_add, BitVec.toNat_mul, BitVec.toNat_ofNat]
    omega
  by_cases h : 256 * (i 0).val + p.val = j.val
  · rw [if_pos h, bne_eq_false_iff_eq.mpr (key.mpr h)]
    have e : (BitVec.setWidth 32 (BitVec.ofBool false)).toInt = 0 := by decide
    rw [e]; norm_num
  · rw [if_neg h, bne_iff_ne.mpr (fun e => h (key.mp e))]
    have e : (BitVec.setWidth 32 (BitVec.ofBool true)).toInt = 1 := by decide
    rw [e]; norm_num

theorem v41_read : p1_v41 i x0 x1 x2 x3 x4 x5 x6 (ix2 (0 : Fin 1) (0 : Fin 1)) = excPart x0 x2 := by
  simp only [p1_v41, p1_v32, p1_v35, k3_pay12, k3_pay10, k3_pay11, k3_pay4, k3_pay5, addf_apply, broadcast_apply,
    shapeCast_self]
  rw [total_read, total_read]
  simp only [maximumf_apply, subf_apply, addf_apply, broadcast_apply, zero_read, v3_read, v5_read, v9_read, v13_read]
  rfl

theorem v55_read : p1_v55 i x0 x1 x2 x3 x4 x5 x6 (ix2 (0 : Fin 1) (0 : Fin 1)) = shpPart x0 x2 := by
  simp only [p1_v55, k3_pay13, broadcast_apply]
  rw [total_read]
  simp only [minimumf_apply, absf_apply', log_apply', divf_apply, maximumf_apply, broadcast_apply,
    broadcastTo_a1_ab_apply, v8_read, v21_read, v22_read]
  rfl

theorem v65_read : p1_v65 i x0 x1 x2 x3 x4 x5 x6 (ix2 (0 : Fin 1) (0 : Fin 1)) = posPart x0 := by
  simp only [p1_v65, k3_pay14, broadcast_apply]
  rw [total_read]
  simp only [maximumf_apply, exp_apply', subf_apply, broadcast_apply, zero_read, v22_read]
  rfl

theorem p1_lanes_lane3 (sc : Vec Ideal S1x8 .f32) :
    p1_lanes i x0 x1 x2 x3 x4 x5 x6 sc (ix2 (0 : Fin 1) (3 : Fin 8)) = sc (ix2 (0 : Fin 1) (3 : Fin 8)) + excPart x0 x2 := by
  unfold p1_lanes k3_pay2
  exact (lane_read sc _ _ _ 3 _).trans (congrArg _ (v41_read i x0 x1 x2 x3 x4 x5 x6))

theorem p1_lanes_lane4 (sc : Vec Ideal S1x8 .f32) :
    p1_lanes i x0 x1 x2 x3 x4 x5 x6 sc (ix2 (0 : Fin 1) (4 : Fin 8)) = sc (ix2 (0 : Fin 1) (4 : Fin 8)) + shpPart x0 x2 := by
  unfold p1_lanes k3_pay2
  exact (lane_read sc _ _ _ 4 _).trans (congrArg _ (v55_read i x0 x1 x2 x3 x4 x5 x6))

theorem p1_lanes_lane5 (sc : Vec Ideal S1x8 .f32) :
    p1_lanes i x0 x1 x2 x3 x4 x5 x6 sc (ix2 (0 : Fin 1) (5 : Fin 8)) = sc (ix2 (0 : Fin 1) (5 : Fin 8)) + posPart x0 := by
  unfold p1_lanes k3_pay2
  exact (lane_read sc _ _ _ 5 _).trans (congrArg _ (v65_read i x0 x1 x2 x3 x4 x5 x6))

-- One coordinate's overlap term, the table's high row given by its own index.
def ovAt (t : ℕ) (e : (⟨2, ![256, 64]⟩ : Shape).Idx → EReal) (eT : (⟨2, ![64, 2048]⟩ : Shape).Idx → EReal)
    (p : Fin 256) (s : Fin 16) (r : Fin 64) (j : Fin 2048) : EReal :=
  Ideal.div (max (min (bHi e p s) (eT (ix2 r j)) - max (bLo e p s) (bLoT eT s j)) 0
      * (if 256 * t + p.val = j.val then (0 : EReal) else 1))
    (max (bHi e p s - bLo e p s) EPS)

theorem ovlPart_eq (t : ℕ) (e : (⟨2, ![256, 64]⟩ : Shape).Idx → EReal) (eT : (⟨2, ![64, 2048]⟩ : Shape).Idx → EReal) :
    ovlPart t e eT = ∑ s : Fin 16, ∑ p : Fin 256, ∑ j : Fin 2048, ovAt t e eT p s ⟨16 + s.val, by omega⟩ j := by
  unfold ovlPart
  rw [Finset.sum_comm]
  rfl

-- The same term over arbitrary columns, rows and mask, summed.
def ovG (lo hi cl : FVec Ideal S256x1 .f32) (loT hiT : FVec Ideal S1x2048 .f32) (m : FVec Ideal S256x2048 .f32) : EReal :=
  ∑ p : Fin 256, ∑ j : Fin 2048,
    Ideal.div (max (min (hi (ix2 p (0 : Fin 1))) (hiT (ix2 (0 : Fin 1) j)) - max (lo (ix2 p (0 : Fin 1))) (loT (ix2 (0 : Fin 1) j))) 0
      * m (ix2 p j)) (cl (ix2 p (0 : Fin 1)))

theorem ov_chain (lo hi cl : FVec Ideal S256x1 .f32) (loT hiT : FVec Ideal S1x2048 .f32) (m : FVec Ideal S256x2048 .f32)
    (hb1 : S256x1.Broadcasts S256x2048) (hb2 : S1x2048.Broadcasts S256x2048)
    (h1 : S256x2048.ShapeCasts S1x256x2048) (hr : S1x256x2048.Reduces [1, 2] S1) (h2 : S1.ShapeCasts S1x1x1)
    (hp : ∀ c, (![0, 0, 0] : Fin 3 → Nat) c < S1x1x1.size c) :
    extractAt ![0, 0, 0] (shapeCast S1x1x1 (multiReduction .add [1, 2] S1 (shapeCast S1x256x2048
      (divf (mulf (maximumf (subf (minimumf (broadcastTo S256x2048 hi hb1) (broadcastTo S256x2048 hiT hb2))
          (maximumf (broadcastTo S256x2048 lo hb1) (broadcastTo S256x2048 loT hb2)))
        (broadcast S256x2048 (0 : Ideal .f32))) m) (broadcastTo S256x2048 cl hb1)) h1)
      0x00000000#32 hr (.inl rfl) rfl) h2) hp = ovG lo hi cl loT hiT m := by
  rw [total_read]
  simp only [divf_apply, mulf_apply, maximumf_apply, subf_apply, minimumf_apply, broadcast_apply,
    broadcastTo_a1_ab_apply, broadcastTo_1b_ab_apply]
  rfl

theorem ovG_read (k r : ℕ) (hs4 hs6 hs24 : S256x16.Slices ![0, k] S256x1)
    (inb1 : ∀ a, (![k, 0] : Fin 2 → Nat) a + S1x2048.size a ≤ S64x2048.size a)
    (inb2 : ∀ a, (![r, 0] : Fin 2 → Nat) a + S1x2048.size a ≤ S64x2048.size a) :
    ovG (extractStridedSlice S256x1 ![0, k] (p1_v4 i x0 x1 x2 x3 x4 x5 x6) hs4)
      (extractStridedSlice S256x1 ![0, k] (p1_v6 i x0 x1 x2 x3 x4 x5 x6) hs6)
      (extractStridedSlice S256x1 ![0, k] (p1_v24 i x0 x1 x2 x3 x4 x5 x6) hs24)
      (ld x1 (Rect.unit (s := S64x2048) ![k, 0] S1x2048.size inb1).toLoadRect)
      (ld x1 (Rect.unit (s := S64x2048) ![r, 0] S1x2048.size inb2).toLoadRect)
      (p1_v73 i x0 x1 x2 x3 x4 x5 x6)
      = ∑ p : Fin 256, ∑ j : Fin 2048,
          ovAt (i 0).val x0 x1 p ⟨k, Nat.lt_of_succ_le (hs4.2 1)⟩ ⟨r, Nat.lt_of_succ_le (inb2 0)⟩ j := by
  unfold ovG
  refine Finset.sum_congr rfl fun p _ => Finset.sum_congr rfl fun j _ => ?_
  rw [col_read, col_read, col_read, v4_read, v6_read, v24_read, v73_read, row_read, row_read]
  rfl

set_option maxHeartbeats 4000000 in
set_option maxRecDepth 65536 in
theorem v550_read : p1_v550 i x0 x1 x2 x3 x4 x5 x6 (ix2 (0 : Fin 1) (0 : Fin 1)) = ovlPart (i 0).val x0 x1 := by
  simp only [
    p1_v550, p1_v520, p1_v460, p1_v430, p1_v370, p1_v310, p1_v280, p1_v220, p1_v160, p1_v130, p1_v75, p1_v76,
    p1_v77, p1_v79, p1_v81, p1_v181, p1_v182, p1_v226, p1_v227, p1_v229, p1_v231, p1_v331, p1_v332, p1_v376,
    p1_v377, p1_v379, p1_v381, p1_v481, p1_v482, p1_v526, p1_v527, p1_v529, p1_v531, p1_v78, p1_v80, p1_v108,
    p1_v110, p1_v138, p1_v140, p1_v168, p1_v170, p1_v198, p1_v200, p1_v228, p1_v230, p1_v258, p1_v260,
    p1_v288, p1_v290, p1_v318, p1_v320, p1_v348, p1_v350, p1_v378, p1_v380, p1_v408, p1_v410, p1_v438,
    p1_v440, p1_v468, p1_v470, p1_v498, p1_v500, p1_v528, p1_v530, k3_pay85, k3_pay79, k3_pay71, k3_pay67,
    k3_pay58, k3_pay50, k3_pay46, k3_pay37, k3_pay29, k3_pay25, k3_pay17, k3_pay18, k3_pay19, k3_pay20,
    k3_pay21, k3_pay23, k3_pay24, k3_pay27, k3_pay28, k3_pay31, k3_pay32, k3_pay33, k3_pay34, k3_pay35,
    k3_pay36, k3_pay39, k3_pay40, k3_pay41, k3_pay42, k3_pay44, k3_pay45, k3_pay48, k3_pay49, k3_pay52,
    k3_pay53, k3_pay54, k3_pay55, k3_pay56, k3_pay57, k3_pay60, k3_pay61, k3_pay62, k3_pay63, k3_pay65,
    k3_pay66, k3_pay69, k3_pay70, k3_pay73, k3_pay74, k3_pay75, k3_pay76, k3_pay77, k3_pay78, k3_pay81,
    k3_pay82, k3_pay83, k3_pay84, addf_apply, broadcast_apply, shapeCast_self, zero_read]
  iterate 16 rw [ov_chain]
  iterate 16 rw [ovG_read]
  rw [ovlPart_eq, sum16]
  rfl

theorem p1_lanes_lane0 (sc : Vec Ideal S1x8 .f32) :
    p1_lanes i x0 x1 x2 x3 x4 x5 x6 sc (ix2 (0 : Fin 1) (0 : Fin 8)) = sc (ix2 (0 : Fin 1) (0 : Fin 8)) + ovlPart (i 0).val x0 x1 := by
  unfold p1_lanes k3_pay2
  exact (lane_read sc _ _ _ 0 _).trans (congrArg _ (v550_read i x0 x1 x2 x3 x4 x5 x6))

end Cert.KernelIdeal.Hand
-- ==== Proof.R3Fold.lean ====
import proofs.«418439_j46445776339038_1_alg».proof.Proof.R3ValueA
import proofs.«418439_j46445776339038_1_alg».proof.Proof.R3Frame

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

theorem k3_pay3_zero (j : S1x8.Idx) : k3_pay3 (F := Ideal) j = 0 := Ideal.ofBits_zero_f32

theorem idx3_9 : ∀ t : Fin cfg3.N, win3_9.index t (0 : Fin 2) = 0 ∧ win3_9.index t (1 : Fin 2) = 0 :=
  (by decide +kernel : ∀ t : Fin grid3.N, win3_9.index t (0 : Fin 2) = 0 ∧ win3_9.index t (1 : Fin 2) = 0)
theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx3_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem idx3_2 : ∀ t : Fin cfg3.N, win3_2.index t (0 : Fin 2) = t.val ∧ win3_2.index t (1 : Fin 2) = 0 :=
  (by decide +kernel : ∀ t : Fin grid3.N, win3_2.index t (0 : Fin 2) = t.val ∧ win3_2.index t (1 : Fin 2) = 0)

-- After the eight points the last output's array is the accumulator after the eighth.
theorem arrAt3_9 (c : Dev nD) : (dat3 (F := Ideal) V c).arrAt 9 cfg3.N = scAt3 V c 7 (by rw [show cfg3.N = 8 from N_3]; omega) := by
  refine (dat3 (F := Ideal) V c).arrAt_eq_of_cover 9 _ (fun t hf => ?_) fun i => ⟨t3_7, (flush3_9 t3_7).mpr rfl, ?_⟩
  · have ht : t.val = 7 := by
      have := (flush3_9 t).mp hf; have := lt_of_lt_of_eq t.isLt (show cfg3.N = 8 from N_3); omega
    show (cfg3.win 9).cut (grid3.coords t) ((dat3 (F := Ideal) V c).after 9 t) = _
    rw [after3_9]
    obtain ⟨n, hn⟩ := t
    dsimp only at ht
    subst ht
    funext j
    show scAt3 V c 7 _ j = scAt3 V c 7 _ (((cfg3.win 9).blk ⟨7, hn⟩).view.emb j)
    obtain ⟨e0, e1⟩ := idx3_9 ⟨7, hn⟩
    rw [eq_ix2 j]
    exact congrArg _ (ix2_of_val _ _ _ (by show win3_9.index ⟨7, hn⟩ (0 : Fin 2) * 1 + 1 * (j 0).val = (j 0).val; omega)
      (by show win3_9.index ⟨7, hn⟩ (1 : Fin 2) * 8 + 1 * (j 1).val = (j 1).val; omega)).symm
  · show i ∈ ((View.whole main_v12_2).slice (win3_9.rect t3_7)).set
    rw [View.set_slice_whole, Rect.mem_set_unit]
    obtain ⟨e0, e1⟩ := idx3_9 t3_7
    intro a
    match a with
    | ⟨0, _⟩ => show win3_9.index t3_7 (0 : Fin 2) * 1 ≤ (i 0).val ∧ (i 0).val < win3_9.index t3_7 (0 : Fin 2) * 1 + 1; have h0 : (i 0).val < 1 := (i 0).isLt; omega
    | ⟨1, _⟩ => show win3_9.index t3_7 (1 : Fin 2) * 8 ≤ (i 1).val ∧ (i 1).val < win3_9.index t3_7 (1 : Fin 2) * 8 + 8; have h1 : (i 1).val < 8 := (i 1).isLt; omega

-- If every point adds its part to lane L, after point n the lane is the sum of the parts up to n.
theorem scAt3_lane_upto (c : Dev nD) (L : Fin 8) (part : Fin cfg3.N → EReal)
    (hstep : ∀ (t : Fin cfg3.N) (sc : Vec Ideal S1x8 .f32),
      p1_lanes (grid3.coords t) (iblk3 V c 0 t) (iblk3 V c 1 t) (iblk3 V c 2 t) (iblk3 V c 3 t) (iblk3 V c 4 t) (iblk3 V c 5 t) (iblk3 V c 6 t) sc (ix2 0 L) = sc (ix2 0 L) + part t) :
    ∀ (n : ℕ) (hn : n < cfg3.N), scAt3 V c n hn (ix2 0 L) = ∑ t ∈ Finset.univ.filter (fun t : Fin cfg3.N => t.val ≤ n), part t
  | 0, hn => by
    have e : Finset.univ.filter (fun t : Fin cfg3.N => t.val ≤ 0) = {⟨0, hn⟩} := by
      ext t; simp only [Finset.mem_filter, Finset.mem_univ, _root_.true_and, Finset.mem_singleton, Fin.ext_iff]; omega
    rw [e, Finset.sum_singleton]
    exact (hstep ⟨0, hn⟩ _).trans (by rw [k3_pay3_zero, zero_add])
  | n + 1, hn => by
    have e : Finset.univ.filter (fun t : Fin cfg3.N => t.val ≤ n + 1)
        = insert ⟨n + 1, hn⟩ (Finset.univ.filter (fun t : Fin cfg3.N => t.val ≤ n)) := by
      ext t; simp only [Finset.mem_filter, Finset.mem_univ, _root_.true_and, Finset.mem_insert, Fin.ext_iff]; omega
    rw [e, Finset.sum_insert (by simp only [Finset.mem_filter, Finset.mem_univ, _root_.true_and]; omega)]
    exact (hstep ⟨n + 1, hn⟩ _).trans (by rw [scAt3_lane_upto c L part hstep n (Nat.lt_of_succ_lt hn), add_comm])

-- Hence the array's lane L is the sum of all eight parts.
theorem scAt3_lane_sum (c : Dev nD) (L : Fin 8) (part : Fin cfg3.N → EReal)
    (hstep : ∀ (t : Fin cfg3.N) (sc : Vec Ideal S1x8 .f32),
      p1_lanes (grid3.coords t) (iblk3 V c 0 t) (iblk3 V c 1 t) (iblk3 V c 2 t) (iblk3 V c 3 t) (iblk3 V c 4 t) (iblk3 V c 5 t) (iblk3 V c 6 t) sc (ix2 0 L) = sc (ix2 0 L) + part t) :
    (dat3 (F := Ideal) V c).arrAt 9 cfg3.N (ix2 0 L) = ∑ t : Fin cfg3.N, part t := by
  rw [arrAt3_9, scAt3_lane_upto V c L part hstep 7, Finset.filter_true_of_mem]
  intro t _
  have hN : t.val < 8 := lt_of_lt_of_eq t.isLt (show cfg3.N = 8 from N_3)
  omega

theorem iblk3_0_at (c : Dev nD) (t : Fin cfg3.N) (p : Fin 256) (s : Fin 64) :
    iblk3 V c 0 t (ix2 p s) = V c main_v5_0 (ix2 (⟨256 * t.val + p.val, by have h : t.val < 8 := lt_of_lt_of_eq t.isLt (show cfg3.N = 8 from N_3); omega⟩ : Fin 2048) s) := by
  show V c main_v5_0 (((cfg3.win 0).blk t).view.emb (ix2 p s)) = _
  obtain ⟨e0, e1⟩ := idx3_0 t
  exact congrArg _ (ix2_of_val _ _ _ (by show win3_0.index t (0 : Fin 2) * 256 + 1 * p.val = 256 * t.val + p.val; omega)
    (by show win3_0.index t (1 : Fin 2) * 64 + 1 * s.val = s.val; omega))

theorem iblk3_1_at (c : Dev nD) (t : Fin cfg3.N) (s : Fin 64) (q : Fin 2048) :
    iblk3 V c 1 t (ix2 s q) = V c main_v8 (ix2 s q) := by
  show V c main_v8 (((cfg3.win 1).blk t).view.emb (ix2 s q)) = _
  obtain ⟨e0, e1⟩ := idx3_1 t
  exact congrArg _ (ix2_of_val _ _ _ (by show win3_1.index t (0 : Fin 2) * 64 + 1 * s.val = s.val; omega)
    (by show win3_1.index t (1 : Fin 2) * 2048 + 1 * q.val = q.val; omega))

theorem iblk3_2_at (c : Dev nD) (t : Fin cfg3.N) (p : Fin 256) (s : Fin 32) :
    iblk3 V c 2 t (ix2 p s) = V c main_v5_1 (ix2 (⟨256 * t.val + p.val, by have h : t.val < 8 := lt_of_lt_of_eq t.isLt (show cfg3.N = 8 from N_3); omega⟩ : Fin 2048) s) := by
  show V c main_v5_1 (((cfg3.win 2).blk t).view.emb (ix2 p s)) = _
  obtain ⟨e0, e1⟩ := idx3_2 t
  exact congrArg _ (ix2_of_val _ _ _ (by show win3_2.index t (0 : Fin 2) * 256 + 1 * p.val = 256 * t.val + p.val; omega)
    (by show win3_2.index t (1 : Fin 2) * 32 + 1 * s.val = s.val; omega))

end Cert.KernelIdeal.Hand
end
-- ==== Proof.R3WholeB.lean ====
import proofs.«418439_j46445776339038_1_alg».proof.Proof.R3ValueB
import proofs.«418439_j46445776339038_1_alg».proof.Proof.R3Fold

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

-- On the one-axis grid a point's coordinate is its position.
theorem coords3_valB : ∀ t : Fin cfg3.N, ((grid3.coords t) 0).val = t.val :=
  (by decide +kernel : ∀ t : Fin grid3.N, ((grid3.coords t) 0).val = t.val)

-- Lanes 0, 3, 4, 5 after the region: the sums over the eight row blocks of the blocks' overlap, excess, shape and positivity sums.
theorem arr9_lane0 (c : Dev nD) :
    (dat3 (F := Ideal) V c).arrAt 9 cfg3.N (ix2 (0 : Fin 1) (0 : Fin 8))
      = ∑ t : Fin cfg3.N, ovlPart t.val (iblk3 V c 0 t) (iblk3 V c 1 t) :=
  scAt3_lane_sum V c 0 _ fun t sc => (p1_lanes_lane0 _ _ _ _ _ _ _ _ sc).trans (by rw [coords3_valB])

theorem arr9_lane3 (c : Dev nD) :
    (dat3 (F := Ideal) V c).arrAt 9 cfg3.N (ix2 (0 : Fin 1) (3 : Fin 8))
      = ∑ t : Fin cfg3.N, excPart (iblk3 V c 0 t) (iblk3 V c 2 t) :=
  scAt3_lane_sum V c 3 _ fun t sc => p1_lanes_lane3 _ _ _ _ _ _ _ _ sc

theorem arr9_lane4 (c : Dev nD) :
    (dat3 (F := Ideal) V c).arrAt 9 cfg3.N (ix2 (0 : Fin 1) (4 : Fin 8))
      = ∑ t : Fin cfg3.N, shpPart (iblk3 V c 0 t) (iblk3 V c 2 t) :=
  scAt3_lane_sum V c 4 _ fun t sc => p1_lanes_lane4 _ _ _ _ _ _ _ _ sc

theorem arr9_lane5 (c : Dev nD) :
    (dat3 (F := Ideal) V c).arrAt 9 cfg3.N (ix2 (0 : Fin 1) (5 : Fin 8))
      = ∑ t : Fin cfg3.N, posPart (iblk3 V c 0 t) :=
  scAt3_lane_sum V c 5 _ fun t sc => p1_lanes_lane5 _ _ _ _ _ _ _ _ sc

end Cert.KernelIdeal.Hand
-- ==== Proof.Spec.lean ====
import Idealize.ShloMosaic.PureOps.Ideal
import Idealize.ShloMosaic.Lib.ValueIdx

noncomputable section

namespace Cert.Spec

open Idealize.ShloMosaic

-- The weight of column `k` for the index word `a`: 1 when `a` is the 32-bit word of `k`, else 0.
def oneHot (a : BitVec 32) (k : ℕ) : EReal := if a = BitVec.ofNat 32 k then 1 else 0

theorem oneHot_of_ne {a : BitVec 32} {k : ℕ} (h : a ≠ BitVec.ofNat 32 k) : oneHot a k = 0 := if_neg h

-- Below 2 ^ 32 distinct columns are distinct words, so only the column the word names survives the sum.
theorem sum_oneHot_mul {N : ℕ} (hN : N ≤ 2 ^ 32) (a : BitVec 32) (ha : a.toNat < N) (f : Fin N → EReal) :
    ∑ k : Fin N, oneHot a k.val * f k = f ⟨a.toNat, ha⟩ := by
  rw [Finset.sum_eq_single (⟨a.toNat, ha⟩ : Fin N)]
  · have : a = BitVec.ofNat 32 a.toNat := by simp
    rw [show oneHot a (⟨a.toNat, ha⟩ : Fin N).val = 1 from by unfold oneHot; exact if_pos this, one_mul]
  · intro k _ hk
    have hne : a ≠ BitVec.ofNat 32 k.val := by
      intro h
      apply hk
      apply Fin.ext
      have := congrArg BitVec.toNat h
      simp only [BitVec.toNat_ofNat] at this
      rw [Nat.mod_eq_of_lt (lt_of_lt_of_le k.isLt hN)] at this
      exact this.symm
    rw [oneHot_of_ne hne, zero_mul]
  · intro h; exact absurd (Finset.mem_univ _) h

theorem sum_mul_oneHot {N : ℕ} (hN : N ≤ 2 ^ 32) (a : BitVec 32) (ha : a.toNat < N) (f : Fin N → EReal) :
    ∑ k : Fin N, f k * oneHot a k.val = f ⟨a.toNat, ha⟩ := by
  rw [← sum_oneHot_mul hN a ha f]
  exact Finset.sum_congr rfl fun k _ => mul_comm _ _

end Cert.Spec

end
-- ==== Proof.Target.lean ====
import proofs.«418439_j46445776339038_1_alg».proof.Proof.Spec

noncomputable section

namespace Cert.Spec

open Idealize.ShloMosaic

-- The constants 1e-10, 1e10, 2, −2 and 1 as the exact values of their f32 patterns.
def eps : EReal := Ideal.ofBits .f32 0x2EDBE6FF#32
def clipMax : EReal := Ideal.ofBits .f32 0x501502F9#32
def two : EReal := Ideal.ofBits .f32 0x40000000#32
def negTwo : EReal := Ideal.ofBits .f32 0xC0000000#32
def one : EReal := Ideal.ofBits .f32 0x3F800000#32

-- The table row an index word names, taken modulo the table's height so that it is total.
def rowOf (a : BitVec 32) : Fin 8192 := ⟨a.toNat % 8192, Nat.mod_lt _ (by norm_num)⟩

theorem rowOf_val {a : BitVec 32} (h : a.toNat < 8192) : (rowOf a).val = a.toNat := Nat.mod_eq_of_lt h

def absE (x : EReal) : EReal := max x (-x)

section
variable (idx par : Fin 2048 → BitVec 32) (om : Fin 2048 → Fin 128 → EReal) (ce rs : Fin 8192 → Fin 32 → EReal)
  (lvs : Fin 8192 → EReal) (ld : Fin 8192 → Fin 8192 → EReal)

-- Node `n`'s box corners, its leaves share, its parent's corners, and the tree distance of two nodes.
def lo (n : Fin 2048) (s : Fin 16) : EReal := ce (rowOf (idx n)) ⟨s.val, by omega⟩
def hi (n : Fin 2048) (s : Fin 16) : EReal := ce (rowOf (idx n)) ⟨16 + s.val, by omega⟩
def den (n : Fin 2048) : EReal := lvs (rowOf (idx n))
def plo (n : Fin 2048) (s : Fin 16) : EReal := rs (rowOf (par n)) ⟨s.val, by omega⟩
def phi (n : Fin 2048) (s : Fin 16) : EReal := rs (rowOf (par n)) ⟨16 + s.val, by omega⟩
def accD (i j : Fin 2048) : EReal := ld (rowOf (idx i)) (rowOf (idx j))

def realD (i j : Fin 2048) : EReal := accD idx ld i j + ∑ s : Fin 16, absE (lo idx ce i s - lo idx ce j s)

def inner (i : Fin 2048) : EReal := ∑ d : Fin 128, om i d * om i d
def omegaDist (i j : Fin 2048) : EReal :=
  max ((negTwo * (∑ d : Fin 128, om i d * om j d) + inner om i) + inner om j) eps

def mask (i j : Fin 2048) : EReal := if i = j then 0 else 1

def lossOverlap : EReal :=
  ∑ s : Fin 16, ∑ i : Fin 2048, ∑ j : Fin 2048,
    Ideal.div (max (min (hi idx ce i s) (hi idx ce j s) - max (lo idx ce i s) (lo idx ce j s)) 0 * mask i j)
      (max (hi idx ce i s - lo idx ce i s) eps)

def lossExceed : EReal :=
  (∑ i : Fin 2048, ∑ s : Fin 16, max ((plo par rs i s + two) - lo idx ce i s) 0)
    + (∑ i : Fin 2048, ∑ s : Fin 16, max (hi idx ce i s - (phi par rs i s + two)) 0)

def lossShape : EReal :=
  ∑ i : Fin 2048, ∑ s : Fin 16,
    min (absE (Ideal.log (Ideal.div (max (Ideal.div (hi idx ce i s - lo idx ce i s) (phi par rs i s - plo par rs i s)) eps)
      (den idx lvs i)))) clipMax

def lossPositive : EReal :=
  ∑ i : Fin 2048, ∑ s : Fin 16, max (Ideal.exp (-(hi idx ce i s - lo idx ce i s))) eps

def normR : EReal := max (Ideal.sqrt (∑ i : Fin 2048, ∑ j : Fin 2048, realD idx ce ld i j * realD idx ce ld i j)) eps
def normO : EReal := max (Ideal.sqrt (∑ i : Fin 2048, ∑ j : Fin 2048, omegaDist om i j * omegaDist om i j)) eps

def distNormed (j : Fin 2048) : EReal := ∑ i : Fin 2048, Ideal.div (realD idx ce ld i j) (normR idx ce ld)

def lossDistance : EReal :=
  Ideal.sqrt (∑ i : Fin 2048, ∑ j : Fin 2048,
    (Ideal.div (omegaDist om i j) (normO om) - distNormed idx ce ld j)
      * (Ideal.div (omegaDist om i j) (normO om) - distNormed idx ce ld j))

-- The five terms with their unit weights, added in the programs' order.
def total : EReal :=
  (((one * lossDistance idx om ce ld + one * lossShape idx par ce rs lvs) + one * lossExceed idx par ce rs)
    + one * lossOverlap idx ce) + one * lossPositive idx ce

end

end Cert.Spec

end
-- ==== Proof.Compose.lean ====
import proofs.«418439_j46445776339038_1_alg».proof.Proof.Target

noncomputable section

namespace Cert.Spec

open Idealize.ShloMosaic

theorem rowOf_eq {a : BitVec 32} (h : a.toNat < 8192) : rowOf a = ⟨a.toNat, h⟩ := Fin.ext (rowOf_val h)

-- For a word that names one of the 8192 rows, contracting with its one-hot weights reads that row.
theorem gather_left (a : BitVec 32) (ha : a.toNat < 8192) (f : Fin 8192 → EReal) :
    ∑ k : Fin 8192, oneHot a k.val * f k = f (rowOf a) := by
  rw [sum_oneHot_mul (by norm_num) a ha f, rowOf_eq ha]

theorem gather_right (a : BitVec 32) (ha : a.toNat < 8192) (f : Fin 8192 → EReal) :
    ∑ k : Fin 8192, f k * oneHot a k.val = f (rowOf a) := by
  rw [sum_mul_oneHot (by norm_num) a ha f, rowOf_eq ha]

variable (ce : Fin 8192 → Fin 32 → EReal) (lvs : Fin 8192 → EReal) (k : Fin 8192)

-- The joined table: the box table in columns 0–31, the leaves share in columns 32–63.
def tel (j : Fin 64) : EReal := if h : j.val < 32 then ce k ⟨j.val, h⟩ else lvs k

theorem tel_lo (s : Fin 16) : tel ce lvs k ⟨s.val, by omega⟩ = ce k ⟨s.val, by omega⟩ := by
  unfold tel; rw [dif_pos (show s.val < 32 by omega)]

theorem tel_hi (s : Fin 16) : tel ce lvs k ⟨16 + s.val, by omega⟩ = ce k ⟨16 + s.val, by omega⟩ := by
  unfold tel; rw [dif_pos (show 16 + s.val < 32 by omega)]

theorem tel_den : tel ce lvs k ⟨32, by norm_num⟩ = lvs k := by
  unfold tel; rw [dif_neg (by norm_num)]

end Cert.Spec

end
-- ==== Proof.KernelLanesMath.lean ====
import proofs.«418439_j46445776339038_1_alg».proof.Proof.Compose
import Mathlib.Logic.Equiv.Fin.Basic
import Mathlib.Algebra.BigOperators.Fin

noncomputable section

namespace Cert.Spec.Lanes

open Idealize.ShloMosaic Cert.Spec

def rowB (t : Fin 8) (p : Fin 256) : Fin 2048 := ⟨256 * t.val + p.val, by omega⟩

-- Row i of the 2048 is row p of block t with i = 256 t + p.
theorem sum_blocks {M : Type*} [AddCommMonoid M] (f : Fin 2048 → M) :
    ∑ i, f i = ∑ t : Fin 8, ∑ p : Fin 256, f (rowB t p) := by
  rw [← Equiv.sum_comp (finProdFinEquiv : Fin 8 × Fin 256 ≃ Fin 2048) f, Fintype.sum_prod_type]
  refine Finset.sum_congr rfl fun t _ => Finset.sum_congr rfl fun p _ => ?_
  congr 1
  refine Fin.ext ?_
  show p.val + 256 * t.val = 256 * t.val + p.val
  omega

theorem mask_rowB (t : Fin 8) (p : Fin 256) (j : Fin 2048) :
    (if 256 * t.val + p.val = j.val then (0 : EReal) else 1) = mask (rowB t p) j := by
  unfold mask
  by_cases h : 256 * t.val + p.val = j.val
  · rw [if_pos h, if_pos (Fin.ext h)]
  · rw [if_neg h, if_neg (fun he => h (congrArg Fin.val he))]

end Cert.Spec.Lanes

end
-- ==== Proof.HostReads.lean ====
import proofs.«418439_j46445776339038_1_alg».proof.Proof.Gen.KernelIdeal.Regions
import proofs.«418439_j46445776339038_1_alg».proof.Proof.Target
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen
open Idealize.ShloMosaic.ValueIdx

variable (m : (ℓ : Loc nD τ sig) → Buf (Elt Ideal) ℓ) (outs : Gen.Outs (F := Ideal)) (c : Dev nD)

abbrev lane (L : Fin 8) : EReal := (outs 6 main_v12_2 c : S1x8.Idx → EReal) (ix2 0 L)
abbrev arg2E : S2048x128.Idx → EReal := m ((c.tc : Thread nD τ).loc main_arg2)

-- The three casts below move no element: source and target index have the same row-major position.
theorem shapeCast_11_0_apply {α : Type} (x : S1x1.Idx → α) (h : S1x1.ShapeCasts S_) :
    shapeCast S_ x h ix0 = x (ix2 0 0) :=
  shapeCast_apply x h _ _ (by rw [Shape.rowMajor_val_two]; rfl)

theorem shapeCast_0_11_apply {α : Type} (x : S_.Idx → α) (h : S_.ShapeCasts S1x1) (j : S1x1.Idx) :
    shapeCast S1x1 x h j = x ix0 :=
  shapeCast_apply x h _ _ (by
    rw [Shape.rowMajor_val_two]
    have h0 : (j 0).val = 0 := by have := (j 0).isLt; simp at this; omega
    have h1 : (j 1).val = 0 := by have := (j 1).isLt; simp at this; omega
    rw [h0, h1]; rfl)

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem dref_ne {a b : Ref sig .tc} (h : a ≠ b) : (Proc.devRef .tc a : DevRef τ sig) ≠ Proc.devRef .tc b :=
  StableHlo.devRef_ne_of_ne h

-- What an array holds at a later boundary: what the last item that wrote it left, every other item keeping it.
theorem kp_V2_v5_0 : V2 m outs c (Proc.devRef .tc main_v5_0) = outs 2 main_v5_0 c := by
  simp only [V2, Function.update_of_ne (dref_ne (by decide : main_v5_0 ≠ main_v5_1)), Function.update_self]
theorem kp_V4_v5_0 : V4 m outs c (Proc.devRef .tc main_v5_0) = outs 2 main_v5_0 c :=
  (V4_of m outs c main_v5_0 (by decide)).trans <| (V3_of m outs c main_v5_0 (by decide)).trans (kp_V2_v5_0 m outs c)
theorem kp_V5_v5_0 : V5 m outs c (Proc.devRef .tc main_v5_0) = outs 2 main_v5_0 c :=
  (V5_of m outs c main_v5_0 (by decide)).trans (kp_V4_v5_0 m outs c)
theorem kp_V5_v5_1 : V5 m outs c (Proc.devRef .tc main_v5_1) = outs 2 main_v5_1 c :=
  (V5_of m outs c main_v5_1 (by decide)).trans <| (V4_of m outs c main_v5_1 (by decide)).trans <|
    (V3_of m outs c main_v5_1 (by decide)).trans (Function.update_self _ _ _)
theorem kp_V4_arg2 : V4 m outs c (Proc.devRef .tc main_arg2) = m ((c.tc : Thread nD τ).loc main_arg2) :=
  (V4_of m outs c main_arg2 (by decide)).trans <| (V3_of m outs c main_arg2 (by decide)).trans <|
    (V2_of m outs c main_arg2 (by decide)).trans (V1_of m c main_arg2 (by decide))
theorem kp_V5_arg2 : V5 m outs c (Proc.devRef .tc main_arg2) = m ((c.tc : Thread nD τ).loc main_arg2) :=
  (V5_of m outs c main_arg2 (by decide)).trans (kp_V4_arg2 m outs c)
theorem kp_V3_v6 : V3 m outs c (Proc.devRef .tc main_v6) = outs 3 main_v6 c := Function.update_self _ _ _
theorem kp_V5_v7 : V5 m outs c (Proc.devRef .tc main_v7) = outs 4 main_v7 c :=
  (V5_of m outs c main_v7 (by decide)).trans (Function.update_self _ _ _)
theorem kp_V6_v12_2 : V6 m outs c (Proc.devRef .tc main_v12_2) = outs 6 main_v12_2 c := Function.update_self _ _ _
theorem kp_V7_v12_0 : V7 m outs c (Proc.devRef .tc main_v12_0) = outs 6 main_v12_0 c :=
  (V7_of m outs c main_v12_0 (by decide)).trans (by
    simp only [V6, Function.update_of_ne (dref_ne (by decide : main_v12_0 ≠ main_v12_2)),
      Function.update_of_ne (dref_ne (by decide : main_v12_0 ≠ main_v12_1)), Function.update_self])
theorem kp_V8_v12_1 : V8 m outs c (Proc.devRef .tc main_v12_1) = outs 6 main_v12_1 c :=
  (V8_of m outs c main_v12_1 (by decide)).trans <| (V7_of m outs c main_v12_1 (by decide)).trans (by
    simp only [V6, Function.update_of_ne (dref_ne (by decide : main_v12_1 ≠ main_v12_2)), Function.update_self])
theorem kp_V8_v31 : V8 m outs c (Proc.devRef .tc main_v31) = outs 8 main_v31 c := Function.update_self _ _ _
theorem kp_V9_v32 : V9 m outs c (Proc.devRef .tc main_v32) = outs 9 main_v32 c := Function.update_self _ _ _

theorem hr_v0 (n : Fin 2048) :
    (V1 m c (Proc.devRef .tc main_v0) : S2048x1.Idx → BitVec 32) (ix2 n 0)
      = (m ((c.tc : Thread nD τ).loc main_arg0) : S2048.Idx → BitVec 32) (ix1 n) := by
  show (StableHlo.after hostOps0 (V0 m c) (Proc.devRef .tc main_v0) : S2048x1.Idx → BitVec 32) (ix2 n 0) = _
  after_results
  exact shapeCast_a_a1_apply _ _ n 0

theorem hr_v1 (n : Fin 2048) :
    (V1 m c (Proc.devRef .tc main_v1) : S2048x1.Idx → BitVec 32) (ix2 n 0)
      = (m ((c.tc : Thread nD τ).loc main_arg1) : S2048.Idx → BitVec 32) (ix1 n) := by
  show (StableHlo.after hostOps0 (V0 m c) (Proc.devRef .tc main_v1) : S2048x1.Idx → BitVec 32) (ix2 n 0) = _
  after_results
  exact shapeCast_a_a1_apply _ _ n 0

-- The joined table: a column below 32 falls in the box table, any other in the broadcast leaves share.
theorem hr_v4 (k : Fin 8192) (j : Fin 64) :
    (V1 m c (Proc.devRef .tc main_v4) : S8192x64.Idx → EReal) (ix2 k j)
      = if h : j.val < 32 then (m ((c.tc : Thread nD τ).loc main_arg3) : S8192x32.Idx → EReal) (ix2 k ⟨j.val, h⟩)
        else (m ((c.tc : Thread nD τ).loc main_arg5) : S8192.Idx → EReal) (ix1 k) := by
  show (StableHlo.after hostOps0 (V0 m c) (Proc.devRef .tc main_v4) : S8192x64.Idx → EReal) (ix2 k j) = _
  after_results
  by_cases h : j.val < 32
  · rw [dif_pos h]
    exact concatenate_pair_apply_left (t := S8192x64) (s₁ := S8192x32) (s₂ := S8192x32) 1 _ _ _ (ix2 k j) rfl
      (ix2 k (⟨j.val, h⟩ : Fin 32) : S8192x32.Idx) (fun b => match b with | ⟨0, _⟩ => rfl | ⟨1, _⟩ => rfl)
  · rw [dif_neg h]
    have h32 : j.val - 32 < 32 := by have := j.isLt; omega
    refine (concatenate_pair_apply_right (t := S8192x64) (s₁ := S8192x32) (s₂ := S8192x32) 1 _ _ _ (ix2 k j) rfl rfl
      (ix2 k (⟨j.val - 32, h32⟩ : Fin 32) : S8192x32.Idx) (fun b hb => ?_) ?_).trans ?_
    · match b with
      | ⟨0, _⟩ => rfl
      | ⟨1, _⟩ => exact absurd rfl hb
    · show (j.val - 32) + 32 = j.val
      omega
    · refine (broadcastInDim_apply _ _ _ (ix2 k (⟨j.val - 32, h32⟩ : Fin 32) : S8192x32.Idx) (ix2 k (0 : Fin 1) : S8192x1.Idx)
        (fun a => match a with | ⟨0, _⟩ => rfl | ⟨1, _⟩ => rfl)).trans ?_
      exact broadcastInDim_apply _ _ _ (ix2 k (0 : Fin 1) : S8192x1.Idx) (ix1 k : S8192.Idx) (fun a => match a with | ⟨0, _⟩ => rfl)

theorem hr_v8 (s : Fin 64) (n : Fin 2048) :
    (V5 m outs c (Proc.devRef .tc main_v8) : S64x2048.Idx → EReal) (ix2 s n)
      = (outs 2 main_v5_0 c : S2048x64.Idx → EReal) (ix2 n s) := by
  show (StableHlo.after hostOps3 (V4 m outs c) (Proc.devRef .tc main_v8) : S64x2048.Idx → EReal) (ix2 s n) = _
  after_results
  rw [kp_V4_v5_0]
  exact transpose_ix2_apply _ _ s n

-- A reduction over the column axis is the sum over the columns, the initial value being zero.
theorem hr_v11 (n : Fin 2048) :
    (V5 m outs c (Proc.devRef .tc main_v11) : S1x2048.Idx → EReal) (ix2 0 n)
      = ∑ d : Fin 128, arg2E m c (ix2 n d) * arg2E m c (ix2 n d) := by
  show (StableHlo.after hostOps3 (V4 m outs c) (Proc.devRef .tc main_v11) : S1x2048.Idx → EReal) (ix2 0 n) = _
  after_results
  rw [kp_V4_arg2]
  refine (shapeCast_a_1a_apply _ _ 0 n).trans ?_
  have hR : S2048x128.Reduces [1] S2048 := by decide
  show Ideal.hostReduceAdd reducesTo_S2048x128_S2048_d1 ((mulf (arg2E m c : FVec Ideal S2048x128 .f32) (arg2E m c) : FVec Ideal S2048x128 .f32)) (Ideal.ofBits .f32 0x00000000#32) (ix1 n) = _
  rw [Ideal.hostReduceAdd_single _ hR, Ideal.ofBits_zero_f32, zero_add]
  show ∑ d : Fin 128, (mulf (arg2E m c : FVec Ideal S2048x128 .f32) (arg2E m c) : FVec Ideal S2048x128 .f32) (hR.lift (ix1 n) d) = _
  refine Finset.sum_congr rfl fun d _ => ?_
  have e : hR.lift (ix1 n) d = ix2 n d := funext fun a => match a with | ⟨0, _⟩ => rfl | ⟨1, _⟩ => rfl
  rw [e]
  rfl

-- Lane `L` cut out of the row of partial sums and cast to a scalar.
theorem lane_cut (o : ℕ) (L : Fin 8) (ho : L.val = o + (0 : Fin 1).val) (hs) (hc) :
    shapeCast S_ (extractStridedSlice S1x1 ![0, o] (outs 6 main_v12_2 c : S1x8.Idx → EReal) hs) hc ix0 = lane outs c L :=
  (shapeCast_11_0_apply _ _).trans (slice2_axis1_apply o _ _ 0 0 L ho)

theorem hr_v14 : (V7 m outs c (Proc.devRef .tc main_v14) : S_.Idx → EReal) ix0 = lane outs c 0 := by
  show (StableHlo.after hostOps4 (V6 m outs c) (Proc.devRef .tc main_v14) : S_.Idx → EReal) ix0 = _
  after_results
  rw [kp_V6_v12_2]
  exact lane_cut outs c 0 0 rfl _ _

theorem hr_v20 : (V7 m outs c (Proc.devRef .tc main_v20) : S_.Idx → EReal) ix0 = lane outs c 3 := by
  show (StableHlo.after hostOps4 (V6 m outs c) (Proc.devRef .tc main_v20) : S_.Idx → EReal) ix0 = _
  after_results
  rw [kp_V6_v12_2]
  exact lane_cut outs c 3 3 rfl _ _

theorem hr_v22 : (V7 m outs c (Proc.devRef .tc main_v22) : S_.Idx → EReal) ix0 = lane outs c 4 := by
  show (StableHlo.after hostOps4 (V6 m outs c) (Proc.devRef .tc main_v22) : S_.Idx → EReal) ix0 = _
  after_results
  rw [kp_V6_v12_2]
  exact lane_cut outs c 4 4 rfl _ _

theorem hr_v24 : (V7 m outs c (Proc.devRef .tc main_v24) : S_.Idx → EReal) ix0 = lane outs c 5 := by
  show (StableHlo.after hostOps4 (V6 m outs c) (Proc.devRef .tc main_v24) : S_.Idx → EReal) ix0 = _
  after_results
  rw [kp_V6_v12_2]
  exact lane_cut outs c 5 5 rfl _ _

theorem hr_v27 : (V7 m outs c (Proc.devRef .tc main_v27) : S1x1.Idx → EReal) (ix2 0 0) = max (Ideal.sqrt (lane outs c 1)) Cert.Spec.eps := by
  show (StableHlo.after hostOps4 (V6 m outs c) (Proc.devRef .tc main_v27) : S1x1.Idx → EReal) (ix2 0 0) = _
  after_results
  rw [kp_V6_v12_2]
  exact (shapeCast_0_11_apply _ _ _).trans (congrArg (fun x => max (Ideal.sqrt x) Cert.Spec.eps) (lane_cut outs c 1 1 rfl _ _))

theorem hr_v30 : (V7 m outs c (Proc.devRef .tc main_v30) : S1x1.Idx → EReal) (ix2 0 0) = max (Ideal.sqrt (lane outs c 2)) Cert.Spec.eps := by
  show (StableHlo.after hostOps4 (V6 m outs c) (Proc.devRef .tc main_v30) : S1x1.Idx → EReal) (ix2 0 0) = _
  after_results
  rw [kp_V6_v12_2]
  exact (shapeCast_0_11_apply _ _ _).trans (congrArg (fun x => max (Ideal.sqrt x) Cert.Spec.eps) (lane_cut outs c 2 2 rfl _ _))

-- The last stretch: the five terms, each times the unit weight, added in the program's order.
theorem hr_v43 : (V10 m outs c (Proc.devRef .tc main_v43) : S_.Idx → EReal) ix0
    = (((Cert.Spec.one * Ideal.sqrt ((outs 9 main_v32 c : S1x1.Idx → EReal) (ix2 0 0)) + Cert.Spec.one * lane outs c 4)
        + Cert.Spec.one * lane outs c 3) + Cert.Spec.one * lane outs c 0) + Cert.Spec.one * lane outs c 5 := by
  show (StableHlo.after hostOps6 (V9 m outs c) (Proc.devRef .tc main_v43) : S_.Idx → EReal) ix0 = _
  after_results
  rw [kp_V9_v32, V9_of m outs c main_v22 (by decide), V8_of m outs c main_v22 (by decide),
    V9_of m outs c main_v20 (by decide), V8_of m outs c main_v20 (by decide),
    V9_of m outs c main_v14 (by decide), V8_of m outs c main_v14 (by decide),
    V9_of m outs c main_v24 (by decide), V8_of m outs c main_v24 (by decide)]
  show (((Ideal.ofBits .f32 0x3F800000#32 * Ideal.sqrt (shapeCast S_ (outs 9 main_v32 c : S1x1.Idx → EReal) shapeCasts_S1x1_S_ ix0)
          + Ideal.ofBits .f32 0x3F800000#32 * (V7 m outs c (Proc.devRef .tc main_v22) : S_.Idx → EReal) ix0)
        + Ideal.ofBits .f32 0x3F800000#32 * (V7 m outs c (Proc.devRef .tc main_v20) : S_.Idx → EReal) ix0)
        + Ideal.ofBits .f32 0x3F800000#32 * (V7 m outs c (Proc.devRef .tc main_v14) : S_.Idx → EReal) ix0)
        + Ideal.ofBits .f32 0x3F800000#32 * (V7 m outs c (Proc.devRef .tc main_v24) : S_.Idx → EReal) ix0 = _
  rw [shapeCast_11_0_apply, hr_v22, hr_v20, hr_v14, hr_v24]
  rfl

end Cert.KernelIdeal.Hand

end
-- ==== Proof.PreFacts.lean ====
import proofs.«418439_j46445776339038_1_alg».proof.Defs
import proofs.«418439_j46445776339038_1_alg».proof.Proof.Gen.Pre_finite_inputs
import Idealize.ShloMosaic.Lib.ReduceAll
import Idealize.ShloMosaic.Lib.StableHlo.Predicate
import Idealize.ShloMosaic.Lib.ValueIdx

noncomputable section

namespace Cert.Proof.PreFacts

open Idealize.ShloMosaic Idealize.SL.Sem Idealize.ShloMosaic.ValueIdx Cert.KernelIdeal

instance : Subsingleton Cert.Pre_finite_inputs.S_.Idx := ⟨fun _ _ => funext fun d => d.elim0⟩

-- The signed comparisons with 0 and 8192 are the order of the signed values.
theorem word_toInt (w : BitVec 32) (h : IntOp.andi (IntOp.cmpi .sge w 0#32) (IntOp.cmpi .slt w 8192#32) = 1#1) :
    0 ≤ w.toInt ∧ w.toInt < 8192 := by
  have e0 : (0#32 : BitVec 32).toInt = 0 := by decide
  have e1 : (8192#32 : BitVec 32).toInt = 8192 := by decide
  simpa only [IntOp.andi_eq_one, IntOp.cmpi, StableHlo.Predicate.ofBool_eq_one_iff, BitVec.sle, BitVec.slt,
    decide_eq_true_eq, e0, e1] using h

-- A signed value in [0, 8192) is the unsigned value.
theorem word_toNat (w : BitVec 32) (h : 0 ≤ w.toInt ∧ w.toInt < 8192) : w.toNat < 8192 := by
  have hw := w.isLt
  rw [BitVec.toInt_eq_toNat_cond] at h
  split at h <;> omega

theorem andi_at {s : Shape} {w : Nat} (x y : IVec s w) (i : s.Idx) : andi x y i = IntOp.andi (x i) (y i) := rfl

variable [Cert.Pre_finite_inputs.Facts] (m : (ℓ : Loc nD τ sig) → Buf (Elt Ideal) ℓ) (h : Cert.Pre_KernelIdeal m)
  (c : Dev nD) (n : Fin 2048)
include h

-- The precondition is a conjunction of all-reductions; the last two say every index word passes both comparisons.
theorem idx_toInt :
    0 ≤ ((m ((c.tc : Thread nD τ).loc main_arg0) : S2048.Idx → BitVec 32) (ix1 n)).toInt
    ∧ ((m ((c.tc : Thread nD τ).loc main_arg0) : S2048.Idx → BitVec 32) (ix1 n)).toInt < 8192 := by
  have h0 := congrFun (h c) ix0
  dsimp only [Cert.Pre_finite_inputs.fn, Cert.Pre_finite_inputs.fn_part1, Cert.Pre_finite_inputs.fn_part2] at h0
  simp only [andi_at, IntOp.andi_eq_one] at h0
  exact word_toInt _ (Host.reduce_andi_all _ _ _ _ ix0 h0.1.2 (ix1 n))

theorem par_toInt :
    0 ≤ ((m ((c.tc : Thread nD τ).loc main_arg1) : S2048.Idx → BitVec 32) (ix1 n)).toInt
    ∧ ((m ((c.tc : Thread nD τ).loc main_arg1) : S2048.Idx → BitVec 32) (ix1 n)).toInt < 8192 := by
  have h0 := congrFun (h c) ix0
  dsimp only [Cert.Pre_finite_inputs.fn, Cert.Pre_finite_inputs.fn_part1, Cert.Pre_finite_inputs.fn_part2] at h0
  simp only [andi_at, IntOp.andi_eq_one] at h0
  exact word_toInt _ (Host.reduce_andi_all _ _ _ _ ix0 h0.2 (ix1 n))

theorem idx_lt : ((m ((c.tc : Thread nD τ).loc main_arg0) : S2048.Idx → BitVec 32) (ix1 n)).toNat < 8192 :=
  word_toNat _ (idx_toInt m h c n)

theorem par_lt : ((m ((c.tc : Thread nD τ).loc main_arg1) : S2048.Idx → BitVec 32) (ix1 n)).toNat < 8192 :=
  word_toNat _ (par_toInt m h c n)

end Cert.Proof.PreFacts
-- ==== Proof.KernelCore.lean ====
import proofs.«418439_j46445776339038_1_alg».proof.Proof.HostReads
import proofs.«418439_j46445776339038_1_alg».proof.Proof.PreFacts
import proofs.«418439_j46445776339038_1_alg».proof.Proof.Compose

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen
open Idealize.ShloMosaic.ValueIdx

section Args
variable (m : (ℓ : Loc nD τ sig) → Buf (Elt Ideal) ℓ) (c : Dev nD)

abbrev kIdx : Fin 2048 → BitVec 32 := fun n => (m ((c.tc : Thread nD τ).loc main_arg0) : S2048.Idx → BitVec 32) (ix1 n)
abbrev kPar : Fin 2048 → BitVec 32 := fun n => (m ((c.tc : Thread nD τ).loc main_arg1) : S2048.Idx → BitVec 32) (ix1 n)
abbrev kOm : Fin 2048 → Fin 128 → EReal := fun i d => (m ((c.tc : Thread nD τ).loc main_arg2) : S2048x128.Idx → EReal) (ix2 i d)
abbrev kCe : Fin 8192 → Fin 32 → EReal := fun k j => (m ((c.tc : Thread nD τ).loc main_arg3) : S8192x32.Idx → EReal) (ix2 k j)
abbrev kRs : Fin 8192 → Fin 32 → EReal := fun k j => (m ((c.tc : Thread nD τ).loc main_arg4) : S8192x32.Idx → EReal) (ix2 k j)
abbrev kLv : Fin 8192 → EReal := fun k => (m ((c.tc : Thread nD τ).loc main_arg5) : S8192.Idx → EReal) (ix1 k)
abbrev kLd : Fin 8192 → Fin 8192 → EReal := fun k q => (m ((c.tc : Thread nD τ).loc main_arg6) : S8192x8192.Idx → EReal) (ix2 k q)

abbrev arr2 {a b : Nat} (x : (⟨2, ![a, b]⟩ : Shape).Idx → EReal) (i : Fin a) (j : Fin b) : EReal := x (ix2 i j)

end Args

section Values
variable (m : (ℓ : Loc nD τ sig) → Buf (Elt Ideal) ℓ) (outs : Gen.Outs (F := Ideal)) (c : Dev nD)

abbrev kabs (a b : EReal) : EReal := max (a - b) (-(a - b))

abbrev accA : S2048x2048.Idx → EReal := V5 m outs c (Proc.devRef .tc main_v7)
abbrev embA : S2048x64.Idx → EReal := V5 m outs c (Proc.devRef .tc main_v5_0)
abbrev embTA : S64x2048.Idx → EReal := V5 m outs c (Proc.devRef .tc main_v8)
abbrev omA : S2048x128.Idx → EReal := V5 m outs c (Proc.devRef .tc main_arg2)
abbrev innA : S1x2048.Idx → EReal := V5 m outs c (Proc.devRef .tc main_v11)

abbrev realDAt (i j : Fin 2048) : EReal :=
  accA m outs c (ix2 i j) + ∑ s : Fin 16, kabs (embA m outs c (ix2 i (Fin.castLE (by decide : 16 ≤ 64) s)))
    (embTA m outs c (ix2 (Fin.castLE (by decide : 16 ≤ 64) s) j))
abbrev omegaAt (i j : Fin 2048) : EReal :=
  max ((Ideal.ofBits .f32 0xC0000000#32 * ∑ d : Fin 128, omA m outs c (ix2 i d) * omA m outs c (ix2 j d)
      + ∑ d : Fin 128, omA m outs c (ix2 i d) * omA m outs c (ix2 i d)) + innA m outs c (ix2 0 j))
    (Ideal.ofBits .f32 0x2EDBE6FF#32)

abbrev rdB : S2048x2048.Idx → EReal := V7 m outs c (Proc.devRef .tc main_v12_0)
abbrev nrB : S1x1.Idx → EReal := V7 m outs c (Proc.devRef .tc main_v27)
abbrev odC : S2048x2048.Idx → EReal := V8 m outs c (Proc.devRef .tc main_v12_1)
abbrev noC : S1x1.Idx → EReal := V8 m outs c (Proc.devRef .tc main_v30)
abbrev dnC : S1x2048.Idx → EReal := V8 m outs c (Proc.devRef .tc main_v31)

-- What the six regions leave in their result arrays, each over the contents it is entered with.
structure RegionVals : Prop where
  r0a : ∀ (n : Fin 2048) (j : Fin 64), (outs 2 main_v5_0 c : S2048x64.Idx → EReal) (ix2 n j)
      = ∑ k : Fin 8192, Cert.Spec.oneHot ((V1 m c (Proc.devRef .tc main_v0) : S2048x1.Idx → BitVec 32) (ix2 n 0)) k.val
          * (V1 m c (Proc.devRef .tc main_v4) : S8192x64.Idx → EReal) (ix2 k j)
  r0b : ∀ (n : Fin 2048) (j : Fin 32), (outs 2 main_v5_1 c : S2048x32.Idx → EReal) (ix2 n j)
      = ∑ k : Fin 8192, Cert.Spec.oneHot ((V1 m c (Proc.devRef .tc main_v1) : S2048x1.Idx → BitVec 32) (ix2 n 0)) k.val
          * (V1 m c (Proc.devRef .tc main_arg4) : S8192x32.Idx → EReal) (ix2 k j)
  r1 : ∀ (n : Fin 2048) (q : Fin 8192), (outs 3 main_v6 c : S2048x8192.Idx → EReal) (ix2 n q)
      = ∑ k : Fin 8192, Cert.Spec.oneHot ((V2 m outs c (Proc.devRef .tc main_v0) : S2048x1.Idx → BitVec 32) (ix2 n 0)) k.val
          * (V2 m outs c (Proc.devRef .tc main_arg6) : S8192x8192.Idx → EReal) (ix2 k q)
  r2 : ∀ (i j : Fin 2048), (outs 4 main_v7 c : S2048x2048.Idx → EReal) (ix2 i j)
      = ∑ k : Fin 8192, arr2 (V3 m outs c (Proc.devRef .tc main_v6) : S2048x8192.Idx → EReal) i k
          * Cert.Spec.oneHot ((V3 m outs c (Proc.devRef .tc main_v0) : S2048x1.Idx → BitVec 32) (ix2 j 0)) k.val
  r37 : ∀ (i j : Fin 2048), (outs 6 main_v12_0 c : S2048x2048.Idx → EReal) (ix2 i j) = realDAt m outs c i j
  r38 : ∀ (i j : Fin 2048), (outs 6 main_v12_1 c : S2048x2048.Idx → EReal) (ix2 i j) = omegaAt m outs c i j
  r391 : lane outs c 1 = ∑ i : Fin 2048, ∑ j : Fin 2048, realDAt m outs c i j * realDAt m outs c i j
  r392 : lane outs c 2 = ∑ i : Fin 2048, ∑ j : Fin 2048, omegaAt m outs c i j * omegaAt m outs c i j
  r4 : ∀ (j : Fin 2048), (outs 8 main_v31 c : S1x2048.Idx → EReal) (ix2 (0 : Fin 1) j)
      = ∑ i : Fin 2048, Ideal.div (rdB m outs c (ix2 i j)) (nrB m outs c (ix2 (0 : Fin 1) (0 : Fin 1)))
  r5 : (outs 9 main_v32 c : S1x1.Idx → EReal) (ix2 (0 : Fin 1) (0 : Fin 1))
      = ∑ i : Fin 2048, ∑ j : Fin 2048,
          (Ideal.div (odC m outs c (ix2 i j)) (noC m outs c (ix2 (0 : Fin 1) (0 : Fin 1))) - dnC m outs c (ix2 (0 : Fin 1) j))
            * (Ideal.div (odC m outs c (ix2 i j)) (noC m outs c (ix2 (0 : Fin 1) (0 : Fin 1))) - dnC m outs c (ix2 (0 : Fin 1) j))

end Values

section Compose
variable [Cert.Pre_finite_inputs.Facts]
variable (m : (ℓ : Loc nD τ sig) → Buf (Elt Ideal) ℓ) (outs : Gen.Outs (F := Ideal)) (h : Cert.Pre_KernelIdeal m) (c : Dev nD)
  (rv : RegionVals m outs c)
include h rv

-- Each one-hot contraction reads the row its index word names, the word being below 8192.
theorem core_E (n : Fin 2048) (j : Fin 64) :
    (outs 2 main_v5_0 c : S2048x64.Idx → EReal) (ix2 n j)
      = Cert.Spec.tel (kCe m c) (kLv m c) (Cert.Spec.rowOf (kIdx m c n)) j := by
  rw [rv.r0a n j, hr_v0 m c n, Finset.sum_congr rfl fun k _ => by rw [hr_v4 m c k j]]
  exact Cert.Spec.gather_left _ (Cert.Proof.PreFacts.idx_lt m h c n) (fun k => Cert.Spec.tel (kCe m c) (kLv m c) k j)

theorem core_P (n : Fin 2048) (j : Fin 32) :
    (outs 2 main_v5_1 c : S2048x32.Idx → EReal) (ix2 n j) = kRs m c (Cert.Spec.rowOf (kPar m c n)) j := by
  rw [rv.r0b n j, hr_v1 m c n, V1_of m c main_arg4 (by decide)]
  exact Cert.Spec.gather_left _ (Cert.Proof.PreFacts.par_lt m h c n) (fun k => kRs m c k j)

theorem core_rows (n : Fin 2048) (q : Fin 8192) :
    (outs 3 main_v6 c : S2048x8192.Idx → EReal) (ix2 n q) = kLd m c (Cert.Spec.rowOf (kIdx m c n)) q := by
  rw [rv.r1 n q, V2_of m outs c main_v0 (by decide), hr_v0 m c n, V2_of m outs c main_arg6 (by decide),
    V1_of m c main_arg6 (by decide)]
  exact Cert.Spec.gather_left _ (Cert.Proof.PreFacts.idx_lt m h c n) (fun k => kLd m c k q)

theorem core_A (i j : Fin 2048) :
    (outs 4 main_v7 c : S2048x2048.Idx → EReal) (ix2 i j) = Cert.Spec.accD (kIdx m c) (kLd m c) i j := by
  rw [rv.r2 i j, V3_of m outs c main_v0 (by decide), V2_of m outs c main_v0 (by decide), hr_v0 m c j, kp_V3_v6 m outs c,
    Finset.sum_congr rfl fun k _ => by rw [show arr2 (outs 3 main_v6 c : S2048x8192.Idx → EReal) i k = _ from core_rows m outs h c rv i k]]
  exact Cert.Spec.gather_right _ (Cert.Proof.PreFacts.idx_lt m h c j) (fun k => kLd m c (Cert.Spec.rowOf (kIdx m c i)) k)

-- The box-distance entry: the second node's corner is read off the transposed copy of the gathered rows.
theorem core_realD (i j : Fin 2048) :
    realDAt m outs c i j = Cert.Spec.realD (kIdx m c) (kCe m c) (kLd m c) i j := by
  have hA : accA m outs c (ix2 i j) = Cert.Spec.accD (kIdx m c) (kLd m c) i j := by
    show (V5 m outs c (Proc.devRef .tc main_v7) : S2048x2048.Idx → EReal) (ix2 i j) = _
    rw [kp_V5_v7 m outs c]; exact core_A m outs h c rv i j
  have hE : ∀ (n : Fin 2048) (s : Fin 16), embA m outs c (ix2 n (Fin.castLE (by decide : 16 ≤ 64) s))
      = Cert.Spec.lo (kIdx m c) (kCe m c) n s := fun n s => by
    show (V5 m outs c (Proc.devRef .tc main_v5_0) : S2048x64.Idx → EReal) (ix2 n (Fin.castLE (by decide : 16 ≤ 64) s)) = _
    rw [kp_V5_v5_0 m outs c, core_E m outs h c rv n _]
    exact Cert.Spec.tel_lo _ _ _ s
  have hT : ∀ (n : Fin 2048) (s : Fin 16), embTA m outs c (ix2 (Fin.castLE (by decide : 16 ≤ 64) s) n)
      = Cert.Spec.lo (kIdx m c) (kCe m c) n s := fun n s => by
    show (V5 m outs c (Proc.devRef .tc main_v8) : S64x2048.Idx → EReal) (ix2 (Fin.castLE (by decide : 16 ≤ 64) s) n) = _
    rw [hr_v8 m outs c _ n, core_E m outs h c rv n _]
    exact Cert.Spec.tel_lo _ _ _ s
  show accA m outs c (ix2 i j) + ∑ s : Fin 16, kabs _ _ = _
  rw [hA, Finset.sum_congr rfl fun s _ => by rw [hE i s, hT j s]]
  rfl

theorem core_omega (i j : Fin 2048) : omegaAt m outs c i j = Cert.Spec.omegaDist (kOm m c) i j := by
  have hO : ∀ (a : Fin 2048) (d : Fin 128), omA m outs c (ix2 a d) = kOm m c a d := fun a d => by
    show (V5 m outs c (Proc.devRef .tc main_arg2) : S2048x128.Idx → EReal) (ix2 a d) = _
    rw [kp_V5_arg2 m outs c]
  have hI : innA m outs c (ix2 0 j) = Cert.Spec.inner (kOm m c) j := hr_v11 m outs c j
  show max ((_ * ∑ d : Fin 128, _ + ∑ d : Fin 128, _) + innA m outs c (ix2 0 j)) _ = _
  have s1 : ∑ d : Fin 128, omA m outs c (ix2 i d) * omA m outs c (ix2 j d) = ∑ d : Fin 128, kOm m c i d * kOm m c j d :=
    Finset.sum_congr rfl fun d _ => by rw [hO i d, hO j d]
  have s2 : ∑ d : Fin 128, omA m outs c (ix2 i d) * omA m outs c (ix2 i d) = Cert.Spec.inner (kOm m c) i :=
    Finset.sum_congr rfl fun d _ => by rw [hO i d]
  rw [hI, s1, s2]
  rfl

theorem core_normR :
    nrB m outs c (ix2 (0 : Fin 1) (0 : Fin 1)) = Cert.Spec.normR (kIdx m c) (kCe m c) (kLd m c) := by
  show (V7 m outs c (Proc.devRef .tc main_v27) : S1x1.Idx → EReal) (ix2 0 0) = _
  rw [hr_v27 m outs c, rv.r391,
    Finset.sum_congr rfl fun i _ => Finset.sum_congr rfl fun j _ => by rw [core_realD m outs h c rv i j]]
  rfl

theorem core_normO : (V7 m outs c (Proc.devRef .tc main_v30) : S1x1.Idx → EReal) (ix2 0 0) = Cert.Spec.normO (kOm m c) := by
  rw [hr_v30 m outs c, rv.r392,
    Finset.sum_congr rfl fun i _ => Finset.sum_congr rfl fun j _ => by rw [core_omega m outs h c rv i j]]
  rfl

theorem core_distNormed (j : Fin 2048) :
    (outs 8 main_v31 c : S1x2048.Idx → EReal) (ix2 (0 : Fin 1) j)
      = Cert.Spec.distNormed (kIdx m c) (kCe m c) (kLd m c) j := by
  have hR : ∀ i : Fin 2048, rdB m outs c (ix2 i j) = Cert.Spec.realD (kIdx m c) (kCe m c) (kLd m c) i j := fun i => by
    show (V7 m outs c (Proc.devRef .tc main_v12_0) : S2048x2048.Idx → EReal) (ix2 i j) = _
    rw [kp_V7_v12_0 m outs c, rv.r37 i j, core_realD m outs h c rv i j]
  rw [rv.r4 j, core_normR m outs h c rv, Finset.sum_congr rfl fun i _ => by rw [hR i]]
  rfl

theorem core_lossDistance :
    Ideal.sqrt ((outs 9 main_v32 c : S1x1.Idx → EReal) (ix2 (0 : Fin 1) (0 : Fin 1)))
      = Cert.Spec.lossDistance (kIdx m c) (kOm m c) (kCe m c) (kLd m c) := by
  have hO : ∀ i j : Fin 2048, odC m outs c (ix2 i j) = Cert.Spec.omegaDist (kOm m c) i j := fun i j => by
    show (V8 m outs c (Proc.devRef .tc main_v12_1) : S2048x2048.Idx → EReal) (ix2 i j) = _
    rw [kp_V8_v12_1 m outs c, rv.r38 i j, core_omega m outs h c rv i j]
  have hN : noC m outs c (ix2 (0 : Fin 1) (0 : Fin 1)) = Cert.Spec.normO (kOm m c) := by
    show (V8 m outs c (Proc.devRef .tc main_v30) : S1x1.Idx → EReal) (ix2 0 0) = _
    rw [V8_of m outs c main_v30 (by decide)]; exact core_normO m outs h c rv
  have hD : ∀ j : Fin 2048, dnC m outs c (ix2 (0 : Fin 1) j) = Cert.Spec.distNormed (kIdx m c) (kCe m c) (kLd m c) j := fun j => by
    show (V8 m outs c (Proc.devRef .tc main_v31) : S1x2048.Idx → EReal) (ix2 0 j) = _
    rw [kp_V8_v31 m outs c]; exact core_distNormed m outs h c rv j
  rw [rv.r5, hN, Finset.sum_congr rfl fun i _ => Finset.sum_congr rfl fun j _ => by rw [hO i j, hD j]]
  rfl

-- The result, the four lanes that are loss terms being given.
theorem core_total (l0 : lane outs c 0 = Cert.Spec.lossOverlap (kIdx m c) (kCe m c))
    (l3 : lane outs c 3 = Cert.Spec.lossExceed (kIdx m c) (kPar m c) (kCe m c) (kRs m c))
    (l4 : lane outs c 4 = Cert.Spec.lossShape (kIdx m c) (kPar m c) (kCe m c) (kRs m c) (kLv m c))
    (l5 : lane outs c 5 = Cert.Spec.lossPositive (kIdx m c) (kCe m c)) :
    (V10 m outs c (Proc.devRef .tc main_v43) : S_.Idx → EReal) ix0
      = Cert.Spec.total (kIdx m c) (kPar m c) (kOm m c) (kCe m c) (kRs m c) (kLv m c) (kLd m c) := by
  rw [hr_v43 m outs c, core_lossDistance m outs h c rv, l0, l3, l4, l5]
  rfl

end Compose

end Cert.KernelIdeal.Hand

end
-- ==== Proof.R0Value.lean ====
import proofs.«418439_j46445776339038_1_alg».proof.Proof.R0Frame
import proofs.«418439_j46445776339038_1_alg».proof.Proof.Spec
import Idealize.ShloMosaic.Lib.ValueIdx
import Idealize.ShloMosaic.PureOps.Ideal.Laws
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- Column `q` of table block `k` carries the row number `2048 k + q`. -/
theorem pay4_apply0 (i : grid0.Coords) (r : Fin 256) (q : Fin 2048) :
    k0_pay4 i (ix2 r q) = BitVec.ofNat 32 ((i 1).val * 2048 + q.val) := by
  unfold k0_pay4
  show IntOp.addi (Scalar.muli (BitVec.ofNat 32 (i 1).val) 2048#32) (iota .tc S256x2048 32 [1] iota_S256x2048_d1_w32 (ix2 r q)) = _
  rw [iota_single_apply]
  show BitVec.ofNat 32 (i 1).val * 2048#32 + BitVec.ofNat 32 q.val = _
  rw [BitVec.ofNat_add, BitVec.ofNat_mul]

/-- A comparison bit converted to a real is the indicator of the equality. -/
theorem onehot_elem0 (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h; simp [IntOp.cmpi]
  · have hb : (a == b) = false := by simp [h]
    simp [IntOp.cmpi, hb, h]

abbrev r0_D64 : DotDims S256x2048 S2048x64 S256x64 := dot_S256x2048_S2048x64_S256x64_1_0_0_1_n_n
abbrev r0_D32 : DotDims S256x2048 S2048x32 S256x32 := dot_S256x2048_S2048x32_S256x32_1_0_0_1_n_n

theorem r0_D64_lhs_0 (j : S256x64.Idx) (k : r0_D64.contr.Idx) : (r0_D64.lhsIdx j k 0 : ℕ) = j 0 := by
  simp [DotDims.lhsIdx, r0_D64, dot_S256x2048_S2048x64_S256x64_1_0_0_1_n_n]; rfl
theorem r0_D64_lhs_1 (j : S256x64.Idx) (k : r0_D64.contr.Idx) : (r0_D64.lhsIdx j k 1 : ℕ) = k ⟨0, by decide⟩ := by
  simp [DotDims.lhsIdx, r0_D64, dot_S256x2048_S2048x64_S256x64_1_0_0_1_n_n]; rfl
theorem r0_D64_rhs_0 (j : S256x64.Idx) (k : r0_D64.contr.Idx) : (r0_D64.rhsIdx j k 0 : ℕ) = k ⟨0, by decide⟩ := by
  simp [DotDims.rhsIdx, r0_D64, dot_S256x2048_S2048x64_S256x64_1_0_0_1_n_n]; rfl
theorem r0_D64_rhs_1 (j : S256x64.Idx) (k : r0_D64.contr.Idx) : (r0_D64.rhsIdx j k 1 : ℕ) = j 1 := by
  simp [DotDims.rhsIdx, r0_D64, dot_S256x2048_S2048x64_S256x64_1_0_0_1_n_n]; rfl

theorem r0_D64_lhs (r : Fin 256) (j : Fin 64) (q : Fin 2048) :
    r0_D64.lhsIdx (ix2 r j) ((contrEquiv1 r0_D64 2048 rfl rfl).symm q) = ix2 r q := by
  funext a
  match a with
  | ⟨0, _⟩ => exact Fin.ext (r0_D64_lhs_0 _ _)
  | ⟨1, _⟩ => exact Fin.ext ((r0_D64_lhs_1 _ _).trans (contrEquiv1_symm_val r0_D64 2048 rfl rfl q))
theorem r0_D64_rhs (r : Fin 256) (j : Fin 64) (q : Fin 2048) :
    r0_D64.rhsIdx (ix2 r j) ((contrEquiv1 r0_D64 2048 rfl rfl).symm q) = ix2 q j := by
  funext a
  match a with
  | ⟨0, _⟩ => exact Fin.ext ((r0_D64_rhs_0 _ _).trans (contrEquiv1_symm_val r0_D64 2048 rfl rfl q))
  | ⟨1, _⟩ => exact Fin.ext (r0_D64_rhs_1 _ _)

/-- Entry `(r, q)` of the one-hot block: does row `r`'s index word equal `2048 k + q`. -/
theorem ohrow_apply0 (i : grid0.Coords) (x0 : Vec Ideal S256x1 .i32) (r : Fin 256) (q : Fin 2048) :
    (truncf .bf16 (sitofp (F := Ideal) .f32 (extui 32 (cmpi .eq (broadcastTo S256x2048 x0 broadcasts_S256x1_S256x2048) (k0_pay4 i)) natLt_1_32)) bitsLt_bf16_f32 : FVec Ideal S256x2048 .bf16) (ix2 r q)
      = Cert.Spec.oneHot (x0 (ix2 r 0)) ((i 1).val * 2048 + q.val) := by
  show FloatOps.sitofp (F := Ideal) .f32 ((IntOp.cmpi .eq (broadcastTo S256x2048 x0 broadcasts_S256x1_S256x2048 (ix2 r q)) (k0_pay4 i (ix2 r q))).setWidth 32) = _
  rw [onehot_elem0, pay4_apply0]
  rw [broadcastTo_apply x0 broadcasts_S256x1_S256x2048 (ix2 r q) (ix2 r 0) (fun a => by
    match a with
    | ⟨0, _⟩ => rfl
    | ⟨1, _⟩ => rfl)]
  rfl

/-- The first update at `(r, j)`: the accumulator plus the block's one-hot contraction. -/
theorem pay5_apply0 (i : grid0.Coords) (x0 : Vec Ideal S256x1 .i32) (acc : Vec Ideal S256x64 .f32) (tab : Vec Ideal S2048x64 .f32)
    (r : Fin 256) (j : Fin 64) :
    k0_pay5 (F := Ideal) i x0 acc tab (ix2 r j)
      = acc (ix2 r j) + ∑ q : Fin 2048, Cert.Spec.oneHot (x0 (ix2 r 0)) ((i 1).val * 2048 + q.val) * tab (ix2 q j) := by
  unfold k0_pay5
  simp only [shapeCast_self]
  refine (addf_apply _ _ _).trans ?_
  refine congrArg (acc (ix2 r j) + ·) ?_
  refine (Ideal.matmul_constant_zero_apply r0_D64 none _ _ _).trans ?_
  refine (Equiv.sum_comp (contrEquiv1 r0_D64 2048 rfl rfl).symm _).symm.trans ?_
  refine Finset.sum_congr rfl fun q _ => ?_
  rw [r0_D64_lhs, r0_D64_rhs]
  refine congrArg (· * tab (ix2 q j)) ?_
  exact ohrow_apply0 i x0 r q

theorem r0_D32_lhs_0 (j : S256x32.Idx) (k : r0_D32.contr.Idx) : (r0_D32.lhsIdx j k 0 : ℕ) = j 0 := by
  simp [DotDims.lhsIdx, r0_D32, dot_S256x2048_S2048x32_S256x32_1_0_0_1_n_n]; rfl
theorem r0_D32_lhs_1 (j : S256x32.Idx) (k : r0_D32.contr.Idx) : (r0_D32.lhsIdx j k 1 : ℕ) = k ⟨0, by decide⟩ := by
  simp [DotDims.lhsIdx, r0_D32, dot_S256x2048_S2048x32_S256x32_1_0_0_1_n_n]; rfl
theorem r0_D32_rhs_0 (j : S256x32.Idx) (k : r0_D32.contr.Idx) : (r0_D32.rhsIdx j k 0 : ℕ) = k ⟨0, by decide⟩ := by
  simp [DotDims.rhsIdx, r0_D32, dot_S256x2048_S2048x32_S256x32_1_0_0_1_n_n]; rfl
theorem r0_D32_rhs_1 (j : S256x32.Idx) (k : r0_D32.contr.Idx) : (r0_D32.rhsIdx j k 1 : ℕ) = j 1 := by
  simp [DotDims.rhsIdx, r0_D32, dot_S256x2048_S2048x32_S256x32_1_0_0_1_n_n]; rfl

theorem r0_D32_lhs (r : Fin 256) (j : Fin 32) (q : Fin 2048) :
    r0_D32.lhsIdx (ix2 r j) ((contrEquiv1 r0_D32 2048 rfl rfl).symm q) = ix2 r q := by
  funext a
  match a with
  | ⟨0, _⟩ => exact Fin.ext (r0_D32_lhs_0 _ _)
  | ⟨1, _⟩ => exact Fin.ext ((r0_D32_lhs_1 _ _).trans (contrEquiv1_symm_val r0_D32 2048 rfl rfl q))
theorem r0_D32_rhs (r : Fin 256) (j : Fin 32) (q : Fin 2048) :
    r0_D32.rhsIdx (ix2 r j) ((contrEquiv1 r0_D32 2048 rfl rfl).symm q) = ix2 q j := by
  funext a
  match a with
  | ⟨0, _⟩ => exact Fin.ext ((r0_D32_rhs_0 _ _).trans (contrEquiv1_symm_val r0_D32 2048 rfl rfl q))
  | ⟨1, _⟩ => exact Fin.ext (r0_D32_rhs_1 _ _)

theorem pay16_apply0 (i : grid0.Coords) (x1 : Vec Ideal S256x1 .i32) (acc : Vec Ideal S256x32 .f32) (tab : Vec Ideal S2048x32 .f32)
    (r : Fin 256) (j : Fin 32) :
    k0_pay1 (F := Ideal) (k0_pay6 i x1 acc tab) (ix2 r j)
      = acc (ix2 r j) + ∑ q : Fin 2048, Cert.Spec.oneHot (x1 (ix2 r 0)) ((i 1).val * 2048 + q.val) * tab (ix2 q j) := by
  unfold k0_pay1 k0_pay6
  simp only [shapeCast_self]
  refine (addf_apply _ _ _).trans ?_
  refine congrArg (acc (ix2 r j) + ·) ?_
  refine (Ideal.matmul_constant_zero_apply r0_D32 none _ _ _).trans ?_
  refine (Equiv.sum_comp (contrEquiv1 r0_D32 2048 rfl rfl).symm _).symm.trans ?_
  refine Finset.sum_congr rfl fun q _ => ?_
  rw [r0_D32_lhs, r0_D32_rhs]
  refine congrArg (· * tab (ix2 q j)) ?_
  exact ohrow_apply0 i x1 r q

theorem pay2_apply0 (y : S256x64.Idx) : k0_pay2 (F := Ideal) y = 0 := by
  unfold k0_pay2
  simp only [shapeCast_self]
  exact Ideal.ofBits_zero_f32
theorem pay3_apply0 (y : S256x32.Idx) : k0_pay3 (F := Ideal) y = 0 := by
  unfold k0_pay3
  simp only [shapeCast_self]
  exact Ideal.ofBits_zero_f32

theorem coords0_1 : ∀ t : Fin grid0.N, (grid0.coords t 1).val = t.val % 4 := by decide +kernel
theorem idx0_0 : ∀ t : Fin grid0.N, win0_0.index t 0 = t.val / 4 ∧ win0_0.index t 1 = 0 := by decide +kernel
theorem idx0_1 : ∀ t : Fin grid0.N, win0_1.index t 0 = t.val / 4 ∧ win0_1.index t 1 = 0 := by decide +kernel
theorem idx0_2 : ∀ t : Fin grid0.N, win0_2.index t 0 = t.val % 4 ∧ win0_2.index t 1 = 0 := by decide +kernel
theorem idx0_3 : ∀ t : Fin grid0.N, win0_3.index t 0 = t.val % 4 ∧ win0_3.index t 1 = 0 := by decide +kernel
theorem idx0_4 : ∀ t : Fin grid0.N, win0_4.index t 0 = t.val / 4 ∧ win0_4.index t 1 = 0 := by decide +kernel
theorem idx0_5 : ∀ t : Fin grid0.N, win0_5.index t 0 = t.val / 4 ∧ win0_5.index t 1 = 0 := by decide +kernel

section Blocks
variable {F : FTy → Type} [FloatOps F]
variable (V : (c : Dev nD) → (b : Ref sig .tc) → Buf (Elt F) ((c : Thread nD τ).loc b))

theorem blk0_0_apply (c : Dev nD) (t : Fin cfg0.N) (y : S256x1.Idx) (z : S2048x1.Idx)
    (h0 : (z 0).val = t.val / 4 * 256 + (y 0).val) (h1 : (z 1).val = (y 1).val) :
    (iblk0 V c 0 t : Vec F S256x1 .i32) y = (V c main_v0 : Vec F S2048x1 .i32) z := by
  unfold iblk0
  rw [View.read_apply]
  show V c main_v0 _ = V c main_v0 z
  congr 1
  funext a; apply Fin.ext
  match a with
  | ⟨0, _⟩ => show win0_0.index t 0 * 256 + 1 * (y 0).val = (z 0).val; rw [(idx0_0 t).1, h0]; omega
  | ⟨1, _⟩ => show win0_0.index t 1 * 1 + 1 * (y 1).val = (z 1).val; rw [(idx0_0 t).2, h1]; omega

theorem blk0_1_apply (c : Dev nD) (t : Fin cfg0.N) (y : S256x1.Idx) (z : S2048x1.Idx)
    (h0 : (z 0).val = t.val / 4 * 256 + (y 0).val) (h1 : (z 1).val = (y 1).val) :
    (iblk0 V c 1 t : Vec F S256x1 .i32) y = (V c main_v1 : Vec F S2048x1 .i32) z := by
  unfold iblk0
  rw [View.read_apply]
  show V c main_v1 _ = V c main_v1 z
  congr 1
  funext a; apply Fin.ext
  match a with
  | ⟨0, _⟩ => show win0_1.index t 0 * 256 + 1 * (y 0).val = (z 0).val; rw [(idx0_1 t).1, h0]; omega
  | ⟨1, _⟩ => show win0_1.index t 1 * 1 + 1 * (y 1).val = (z 1).val; rw [(idx0_1 t).2, h1]; omega

theorem blk0_2_apply (c : Dev nD) (t : Fin cfg0.N) (y : S2048x64.Idx) (z : S8192x64.Idx)
    (h0 : (z 0).val = t.val % 4 * 2048 + (y 0).val) (h1 : (z 1).val = (y 1).val) :
    (iblk0 V c 2 t : Vec F S2048x64 .f32) y = (V c main_v4 : Vec F S8192x64 .f32) z := by
  unfold iblk0
  rw [View.read_apply]
  show V c main_v4 _ = V c main_v4 z
  congr 1
  funext a; apply Fin.ext
  match a with
  | ⟨0, _⟩ => show win0_2.index t 0 * 2048 + 1 * (y 0).val = (z 0).val; rw [(idx0_2 t).1, h0]; omega
  | ⟨1, _⟩ => show win0_2.index t 1 * 64 + 1 * (y 1).val = (z 1).val; rw [(idx0_2 t).2, h1]; omega

theorem blk0_3_apply (c : Dev nD) (t : Fin cfg0.N) (y : S2048x32.Idx) (z : S8192x32.Idx)
    (h0 : (z 0).val = t.val % 4 * 2048 + (y 0).val) (h1 : (z 1).val = (y 1).val) :
    (iblk0 V c 3 t : Vec F S2048x32 .f32) y = (V c main_arg4 : Vec F S8192x32 .f32) z := by
  unfold iblk0
  rw [View.read_apply]
  show V c main_arg4 _ = V c main_arg4 z
  congr 1
  funext a; apply Fin.ext
  match a with
  | ⟨0, _⟩ => show win0_3.index t 0 * 2048 + 1 * (y 0).val = (z 0).val; rw [(idx0_3 t).1, h0]; omega
  | ⟨1, _⟩ => show win0_3.index t 1 * 32 + 1 * (y 1).val = (z 1).val; rw [(idx0_3 t).2, h1]; omega

end Blocks

section Value
variable (V : (c : Dev nD) → (b : Ref sig .tc) → Buf (Elt Ideal) ((c : Thread nD τ).loc b))

abbrev idA0 (c : Dev nD) : S2048x1.Idx → BitVec 32 := V c main_v0
abbrev parA0 (c : Dev nD) : S2048x1.Idx → BitVec 32 := V c main_v1
abbrev telA0 (c : Dev nD) : S8192x64.Idx → EReal := V c main_v4
abbrev tresA0 (c : Dev nD) : S8192x32.Idx → EReal := V c main_arg4

def termE0 (c : Dev nD) (n : Fin 2048) (j : Fin 64) (p : ℕ) : EReal :=
  if h : p < 8192 then Cert.Spec.oneHot (idA0 V c (ix2 n 0)) p * telA0 V c (ix2 ⟨p, h⟩ j) else 0

def termR0 (c : Dev nD) (n : Fin 2048) (j : Fin 32) (p : ℕ) : EReal :=
  if h : p < 8192 then Cert.Spec.oneHot (parA0 V c (ix2 n 0)) p * tresA0 V c (ix2 ⟨p, h⟩ j) else 0

/-- One block's contraction is that block's stretch of the sum over all 8192 table rows. -/
theorem blockSumE0 (c : Dev nD) (t : Fin cfg0.N) (r : Fin 256) (j : Fin 64) (n : Fin 2048) (hn : n.val = t.val / 4 * 256 + r.val) :
    (∑ q : Fin 2048, Cert.Spec.oneHot ((iblk0 V c 0 t : S256x1.Idx → BitVec 32) (ix2 r 0)) ((grid0.coords t 1).val * 2048 + q.val) * (iblk0 V c 2 t : S2048x64.Idx → EReal) (ix2 q j))
      = ∑ q ∈ Finset.range 2048, termE0 V c n j (t.val % 4 * 2048 + q) := by
  rw [Finset.sum_range]
  refine Finset.sum_congr rfl fun q _ => ?_
  have hq : t.val % 4 * 2048 + q.val < 8192 := by have := q.isLt; omega
  unfold termE0
  rw [dif_pos hq, coords0_1 t]
  rw [blk0_0_apply (F := Ideal) V c t (ix2 r 0) (ix2 n 0) hn rfl,
    blk0_2_apply (F := Ideal) V c t (ix2 q j) (ix2 ⟨t.val % 4 * 2048 + q.val, hq⟩ j) rfl rfl]

theorem blockSumR0 (c : Dev nD) (t : Fin cfg0.N) (r : Fin 256) (j : Fin 32) (n : Fin 2048) (hn : n.val = t.val / 4 * 256 + r.val) :
    (∑ q : Fin 2048, Cert.Spec.oneHot ((iblk0 V c 1 t : S256x1.Idx → BitVec 32) (ix2 r 0)) ((grid0.coords t 1).val * 2048 + q.val) * (iblk0 V c 3 t : S2048x32.Idx → EReal) (ix2 q j))
      = ∑ q ∈ Finset.range 2048, termR0 V c n j (t.val % 4 * 2048 + q) := by
  rw [Finset.sum_range]
  refine Finset.sum_congr rfl fun q _ => ?_
  have hq : t.val % 4 * 2048 + q.val < 8192 := by have := q.isLt; omega
  unfold termR0
  rw [dif_pos hq, coords0_1 t]
  rw [blk0_1_apply (F := Ideal) V c t (ix2 r 0) (ix2 n 0) hn rfl,
    blk0_3_apply (F := Ideal) V c t (ix2 q j) (ix2 ⟨t.val % 4 * 2048 + q.val, hq⟩ j) rfl rfl]

/-- After point `m = 4 i + k` the accumulators hold, at row `r` of the row block, the terms of the table rows below `2048 (k + 1)` for array row `256 i + r`: a reset point starts from zero, any other adds its block's stretch. -/
theorem acc0_eq (c : Dev nD) : ∀ (m : ℕ) (hm : m < cfg0.N) (r : Fin 256) (n : Fin 2048), n.val = m / 4 * 256 + r.val →
    (∀ j : Fin 64, (acc0 V c m hm).1 (ix2 r j) = ∑ p ∈ Finset.range ((m % 4 + 1) * 2048), termE0 V c n j p)
    ∧ (∀ j : Fin 32, (acc0 V c m hm).2 (ix2 r j) = ∑ p ∈ Finset.range ((m % 4 + 1) * 2048), termR0 V c n j p) := by
  intro m
  induction m using Nat.strong_induction_on with
  | _ m ih =>
    intro hm r n hn
    have hN : m < 32 := lt_of_lt_of_eq hm (show cfg0.N = 32 from N_0)
    by_cases h0 : m % 4 = 0
    · rw [acc0_first V c ⟨m, hm⟩ h0]
      unfold upd0
      dsimp only
      constructor
      · intro j
        refine (pay5_apply0 (grid0.coords ⟨m, hm⟩) (iblk0 V c 0 ⟨m, hm⟩) (k0_pay2 (F := Ideal)) (iblk0 V c 2 ⟨m, hm⟩) r j).trans ?_
        rw [pay2_apply0, zero_add, blockSumE0 V c ⟨m, hm⟩ r j n hn]
        show ∑ q ∈ Finset.range 2048, termE0 V c n j (m % 4 * 2048 + q) = _
        rw [h0]
        simp only [zero_mul, zero_add, one_mul]
      · intro j
        refine (pay16_apply0 (grid0.coords ⟨m, hm⟩) (iblk0 V c 1 ⟨m, hm⟩) (k0_pay3 (F := Ideal)) (iblk0 V c 3 ⟨m, hm⟩) r j).trans ?_
        rw [pay3_apply0, zero_add, blockSumR0 V c ⟨m, hm⟩ r j n hn]
        show ∑ q ∈ Finset.range 2048, termR0 V c n j (m % 4 * 2048 + q) = _
        rw [h0]
        simp only [zero_mul, zero_add, one_mul]
    · have hm' : m - 1 < cfg0.N := Nat.lt_of_le_of_lt (Nat.sub_le _ _) hm
      have hn' : n.val = (m - 1) / 4 * 256 + r.val := by omega
      have e : (m - 1) % 4 + 1 = m % 4 := by omega
      have hsplit : (m % 4 + 1) * 2048 = ((m - 1) % 4 + 1) * 2048 + 2048 := by omega
      obtain ⟨ihE, ihR⟩ := ih (m - 1) (by omega) hm' r n hn'
      rw [acc0_next V c ⟨m, hm⟩ h0]
      unfold upd0
      dsimp only
      constructor
      · intro j
        refine (pay5_apply0 (grid0.coords ⟨m, hm⟩) (iblk0 V c 0 ⟨m, hm⟩) (acc0 V c (m - 1) hm').1 (iblk0 V c 2 ⟨m, hm⟩) r j).trans ?_
        rw [ihE j, blockSumE0 V c ⟨m, hm⟩ r j n hn, hsplit, Finset.sum_range_add]
        show _ + ∑ q ∈ Finset.range 2048, termE0 V c n j (m % 4 * 2048 + q) = _
        rw [e]
      · intro j
        refine (pay16_apply0 (grid0.coords ⟨m, hm⟩) (iblk0 V c 1 ⟨m, hm⟩) (acc0 V c (m - 1) hm').2 (iblk0 V c 3 ⟨m, hm⟩) r j).trans ?_
        rw [ihR j, blockSumR0 V c ⟨m, hm⟩ r j n hn, hsplit, Finset.sum_range_add]
        show _ + ∑ q ∈ Finset.range 2048, termR0 V c n j (m % 4 * 2048 + q) = _
        rw [e]

def G0_4 (c : Dev nD) : S2048x64.Idx → EReal :=
  fun z => ∑ p : Fin 8192, Cert.Spec.oneHot (idA0 V c (ix2 (z 0) 0)) p.val * telA0 V c (ix2 p (z 1))
def G0_5 (c : Dev nD) : S2048x32.Idx → EReal :=
  fun z => ∑ p : Fin 8192, Cert.Spec.oneHot (parA0 V c (ix2 (z 0) 0)) p.val * tresA0 V c (ix2 p (z 1))

theorem sum_termE0 (c : Dev nD) (n : Fin 2048) (j : Fin 64) :
    ∑ p ∈ Finset.range 8192, termE0 V c n j p = ∑ p : Fin 8192, Cert.Spec.oneHot (idA0 V c (ix2 n 0)) p.val * telA0 V c (ix2 p j) := by
  rw [Finset.sum_range]
  refine Finset.sum_congr rfl fun p _ => ?_
  unfold termE0
  rw [dif_pos p.isLt]
theorem sum_termR0 (c : Dev nD) (n : Fin 2048) (j : Fin 32) :
    ∑ p ∈ Finset.range 8192, termR0 V c n j p = ∑ p : Fin 8192, Cert.Spec.oneHot (parA0 V c (ix2 n 0)) p.val * tresA0 V c (ix2 p j) := by
  rw [Finset.sum_range]
  refine Finset.sum_congr rfl fun p _ => ?_
  unfold termR0
  rw [dif_pos p.isLt]

/-- At `k = 3` the accumulator holds all 8192 rows' terms, so that point's output block is the gather's block. -/
theorem flushed0_4_eq (c : Dev nD) (t : Fin cfg0.N) (hf : (cfg0.win 4).flush t = true) :
    (dat0 V c).flushed 4 t = ((cfg0.win 4).blk t).view.read (Elt Ideal) (G0_4 V c) := by
  have hN : t.val < 32 := lt_of_lt_of_eq t.isLt (show cfg0.N = 32 from N_0)
  have h3 : t.val % 4 = 3 := (flush0_4 t).mp hf
  have h0 : ¬t.val % 4 = 0 := by omega
  funext y
  show (acc0 V c t.val t.isLt).1 ((cfg0.win 4).xinj (grid0.coords t) y) = G0_4 V c (((cfg0.win 4).blk t).view.emb y)
  have hx : (cfg0.win 4).xinj (grid0.coords t) y = ix2 (y 0) (y 1) := by
    funext a
    match a with
    | ⟨0, _⟩ => rfl
    | ⟨1, _⟩ => rfl
  rw [hx]
  have hz0 : ((((cfg0.win 4).blk t).view.emb y) 0).val = t.val / 4 * 256 + (y 0).val := by
    show win0_4.index t 0 * 256 + 1 * (y 0).val = _
    rw [(idx0_4 t).1]; omega
  have hz1 : ((((cfg0.win 4).blk t).view.emb y) 1).val = (y 1).val := by
    show win0_4.index t 1 * 64 + 1 * (y 1).val = _
    rw [(idx0_4 t).2]; omega
  refine ((acc0_eq V c t.val t.isLt (y 0) ((((cfg0.win 4).blk t).view.emb y) 0) hz0).1 (y 1)).trans ?_
  rw [h3]
  refine (sum_termE0 V c _ _).trans ?_
  unfold G0_4
  have e1 : (y 1) = (((cfg0.win 4).blk t).view.emb y) 1 := Fin.ext hz1.symm
  rw [e1]

theorem flushed0_5_eq (c : Dev nD) (t : Fin cfg0.N) (hf : (cfg0.win 5).flush t = true) :
    (dat0 V c).flushed 5 t = ((cfg0.win 5).blk t).view.read (Elt Ideal) (G0_5 V c) := by
  have hN : t.val < 32 := lt_of_lt_of_eq t.isLt (show cfg0.N = 32 from N_0)
  have h3 : t.val % 4 = 3 := (flush0_5 t).mp hf
  have h0 : ¬t.val % 4 = 0 := by omega
  funext y
  show (acc0 V c t.val t.isLt).2 ((cfg0.win 5).xinj (grid0.coords t) y) = G0_5 V c (((cfg0.win 5).blk t).view.emb y)
  have hx : (cfg0.win 5).xinj (grid0.coords t) y = ix2 (y 0) (y 1) := by
    funext a
    match a with
    | ⟨0, _⟩ => rfl
    | ⟨1, _⟩ => rfl
  rw [hx]
  have hz0 : ((((cfg0.win 5).blk t).view.emb y) 0).val = t.val / 4 * 256 + (y 0).val := by
    show win0_5.index t 0 * 256 + 1 * (y 0).val = _
    rw [(idx0_5 t).1]; omega
  have hz1 : ((((cfg0.win 5).blk t).view.emb y) 1).val = (y 1).val := by
    show win0_5.index t 1 * 32 + 1 * (y 1).val = _
    rw [(idx0_5 t).2]; omega
  refine ((acc0_eq V c t.val t.isLt (y 0) ((((cfg0.win 5).blk t).view.emb y) 0) hz0).2 (y 1)).trans ?_
  rw [h3]
  refine (sum_termR0 V c _ _).trans ?_
  unfold G0_5
  have e1 : (y 1) = (((cfg0.win 5).blk t).view.emb y) 1 := Fin.ext hz1.symm
  rw [e1]

/-- Row `n` of the output lies in the output block of point `4 (n / 256) + 3`. -/
theorem cover0_4 (c : Dev nD) (i : ((cfg0.win 4).arr.view.loc ((c : Dev nD).tc : Thread nD τ)).2.ty.Idx) :
    ∃ t : Fin cfg0.N, (cfg0.win 4).flush t = true ∧ i ∈ ((cfg0.win 4).blk t).view.set := by
  have hN : cfg0.N = 32 := N_0
  have hi0 : (i 0).val < 2048 := (i 0).isLt
  have hi1 : (i 1).val < 64 := (i 1).isLt
  have ht : (i 0).val / 256 * 4 + 3 < cfg0.N := by omega
  refine ⟨⟨(i 0).val / 256 * 4 + 3, ht⟩, (flush0_4 _).mpr (by dsimp only; omega), ?_⟩
  show i ∈ ((View.whole main_v5_0).slice (win0_4.rect ⟨(i 0).val / 256 * 4 + 3, ht⟩)).set
  rw [View.set_slice_whole, Rect.mem_set_unit]
  intro a
  match a with
  | ⟨0, _⟩ =>
    show win0_4.index ⟨(i 0).val / 256 * 4 + 3, ht⟩ 0 * 256 ≤ (i 0 : ℕ) ∧ (i 0 : ℕ) < win0_4.index ⟨(i 0).val / 256 * 4 + 3, ht⟩ 0 * 256 + 256
    rw [(idx0_4 _).1]; dsimp only; omega
  | ⟨1, _⟩ =>
    show win0_4.index ⟨(i 0).val / 256 * 4 + 3, ht⟩ 1 * 64 ≤ (i 1 : ℕ) ∧ (i 1 : ℕ) < win0_4.index ⟨(i 0).val / 256 * 4 + 3, ht⟩ 1 * 64 + 64
    rw [(idx0_4 _).2]; dsimp only; omega

theorem cover0_5 (c : Dev nD) (i : ((cfg0.win 5).arr.view.loc ((c : Dev nD).tc : Thread nD τ)).2.ty.Idx) :
    ∃ t : Fin cfg0.N, (cfg0.win 5).flush t = true ∧ i ∈ ((cfg0.win 5).blk t).view.set := by
  have hN : cfg0.N = 32 := N_0
  have hi0 : (i 0).val < 2048 := (i 0).isLt
  have hi1 : (i 1).val < 32 := (i 1).isLt
  have ht : (i 0).val / 256 * 4 + 3 < cfg0.N := by omega
  refine ⟨⟨(i 0).val / 256 * 4 + 3, ht⟩, (flush0_5 _).mpr (by dsimp only; omega), ?_⟩
  show i ∈ ((View.whole main_v5_1).slice (win0_5.rect ⟨(i 0).val / 256 * 4 + 3, ht⟩)).set
  rw [View.set_slice_whole, Rect.mem_set_unit]
  intro a
  match a with
  | ⟨0, _⟩ =>
    show win0_5.index ⟨(i 0).val / 256 * 4 + 3, ht⟩ 0 * 256 ≤ (i 0 : ℕ) ∧ (i 0 : ℕ) < win0_5.index ⟨(i 0).val / 256 * 4 + 3, ht⟩ 0 * 256 + 256
    rw [(idx0_5 _).1]; dsimp only; omega
  | ⟨1, _⟩ =>
    show win0_5.index ⟨(i 0).val / 256 * 4 + 3, ht⟩ 1 * 32 ≤ (i 1 : ℕ) ∧ (i 1 : ℕ) < win0_5.index ⟨(i 0).val / 256 * 4 + 3, ht⟩ 1 * 32 + 32
    rw [(idx0_5 _).2]; dsimp only; omega

theorem arrAt0_4 (c : Dev nD) : (dat0 V c).arrAt 4 cfg0.N = G0_4 V c :=
  (dat0 V c).arrAt_eq_of_cover 4 (G0_4 V c) (flushed0_4_eq V c) (cover0_4 c)
theorem arrAt0_5 (c : Dev nD) : (dat0 V c).arrAt 5 cfg0.N = G0_5 V c :=
  (dat0 V c).arrAt_eq_of_cover 5 (G0_5 V c) (flushed0_5_eq V c) (cover0_5 c)

theorem value0_4 (c : Dev nD) (n : Fin 2048) (j : Fin 64) :
    (dat0 (F := Ideal) V c).arrAt 4 cfg0.N (ix2 n j)
      = ∑ k : Fin 8192, Cert.Spec.oneHot ((V c main_v0 : S2048x1.Idx → BitVec 32) (ix2 n 0)) k.val * ((V c main_v4 : S8192x64.Idx → EReal) (ix2 k j)) := by
  rw [arrAt0_4]
  rfl

theorem value0_5 (c : Dev nD) (n : Fin 2048) (j : Fin 32) :
    (dat0 (F := Ideal) V c).arrAt 5 cfg0.N (ix2 n j)
      = ∑ k : Fin 8192, Cert.Spec.oneHot ((V c main_v1 : S2048x1.Idx → BitVec 32) (ix2 n 0)) k.val * ((V c main_arg4 : S8192x32.Idx → EReal) (ix2 k j)) := by
  rw [arrAt0_5]
  rfl

end Value

end Cert.KernelIdeal.Hand

end
-- ==== Proof.R1Value.lean ====
import proofs.«418439_j46445776339038_1_alg».proof.Proof.R1Frame
import proofs.«418439_j46445776339038_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen
open Idealize.ShloMosaic.ValueIdx

abbrev r1_D : DotDims S256x1024 S1024x1024 S256x1024 := dot_S256x1024_S1024x1024_S256x1024_1_0_0_1_n_n

-- The comparison word, widened and converted, is 1 where the words agree and 0 elsewhere.
theorem r1_sitofp_eq_oneHot (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · subst h; rw [if_pos rfl]; unfold IntOp.cmpi; simp
  · have hb : (a == b) = false := by simpa using h
    rw [if_neg h]; unfold IntOp.cmpi; simp [hb]

theorem r1_col_word (i2 j : ℕ) : IntOp.addi (Scalar.muli (BitVec.ofNat 32 i2) 1024#32) (BitVec.ofNat 32 j) = BitVec.ofNat 32 (1024 * i2 + j) := by
  unfold IntOp.addi Scalar.muli IntOp.muli
  rw [show (1024#32 : BitVec 32) = BitVec.ofNat 32 1024 from rfl, ← BitVec.ofNat_mul, ← BitVec.ofNat_add, Nat.mul_comm]

-- The accumulation step entrywise: the old entry plus the one-hot weights of the block's 1024 columns against the table block.
theorem r1_pay2_apply (i : grid1.Coords) (x0 : Vec Ideal S256x1 .i32) (acc : Vec Ideal S256x1024 .f32) (x1 : Vec Ideal S1024x1024 .f32) (r : Fin 256) (q : Fin 1024) :
    k1_pay2 (F := Ideal) i x0 acc x1 (ix2 r q) = (acc (ix2 r q) : EReal) + ∑ j : Fin 1024, Cert.Spec.oneHot (x0 (ix2 r 0)) (1024 * (i 2).val + j.val) * (x1 (ix2 j q) : EReal) := by
  unfold k1_pay2
  dsimp only
  rw [shapeCast_self]
  refine (congrArg (fun z : EReal => (acc (ix2 r q) : EReal) + z) (Ideal.matmul_constant_zero_apply r1_D none _ _ (ix2 r q))).trans ?_
  congr 1
  rw [← Equiv.sum_comp (contrEquiv1 r1_D 1024 rfl rfl).symm]
  refine Finset.sum_congr rfl fun j _ => ?_
  have c2 := contrEquiv1_symm_val r1_D 1024 rfl rfl j
  have l2 : r1_D.lhsIdx (ix2 r q) ((contrEquiv1 r1_D 1024 rfl rfl).symm j) = ix2 r j := by
    funext ax; apply Fin.ext
    match ax with
    | ⟨0, _⟩ => simp [DotDims.lhsIdx, r1_D, dot_S256x1024_S1024x1024_S256x1024_1_0_0_1_n_n]; rfl
    | ⟨1, _⟩ => simp [DotDims.lhsIdx, r1_D, dot_S256x1024_S1024x1024_S256x1024_1_0_0_1_n_n]; exact c2
  have r2 : r1_D.rhsIdx (ix2 r q) ((contrEquiv1 r1_D 1024 rfl rfl).symm j) = ix2 j q := by
    funext ax; apply Fin.ext
    match ax with
    | ⟨0, _⟩ => simp [DotDims.rhsIdx, r1_D, dot_S256x1024_S1024x1024_S256x1024_1_0_0_1_n_n]; exact c2
    | ⟨1, _⟩ => simp [DotDims.rhsIdx, r1_D, dot_S256x1024_S1024x1024_S256x1024_1_0_0_1_n_n]; rfl
  rw [l2, r2]
  have hA : broadcastTo S256x1024 (shapeCast S256x1 x0 shapeCasts_S256x1_S256x1) broadcasts_S256x1_S256x1024 (ix2 r j) = x0 (ix2 r 0) := by
    rw [shapeCast_self]
    exact broadcastTo_apply x0 broadcasts_S256x1_S256x1024 (ix2 r j) (ix2 r 0) (fun a => by
      match a with
      | ⟨0, _⟩ => rfl
      | ⟨1, _⟩ => rfl)
  have hB : iota Kind.tc S256x1024 32 [1] iota_S256x1024_d1_w32 (ix2 r j) = BitVec.ofNat 32 j.val :=
    iota_single_apply Kind.tc S256x1024 32 1 iota_S256x1024_d1_w32 (ix2 r j)
  show (FloatOps.sitofp (F := Ideal) .f32 ((IntOp.cmpi .eq (broadcastTo S256x1024 (shapeCast S256x1 x0 shapeCasts_S256x1_S256x1) broadcasts_S256x1_S256x1024 (ix2 r j)) (IntOp.addi (Scalar.muli (BitVec.ofNat 32 (i 2).val) 1024#32) (iota Kind.tc S256x1024 32 [1] iota_S256x1024_d1_w32 (ix2 r j)))).setWidth 32) : EReal) * (x1 (ix2 j q) : EReal) = _
  rw [hA, hB, r1_col_word, r1_sitofp_eq_oneHot]
  rfl

theorem idx1_0 : ∀ t : Fin cfg1.N, win1_0.index t 0 = t.val / 64 ∧ win1_0.index t 1 = 0 :=
  (by decide +kernel : ∀ t : Fin grid1.N, win1_0.index t 0 = t.val / 64 ∧ win1_0.index t 1 = 0)
theorem idx1_1 : ∀ t : Fin cfg1.N, win1_1.index t 0 = t.val % 8 ∧ win1_1.index t 1 = t.val / 8 % 8 :=
  (by decide +kernel : ∀ t : Fin grid1.N, win1_1.index t 0 = t.val % 8 ∧ win1_1.index t 1 = t.val / 8 % 8)
theorem idx1_2 : ∀ t : Fin cfg1.N, win1_2.index t 0 = t.val / 64 ∧ win1_2.index t 1 = t.val / 8 % 8 :=
  (by decide +kernel : ∀ t : Fin grid1.N, win1_2.index t 0 = t.val / 64 ∧ win1_2.index t 1 = t.val / 8 % 8)
theorem coord1_2 : ∀ t : Fin cfg1.N, ((grid1.coords t) 2).val = t.val % 8 :=
  (by decide +kernel : ∀ t : Fin grid1.N, ((grid1.coords t) 2).val = t.val % 8)

variable (V : (c : Dev nD) → (b : Ref sig .tc) → Buf (Elt Ideal) ((c : Thread nD τ).loc b))

-- The index block at point `t` is rows `256 (t / 64) + r` of the index column.
theorem iblk1_0_apply (c : Dev nD) (t : Fin cfg1.N) (y : S256x1.Idx) (z : S2048x1.Idx)
    (h0 : (z 0).val = 256 * (t.val / 64) + (y 0).val) (h1 : (z 1).val = (y 1).val) :
    iblk1 V c 0 t y = V c main_v0 z := by
  unfold iblk1
  rw [View.read_apply]
  show V c main_v0 _ = V c main_v0 z
  congr 1
  funext a
  apply Fin.ext
  match a with
  | ⟨0, _⟩ => show win1_0.index t 0 * 256 + 1 * (y 0).val = (z 0).val; rw [(idx1_0 t).1, h0]; omega
  | ⟨1, _⟩ => show win1_0.index t 1 * 1 + 1 * (y 1).val = (z 1).val; rw [(idx1_0 t).2, h1]; omega

-- The table block at point `t` is rows `1024 (t % 8) + j`, columns `1024 (t / 8 % 8) + q` of the table.
theorem iblk1_1_apply (c : Dev nD) (t : Fin cfg1.N) (y : S1024x1024.Idx) (z : S8192x8192.Idx)
    (h0 : (z 0).val = 1024 * (t.val % 8) + (y 0).val) (h1 : (z 1).val = 1024 * (t.val / 8 % 8) + (y 1).val) :
    iblk1 V c 1 t y = V c main_arg6 z := by
  unfold iblk1
  rw [View.read_apply]
  show V c main_arg6 _ = V c main_arg6 z
  congr 1
  funext a
  apply Fin.ext
  match a with
  | ⟨0, _⟩ => show win1_1.index t 0 * 1024 + 1 * (y 0).val = (z 0).val; rw [(idx1_1 t).1, h0]; omega
  | ⟨1, _⟩ => show win1_1.index t 1 * 1024 + 1 * (y 1).val = (z 1).val; rw [(idx1_1 t).2, h1]; omega

abbrev r1_idA (c : Dev nD) : S2048x1.Idx → BitVec 32 := V c main_v0
abbrev r1_ldA (c : Dev nD) : S8192x8192.Idx → EReal := V c main_arg6

-- Column `k`'s term of output entry (n, q): the one-hot weight of `k` for row `n`'s index word times the table's entry (k, q).
def term1 (c : Dev nD) (n : Fin 2048) (q : Fin 8192) (k : ℕ) : EReal :=
  if h : k < 8192 then Cert.Spec.oneHot (r1_idA V c (ix2 n 0)) k * r1_ldA V c (ix2 ⟨k, h⟩ q) else 0

theorem r1_pay1_apply (y : S256x1024.Idx) : (k1_pay1 (F := Ideal) y : EReal) = 0 := by
  unfold k1_pay1
  (try dsimp only)
  rw [shapeCast_self]
  exact Ideal.ofBits_zero_f32

-- One point's product is the terms of the 1024 columns of its contraction block.
theorem r1_blockSum (c : Dev nD) (t : Fin cfg1.N) (r : Fin 256) (q' : Fin 1024) (n : Fin 2048) (q : Fin 8192)
    (hn : n.val = 256 * (t.val / 64) + r.val) (hq : q.val = 1024 * (t.val / 8 % 8) + q'.val) :
    ∑ j : Fin 1024, Cert.Spec.oneHot ((iblk1 V c 0 t : S256x1.Idx → BitVec 32) (ix2 r 0)) (1024 * ((grid1.coords t) 2).val + j.val) * ((iblk1 V c 1 t : S1024x1024.Idx → EReal) (ix2 j q'))
      = ∑ j ∈ Finset.range 1024, term1 V c n q (1024 * (t.val % 8) + j) := by
  rw [Finset.sum_range]
  refine Finset.sum_congr rfl fun j _ => ?_
  have hk : 1024 * (t.val % 8) + j.val < 8192 := by have := j.isLt; omega
  unfold term1
  rw [dif_pos hk, coord1_2 t]
  rw [iblk1_0_apply V c t (ix2 r 0) (ix2 n 0) hn rfl, iblk1_1_apply V c t (ix2 j q') (ix2 ⟨_, hk⟩ q) rfl hq]

-- After point `m` the accumulator's entry (r, q') sums the terms of the columns below `1024 (m % 8 + 1)` for the output entry that the point's blocks place (r, q') at.
theorem r1_acc_eq (c : Dev nD) (m : ℕ) : ∀ (hm : m < cfg1.N) (r : Fin 256) (q' : Fin 1024) (n : Fin 2048) (q : Fin 8192),
    n.val = 256 * (m / 64) + r.val → q.val = 1024 * (m / 8 % 8) + q'.val →
    (acc1 V c m hm (ix2 r q') : EReal) = ∑ k ∈ Finset.range (1024 * (m % 8 + 1)), term1 V c n q k := by
  induction m using Nat.strong_induction_on with
  | _ m ih =>
    intro hm r q' n q hn hq
    have hN : cfg1.N = 512 := N_1
    rw [show 1024 * (m % 8 + 1) = 1024 * (m % 8) + 1024 by ring, Finset.sum_range_add, ← r1_blockSum V c ⟨m, hm⟩ r q' n q hn hq, acc1_eq V c ⟨m, hm⟩ _ (fun _ => rfl)]
    refine (r1_pay2_apply _ _ _ _ r q').trans ?_
    congr 1
    by_cases h0 : m % 8 = 0
    · rw [if_pos ((hcond1_0 ⟨m, hm⟩).mpr h0), r1_pay1_apply, h0]
      rfl
    · have e : (m - 1) % 8 + 1 = m % 8 := by omega
      rw [if_neg (fun a => h0 ((hcond1_0 ⟨m, hm⟩).mp a)), ← e]
      exact ih (m - 1) (by omega) (by omega) r q' n q (by omega) (by omega)

-- Entry (n, q) of the gathered rows.
def G1 (c : Dev nD) : S2048x8192.Idx → EReal :=
  fun z => ∑ k : Fin 8192, Cert.Spec.oneHot (r1_idA V c (ix2 (z 0) 0)) k.val * r1_ldA V c (ix2 k (z 1))

theorem r1_sum_term (c : Dev nD) (n : Fin 2048) (q : Fin 8192) :
    ∑ k ∈ Finset.range 8192, term1 V c n q k = ∑ k : Fin 8192, Cert.Spec.oneHot (r1_idA V c (ix2 n 0)) k.val * r1_ldA V c (ix2 k q) := by
  rw [Finset.sum_range]
  refine Finset.sum_congr rfl fun k _ => ?_
  unfold term1
  rw [dif_pos k.isLt]

-- At a last contraction block the accumulator holds all 8192 columns' terms: the block written to the output array there is that block of the gathered rows.
theorem flushed1_eq (c : Dev nD) (t : Fin cfg1.N) (hf : (cfg1.win 2).flush t = true) :
    (dat1 V c).flushed 2 t = ((cfg1.win 2).blk t).view.read (Elt Ideal) (G1 V c) := by
  have hN : cfg1.N = 512 := N_1
  have h7 : t.val % 8 = 7 := (flush1_2 t).mp hf
  funext y
  show ((dat1 V c).after 2 t) ((cfg1.win 2).xinj (grid1.coords t) y) = G1 V c (((cfg1.win 2).blk t).view.emb y)
  rw [after1_2]
  have hx : (cfg1.win 2).xinj (grid1.coords t) y = ix2 (y 0) (y 1) := by
    funext a
    match a with
    | ⟨0, _⟩ => rfl
    | ⟨1, _⟩ => rfl
  rw [hx]
  have hz0 : ((((cfg1.win 2).blk t).view.emb y) 0).val = 256 * (t.val / 64) + (y 0).val := by
    show win1_2.index t 0 * 256 + 1 * (y 0).val = _
    rw [(idx1_2 t).1]; omega
  have hz1 : ((((cfg1.win 2).blk t).view.emb y) 1).val = 1024 * (t.val / 8 % 8) + (y 1).val := by
    show win1_2.index t 1 * 1024 + 1 * (y 1).val = _
    rw [(idx1_2 t).2]; omega
  refine (r1_acc_eq V c t.val t.isLt (y 0) (y 1) ((((cfg1.win 2).blk t).view.emb y) 0) ((((cfg1.win 2).blk t).view.emb y) 1) hz0 hz1).trans ?_
  rw [h7]
  exact r1_sum_term V c _ _

-- The blocks written at the last contraction blocks cover the output array.
theorem cover1 (c : Dev nD) (i : ((cfg1.win 2).arr.view.loc ((c : Dev nD).tc : Thread nD τ)).2.ty.Idx) :
    ∃ t : Fin cfg1.N, (cfg1.win 2).flush t = true ∧ i ∈ ((cfg1.win 2).blk t).view.set := by
  have hN : cfg1.N = 512 := N_1
  have hi0 : (i 0).val < 2048 := (i 0).isLt
  have hi1 : (i 1).val < 8192 := (i 1).isLt
  have ht : 64 * ((i 0).val / 256) + 8 * ((i 1).val / 1024) + 7 < cfg1.N := by omega
  refine ⟨⟨_, ht⟩, (flush1_2 _).mpr (by dsimp only; omega), ?_⟩
  show i ∈ ((View.whole main_v6).slice (win1_2.rect ⟨_, ht⟩)).set
  rw [View.set_slice_whole, Rect.mem_set_unit]
  intro a
  match a with
  | ⟨0, _⟩ =>
    show win1_2.index ⟨_, ht⟩ 0 * 256 ≤ (i 0 : ℕ) ∧ (i 0 : ℕ) < win1_2.index ⟨_, ht⟩ 0 * 256 + 256
    rw [(idx1_2 _).1]; dsimp only; omega
  | ⟨1, _⟩ =>
    show win1_2.index ⟨_, ht⟩ 1 * 1024 ≤ (i 1 : ℕ) ∧ (i 1 : ℕ) < win1_2.index ⟨_, ht⟩ 1 * 1024 + 1024
    rw [(idx1_2 _).2]; dsimp only; omega

theorem arrAt1_2 (c : Dev nD) : (dat1 V c).arrAt 2 cfg1.N = G1 V c :=
  (dat1 V c).arrAt_eq_of_cover 2 (G1 V c) (flushed1_eq V c) (cover1 c)

-- Entry (n, q) of the output array sums, over the table's rows `k`, the one-hot weight of `k` for row `n`'s index word times the table's entry (k, q).
theorem value1 (c : Dev nD) (n : Fin 2048) (q : Fin 8192) :
    (dat1 (F := Ideal) V c).arrAt 2 cfg1.N (ix2 n q)
      = ∑ k : Fin 8192, Cert.Spec.oneHot ((V c main_v0 : S2048x1.Idx → BitVec 32) (ix2 n 0)) k.val * ((V c main_arg6 : S8192x8192.Idx → EReal) (ix2 k q)) := by
  rw [arrAt1_2]
  rfl

end Cert.KernelIdeal.Hand

end
-- ==== Proof.R2Value.lean ====
import proofs.«418439_j46445776339038_1_alg».proof.Proof.R2Frame
import proofs.«418439_j46445776339038_1_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- An equality comparison of two word vectors, widened, converted and narrowed, is at each index the indicator of the equality. -/
theorem r2_ind_apply {s : Shape} (A B : IVec s 32) (y : s.Idx) :
    (truncf .bf16 (sitofp (F := Ideal) .f32 (extui 32 (cmpi .eq A B) natLt_1_32)) bitsLt_bf16_f32 : FVec Ideal s .bf16) y = if A y = B y then (1 : EReal) else 0 := by
  show (((BitVec.setWidth 32 (BitVec.ofBool (A y == B y))).toInt : ℝ) : EReal) = _
  by_cases h : A y = B y
  · rw [if_pos h, beq_iff_eq.mpr h]; show (((1 : ℤ) : ℝ) : EReal) = 1; simp
  · rw [if_neg h, beq_eq_false_iff_ne.mpr h]; show (((0 : ℤ) : ℝ) : EReal) = 0; simp

section
variable (i : S256x2048.Idx) (q : dot_S256x512_S2048x512_S256x2048_1_1_0_0_n_n.contr.Idx)

theorem lhs_dot2_0 : (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem rhs_dot2_0 : (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
end

/-- The step at the ideal values: the accumulator's entry plus the block's row times the one-hot column. -/
theorem r2_pay2_apply (i : grid2.Coords) (x1 : IVec S2048x1 32) (x0 : FVec Ideal S256x512 .f32) (acc : FVec Ideal S256x2048 .f32) (r : Fin 256) (j : Fin 2048) :
    k2_pay2 (F := Ideal) i x1 x0 acc (ix2 r j)
      = acc (ix2 r j) + ∑ l : Fin 512, x0 (ix2 r l) * Cert.Spec.oneHot (x1 (ix2 j 0)) ((i 1).val * 512 + l.val) := by
  unfold k2_pay2
  simp only [shapeCast_self, addf_apply, matmul]
  rw [Ideal.matmul_constant_zero_apply, ← Equiv.sum_comp (contrEquiv1 dot_S256x512_S2048x512_S256x2048_1_1_0_0_n_n 512 rfl rfl).symm]
  refine congrArg (acc (ix2 r j) + ·) (Finset.sum_congr rfl fun l _ => ?_)
  have hk := contrEquiv1_symm_val dot_S256x512_S2048x512_S256x2048_1_1_0_0_n_n 512 rfl rfl l
  rw [show dot_S256x512_S2048x512_S256x2048_1_1_0_0_n_n.lhsIdx (ix2 r j) ((contrEquiv1 dot_S256x512_S2048x512_S256x2048_1_1_0_0_n_n 512 rfl rfl).symm l) = ix2 r l from funext fun a => Fin.ext (by
      match a with
      | ⟨0, _⟩ => exact lhs_dot2_0 _ _
      | ⟨1, _⟩ => exact (dot_S256x512_S2048x512_S256x2048_1_1_0_0_n_n.lhsIdx_val_of_single rfl _ _).trans hk),
    show dot_S256x512_S2048x512_S256x2048_1_1_0_0_n_n.rhsIdx (ix2 r j) ((contrEquiv1 dot_S256x512_S2048x512_S256x2048_1_1_0_0_n_n 512 rfl rfl).symm l) = ix2 j l from funext fun a => Fin.ext (by
      match a with
      | ⟨0, _⟩ => exact rhs_dot2_0 _ _
      | ⟨1, _⟩ => exact (dot_S256x512_S2048x512_S256x2048_1_1_0_0_n_n.rhsIdx_val_of_single rfl _ _).trans hk),
    r2_ind_apply, truncf_apply, broadcastTo_apply x1 broadcasts_S2048x1_S2048x512 (ix2 j l) (ix2 j 0) (fun a => by
      match a with
      | ⟨0, _⟩ => rfl
      | ⟨1, _⟩ => rfl)]
  show x0 (ix2 r l) * (if x1 (ix2 j 0) = BitVec.ofNat 32 (i 1).val * 512#32 + iota .tc S2048x512 32 [1] iota_S2048x512_d1_w32 (ix2 j l) then (1 : EReal) else 0) = _
  unfold Cert.Spec.oneHot; rw [iota_single_apply, BitVec.ofNat_add, BitVec.ofNat_mul]

/-- A sum over `T · B` columns is the sum over `T` tiles of the sums over each tile's `B` columns. -/
theorem r2_sum_tiles (f : ℕ → EReal) (T B : ℕ) :
    ∑ k : Fin (T * B), f k.val = ∑ s ∈ Finset.range T, ∑ l : Fin B, f (s * B + l.val) := by
  rw [Finset.sum_range, ← Equiv.sum_comp finProdFinEquiv, Fintype.sum_prod_type]
  refine Finset.sum_congr rfl fun s _ => Finset.sum_congr rfl fun l _ => ?_
  congr 1
  show l.val + B * s.val = s.val * B + l.val
  rw [Nat.mul_comm, Nat.add_comm]

variable (V : (c : Dev nD) → (b : Ref sig .tc) → Buf (Elt Ideal) ((c : Thread nD τ).loc b))

abbrev rgArr2 (c : Dev nD) : S2048x8192.Idx → EReal := V c main_v6
abbrev idArr2 (c : Dev nD) : S2048x1.Idx → BitVec 32 := V c main_v0
abbrev rgBlk2 (c : Dev nD) (t : Fin cfg2.N) : FVec Ideal S256x512 .f32 := iblk2 V c 0 t
abbrev idBlk2 (c : Dev nD) (t : Fin cfg2.N) : IVec S2048x1 32 := iblk2 V c 1 t
abbrev accE2 (c : Dev nD) (n : ℕ) (hn : n < cfg2.N) : FVec Ideal S256x2048 .f32 := acc2 V c n hn

/-- The contraction's term at column `b` for gathered row `a` and output column `j` (zero outside the array: never read there). -/
def trm2 (c : Dev nD) (a : ℕ) (j : Fin 2048) (b : ℕ) : EReal :=
  if h : a < 2048 ∧ b < 8192 then rgArr2 V c (ix2 ⟨a, h.1⟩ ⟨b, h.2⟩) * Cert.Spec.oneHot (idArr2 V c (ix2 j 0)) b else 0

/-- The index maps in closed form: the row block is the point's quotient by 16, the contraction block its remainder. -/
theorem idx_facts2 : ∀ t : Fin cfg2.N,
    win2_0.index t (0 : Fin 2) = t.val / 16 ∧ win2_0.index t (1 : Fin 2) = t.val % 16
    ∧ win2_1.index t (0 : Fin 2) = 0 ∧ win2_1.index t (1 : Fin 2) = 0
    ∧ win2_2.index t (0 : Fin 2) = t.val / 16 ∧ win2_2.index t (1 : Fin 2) = 0
    ∧ (grid2.coords t 1).val = t.val % 16 :=
  (by decide +kernel : ∀ t : Fin grid2.N, _)

/-- One point's step: zero at a first contraction block, else the accumulator's entry, plus the sum over the block's 512 columns of the gathered row's entry times the one-hot weight of that column for row `j`'s index word. -/
theorem r2_step_eq (c : Dev nD) (t : Fin cfg2.N) (acc : FVec Ideal S256x2048 .f32) (r : Fin 256) (j : Fin 2048) :
    nxt2 (F := Ideal) (grid2.coords t) (idBlk2 V c t) (rgBlk2 V c t) acc (ix2 r j)
      = (if t.val % 16 = 0 then 0 else acc (ix2 r j)) + ∑ l : Fin 512, trm2 V c (256 * (t.val / 16) + r.val) j (t.val % 16 * 512 + l.val) := by
  have hN : t.val < 128 := lt_of_lt_of_eq t.isLt (show cfg2.N = 128 from N_2)
  have hr := r.isLt
  obtain ⟨e0, e1, e2, e3, -, -, e6⟩ := idx_facts2 t
  unfold nxt2
  rw [r2_pay2_apply]
  congr 1
  · by_cases h : t.val % 16 = 0
    · rw [if_pos h, if_pos ((hcond2_0 t).mpr h)]; exact Ideal.ofBits_zero_f32
    · rw [if_neg h, if_neg (mt (hcond2_0 t).mp h)]
  · refine Finset.sum_congr rfl fun l _ => ?_
    have hl := l.isLt
    have h0 : rgBlk2 V c t (ix2 r l) = rgArr2 V c (ix2 ⟨256 * (t.val / 16) + r.val, by omega⟩ ⟨t.val % 16 * 512 + l.val, by omega⟩) := by
      show V c main_v6 (((cfg2.win 0).blk t).view.emb (ix2 r l)) = V c main_v6 _
      congr 1
      funext a; apply Fin.ext
      match a with
      | ⟨0, _⟩ => show win2_0.index t (0 : Fin 2) * 256 + 1 * r.val = 256 * (t.val / 16) + r.val; rw [e0]; omega
      | ⟨1, _⟩ => show win2_0.index t (1 : Fin 2) * 512 + 1 * l.val = t.val % 16 * 512 + l.val; rw [e1]; omega
    have h1 : idBlk2 V c t (ix2 j 0) = idArr2 V c (ix2 j 0) := by
      show V c main_v0 (((cfg2.win 1).blk t).view.emb (ix2 j 0)) = V c main_v0 _
      congr 1
      funext a; apply Fin.ext
      match a with
      | ⟨0, _⟩ => show win2_1.index t (0 : Fin 2) * 2048 + 1 * j.val = j.val; rw [e2]; omega
      | ⟨1, _⟩ => show win2_1.index t (1 : Fin 2) * 1 + 1 * 0 = 0; rw [e3]
    unfold trm2
    rw [dif_pos ⟨by omega, by omega⟩, e6, h0, h1]

/-- The accumulator in closed form: after point `n`, in row block `n / 16`, the partial sums over the contraction blocks `0 … n % 16`. -/
theorem acc2_eq (c : Dev nD) : ∀ (n : ℕ) (hn : n < cfg2.N) (r : Fin 256) (j : Fin 2048),
    accE2 V c n hn (ix2 r j)
      = ∑ s ∈ Finset.range (n % 16 + 1), ∑ l : Fin 512, trm2 V c (256 * (n / 16) + r.val) j (s * 512 + l.val)
  | 0, hn, r, j => (r2_step_eq V c ⟨0, hn⟩ k2_pay1 r j).trans (by
    rw [if_pos (Nat.zero_mod 16), zero_add]
    show _ = ∑ s ∈ Finset.range 1, _
    rw [Finset.sum_range_one]
    rfl)
  | n + 1, hn, r, j => (r2_step_eq V c ⟨n + 1, hn⟩ (accE2 V c n (Nat.lt_of_succ_lt hn)) r j).trans (by
    by_cases h0 : (n + 1) % 16 = 0
    · rw [if_pos h0, zero_add, h0, Finset.sum_range_one]
    · rw [if_neg h0, acc2_eq c n (Nat.lt_of_succ_lt hn) r j, show (n + 1) % 16 = n % 16 + 1 by omega, show (n + 1) / 16 = n / 16 by omega,
        Finset.sum_range_succ _ (n % 16 + 1)])

/-- What the region computes: entry `(i, j)` is the sum over all columns `k` of the gathered row `i` at `k` times the one-hot weight of `k` for row `j`'s index word. -/
def colsG2 (c : Dev nD) : S2048x2048.Idx → EReal :=
  fun y => ∑ k : Fin 8192, rgArr2 V c (ix2 (y 0) k) * Cert.Spec.oneHot (idArr2 V c (ix2 (y 1) 0)) k.val

/-- At a last contraction block the accumulator is its row block of `colsG2`: the 16 partial sums regrouped into one. -/
theorem flushed2_eq (c : Dev nD) (t : Fin cfg2.N) (hf : (cfg2.win 2).flush t = true) :
    (dat2 V c).flushed 2 t = ((cfg2.win 2).blk t).view.read (Elt Ideal) (colsG2 V c) := by
  have h15 : t.val % 16 = 15 := (flush2_2 t).mp hf
  have hN : t.val < 128 := lt_of_lt_of_eq t.isLt (show cfg2.N = 128 from N_2)
  obtain ⟨-, -, -, -, e4, e5, -⟩ := idx_facts2 t
  funext y
  obtain ⟨r, j, rfl⟩ : ∃ (r : Fin 256) (j : Fin 2048), y = ix2 r j := ⟨_, _, eq_ix2 y⟩
  have hr := r.isLt
  show accE2 V c t.val t.isLt (ix2 r j) = colsG2 V c (((cfg2.win 2).blk t).view.emb (ix2 r j))
  rw [acc2_eq V c t.val t.isLt r j, h15, show ((cfg2.win 2).blk t).view.emb (ix2 r j) = ix2 (⟨256 * (t.val / 16) + r.val, by omega⟩ : Fin 2048) j from by
    funext a; apply Fin.ext
    match a with
    | ⟨0, _⟩ => show win2_2.index t (0 : Fin 2) * 256 + 1 * r.val = 256 * (t.val / 16) + r.val; rw [e4]; omega
    | ⟨1, _⟩ => show win2_2.index t (1 : Fin 2) * 2048 + 1 * j.val = j.val; rw [e5]; omega]
  refine (r2_sum_tiles (trm2 V c (256 * (t.val / 16) + r.val) j) 16 512).symm.trans (Finset.sum_congr rfl fun k _ => ?_)
  unfold trm2
  rw [dif_pos ⟨by omega, k.isLt⟩]

/-- Every entry is in the block of the last contraction point of its row block. -/
theorem cover2 (i : S2048x2048.Idx) :
    ∃ t : Fin cfg2.N, (cfg2.win 2).flush t = true ∧ i ∈ ((cfg2.win 2).blk t).view.set := by
  have hi0 : (i 0).val < 2048 := (i 0).isLt
  have hi1 : (i 1).val < 2048 := (i 1).isLt
  have hN : cfg2.N = 128 := N_2
  let t : Fin cfg2.N := ⟨16 * ((i 0).val / 256) + 15, by omega⟩
  have htv : t.val = 16 * ((i 0).val / 256) + 15 := rfl
  obtain ⟨-, -, -, -, e4, e5, -⟩ := idx_facts2 t
  refine ⟨t, (flush2_2 t).mpr (by omega), ?_⟩
  show i ∈ ((View.whole main_v7).slice (win2_2.rect t)).set
  rw [View.set_slice_whole, Rect.mem_set_unit]
  intro a
  match a with
  | ⟨0, _⟩ => show win2_2.index t (0 : Fin 2) * 256 ≤ (i 0).val ∧ (i 0).val < win2_2.index t (0 : Fin 2) * 256 + 256; rw [e4, htv]; omega
  | ⟨1, _⟩ => show win2_2.index t (1 : Fin 2) * 2048 ≤ (i 1).val ∧ (i 1).val < win2_2.index t (1 : Fin 2) * 2048 + 2048; rw [e5]; omega

abbrev outArr2 (c : Dev nD) : S2048x2048.Idx → EReal := (dat2 (F := Ideal) V c).arrAt 2 cfg2.N

/-- The region's value: its output array ends holding `colsG2`, every entry lying in some last contraction point's block. -/
theorem value2 (c : Dev nD) (i j : Fin 2048) :
    outArr2 V c (ix2 i j)
      = ∑ k : Fin 8192, rgArr2 V c (ix2 i k) * Cert.Spec.oneHot (idArr2 V c (ix2 j 0)) k.val :=
  congrFun ((dat2 V c).arrAt_eq_of_cover 2 (colsG2 V c) (flushed2_eq V c) cover2) (ix2 i j)

end Cert.KernelIdeal.Hand

end
-- ==== Proof.R3WholeA.lean ====
import proofs.«418439_j46445776339038_1_alg».proof.Proof.R3Fold

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))
abbrev accV (c : Dev nD) : Vec Ideal S2048x2048 .f32 := V c main_v7
abbrev embV (c : Dev nD) : Vec Ideal S2048x64 .f32 := V c main_v5_0
abbrev embTV (c : Dev nD) : Vec Ideal S64x2048 .f32 := V c main_v8
abbrev omV (c : Dev nD) : Vec Ideal S2048x128 .f32 := V c main_arg2
abbrev innV (c : Dev nD) : Vec Ideal S1x2048 .f32 := V c main_v11

-- acc(i, j) + the sum over the sixteen coordinates s of |emb(i, s) - embT(s, j)|.
def realD_at (c : Dev nD) (i j : Fin 2048) : EReal :=
  accV V c (ix2 i j) + ∑ s : Fin 16, dabs (embV V c (ix2 i (Fin.castLE (by decide : 16 ≤ 64) s))) (embTV V c (ix2 (Fin.castLE (by decide : 16 ≤ 64) s) j))

-- The larger of the small constant and -2<w_i, w_j> + <w_i, w_i> + inner(j).
def omega_at (c : Dev nD) (i j : Fin 2048) : EReal :=
  max ((Ideal.ofBits .f32 0xC0000000#32 * ∑ d : Fin 128, omV V c (ix2 i d) * omV V c (ix2 j d)
        + ∑ d : Fin 128, omV V c (ix2 i d) * omV V c (ix2 i d)) + innV V c (ix2 (0 : Fin 1) j))
    (Ideal.ofBits .f32 0x2EDBE6FF#32)

namespace WholeA

theorem idx3_3 : ∀ t : Fin cfg3.N, win3_3.index t (0 : Fin 2) = t.val ∧ win3_3.index t (1 : Fin 2) = 0 :=
  (by decide +kernel : ∀ t : Fin grid3.N, win3_3.index t (0 : Fin 2) = t.val ∧ win3_3.index t (1 : Fin 2) = 0)
theorem idx3_4 : ∀ t : Fin cfg3.N, win3_4.index t (0 : Fin 2) = t.val ∧ win3_4.index t (1 : Fin 2) = 0 :=
  (by decide +kernel : ∀ t : Fin grid3.N, win3_4.index t (0 : Fin 2) = t.val ∧ win3_4.index t (1 : Fin 2) = 0)
theorem idx3_7 : ∀ t : Fin cfg3.N, win3_7.index t (0 : Fin 2) = t.val ∧ win3_7.index t (1 : Fin 2) = 0 :=
  (by decide +kernel : ∀ t : Fin grid3.N, win3_7.index t (0 : Fin 2) = t.val ∧ win3_7.index t (1 : Fin 2) = 0)
theorem idx3_8 : ∀ t : Fin cfg3.N, win3_8.index t (0 : Fin 2) = t.val ∧ win3_8.index t (1 : Fin 2) = 0 :=
  (by decide +kernel : ∀ t : Fin grid3.N, win3_8.index t (0 : Fin 2) = t.val ∧ win3_8.index t (1 : Fin 2) = 0)
theorem idx3_5 : ∀ t : Fin cfg3.N, win3_5.index t (0 : Fin 2) = 0 ∧ win3_5.index t (1 : Fin 2) = 0 :=
  (by decide +kernel : ∀ t : Fin grid3.N, win3_5.index t (0 : Fin 2) = 0 ∧ win3_5.index t (1 : Fin 2) = 0)
theorem idx3_6 : ∀ t : Fin cfg3.N, win3_6.index t (0 : Fin 2) = 0 ∧ win3_6.index t (1 : Fin 2) = 0 :=
  (by decide +kernel : ∀ t : Fin grid3.N, win3_6.index t (0 : Fin 2) = 0 ∧ win3_6.index t (1 : Fin 2) = 0)

-- Row p of block t is row 256 t + p.
def grow (t : Fin cfg3.N) (p : Fin 256) : Fin 2048 :=
  ⟨256 * t.val + p.val, by have h : t.val < 8 := lt_of_lt_of_eq t.isLt N_3; have := p.isLt; omega⟩

theorem blk3_3_apply (c : Dev nD) (t : Fin cfg3.N) (p : Fin 256) (q : Fin 2048) :
    iblk3 V c 3 t (ix2 p q) = accV V c (ix2 (grow t p) q) := by
  show V c main_v7 (((cfg3.win 3).blk t).view.emb (ix2 p q)) = _
  obtain ⟨e0, e1⟩ := idx3_3 t
  exact congrArg _ (ix2_of_val _ _ _ (by show win3_3.index t (0 : Fin 2) * 256 + 1 * p.val = 256 * t.val + p.val; omega)
    (by show win3_3.index t (1 : Fin 2) * 2048 + 1 * q.val = q.val; omega))

theorem blk3_4_apply (c : Dev nD) (t : Fin cfg3.N) (p : Fin 256) (d : Fin 128) :
    iblk3 V c 4 t (ix2 p d) = omV V c (ix2 (grow t p) d) := by
  show V c main_arg2 (((cfg3.win 4).blk t).view.emb (ix2 p d)) = _
  obtain ⟨e0, e1⟩ := idx3_4 t
  exact congrArg _ (ix2_of_val _ _ _ (by show win3_4.index t (0 : Fin 2) * 256 + 1 * p.val = 256 * t.val + p.val; omega)
    (by show win3_4.index t (1 : Fin 2) * 128 + 1 * d.val = d.val; omega))

theorem blk3_5_apply (c : Dev nD) (t : Fin cfg3.N) (r : Fin 2048) (d : Fin 128) :
    iblk3 V c 5 t (ix2 r d) = omV V c (ix2 r d) := by
  show V c main_arg2 (((cfg3.win 5).blk t).view.emb (ix2 r d)) = _
  obtain ⟨e0, e1⟩ := idx3_5 t
  exact congrArg _ (ix2_of_val _ _ _ (by show win3_5.index t (0 : Fin 2) * 2048 + 1 * r.val = r.val; omega)
    (by show win3_5.index t (1 : Fin 2) * 128 + 1 * d.val = d.val; omega))

theorem blk3_6_apply (c : Dev nD) (t : Fin cfg3.N) (u : Fin 1) (q : Fin 2048) :
    iblk3 V c 6 t (ix2 u q) = innV V c (ix2 u q) := by
  show V c main_v11 (((cfg3.win 6).blk t).view.emb (ix2 u q)) = _
  obtain ⟨e0, e1⟩ := idx3_6 t
  exact congrArg _ (ix2_of_val _ _ _ (by show win3_6.index t (0 : Fin 2) * 1 + 1 * u.val = u.val; omega)
    (by show win3_6.index t (1 : Fin 2) * 2048 + 1 * q.val = q.val; omega))

-- Block t's two results at (p, q) are the closed forms at (256 t + p, q).
theorem realD_blk (c : Dev nD) (t : Fin cfg3.N) (p : Fin 256) (q : Fin 2048) :
    p1_realD (grid3.coords t) (iblk3 V c 0 t) (iblk3 V c 1 t) (iblk3 V c 2 t) (iblk3 V c 3 t) (iblk3 V c 4 t) (iblk3 V c 5 t) (iblk3 V c 6 t) (ix2 p q) = realD_at V c (grow t p) q := by
  rw [p1_realD_apply]
  unfold realD_at
  rw [blk3_3_apply]
  exact congrArg _ (Finset.sum_congr rfl fun s _ => congrArg₂ dabs (iblk3_0_at V c t p _) (iblk3_1_at V c t _ q))

theorem omega_blk (c : Dev nD) (t : Fin cfg3.N) (p : Fin 256) (q : Fin 2048) :
    p1_omega (grid3.coords t) (iblk3 V c 0 t) (iblk3 V c 1 t) (iblk3 V c 2 t) (iblk3 V c 3 t) (iblk3 V c 4 t) (iblk3 V c 5 t) (iblk3 V c 6 t) (ix2 p q) = omega_at V c (grow t p) q := by
  rw [p1_omega_apply]
  unfold omega_at
  rw [blk3_6_apply]
  simp only [blk3_4_apply, blk3_5_apply]

-- 2048 = 8 * 256: a sum over the rows splits into the eight blocks.
theorem sum_rows (g : Fin 2048 → EReal) :
    ∑ i, g i = ∑ t : Fin 8, ∑ p : Fin 256, g ⟨256 * t.val + p.val, by have := t.isLt; have := p.isLt; omega⟩ := by
  have e := Equiv.sum_comp (finProdFinEquiv (m := 8) (n := 256)) (fun i : Fin (8 * 256) => g i)
  rw [Fintype.sum_prod_type] at e
  refine e.symm.trans (Finset.sum_congr rfl fun t _ => Finset.sum_congr rfl fun p _ => ?_)
  exact congrArg g (Fin.ext (by show p.val + 256 * t.val = 256 * t.val + p.val; omega))

-- A lane that grows at point t by the squares of g over block t ends at the sum of all squares of g.
theorem lane_sq (c : Dev nD) (L : Fin 8) (g : Fin 2048 → Fin 2048 → EReal)
    (hstep : ∀ (t : Fin cfg3.N) (sc : Vec Ideal S1x8 .f32),
      p1_lanes (grid3.coords t) (iblk3 V c 0 t) (iblk3 V c 1 t) (iblk3 V c 2 t) (iblk3 V c 3 t) (iblk3 V c 4 t) (iblk3 V c 5 t) (iblk3 V c 6 t) sc (ix2 0 L)
        = sc (ix2 0 L) + ∑ p : Fin 256, ∑ q : Fin 2048, g (grow t p) q * g (grow t p) q) :
    (dat3 (F := Ideal) V c).arrAt 9 cfg3.N (ix2 0 L) = ∑ i : Fin 2048, ∑ j : Fin 2048, g i j * g i j :=
  (scAt3_lane_sum V c L _ hstep).trans (sum_rows fun i => ∑ j : Fin 2048, g i j * g i j).symm

end WholeA

open WholeA

theorem arrAt7_apply (c : Dev nD) (i j : Fin 2048) :
    (dat3 (F := Ideal) V c).arrAt 7 cfg3.N (ix2 i j) = realD_at V c i j := by
  have hN : cfg3.N = 8 := N_3
  have ht : i.val / 256 < cfg3.N := by rw [hN]; have := i.isLt; omega
  obtain ⟨e0, e1⟩ := idx3_7 ⟨i.val / 256, ht⟩
  refine (dat3 (F := Ideal) V c).arrAt_apply_of_mem 7 (fun idx : S2048x2048.Idx => realD_at V c (idx 0) (idx 1))
    (fun t _ => funext fun y => ?_) cfg3.N ⟨i.val / 256, ht⟩ (ix2 i j) ht (flush3_7 _) ?_
  · obtain ⟨f0, f1⟩ := idx3_7 t
    have ht8 : t.val < 8 := lt_of_lt_of_eq t.isLt hN
    have hy0 : (y 0).val < 256 := (y 0).isLt
    rw [View.read_apply]
    show (dat3 (F := Ideal) V c).after 7 t y = realD_at V c _ _
    rw [after3_7, eq_ix2 y]
    refine (realD_blk V c t (y 0) (y 1)).trans ?_
    congr 1 <;> apply Fin.ext
    · show 256 * t.val + (y 0).val = win3_7.index t (0 : Fin 2) * 256 + 1 * (y 0).val; omega
    · show (y 1).val = win3_7.index t (1 : Fin 2) * 2048 + 1 * (y 1).val; omega
  · show (ix2 i j : S2048x2048.Idx) ∈ ((View.whole main_v12_0).slice (win3_7.rect ⟨i.val / 256, ht⟩)).set
    rw [View.set_slice_whole, Rect.mem_set_unit]
    intro a
    match a with
    | ⟨0, _⟩ =>
      show win3_7.index ⟨i.val / 256, ht⟩ (0 : Fin 2) * 256 ≤ i.val ∧ i.val < win3_7.index ⟨i.val / 256, ht⟩ (0 : Fin 2) * 256 + 256
      rw [e0]; show i.val / 256 * 256 ≤ i.val ∧ i.val < i.val / 256 * 256 + 256; omega
    | ⟨1, _⟩ =>
      show win3_7.index ⟨i.val / 256, ht⟩ (1 : Fin 2) * 2048 ≤ j.val ∧ j.val < win3_7.index ⟨i.val / 256, ht⟩ (1 : Fin 2) * 2048 + 2048
      have := j.isLt; omega

theorem arrAt8_apply (c : Dev nD) (i j : Fin 2048) :
    (dat3 (F := Ideal) V c).arrAt 8 cfg3.N (ix2 i j) = omega_at V c i j := by
  have hN : cfg3.N = 8 := N_3
  have ht : i.val / 256 < cfg3.N := by rw [hN]; have := i.isLt; omega
  obtain ⟨e0, e1⟩ := idx3_8 ⟨i.val / 256, ht⟩
  refine (dat3 (F := Ideal) V c).arrAt_apply_of_mem 8 (fun idx : S2048x2048.Idx => omega_at V c (idx 0) (idx 1))
    (fun t _ => funext fun y => ?_) cfg3.N ⟨i.val / 256, ht⟩ (ix2 i j) ht (flush3_8 _) ?_
  · obtain ⟨f0, f1⟩ := idx3_8 t
    have ht8 : t.val < 8 := lt_of_lt_of_eq t.isLt hN
    have hy0 : (y 0).val < 256 := (y 0).isLt
    rw [View.read_apply]
    show (dat3 (F := Ideal) V c).after 8 t y = omega_at V c _ _
    rw [after3_8, eq_ix2 y]
    refine (omega_blk V c t (y 0) (y 1)).trans ?_
    congr 1 <;> apply Fin.ext
    · show 256 * t.val + (y 0).val = win3_8.index t (0 : Fin 2) * 256 + 1 * (y 0).val; omega
    · show (y 1).val = win3_8.index t (1 : Fin 2) * 2048 + 1 * (y 1).val; omega
  · show (ix2 i j : S2048x2048.Idx) ∈ ((View.whole main_v12_1).slice (win3_8.rect ⟨i.val / 256, ht⟩)).set
    rw [View.set_slice_whole, Rect.mem_set_unit]
    intro a
    match a with
    | ⟨0, _⟩ =>
      show win3_8.index ⟨i.val / 256, ht⟩ (0 : Fin 2) * 256 ≤ i.val ∧ i.val < win3_8.index ⟨i.val / 256, ht⟩ (0 : Fin 2) * 256 + 256
      rw [e0]; show i.val / 256 * 256 ≤ i.val ∧ i.val < i.val / 256 * 256 + 256; omega
    | ⟨1, _⟩ =>
      show win3_8.index ⟨i.val / 256, ht⟩ (1 : Fin 2) * 2048 ≤ j.val ∧ j.val < win3_8.index ⟨i.val / 256, ht⟩ (1 : Fin 2) * 2048 + 2048
      have := j.isLt; omega

theorem arrAt9_lane1 (c : Dev nD) :
    (dat3 (F := Ideal) V c).arrAt 9 cfg3.N (ix2 (0 : Fin 1) (1 : Fin 8))
      = ∑ i : Fin 2048, ∑ j : Fin 2048, realD_at V c i j * realD_at V c i j :=
  lane_sq V c 1 (realD_at V c) fun t sc => by
    rw [p1_lanes_lane1]
    exact congrArg _ (Finset.sum_congr rfl fun p _ => Finset.sum_congr rfl fun q _ => by rw [realD_blk])

theorem arrAt9_lane2 (c : Dev nD) :
    (dat3 (F := Ideal) V c).arrAt 9 cfg3.N (ix2 (0 : Fin 1) (2 : Fin 8))
      = ∑ i : Fin 2048, ∑ j : Fin 2048, omega_at V c i j * omega_at V c i j :=
  lane_sq V c 2 (omega_at V c) fun t sc => by
    rw [p1_lanes_lane2]
    exact congrArg _ (Finset.sum_congr rfl fun p _ => Finset.sum_congr rfl fun q _ => by rw [omega_blk])

end Cert.KernelIdeal.Hand
-- ==== Proof.R4Value.lean ====
import proofs.«418439_j46445776339038_1_alg».proof.Proof.R4Frame
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Hand

open Idealize.ShloMosaic Idealize.ShloMosaic.TcCoe Idealize.ShloMosaic.Tactic Idealize.SL.Sem
open Idealize.ShloMosaic.ValueIdx
open Idealize.ShloMosaic.Pipeline (Dat)
open Cert.KernelIdeal Cert.KernelIdeal.Gen

theorem k4_pay1_apply (y : S1x2048.Idx) : (k4_pay1 (F := Ideal)) y = (0 : EReal) := by
  show Ideal.ofBits .f32 0x00000000#32 = 0
  simp [Ideal.ofBits, Ideal.ieee]

/-- Column `j` of the updated row: the old entry plus `Σ r, x0 (r, j) / x1 (0, 0)`. -/
theorem k4_pay2_apply (x1 : Vec Ideal S1x1 .f32) (x0 : Vec Ideal S256x2048 .f32) (acc : Vec Ideal S1x2048 .f32) (j : Fin 2048) :
    k4_pay2 x1 x0 acc (ix2 (0 : Fin 1) j)
      = (acc (ix2 (0 : Fin 1) j) : EReal) + ∑ r : Fin 256, Ideal.div (x0 (ix2 r j)) (x1 (ix2 (0 : Fin 1) (0 : Fin 1))) := by
  unfold k4_pay2
  simp only [shapeCast_self]
  refine (addf_apply _ _ _).trans ?_
  refine congrArg (fun z => (acc (ix2 (0 : Fin 1) j) : EReal) + z) ?_
  refine (shapeCast_a_1a_apply _ _ (0 : Fin 1) j).trans ?_
  refine (Ideal.multiReduction_add_single _ _ reduces_S256x2048_S2048 _ _ (ix1 j)).trans ?_
  refine Finset.sum_congr rfl fun r _ => ?_
  refine (divf_apply _ _ _).trans ?_
  have e : reduces_S256x2048_S2048.lift (ix1 j) r = ix2 r j := by
    funext a; fin_cases a <;> rfl
  rw [e]
  refine congrArg (fun z => Ideal.div (x0 (ix2 r j)) z) ?_
  show x1 _ = x1 _
  congr 1
  funext a; fin_cases a <;> rfl

/-- `Σ` over 2048 indices, regrouped as 8 consecutive runs of 256. -/
theorem sum_tile4 (g : Fin 2048 → EReal) :
    ∑ i : Fin 2048, g i = ∑ t : Fin 8, ∑ r : Fin 256, g ⟨256 * t.val + r.val, by have := t.isLt; have := r.isLt; omega⟩ := by
  have e := Fintype.sum_equiv (finProdFinEquiv (m := 8) (n := 256))
    (fun p : Fin 8 × Fin 256 => g ⟨256 * p.1.val + p.2.val, by have := p.1.isLt; have := p.2.isLt; omega⟩)
    (fun i : Fin (8 * 256) => g i) (fun p => by
      apply congrArg g; apply Fin.ext
      show 256 * p.1.val + p.2.val = p.2.val + 256 * p.1.val
      omega)
  rw [Fintype.sum_prod_type] at e
  exact e.symm

variable (V : (c : Dev nD) → (b : Ref sig .tc) → Buf (Elt Ideal) ((c : Thread nD τ).loc b)) (c : Dev nD)

abbrev xarr4 : Vec Ideal S2048x2048 .f32 := V c main_v12_0
abbrev sarr4 : Vec Ideal S1x1 .f32 := V c main_v27
abbrev xblk4 (t : Fin cfg4.N) : Vec Ideal S256x2048 .f32 := iblk4 V c 0 t
abbrev sblk4 (t : Fin cfg4.N) : Vec Ideal S1x1 .f32 := iblk4 V c 1 t

theorem idx4 : ∀ t : Fin cfg4.N, win4_0.index t 0 = t.val ∧ win4_0.index t 1 = 0 ∧ win4_1.index t 0 = 0 ∧ win4_1.index t 1 = 0 :=
  (by decide +kernel : ∀ t : Fin grid4.N, win4_0.index t 0 = t.val ∧ win4_0.index t 1 = 0 ∧ win4_1.index t 0 = 0 ∧ win4_1.index t 1 = 0)

/-- Entry `(r, j)` of block `t` is entry `(256 t + r, j)` of the array. -/
theorem xblk4_apply (t : Fin cfg4.N) (r : Fin 256) (j : Fin 2048) :
    xblk4 V c t (ix2 r j)
      = xarr4 V c (ix2 ⟨256 * t.val + r.val, by have := lt_of_lt_of_eq t.isLt (show cfg4.N = 8 from N_4); have := r.isLt; omega⟩ j) := by
  show iblk4 V c 0 t (ix2 r j) = V c main_v12_0 _
  unfold iblk4
  rw [View.read_apply]
  show V c main_v12_0 _ = V c main_v12_0 _
  congr 1
  funext a
  apply Fin.ext
  match a with
  | ⟨0, _⟩ => show win4_0.index t 0 * 256 + 1 * r.val = 256 * t.val + r.val; rw [(idx4 t).1]; omega
  | ⟨1, _⟩ => show win4_0.index t 1 * 2048 + 1 * j.val = j.val; rw [(idx4 t).2.1]; omega

/-- Every block of the 1×1 input is that input. -/
theorem sblk4_apply (t : Fin cfg4.N) :
    sblk4 V c t (ix2 (0 : Fin 1) (0 : Fin 1)) = sarr4 V c (ix2 (0 : Fin 1) (0 : Fin 1)) := by
  show iblk4 V c 1 t (ix2 (0 : Fin 1) (0 : Fin 1)) = V c main_v27 _
  unfold iblk4
  rw [View.read_apply]
  show V c main_v27 _ = V c main_v27 _
  congr 1
  funext a
  apply Fin.ext
  match a with
  | ⟨0, _⟩ => show win4_1.index t 0 * 1 + 1 * 0 = 0; rw [(idx4 t).2.2.1]
  | ⟨1, _⟩ => show win4_1.index t 1 * 1 + 1 * 0 = 0; rw [(idx4 t).2.2.2]

/-- What block `t` adds to column `j`. -/
def blockSum4 (j : Fin 2048) (t : Fin cfg4.N) : EReal :=
  ∑ r : Fin 256, Ideal.div (xblk4 V c t (ix2 r j)) (sblk4 V c t (ix2 (0 : Fin 1) (0 : Fin 1)))

/-- By induction on `n`: column `j` of `acc4 n` is the sum of what blocks `0 … n` add. -/
theorem acc4_eq (j : Fin 2048) : ∀ (n : ℕ) (h : n < cfg4.N),
    (acc4 V c n h : Vec Ideal S1x2048 .f32) (ix2 (0 : Fin 1) j) = ∑ t : Fin (n + 1), blockSum4 V c j (Fin.castLE h t)
  | 0, h => by
    refine (k4_pay2_apply _ _ _ j).trans ?_
    rw [k4_pay1_apply, zero_add, Fin.sum_univ_one]; rfl
  | n + 1, h => by
    refine (k4_pay2_apply _ _ _ j).trans ?_
    rw [acc4_eq j n (Nat.lt_of_succ_lt h), Fin.sum_univ_castSucc (n := n + 1)]; rfl

/-- The row `j ↦ Σ i, x (i, j) / s`. -/
def colSums4 : Vec Ideal S1x2048 .f32 :=
  fun y => ∑ i : Fin 2048, Ideal.div (xarr4 V c (ix2 i (y 1))) (sarr4 V c (ix2 (0 : Fin 1) (0 : Fin 1)))

theorem acc4_last (h : 7 < cfg4.N) : acc4 V c 7 h = colSums4 V c := by
  funext y
  rw [eq_ix2 y, Fin.eq_zero (y 0)]
  refine (acc4_eq V c (y 1) 7 h).trans ?_
  show _ = ∑ i : Fin 2048, Ideal.div (xarr4 V c (ix2 i (y 1))) (sarr4 V c (ix2 (0 : Fin 1) (0 : Fin 1)))
  rw [sum_tile4 fun i => Ideal.div (xarr4 V c (ix2 i (y 1))) (sarr4 V c (ix2 (0 : Fin 1) (0 : Fin 1)))]
  refine Finset.sum_congr rfl fun t _ => Finset.sum_congr rfl fun r _ => ?_
  rw [xblk4_apply V c _ r (y 1), sblk4_apply]; rfl

theorem hz4 : (fun a => win4_2.index t4_7 a * main_v31.ty.shape.size a) = fun _ => 0 := funext fun a => by fin_cases a <;> decide

abbrev res4 : Buf (Elt Ideal) ((c : Thread nD τ).loc main_v31) := colSums4 V c

/-- Only point 7 writes the result back, and its block is all of the result array. -/
theorem flushed4_eq (t : Fin cfg4.N) (hf : (cfg4.win 2).flush t = true) :
    (dat4 V c).flushed 2 t = ((cfg4.win 2).blk t).view.read (Elt Ideal) (res4 V c) := by
  have hN : cfg4.N = 8 := N_4
  have h7 : t.val = 7 := by have := (flush4_2 t).mp hf; have := t.isLt; omega
  obtain rfl : t = t4_7 := Fin.ext h7
  show (cfg4.win 2).cut (grid4.coords t4_7) ((dat4 V c).after 2 t4_7) = _
  rw [show (dat4 V c).after 2 t4_7 = colSums4 V c from acc4_last V c t4_7.isLt]
  exact (Memref.read_access_unit_zero (Elt Ideal) main_v31 hz4 (fun a => by rw [congrFun hz4 a]; simp) (res4 V c)).symm

theorem final4 : (dat4 V c).arrAt 2 cfg4.N = res4 V c :=
  (dat4 V c).arrAt_eq_of_cover 2 (res4 V c) (flushed4_eq V c) fun i =>
    ⟨t4_7, (flush4_2 t4_7).mpr rfl, by
      show i ∈ ((View.whole main_v31).slice (win4_2.rect t4_7)).set
      rw [View.set_slice_whole]
      exact View.mem_set_unit_zero hz4 (fun a => by rw [congrFun hz4 a]; simp) i⟩

/-- The result of region 4: `out (0, j) = Σ i, x (i, j) / s`. -/
theorem value4 (j : Fin 2048) :
    ((dat4 (F := Ideal) V c).arrAt 2 cfg4.N : Vec Ideal S1x2048 .f32) (ix2 (0 : Fin 1) j)
      = ∑ i : Fin 2048, Ideal.div ((V c main_v12_0 : Vec Ideal S2048x2048 .f32) (ix2 i j))
          ((V c main_v27 : Vec Ideal S1x1 .f32) (ix2 (0 : Fin 1) (0 : Fin 1))) :=
  congrFun (final4 V c) (ix2 (0 : Fin 1) j)

end Cert.KernelIdeal.Hand

end
-- ==== Proof.R5Value.lean ====
import proofs.«418439_j46445776339038_1_alg».proof.Proof.R5Frame
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

/-- Summing over the index with a unit axis in front is summing over rows, then columns. -/
theorem sum_cast3 (M : FVec Ideal S256x2048 .f32) (h : S256x2048.ShapeCasts S1x256x2048) :
    ∑ i : S1x256x2048.Idx, shapeCast S1x256x2048 M h i = ∑ a : Fin 256, ∑ b : Fin 2048, M (ix2 a b) := by
  unfold shapeCast
  rw [Equiv.sum_comp (Shape.reshapeEquiv h) M]
  exact sum_idx2 M

theorem red_total (src : FVec Ideal S1x256x2048 .f32) (hφ : FKind.Formats .f32)
    (hacc : (0#32 : BitVec 32) = FKind.add.neutral .f32 hφ) (j : S1.Idx) :
    multiReduction (F := Ideal) FKind.add [1, 2] S1 src (0#32) reduces_S1x256x2048_S1 hφ hacc j = ∑ i, src i :=
  Ideal.multiReduction_add_total src _ _ (fun b => by fin_cases b; rfl) hφ hacc j

theorem cell_of_total (R : FVec Ideal S1 .f32) (h1 : S1.ShapeCasts S1x1x1) (hp : ∀ a, (![0, 0, 0] : Fin 3 → Nat) a < S1x1x1.size a) (j : S1x1.Idx) :
    (broadcast S1x1 (extractAt ![0, 0, 0] (shapeCast S1x1x1 R h1) hp) : FVec Ideal S1x1 .f32) j
      = R (Shape.reshapeEquiv h1 fun a => ⟨![0, 0, 0] a, hp a⟩) := rfl

theorem diff_at (v3 : Vec Ideal S1x1 .f32) (v5 : Vec Ideal S256x2048 .f32) (v9 : Vec Ideal S1x2048 .f32) (a : Fin 256) (b : Fin 2048) :
    (subf (divf v5 (broadcast S256x2048 (extractAt ![0, 0] v3 inpos_S1x1_p0_0))) (broadcastTo S256x2048 v9 broadcasts_S1x2048_S256x2048) : FVec Ideal S256x2048 .f32) (ix2 a b)
      = Ideal.div (v5 (ix2 a b)) (v3 (ix2 0 0)) - v9 (ix2 0 b) := by
  show Ideal.div (v5 (ix2 a b)) (extractAt ![0, 0] v3 inpos_S1x1_p0_0) - broadcastTo S256x2048 v9 broadcasts_S1x2048_S256x2048 (ix2 a b) = _
  rw [show extractAt ![0, 0] v3 inpos_S1x1_p0_0 = v3 (ix2 0 0) from congrArg v3 (funext fun a => by fin_cases a <;> rfl),
    broadcastTo_apply v9 _ (ix2 a b) (ix2 0 b) fun d => by fin_cases d <;> rfl]

/-- At the extended reals the update adds `∑ a b, (block a b / normO − distNormed b)²` to the cell. -/
theorem pay2_ideal (v3 : Vec Ideal S1x1 .f32) (v5 : Vec Ideal S256x2048 .f32) (v9 : Vec Ideal S1x2048 .f32) (v19 : Vec Ideal S1x1 .f32) :
    k5_pay2 (F := Ideal) v3 v5 v9 v19 (ix2 0 0) = v19 (ix2 0 0) + ∑ a : Fin 256, ∑ b : Fin 2048,
      (Ideal.div (v5 (ix2 a b)) (v3 (ix2 0 0)) - v9 (ix2 0 b)) * (Ideal.div (v5 (ix2 a b)) (v3 (ix2 0 0)) - v9 (ix2 0 b)) := by
  unfold k5_pay2
  simp only [shapeCast_self]
  rw [addf_apply, cell_of_total]
  refine congrArg (v19 (ix2 0 0) + ·) ((red_total _ _ _ _).trans ?_)
  rw [sum_cast3]
  exact Finset.sum_congr rfl fun a _ => Finset.sum_congr rfl fun b _ => congrArg₂ (· * ·) (diff_at v3 v5 v9 a b) (diff_at v3 v5 v9 a b)

theorem pay1_ideal : k5_pay1 (F := Ideal) (ix2 0 0) = 0 := by
  unfold k5_pay1
  simp only [shapeCast_self]
  exact Ideal.ofBits_zero_f32

variable (V : (c : Dev nD) → (b : Ref sig .tc) → Buf (Elt Ideal) ((c : Thread nD τ).loc b))

abbrev oD5 (c : Dev nD) : Vec Ideal S2048x2048 .f32 := V c main_v12_1
abbrev dN5 (c : Dev nD) : Vec Ideal S1x2048 .f32 := V c main_v31
abbrev nO5 (c : Dev nD) : Vec Ideal S1x1 .f32 := V c main_v30
abbrev blk5 (c : Dev nD) (t : Fin cfg5.N) : Vec Ideal S256x2048 .f32 := iblk5 V c 0 t
abbrev dnb5 (c : Dev nD) (t : Fin cfg5.N) : Vec Ideal S1x2048 .f32 := iblk5 V c 1 t
abbrev nob5 (c : Dev nD) (t : Fin cfg5.N) : Vec Ideal S1x1 .f32 := iblk5 V c 2 t

/-- The sum over row `i` of the squared differences; 0 for `i ≥ 2048`. -/
def rowSqN5 (c : Dev nD) (i : ℕ) : EReal :=
  if h : i < 2048 then ∑ j : Fin 2048, (Ideal.div (oD5 V c (ix2 ⟨i, h⟩ j)) (nO5 V c (ix2 0 0)) - dN5 V c (ix2 0 j)) * (Ideal.div (oD5 V c (ix2 ⟨i, h⟩ j)) (nO5 V c (ix2 0 0)) - dN5 V c (ix2 0 j)) else 0

/-- Window 0's block at point `t` starts at row `256 t`; the other windows' blocks start at the origin. -/
theorem idx5 (t : Fin cfg5.N) : (win5_0.index t 0 = t.val ∧ win5_0.index t 1 = 0)
    ∧ (fun a => win5_1.index t a * main_v31.ty.shape.size a) = (fun _ => 0)
    ∧ (fun a => win5_2.index t a * main_v30.ty.shape.size a) = (fun _ => 0)
    ∧ (fun a => win5_3.index t a * main_v32.ty.shape.size a) = fun _ => 0 := by
  rcases fin_N5 t with rfl | rfl | rfl | rfl | rfl | rfl | rfl | rfl <;>
    exact ⟨by decide, funext fun a => by fin_cases a <;> decide, funext fun a => by fin_cases a <;> decide, funext fun a => by fin_cases a <;> decide⟩

/-- Entry `(a, b)` of point `t`'s block is entry `(256 t + a, b)` of the array. -/
theorem blk5_apply (c : Dev nD) (t : Fin cfg5.N) (a : Fin 256) (b : Fin 2048) (h : 256 * t.val + a.val < 2048) :
    blk5 V c t (ix2 a b) = oD5 V c (ix2 ⟨256 * t.val + a.val, h⟩ b) := by
  have hi := (idx5 t).1
  unfold blk5 iblk5
  rw [View.read_apply]
  show V c main_v12_1 _ = V c main_v12_1 _
  congr 1
  funext d
  apply Fin.ext
  match d with
  | ⟨0, _⟩ => show win5_0.index t 0 * 256 + 1 * a.val = 256 * t.val + a.val; rw [hi.1]; omega
  | ⟨1, _⟩ => show win5_0.index t 1 * 2048 + 1 * b.val = b.val; rw [hi.2]; omega

/-- For windows 1 and 2 the block at any point equals the whole array. -/
theorem dnb5_eq (c : Dev nD) (t : Fin cfg5.N) : dnb5 V c t = dN5 V c :=
  Memref.read_access_unit_zero (Elt Ideal) main_v31 (idx5 t).2.1 (fun a => by rw [congrFun (idx5 t).2.1 a]; simp) (V c main_v31)
theorem nob5_eq (c : Dev nD) (t : Fin cfg5.N) : nob5 V c t = nO5 V c :=
  Memref.read_access_unit_zero (Elt Ideal) main_v30 (idx5 t).2.2.1 (fun a => by rw [congrFun (idx5 t).2.2.1 a]; simp) (V c main_v30)

/-- Point `t` adds the sums of rows `256 t … 256 t + 255` to the cell. -/
theorem upd5 (c : Dev nD) (t : Fin cfg5.N) (xs : Vec Ideal S1x1 .f32) :
    step5 V c t xs (ix2 0 0) = xs (ix2 0 0) + ∑ i ∈ Finset.range 256, rowSqN5 V c (256 * t.val + i) := by
  have hN : t.val < 8 := lt_of_lt_of_eq t.isLt (show cfg5.N = 8 from N_5)
  refine (pay2_ideal (nob5 V c t) (blk5 V c t) (dnb5 V c t) xs).trans (congrArg (xs (ix2 0 0) + ·) ?_)
  rw [Finset.sum_range]
  refine Finset.sum_congr rfl fun a _ => ?_
  have h : 256 * t.val + a.val < 2048 := by have := a.isLt; omega
  unfold rowSqN5
  rw [dif_pos h]
  refine Finset.sum_congr rfl fun b _ => ?_
  rw [blk5_apply V c t a b h, dnb5_eq, nob5_eq]

/-- By induction, the cell of `prev5 n` is the sum of the first `256 n` rows' sums. -/
theorem prev5_cell (c : Dev nD) : ∀ (n : ℕ) (h : n ≤ cfg5.N),
    (prev5 V c n h : Vec Ideal S1x1 .f32) (ix2 0 0) = ∑ i ∈ Finset.range (256 * n), rowSqN5 V c i
  | 0, _ => by rw [Nat.mul_zero, Finset.sum_range_zero]; exact pay1_ideal
  | n + 1, h => by
    rw [show 256 * (n + 1) = 256 * n + 256 from by ring, Finset.sum_range_add, ← prev5_cell c n (Nat.le_of_lt h)]
    exact upd5 V c ⟨n, h⟩ _

/-- The accumulator after all eight points, typed as the result array's contents. -/
abbrev res5 (c : Dev nD) : Buf (Elt Ideal) ((c : Thread nD τ).loc main_v32) := prev5 V c 8 t5_7.isLt

theorem flushed5_eq (c : Dev nD) (t : Fin cfg5.N) (hf : (cfg5.win 3).flush t = true) :
    (dat5 V c).flushed 3 t = ((cfg5.win 3).blk t).view.read (Elt Ideal) (res5 V c) := by
  have hN : cfg5.N = 8 := N_5
  have h7 : t.val = 7 := by have := (flush5_3 t).mp hf; have := t.isLt; omega
  obtain rfl : t = t5_7 := Fin.ext h7
  exact (Memref.read_access_unit_zero (Elt Ideal) main_v32 (idx5 t5_7).2.2.2 (fun a => by rw [congrFun (idx5 t5_7).2.2.2 a]; simp) (res5 V c)).symm

/-- The result array's final contents are `res5`: the last point's block is the whole array. -/
theorem final5 (c : Dev nD) : (dat5 V c).arrAt 3 cfg5.N = res5 V c :=
  (dat5 V c).arrAt_eq_of_cover 3 (res5 V c) (flushed5_eq V c) fun i =>
    ⟨t5_7, (flush5_3 t5_7).mpr rfl, (by decide +kernel : ∀ i, i ∈ ((cfg5.win 3).blk t5_7).view.set) i⟩

/-- The region's value: the cell is `∑ i j, (omegaDist i j / normO − distNormed j)²`. -/
theorem value5 (c : Dev nD) :
    ((dat5 (F := Ideal) V c).arrAt 3 cfg5.N : Vec Ideal S1x1 .f32) (ix2 0 0)
      = ∑ i : Fin 2048, ∑ j : Fin 2048,
          (Ideal.div ((V c main_v12_1 : Vec Ideal S2048x2048 .f32) (ix2 i j)) ((V c main_v30 : Vec Ideal S1x1 .f32) (ix2 0 0)) - (V c main_v31 : Vec Ideal S1x2048 .f32) (ix2 0 j))
          * (Ideal.div ((V c main_v12_1 : Vec Ideal S2048x2048 .f32) (ix2 i j)) ((V c main_v30 : Vec Ideal S1x1 .f32) (ix2 0 0)) - (V c main_v31 : Vec Ideal S1x2048 .f32) (ix2 0 j)) := by
  refine (congrFun (final5 V c) (ix2 0 0)).trans ((prev5_cell V c 8 t5_7.isLt).trans ?_)
  show @Eq EReal _ _
  rw [Finset.sum_range]
  refine Finset.sum_congr rfl fun i _ => ?_
  unfold rowSqN5
  rw [dif_pos i.isLt]

end Cert.KernelIdeal.Hand

end
-- ==== Proof.KernelGathers.lean ====
import proofs.«418439_j46445776339038_1_alg».proof.Proof.KernelCore
import proofs.«418439_j46445776339038_1_alg».proof.Proof.RunData
import proofs.«418439_j46445776339038_1_alg».proof.Proof.R0Value
import proofs.«418439_j46445776339038_1_alg».proof.Proof.R1Value
import proofs.«418439_j46445776339038_1_alg».proof.Proof.R2Value
import proofs.«418439_j46445776339038_1_alg».proof.Proof.R3WholeA
import proofs.«418439_j46445776339038_1_alg».proof.Proof.R4Value
import proofs.«418439_j46445776339038_1_alg».proof.Proof.R5Value

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx

variable (m : (ℓ : Loc nD τ sig) → Buf (Elt Ideal) ℓ) (ρ : Dev nD → PrngReg) (c : Dev nD)

-- The six regions' values at the run's own contents of their result arrays.
theorem rvals : RegionVals m (outsOf m ρ) c where
  r0a := fun n j => by rw [outsOf_2_v5_0 m ρ c]; exact value0_4 (Hand.V1 m ρ) c n j
  r0b := fun n j => by rw [outsOf_2_v5_1 m ρ c]; exact value0_5 (Hand.V1 m ρ) c n j
  r1 := fun n q => by rw [outsOf_3_v6 m ρ c]; exact value1 (Hand.V2 m ρ) c n q
  r2 := fun i j => by rw [outsOf_4_v7 m ρ c]; exact value2 (Hand.V3 m ρ) c i j
  r37 := fun i j => by rw [outsOf_6_v12_0 m ρ c]; exact arrAt7_apply (Hand.V5 m ρ) c i j
  r38 := fun i j => by rw [outsOf_6_v12_1 m ρ c]; exact arrAt8_apply (Hand.V5 m ρ) c i j
  r391 := by
    show (outsOf m ρ 6 main_v12_2 c : S1x8.Idx → EReal) (ix2 (0 : Fin 1) (1 : Fin 8)) = _
    rw [outsOf_6_v12_2 m ρ c]; exact arrAt9_lane1 (Hand.V5 m ρ) c
  r392 := by
    show (outsOf m ρ 6 main_v12_2 c : S1x8.Idx → EReal) (ix2 (0 : Fin 1) (2 : Fin 8)) = _
    rw [outsOf_6_v12_2 m ρ c]; exact arrAt9_lane2 (Hand.V5 m ρ) c
  r4 := fun j => by rw [outsOf_8_v31 m ρ c]; exact value4 (Hand.V7 m ρ) c j
  r5 := by rw [outsOf_9_v32 m ρ c]; exact value5 (Hand.V8 m ρ) c

end Cert.KernelIdeal.Hand

end
-- ==== Proof.KernelLanes.lean ====
import proofs.«418439_j46445776339038_1_alg».proof.Proof.R3WholeB
import proofs.«418439_j46445776339038_1_alg».proof.Proof.KernelLanesMath
import proofs.«418439_j46445776339038_1_alg».proof.Proof.KernelGathers

set_option maxRecDepth 16384

noncomputable section

namespace Cert.KernelIdeal.Hand
open Idealize.ShloMosaic Idealize.ShloMosaic.TcCoe Idealize.ShloMosaic.ValueIdx Idealize.SL.Sem
open Cert.KernelIdeal Cert.KernelIdeal.Gen
open Cert.Spec.Lanes

section Blocks
variable {idx par : Fin 2048 → BitVec 32} {ce rs : Fin 8192 → Fin 32 → EReal} {lvs : Fin 8192 → EReal}
  (E : (⟨2, ![2048, 64]⟩ : Shape).Idx → EReal) (ET : (⟨2, ![64, 2048]⟩ : Shape).Idx → EReal)
  (R : (⟨2, ![2048, 32]⟩ : Shape).Idx → EReal)
  (b0 : Fin 8 → (⟨2, ![256, 64]⟩ : Shape).Idx → EReal) (b1 : Fin 8 → (⟨2, ![64, 2048]⟩ : Shape).Idx → EReal)
  (b2 : Fin 8 → (⟨2, ![256, 32]⟩ : Shape).Idx → EReal)
  (h0 : ∀ t p s, b0 t (ix2 p s) = E (ix2 (rowB t p) s)) (h1 : ∀ t s q, b1 t (ix2 s q) = ET (ix2 s q))
  (h2 : ∀ t p j, b2 t (ix2 p j) = R (ix2 (rowB t p) j))
  (he : ∀ n j, E (ix2 n j) = Cert.Spec.tel ce lvs (Cert.Spec.rowOf (idx n)) j) (hT : ∀ s n, ET (ix2 s n) = E (ix2 n s))
  (hr : ∀ n j, R (ix2 n j) = rs (Cert.Spec.rowOf (par n)) j)

-- Entry (p, s) of block t is the array's entry at row 256 t + p: the eight per-block sums regroup the target's sum over all rows.
include h0 h1 he hT in
theorem ovl_eq : ∑ t : Fin 8, ovlPart t.val (b0 t) (b1 t) = Cert.Spec.lossOverlap idx ce := by
  unfold Cert.Spec.lossOverlap ovlPart bHi bLo bHiT bLoT
  symm
  rw [Finset.sum_comm, sum_blocks]
  refine Finset.sum_congr rfl fun t _ => Finset.sum_congr rfl fun p _ => Finset.sum_congr rfl fun s _ =>
    Finset.sum_congr rfl fun j _ => Eq.symm ?_
  simp only [h0, h1, hT, he, Cert.Spec.tel_lo, Cert.Spec.tel_hi, mask_rowB]
  rfl

include h0 h2 he hr in
theorem exc_eq : ∑ t : Fin 8, excPart (b0 t) (b2 t) = Cert.Spec.lossExceed idx par ce rs := by
  unfold Cert.Spec.lossExceed excPart bHi bLo bRL bRH
  rw [Finset.sum_add_distrib, sum_blocks, sum_blocks]
  congr 1
  · refine Finset.sum_congr rfl fun t _ => Finset.sum_congr rfl fun p _ => Finset.sum_congr rfl fun s _ => ?_
    simp only [h0, h2, hr, he, Cert.Spec.tel_lo]
    rfl
  · refine Finset.sum_congr rfl fun t _ => Finset.sum_congr rfl fun p _ => Finset.sum_congr rfl fun s _ => ?_
    simp only [h0, h2, hr, he, Cert.Spec.tel_hi]
    rfl

include h0 h2 he hr in
theorem shp_eq : ∑ t : Fin 8, shpPart (b0 t) (b2 t) = Cert.Spec.lossShape idx par ce rs lvs := by
  unfold Cert.Spec.lossShape shpPart bHi bLo bRL bRH bDen
  rw [sum_blocks]
  refine Finset.sum_congr rfl fun t _ => Finset.sum_congr rfl fun p _ => Finset.sum_congr rfl fun s _ => ?_
  simp only [h0, h2, hr, he, Cert.Spec.tel_lo, Cert.Spec.tel_hi, Cert.Spec.tel_den]
  rfl

include h0 he in
theorem pos_eq : ∑ t : Fin 8, posPart (b0 t) = Cert.Spec.lossPositive idx ce := by
  unfold Cert.Spec.lossPositive posPart bHi bLo
  rw [sum_blocks]
  refine Finset.sum_congr rfl fun t _ => Finset.sum_congr rfl fun p _ => Finset.sum_congr rfl fun s _ => ?_
  simp only [h0, he, Cert.Spec.tel_lo, Cert.Spec.tel_hi, sub_eq_add_neg (0 : EReal), zero_add]
  rfl

end Blocks

variable [Cert.Pre_finite_inputs.Facts]
variable (m : (ℓ : Loc nD τ sig) → Buf (Elt Ideal) ℓ) (ρ : Dev nD → PrngReg) (h : Cert.Pre_KernelIdeal m) (c : Dev nD)

-- When the fourth region is entered its box arrays hold the gathered joined rows, their transpose and the gathered parent rows.
include h in
theorem run_hE (n : Fin 2048) (j : Fin 64) :
    (Hand.V5 m ρ c main_v5_0 : S2048x64.Idx → EReal) (ix2 n j)
      = Cert.Spec.tel (kCe m c) (kLv m c) (Cert.Spec.rowOf (kIdx m c n)) j := by
  show (Gen.V5 m (outsOf m ρ) c (Proc.devRef .tc main_v5_0) : S2048x64.Idx → EReal) (ix2 n j) = _
  rw [kp_V5_v5_0 m (outsOf m ρ) c]
  exact core_E m (outsOf m ρ) h c (rvals m ρ c) n j

theorem run_hT (s : Fin 64) (n : Fin 2048) :
    (Hand.V5 m ρ c main_v8 : S64x2048.Idx → EReal) (ix2 s n)
      = (Hand.V5 m ρ c main_v5_0 : S2048x64.Idx → EReal) (ix2 n s) := by
  show (Gen.V5 m (outsOf m ρ) c (Proc.devRef .tc main_v8) : S64x2048.Idx → EReal) (ix2 s n)
    = (Gen.V5 m (outsOf m ρ) c (Proc.devRef .tc main_v5_0) : S2048x64.Idx → EReal) (ix2 n s)
  rw [kp_V5_v5_0 m (outsOf m ρ) c]
  exact hr_v8 m (outsOf m ρ) c s n

include h in
theorem run_hP (n : Fin 2048) (j : Fin 32) :
    (Hand.V5 m ρ c main_v5_1 : S2048x32.Idx → EReal) (ix2 n j) = kRs m c (Cert.Spec.rowOf (kPar m c n)) j := by
  show (Gen.V5 m (outsOf m ρ) c (Proc.devRef .tc main_v5_1) : S2048x32.Idx → EReal) (ix2 n j) = _
  rw [kp_V5_v5_1 m (outsOf m ρ) c]
  exact core_P m (outsOf m ρ) h c (rvals m ρ c) n j

include h

-- Lanes 0, 3, 4, 5 of the row of partial sums are the overlap, exceed, shape and positivity terms.
theorem lane0_eq :
    (outsOf m ρ 6 main_v12_2 c : S1x8.Idx → EReal) (ix2 (0 : Fin 1) (0 : Fin 8))
      = Cert.Spec.lossOverlap (kIdx m c) (kCe m c) := by
  rw [outsOf_6_v12_2 m ρ c, arr9_lane0 (Hand.V5 m ρ) c]
  exact ovl_eq (Hand.V5 m ρ c main_v5_0) (Hand.V5 m ρ c main_v8) (iblk3 (Hand.V5 m ρ) c 0) (iblk3 (Hand.V5 m ρ) c 1)
    (fun t p s => iblk3_0_at (Hand.V5 m ρ) c t p s) (fun t s q => iblk3_1_at (Hand.V5 m ρ) c t s q) (run_hE m ρ h c) (run_hT m ρ c)

theorem lane3_eq :
    (outsOf m ρ 6 main_v12_2 c : S1x8.Idx → EReal) (ix2 (0 : Fin 1) (3 : Fin 8))
      = Cert.Spec.lossExceed (kIdx m c) (kPar m c) (kCe m c) (kRs m c) := by
  rw [outsOf_6_v12_2 m ρ c, arr9_lane3 (Hand.V5 m ρ) c]
  exact exc_eq (Hand.V5 m ρ c main_v5_0) (Hand.V5 m ρ c main_v5_1) (iblk3 (Hand.V5 m ρ) c 0) (iblk3 (Hand.V5 m ρ) c 2)
    (fun t p s => iblk3_0_at (Hand.V5 m ρ) c t p s) (fun t p j => iblk3_2_at (Hand.V5 m ρ) c t p j) (run_hE m ρ h c) (run_hP m ρ h c)

theorem lane4_eq :
    (outsOf m ρ 6 main_v12_2 c : S1x8.Idx → EReal) (ix2 (0 : Fin 1) (4 : Fin 8))
      = Cert.Spec.lossShape (kIdx m c) (kPar m c) (kCe m c) (kRs m c) (kLv m c) := by
  rw [outsOf_6_v12_2 m ρ c, arr9_lane4 (Hand.V5 m ρ) c]
  exact shp_eq (Hand.V5 m ρ c main_v5_0) (Hand.V5 m ρ c main_v5_1) (iblk3 (Hand.V5 m ρ) c 0) (iblk3 (Hand.V5 m ρ) c 2)
    (fun t p s => iblk3_0_at (Hand.V5 m ρ) c t p s) (fun t p j => iblk3_2_at (Hand.V5 m ρ) c t p j) (run_hE m ρ h c) (run_hP m ρ h c)

theorem lane5_eq :
    (outsOf m ρ 6 main_v12_2 c : S1x8.Idx → EReal) (ix2 (0 : Fin 1) (5 : Fin 8))
      = Cert.Spec.lossPositive (kIdx m c) (kCe m c) := by
  rw [outsOf_6_v12_2 m ρ c, arr9_lane5 (Hand.V5 m ρ) c]
  exact pos_eq (Hand.V5 m ρ c main_v5_0) (iblk3 (Hand.V5 m ρ) c 0) (fun t p s => iblk3_0_at (Hand.V5 m ρ) c t p s) (run_hE m ρ h c)

end Cert.KernelIdeal.Hand

end
-- ==== Proof.KernelValue.lean ====
import proofs.«418439_j46445776339038_1_alg».proof.Proof.KernelLanes

set_option maxRecDepth 16384

noncomputable section

namespace Cert.KernelIdeal.Hand

open Idealize.ShloMosaic Idealize.ShloMosaic.TcCoe Idealize.SL.Sem
open Cert.KernelIdeal Cert.KernelIdeal.Gen
open Idealize.ShloMosaic.ValueIdx

variable [Cert.Pre_finite_inputs.Facts]
variable (m : (ℓ : Loc nD τ sig) → Buf (Elt Ideal) ℓ) (ρ : Dev nD → PrngReg) (h : Cert.Pre_KernelIdeal m) (c : Dev nD)
include h

-- The run's last contents at the result: the composition over the regions' values and the four loss lanes.
theorem kernel_value :
    (W10 m ρ c (Proc.devRef .tc main_v43) : S_.Idx → EReal) ValueIdx.ix0
      = Cert.Spec.total (kIdx m c) (kPar m c) (kOm m c) (kCe m c) (kRs m c) (kLv m c) (kLd m c) :=
  core_total m (outsOf m ρ) h c (rvals m ρ c) (lane0_eq m ρ h c) (lane3_eq m ρ h c) (lane4_eq m ρ h c) (lane5_eq m ρ h c)

end Cert.KernelIdeal.Hand

end
-- ==== Proof.RefAbbrev.lean ====
import proofs.«418439_j46445776339038_1_alg».proof.Proof.RefImports
import proofs.«418439_j46445776339038_1_alg».proof.Proof.Target

noncomputable section

namespace Cert.Proof.RefValue

open Cert.ReferenceIdeal Idealize.ShloMosaic

abbrev idxOf (x0 : (⟨S2048, .i32⟩ : BufTy).Contents (Elt Ideal)) : Fin 2048 → BitVec 32 :=
  fun n => x0 (ValueIdx.ix1 n)
abbrev omOf (x2 : (⟨S2048x128, .f32⟩ : BufTy).Contents (Elt Ideal)) : Fin 2048 → Fin 128 → EReal :=
  fun i d => x2 (ValueIdx.ix2 i d)
abbrev ceOf (x3 : (⟨S8192x32, .f32⟩ : BufTy).Contents (Elt Ideal)) : Fin 8192 → Fin 32 → EReal :=
  fun k j => x3 (ValueIdx.ix2 k j)
abbrev rsOf (x4 : (⟨S8192x32, .f32⟩ : BufTy).Contents (Elt Ideal)) : Fin 8192 → Fin 32 → EReal :=
  fun k j => x4 (ValueIdx.ix2 k j)
abbrev lvOf (x5 : (⟨S8192, .f32⟩ : BufTy).Contents (Elt Ideal)) : Fin 8192 → EReal :=
  fun k => x5 (ValueIdx.ix1 k)
abbrev ldOf (x6 : (⟨S8192x8192, .f32⟩ : BufTy).Contents (Elt Ideal)) : Fin 8192 → Fin 8192 → EReal :=
  fun k q => x6 (ValueIdx.ix2 k q)

end Cert.Proof.RefValue

end
-- ==== Proof.RefReads.lean ====
import proofs.«418439_j46445776339038_1_alg».proof.Proof.RefAbbrev
import Idealize.ShloMosaic.Lib.Pipeline.Value

noncomputable section

namespace Cert.Proof.RefValue

open Cert.ReferenceIdeal Cert.ReferenceIdeal.Gen Cert.ReferenceIdeal.Read Idealize.ShloMosaic Idealize.ShloMosaic.ValueIdx Idealize.ShloMosaic.StableHlo

section Gathers
variable {α : Type} {w : Nat}

-- A start index read signed and clamped into a table of 8192 rows.
def clamp (a : BitVec w) : Fin 8192 := ⟨min a.toInt.toNat 8191, by omega⟩

-- A gather reads the operand at the clamped start index on the indexed axis and at the result's own coordinate on the other.
theorem gather_rows {W R : Nat} (wf : GatherDims.WF ⟨2, ![8192, W]⟩ ⟨2, ![R, 1]⟩ ⟨2, ![R, W]⟩ [1] [0] [] [0] [] 1 ![1, W])
    (x : (⟨2, ![8192, W]⟩ : Shape).Idx → α) (idx : IVec ⟨2, ![R, 1]⟩ w) (n : Fin R) (c : Fin W) :
    Host.gather ⟨[1], [0], [], [], [0], 1, ![1, W], wf⟩ x idx (ix2 n c) = x (ix2 (clamp (idx (ix2 n 0))) c) := by
  unfold Host.gather
  congr 1
  funext a
  refine Fin.ext ?_
  match a with
  | ⟨0, _⟩ => exact congrArg (fun i => min (idx i).toInt.toNat 8191) (eq_ix2 _)
  | ⟨1, _⟩ => exact Nat.zero_add _

theorem gather_cols {R C : Nat} (wf : GatherDims.WF ⟨2, ![R, 8192]⟩ ⟨2, ![C, 1]⟩ ⟨2, ![R, C]⟩ [0] [1] [] [1] [] 1 ![R, 1])
    (x : (⟨2, ![R, 8192]⟩ : Shape).Idx → α) (idx : IVec ⟨2, ![C, 1]⟩ w) (i : Fin R) (j : Fin C) :
    Host.gather ⟨[0], [1], [], [], [1], 1, ![R, 1], wf⟩ x idx (ix2 i j) = x (ix2 i (clamp (idx (ix2 j 0)))) := by
  unfold Host.gather
  congr 1
  funext a
  refine Fin.ext ?_
  match a with
  | ⟨0, _⟩ => exact Nat.zero_add _
  | ⟨1, _⟩ => exact congrArg (fun i => min (idx i).toInt.toNat 8191) (eq_ix2 _)

theorem gather_win (x : S8192x32.Idx → α) (idx : IVec S2048x2 w) (n : Fin 2048) (s : Fin 16) :
    Host.gather gather_S8192x32_S2048x2_S2048x16_1_0_n_n_01_1_116 x idx (ix2 n s)
      = x (ix2 (clamp (idx (ix2 n (0 : Fin 2))))
            ⟨min (idx (ix2 n (1 : Fin 2))).toInt.toNat 16 + s.val, Nat.add_lt_add_of_le_of_lt (min_le_right _ _) s.isLt⟩) := by
  unfold Host.gather
  congr 1
  funext a
  refine Fin.ext ?_
  match a with
  | ⟨0, _⟩ => exact congrArg (fun i => min (idx i).toInt.toNat 8191) (eq_ix2 _)
  | ⟨1, _⟩ => exact congrArg (fun i => min (idx i).toInt.toNat 16 + s.val) (eq_ix2 _)

theorem gather_take (x : S8192.Idx → α) (idx : IVec S2048x1 w) (n : Fin 2048) :
    Host.gather gather_S8192_S2048x1_S2048_n_0_n_n_0_1_1 x idx (ix1 n)
      = x (ix1 (clamp (idx (ix2 n (0 : Fin 1))))) := by
  unfold Host.gather
  congr 1
  funext a
  refine Fin.ext ?_
  match a with
  | ⟨0, _⟩ => exact congrArg (fun i => min (idx i).toInt.toNat 8191) (eq_ix2 _)

theorem concat_cols_left (a b : S2048x1.Idx → α) (n : Fin 2048) :
    concatenate S2048x2 1 [⟨S2048x1, a⟩, ⟨S2048x1, b⟩] concatenates_S2048x1_S2048x1_S2048x2_d1 (ix2 n (0 : Fin 2))
      = a (ix2 n (0 : Fin 1)) :=
  concatenate_pair_apply_left 1 a b _ (ix2 n (0 : Fin 2)) rfl (ix2 n (0 : Fin 1))
    (fun c => match c with | ⟨0, _⟩ => rfl | ⟨1, _⟩ => rfl)

theorem concat_cols_right (a b : S2048x1.Idx → α) (n : Fin 2048) :
    concatenate S2048x2 1 [⟨S2048x1, a⟩, ⟨S2048x1, b⟩] concatenates_S2048x1_S2048x1_S2048x2_d1 (ix2 n (1 : Fin 2))
      = b (ix2 n (0 : Fin 1)) :=
  concatenate_pair_apply_right 1 a b _ (ix2 n (1 : Fin 2)) rfl rfl (ix2 n (0 : Fin 1))
    (fun c hc => match c, hc with | ⟨0, _⟩, _ => rfl | ⟨1, _⟩, hc => absurd rfl hc) rfl

end Gathers

-- A word below 8192 is not negative as a signed word, so the clamp into the table keeps the row it names.
theorem clampRow {a : BitVec 32} (h : a.toNat < 8192) : clamp a = Cert.Spec.rowOf a := by
  refine Fin.ext ?_
  show min a.toInt.toNat 8191 = a.toNat % 8192
  rw [BitVec.toInt_eq_toNat_of_lt (by omega), Int.toNat_natCast]
  omega

theorem wrap_id {a : BitVec 32} (h : 0 ≤ a.toInt) :
    Scalar.select (IntOp.cmpi .slt a 0#32) (IntOp.addi a 8192#32) a = a := by
  have hs : a.slt 0#32 = false := by
    rw [BitVec.slt_eq_decide]
    simp only [BitVec.toInt_zero, decide_eq_false_iff_not, not_lt]
    exact h
  show Scalar.select (BitVec.ofBool (a.slt 0#32)) _ a = a
  rw [hs]
  exact select_zero _ _

-- The wrap of a negative index (compare with 0, add 8192, select), laid as a column, keeps a word that is not negative.
theorem wrap_col (x : (⟨S2048, .i32⟩ : BufTy).Contents (Elt Ideal)) (n : Fin 2048) (c : Fin 1) (h : 0 ≤ (x (ix1 n)).toInt) :
    broadcastInDim S2048x1 ![0] bcast_S2048_S2048x1_0
        (select (cmpi .slt x (broadcastInDim S2048 ![] bcast_S_S2048 (constantI S_ 32 0#32)))
          (addi x (broadcastInDim S2048 ![] bcast_S_S2048 (constantI S_ 32 8192#32))) x) (ix2 n c)
      = x (ix1 n) := by
  rw [broadcastInDim_apply _ _ _ _ (ix1 n) fun a => match a with | ⟨0, _⟩ => (if_neg (show ¬(2048 : Nat) = 1 by decide)).symm]
  exact wrap_id h

-- The window gather at a row word in range reads, in the row it names, the column its second start index gives.
theorem win_at {α : Type} (x : S8192x32.Idx → α) (a b : IVec S2048x1 32) (n : Fin 2048) (s : Fin 16) (j : Fin 32)
    (ha : (a (ix2 n 0)).toNat < 8192) (hj : min (b (ix2 n 0)).toInt.toNat 16 + s.val = j.val) :
    Host.gather gather_S8192x32_S2048x2_S2048x16_1_0_n_n_01_1_116 x
        (concatenate S2048x2 1 [⟨S2048x1, a⟩, ⟨S2048x1, b⟩] concatenates_S2048x1_S2048x1_S2048x2_d1) (ix2 n s)
      = x (ix2 (Cert.Spec.rowOf (a (ix2 n 0))) j) := by
  rw [gather_win, concat_cols_left, concat_cols_right, clampRow ha]
  exact congrArg (fun j => x (ix2 _ j)) (Fin.ext hj)

section Reads
variable (x0 x1 : (⟨S2048, .i32⟩ : BufTy).Contents (Elt Ideal)) (x3 x4 : (⟨S8192x32, .f32⟩ : BufTy).Contents (Elt Ideal))
  (x5 : (⟨S8192, .f32⟩ : BufTy).Contents (Elt Ideal))
  (h0 : ∀ n : Fin 2048, (x0 (ValueIdx.ix1 n)).toNat < 8192 ∧ 0 ≤ (x0 (ValueIdx.ix1 n)).toInt)
  (h1 : ∀ n : Fin 2048, (x1 (ValueIdx.ix1 n)).toNat < 8192 ∧ 0 ≤ (x1 (ValueIdx.ix1 n)).toInt)

include h0 in
theorem v5_at (n : Fin 2048) (c : Fin 1) : val_main_v5 (F := Ideal) x0 (ix2 n c) = x0 (ix1 n) :=
  wrap_col x0 n c (h0 n).2

include h0 in
theorem v98_at (n : Fin 2048) (c : Fin 1) : val_main_v98 (F := Ideal) x0 (ix2 n c) = x0 (ix1 n) :=
  wrap_col x0 n c (h0 n).2

include h0 in
theorem v120_at (n : Fin 2048) (c : Fin 1) : val_main_v120 (F := Ideal) x0 (ix2 n c) = x0 (ix1 n) :=
  wrap_col x0 n c (h0 n).2

include h0 in
theorem v127_at (n : Fin 2048) (c : Fin 1) : val_main_v127 (F := Ideal) x0 (ix2 n c) = x0 (ix1 n) :=
  wrap_col x0 n c (h0 n).2

include h1 in
theorem v14_at (n : Fin 2048) (c : Fin 1) : val_main_v14 (F := Ideal) x1 (ix2 n c) = x1 (ix1 n) :=
  wrap_col x1 n c (h1 n).2

include h1 in
theorem v25_at (n : Fin 2048) (c : Fin 1) : val_main_v25 (F := Ideal) x1 (ix2 n c) = x1 (ix1 n) :=
  wrap_col x1 n c (h1 n).2

include h1 in
theorem v76_at (n : Fin 2048) (c : Fin 1) : val_main_v76 (F := Ideal) x1 (ix2 n c) = x1 (ix1 n) :=
  wrap_col x1 n c (h1 n).2

include h1 in
theorem v85_at (n : Fin 2048) (c : Fin 1) : val_main_v85 (F := Ideal) x1 (ix2 n c) = x1 (ix1 n) :=
  wrap_col x1 n c (h1 n).2

include h0 in
theorem v6_at (n : Fin 2048) (c : Fin 32) :
    val_main_v6 (F := Ideal) x0 x3 (ix2 n c) = ceOf x3 (Cert.Spec.rowOf (idxOf x0 n)) c := by
  unfold val_main_v6
  refine (gather_rows _ x3 _ n c).trans ?_
  rw [v5_at x0 h0, clampRow (h0 n).1]

include h0 in
theorem v7_at (n : Fin 2048) (s : Fin 16) :
    val_main_v7 (F := Ideal) x0 x3 (ix2 n s) = Cert.Spec.lo (idxOf x0) (ceOf x3) n s := by
  rw [val_main_v7_apply, show idx_main_v7 (ix2 n s) = ix2 n (⟨s.val, by omega⟩ : Fin 32) from eq_ix2 _, v6_at x0 x3 h0]
  rfl

include h0 in
theorem v8_at (n : Fin 2048) (s : Fin 16) :
    val_main_v8 (F := Ideal) x0 x3 (ix2 n s) = Cert.Spec.hi (idxOf x0) (ceOf x3) n s := by
  rw [val_main_v8_apply, show idx_main_v8 (ix2 n s) = ix2 n (⟨16 + s.val, by omega⟩ : Fin 32) from eq_ix2 _, v6_at x0 x3 h0]
  rfl

include h0 in
theorem v39_at (s : Fin 16) (n : Fin 2048) :
    val_main_v39 (F := Ideal) x0 x3 (ix2 s n) = Cert.Spec.lo (idxOf x0) (ceOf x3) n s := by
  rw [val_main_v39_apply, show idx_main_v39 (ix2 s n) = ix2 n s from eq_ix2 _, v7_at x0 x3 h0]

include h1 in
theorem v17_at (n : Fin 2048) (s : Fin 16) :
    val_main_v17 (F := Ideal) x1 x4 (ix2 n s) = Cert.Spec.plo (idxOf x1) (rsOf x4) n s := by
  unfold val_main_v17 val_main_v16
  rw [win_at _ _ _ n s ⟨s.val, by omega⟩ (by rw [v14_at x1 h1]; exact (h1 n).1)
    (by rw [val_main_v15_apply, val_main_c_3_apply]; exact Nat.zero_add _), v14_at x1 h1]
  rfl

include h1 in
theorem v28_at (n : Fin 2048) (s : Fin 16) :
    val_main_v28 (F := Ideal) x1 x4 (ix2 n s) = Cert.Spec.phi (idxOf x1) (rsOf x4) n s := by
  unfold val_main_v28 val_main_v27
  rw [win_at _ _ _ n s ⟨16 + s.val, by omega⟩ (by rw [v25_at x1 h1]; exact (h1 n).1)
    (by rw [val_main_v26_apply, val_main_c_6_apply]; exact rfl), v25_at x1 h1]
  rfl

include h1 in
theorem v79_at (n : Fin 2048) (s : Fin 16) :
    val_main_v79 (F := Ideal) x1 x4 (ix2 n s) = Cert.Spec.phi (idxOf x1) (rsOf x4) n s := by
  unfold val_main_v79 val_main_v78
  rw [win_at _ _ _ n s ⟨16 + s.val, by omega⟩ (by rw [v76_at x1 h1]; exact (h1 n).1)
    (by rw [val_main_v77_apply, val_main_c_16_apply]; exact rfl), v76_at x1 h1]
  rfl

include h1 in
theorem v88_at (n : Fin 2048) (s : Fin 16) :
    val_main_v88 (F := Ideal) x1 x4 (ix2 n s) = Cert.Spec.plo (idxOf x1) (rsOf x4) n s := by
  unfold val_main_v88 val_main_v87
  rw [win_at _ _ _ n s ⟨s.val, by omega⟩ (by rw [v85_at x1 h1]; exact (h1 n).1)
    (by rw [val_main_v86_apply, val_main_c_19_apply]; exact Nat.zero_add _), v85_at x1 h1]
  rfl

include h0 in
theorem v99_at (n : Fin 2048) :
    val_main_v99 (F := Ideal) x0 x5 (ix1 n) = Cert.Spec.den (idxOf x0) (lvOf x5) n := by
  unfold val_main_v99
  rw [gather_take, v98_at x0 h0, clampRow (h0 n).1]
  rfl

end Reads

end Cert.Proof.RefValue

end
-- ==== Proof.RefTermsA.lean ====
import proofs.«418439_j46445776339038_1_alg».proof.Proof.RefReads

noncomputable section

namespace Cert.Proof.RefValue

open Cert.ReferenceIdeal Cert.ReferenceIdeal.Facts₀ Cert.ReferenceIdeal.Read Idealize.ShloMosaic Idealize.ShloMosaic.ValueIdx

section Terms
variable (x0 x1 : (⟨S2048, .i32⟩ : BufTy).Contents (Elt Ideal)) (x3 x4 : (⟨S8192x32, .f32⟩ : BufTy).Contents (Elt Ideal))
  (x5 : (⟨S8192, .f32⟩ : BufTy).Contents (Elt Ideal))
  (h0 : ∀ n : Fin 2048, (x0 (ValueIdx.ix1 n)).toNat < 8192 ∧ 0 ≤ (x0 (ValueIdx.ix1 n)).toInt)
  (h1 : ∀ n : Fin 2048, (x1 (ValueIdx.ix1 n)).toNat < 8192 ∧ 0 ≤ (x1 (ValueIdx.ix1 n)).toInt)

include h0 in
theorem ref_lossPositive :
    val_main_v161 (F := Ideal) x0 x3 ValueIdx.ix0 = Cert.Spec.lossPositive (idxOf x0) (ceOf x3) := by
  rw [val_main_v161_apply, val_main_cst_37_apply, sum_idx2]
  unfold Cert.Spec.lossPositive
  rw [Ideal.ofBits_def, Ideal.ofBits_zero_f32, zero_add]
  refine Finset.sum_congr rfl fun n _ => Finset.sum_congr rfl fun s _ => ?_
  rw [val_main_v160_apply, val_main_v159_apply, val_main_cst_36_apply, val_main_v158_apply, val_main_v157_apply,
    val_main_v38_apply, v8_at x0 x3 h0, v7_at x0 x3 h0]
  rfl

include h0 h1 in
theorem ref_lossExceed :
    val_main_v37 (F := Ideal) x0 x1 x3 x4 ValueIdx.ix0
      = Cert.Spec.lossExceed (idxOf x0) (idxOf x1) (ceOf x3) (rsOf x4) := by
  rw [val_main_v37_apply, val_main_v33_apply, val_main_v36_apply, val_main_cst_8_apply, val_main_cst_9_apply,
    sum_idx2, sum_idx2]
  unfold Cert.Spec.lossExceed
  simp only [Ideal.ofBits_def, Ideal.ofBits_zero_f32, zero_add, Ideal.addf_def]
  congr 1
  · refine Finset.sum_congr rfl fun n _ => Finset.sum_congr rfl fun s _ => ?_
    rw [val_main_v32_apply, val_main_call0_v0_apply, val_main_call0_cst_apply, val_main_v31_apply, val_main_v19_apply,
      val_main_v18_apply, val_main_cst_apply, v17_at x1 x4 h1, v7_at x0 x3 h0]
    simp only [Ideal.ofBits_def, Ideal.ofBits_zero_f32]
    rfl
  · refine Finset.sum_congr rfl fun n _ => Finset.sum_congr rfl fun s _ => ?_
    rw [val_main_v35_apply, val_main_call1_v0_apply, val_main_call1_cst_apply, val_main_v34_apply, val_main_v30_apply,
      val_main_v29_apply, val_main_cst_7_apply, v28_at x1 x4 h1, v8_at x0 x3 h0]
    simp only [Ideal.ofBits_def, Ideal.ofBits_zero_f32]
    rfl

include h0 h1 in
theorem ref_lossShape :
    val_main_v107 (F := Ideal) x0 x1 x3 x4 x5 ValueIdx.ix0
      = Cert.Spec.lossShape (idxOf x0) (idxOf x1) (ceOf x3) (rsOf x4) (lvOf x5) := by
  rw [val_main_v107_apply, val_main_cst_24_apply, sum_idx2]
  unfold Cert.Spec.lossShape
  rw [Ideal.ofBits_def, Ideal.ofBits_zero_f32, zero_add]
  refine Finset.sum_congr rfl fun n _ => Finset.sum_congr rfl fun s _ => ?_
  rw [val_main_v106_apply, val_main_v105_apply, val_main_cst_23_apply, val_main_v104_apply, val_main_v103_apply,
    val_main_v102_apply, val_main_v101_apply, val_main_v100_apply,
    show idx_main_v100 (idx_main_v101 (ix2 n s)) = ix1 n from eq_ix1 _,
    v99_at x0 x5 h0, val_main_v92_apply, val_main_v91_apply, val_main_cst_20_apply, val_main_v90_apply,
    val_main_v89_apply, val_main_v38_apply, v8_at x0 x3 h0, v7_at x0 x3 h0, v79_at x1 x4 h1, v88_at x1 x4 h1]
  rfl

end Terms

end Cert.Proof.RefValue

end
-- ==== Proof.RefTermsOverlap.lean ====
import proofs.«418439_j46445776339038_1_alg».proof.Proof.RefReads
import Idealize.ShloMosaic.Lib.IdealHost
import Idealize.ShloMosaic.Lib.StableHlo.Predicate

noncomputable section

namespace Cert.Proof.RefValue

open Cert.ReferenceIdeal Cert.ReferenceIdeal.Facts₀ Cert.ReferenceIdeal.Read Idealize.ShloMosaic Idealize.ShloMosaic.ValueIdx

section Terms
variable (x0 : (⟨S2048, .i32⟩ : BufTy).Contents (Elt Ideal)) (x3 : (⟨S8192x32, .f32⟩ : BufTy).Contents (Elt Ideal))
  (h0 : ∀ n : Fin 2048, (x0 (ValueIdx.ix1 n)).toNat < 8192 ∧ 0 ≤ (x0 (ValueIdx.ix1 n)).toInt)

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem max_mul_mask (x : EReal) (i j : Fin 2048) :
    max (x * Cert.Spec.mask i j) 0 = max x 0 * Cert.Spec.mask i j := by
  unfold Cert.Spec.mask
  by_cases h : i = j
  · rw [if_pos h, mul_zero, mul_zero, max_self]
  · rw [if_neg h, mul_one, mul_one]

theorem v58_at (i j : Fin 2048) : val_main_v58 (F := Ideal) (ix2 i j) = Cert.Spec.mask i j := by
  rw [val_main_v58_apply, val_main_v57_apply, val_main_cst_11_apply, val_main_v56_apply, val_main_v55_apply,
    val_main_v54_apply, val_main_v53_apply, val_main_c_10_apply, val_main_v51_apply, val_main_v52_apply,
    Ideal.ofBits_def, Ideal.ofBits_one_f32, Ideal.subf_def]
  show (1 : EReal) - (((IntOp.cmpi .eq (BitVec.ofNat 32 i.val + 0#32) (BitVec.ofNat 32 j.val)).toNat : ℝ) : EReal)
    = Cert.Spec.mask i j
  unfold Cert.Spec.mask
  rw [BitVec.add_zero]
  by_cases h : i = j
  · rw [if_pos h, StableHlo.Predicate.cmpi_eq_iff.mpr (by rw [h])]
    show (1 : EReal) - ((1 : ℕ) : ℝ) = 0
    rw [Nat.cast_one, EReal.coe_one]
    show ((1 : ℝ) : EReal) - ((1 : ℝ) : EReal) = 0
    rw [← EReal.coe_sub, sub_self, EReal.coe_zero]
  · rw [if_neg h, eq_zero_of_ne_one (mt StableHlo.Predicate.cmpi_eq_iff.mp fun he => h (Fin.ext (by
      have := congrArg BitVec.toNat he
      simp only [BitVec.toNat_ofNat] at this
      omega)))]
    show (1 : EReal) - ((0 : ℕ) : ℝ) = 1
    rw [Nat.cast_zero, EReal.coe_zero, sub_zero]

include h0 in
theorem v40_at (s : Fin 16) (n : Fin 2048) :
    val_main_v40 (F := Ideal) x0 x3 (ix2 s n) = Cert.Spec.hi (idxOf x0) (ceOf x3) n s := by
  rw [val_main_v40_apply, show idx_main_v40 (ix2 s n) = ix2 n s from eq_ix2 _, v8_at x0 x3 h0]

include h0 in
theorem v45_at (s : Fin 16) (i j : Fin 2048) :
    val_main_v45 (F := Ideal) x0 x3 (ix3 s i j)
      = max (Cert.Spec.lo (idxOf x0) (ceOf x3) i s) (Cert.Spec.lo (idxOf x0) (ceOf x3) j s) := by
  rw [val_main_v45_apply, val_main_v43_apply, val_main_v41_apply, val_main_v44_apply, val_main_v42_apply,
    show idx_main_v41 (idx_main_v43 (ix3 s i j)) = ix2 s i from eq_ix2 _,
    show idx_main_v42 (idx_main_v44 (ix3 s i j)) = ix2 s j from eq_ix2 _, v39_at x0 x3 h0, v39_at x0 x3 h0]
  rfl

include h0 in
theorem v50_at (s : Fin 16) (i j : Fin 2048) :
    val_main_v50 (F := Ideal) x0 x3 (ix3 s i j)
      = min (Cert.Spec.hi (idxOf x0) (ceOf x3) i s) (Cert.Spec.hi (idxOf x0) (ceOf x3) j s) := by
  rw [val_main_v50_apply, val_main_v48_apply, val_main_v46_apply, val_main_v49_apply, val_main_v47_apply,
    show idx_main_v46 (idx_main_v48 (ix3 s i j)) = ix2 s i from eq_ix2 _,
    show idx_main_v47 (idx_main_v49 (ix3 s i j)) = ix2 s j from eq_ix2 _, v40_at x0 x3 h0, v40_at x0 x3 h0]
  rfl

include h0 in
theorem v68_at (s : Fin 16) (i j : Fin 2048) :
    val_main_v68 (F := Ideal) x0 x3 (ix3 s i j)
      = max (Cert.Spec.hi (idxOf x0) (ceOf x3) i s - Cert.Spec.lo (idxOf x0) (ceOf x3) i s) Cert.Spec.eps := by
  rw [val_main_v68_apply, val_main_v67_apply,
    show idx_main_v67 (idx_main_v68 (ix3 s i j)) = ix2 s i from eq_ix2 _,
    val_main_v66_apply, val_main_v65_apply, val_main_cst_12_apply, val_main_v64_apply,
    show idx_main_v64 (ix2 s i) = ix2 i s from eq_ix2 _,
    val_main_v38_apply, v8_at x0 x3 h0, v7_at x0 x3 h0]
  rfl

include h0 in
theorem ref_lossOverlap :
    val_main_v70 (F := Ideal) x0 x3 ValueIdx.ix0 = Cert.Spec.lossOverlap (idxOf x0) (ceOf x3) := by
  rw [val_main_v70_apply, val_main_cst_13_apply, sum_idx3]
  unfold Cert.Spec.lossOverlap
  rw [Ideal.ofBits_def, Ideal.ofBits_zero_f32, zero_add]
  refine Finset.sum_congr rfl fun s _ => Finset.sum_congr rfl fun i _ => Finset.sum_congr rfl fun j _ => ?_
  rw [val_main_v69_apply, val_main_v63_apply, val_main_call2_v0_apply, val_main_call2_cst_apply, val_main_v62_apply,
    val_main_v59_apply, val_main_v61_apply, val_main_v60_apply,
    show idx_main_v60 (idx_main_v61 (ix3 s i j)) = ix2 i j from eq_ix2 _,
    v58_at, v50_at x0 x3 h0, v45_at x0 x3 h0, v68_at x0 x3 h0]
  simp only [Ideal.ofBits_def, Ideal.ofBits_zero_f32, Ideal.hostDivf_def, Ideal.maximumf_def, Ideal.mulf_def,
    Ideal.subf_def]
  rw [max_mul_mask]

end Terms

end Cert.Proof.RefValue

end
-- ==== Proof.RefTermsB.lean ====
import proofs.«418439_j46445776339038_1_alg».proof.Proof.RefReads

noncomputable section

namespace Cert.Proof.RefValue

open Cert.ReferenceIdeal Cert.ReferenceIdeal.Gen Cert.ReferenceIdeal.Read Idealize.ShloMosaic Idealize.ShloMosaic.ValueIdx Idealize.ShloMosaic.StableHlo

section Distance
variable (x0 : (⟨S2048, .i32⟩ : BufTy).Contents (Elt Ideal)) (x2 : (⟨S2048x128, .f32⟩ : BufTy).Contents (Elt Ideal))
  (x3 : (⟨S8192x32, .f32⟩ : BufTy).Contents (Elt Ideal)) (x6 : (⟨S8192x8192, .f32⟩ : BufTy).Contents (Elt Ideal))
  (h0 : ∀ n : Fin 2048, (x0 (ValueIdx.ix1 n)).toNat < 8192 ∧ 0 ≤ (x0 (ValueIdx.ix1 n)).toInt)

include h0 in
theorem read_v121 (n : Fin 2048) (q : Fin 8192) :
    val_main_v121 (F := Ideal) x0 x6 (ix2 n q) = x6 (ix2 (Cert.Spec.rowOf (x0 (ix1 n))) q) := by
  unfold val_main_v121
  refine (gather_rows _ x6 _ n q).trans ?_
  rw [v120_at x0 h0, clampRow (h0 n).1]

include h0 in
theorem read_v128 (i j : Fin 2048) :
    val_main_v128 (F := Ideal) x0 x6 (ix2 i j) = Cert.Spec.accD (idxOf x0) (ldOf x6) i j := by
  unfold val_main_v128
  refine (gather_cols _ _ _ i j).trans ?_
  rw [v127_at x0 h0, clampRow (h0 j).1]
  exact read_v121 x0 x6 h0 i _

include h0 in
theorem read_v114 (i j : Fin 2048) :
    val_main_v114 (F := Ideal) x0 x3 (ix2 i j)
      = ∑ s : Fin 16, Cert.Spec.absE (Cert.Spec.lo (idxOf x0) (ceOf x3) i s - Cert.Spec.lo (idxOf x0) (ceOf x3) j s) := by
  rw [val_main_v114_apply, val_main_cst_25_apply]
  simp only [Ideal.ofBits_def, Ideal.ofBits_zero_f32, zero_add]
  refine Finset.sum_congr rfl fun s _ => ?_
  rw [val_main_v113_apply, val_main_v112_apply, val_main_v110_apply, val_main_v111_apply, val_main_v108_apply,
    val_main_v109_apply, show idx_main_v108 (idx_main_v110 (idx_main_v114 (ix2 i j) s)) = ix2 s i from eq_ix2 _,
    show idx_main_v109 (idx_main_v111 (idx_main_v114 (ix2 i j) s)) = ix2 s j from eq_ix2 _,
    v39_at x0 x3 h0, v39_at x0 x3 h0]
  rfl

include h0 in
theorem ref_realD (i j : Fin 2048) :
    val_main_v129 (F := Ideal) x0 x3 x6 (ix2 i j) = Cert.Spec.realD (idxOf x0) (ceOf x3) (ldOf x6) i j := by
  rw [val_main_v129_apply, read_v128 x0 x6 h0, read_v114 x0 x3 h0]
  rfl

include h0 in
theorem ref_normR :
    val_main_v131 (F := Ideal) x0 x3 x6 ix0 = Cert.Spec.normR (idxOf x0) (ceOf x3) (ldOf x6) := by
  rw [val_main_v131_apply, val_main_v130_apply, val_main_call3_v1_apply, val_main_call3_cst_apply,
    val_main_cst_30_apply, sum_idx2]
  simp only [Ideal.ofBits_def, Ideal.ofBits_zero_f32, zero_add, val_main_call3_v0_apply, ref_realD x0 x3 x6 h0]
  rfl

include h0 in
theorem ref_distNormed (j : Fin 2048) :
    val_main_v134 (F := Ideal) x0 x3 x6 (ix1 j) = Cert.Spec.distNormed (idxOf x0) (ceOf x3) (ldOf x6) j := by
  rw [val_main_v134_apply, val_main_cst_31_apply]
  simp only [Ideal.ofBits_def, Ideal.ofBits_zero_f32, zero_add]
  refine Finset.sum_congr rfl fun k _ => ?_
  rw [val_main_v133_apply, val_main_v132_apply, show idx_main_v134 (ix1 j) k = ix2 k j from eq_ix2 _,
    ref_realD x0 x3 x6 h0, eq_ix0 (idx_main_v132 _), ref_normR x0 x3 x6 h0]
  rfl

theorem read_v136 (i : Fin 2048) : val_main_v136 (F := Ideal) x2 (ix1 i) = Cert.Spec.inner (omOf x2) i := by
  rw [val_main_v136_apply, val_main_cst_32_apply]
  simp only [Ideal.ofBits_def, Ideal.ofBits_zero_f32, zero_add]
  refine Finset.sum_congr rfl fun k _ => ?_
  rw [val_main_v135_apply, show idx_main_v136 (ix1 i) k = ix2 i k from eq_ix2 _]
  rfl

theorem ref_omegaDist (i j : Fin 2048) :
    val_main_v148 (F := Ideal) x2 (ix2 i j) = Cert.Spec.omegaDist (omOf x2) i j := by
  rw [val_main_v148_apply, val_main_v146_apply, val_main_v143_apply, val_main_v141_apply, val_main_v140_apply,
    val_main_v139_apply, val_main_v142_apply, val_main_v145_apply, val_main_v144_apply, val_main_v137_apply,
    val_main_v137_apply, val_main_v147_apply, val_main_cst_33_apply, val_main_cst_34_apply,
    show idx_main_v137 (idx_main_v142 (ix2 i j)) = ix1 i from eq_ix1 _,
    show idx_main_v137 (idx_main_v144 (idx_main_v145 (ix2 i j))) = ix1 j from eq_ix1 _, read_v136, read_v136]
  have hd : ∑ k : Fin 128, x2 (lidx_main_v139 (ix2 i j) k) * val_main_v138 (F := Ideal) x2 (ridx_main_v139 (ix2 i j) k)
      = ∑ d : Fin 128, omOf x2 i d * omOf x2 j d :=
    Finset.sum_congr rfl fun k _ => by
      rw [val_main_v138_apply, show lidx_main_v139 (ix2 i j) k = ix2 i k from eq_ix2 _,
        show idx_main_v138 (ridx_main_v139 (ix2 i j) k) = ix2 j k from eq_ix2 _]
  rw [hd]
  rfl

theorem ref_normO : val_main_v150 (F := Ideal) x2 ix0 = Cert.Spec.normO (omOf x2) := by
  rw [val_main_v150_apply, val_main_v149_apply, val_main_call4_v1_apply, val_main_call4_cst_apply,
    val_main_cst_35_apply, sum_idx2]
  simp only [Ideal.ofBits_def, Ideal.ofBits_zero_f32, zero_add, val_main_call4_v0_apply, ref_omegaDist]
  rfl

-- The normalised embedding distances minus the normalised box-distance column sums laid along the second axis.
include h0 in
theorem ref_lossDistance :
    val_main_v156 (F := Ideal) x0 x2 x3 x6 ix0
      = Cert.Spec.lossDistance (idxOf x0) (omOf x2) (ceOf x3) (ldOf x6) := by
  rw [val_main_v156_apply, val_main_call5_v1_apply, val_main_call5_cst_apply, sum_idx2]
  have hd : ∀ a b : Fin 2048, val_main_v155 (F := Ideal) x0 x2 x3 x6 (ix2 a b)
      = Ideal.div (Cert.Spec.omegaDist (omOf x2) a b) (Cert.Spec.normO (omOf x2))
          - Cert.Spec.distNormed (idxOf x0) (ceOf x3) (ldOf x6) b := fun a b => by
    rw [val_main_v155_apply, val_main_v152_apply, val_main_v151_apply, val_main_v154_apply, val_main_v153_apply,
      ref_omegaDist, show idx_main_v153 (idx_main_v154 (ix2 a b)) = ix1 b from eq_ix1 _, eq_ix0 (idx_main_v151 _),
      ref_normO, ref_distNormed x0 x3 x6 h0]
    rfl
  simp only [Ideal.ofBits_def, Ideal.ofBits_zero_f32, zero_add, val_main_call5_v0_apply, hd]
  rfl

end Distance

end Cert.Proof.RefValue

end
-- ==== Proof.RefTotal.lean ====
import proofs.«418439_j46445776339038_1_alg».proof.Proof.RefTermsA
import proofs.«418439_j46445776339038_1_alg».proof.Proof.RefTermsOverlap
import proofs.«418439_j46445776339038_1_alg».proof.Proof.RefTermsB

noncomputable section

namespace Cert.Proof.RefValue

open Cert.ReferenceIdeal Cert.ReferenceIdeal.Gen Cert.ReferenceIdeal.Read Idealize.ShloMosaic Idealize.ShloMosaic.ValueIdx Idealize.ShloMosaic.StableHlo

section Total
variable (x0 x1 : (⟨S2048, .i32⟩ : BufTy).Contents (Elt Ideal)) (x2 : (⟨S2048x128, .f32⟩ : BufTy).Contents (Elt Ideal))
  (x3 x4 : (⟨S8192x32, .f32⟩ : BufTy).Contents (Elt Ideal)) (x5 : (⟨S8192, .f32⟩ : BufTy).Contents (Elt Ideal))
  (x6 : (⟨S8192x8192, .f32⟩ : BufTy).Contents (Elt Ideal))
  (h0 : ∀ n : Fin 2048, (x0 (ValueIdx.ix1 n)).toNat < 8192 ∧ 0 ≤ (x0 (ValueIdx.ix1 n)).toInt)
  (h1 : ∀ n : Fin 2048, (x1 (ValueIdx.ix1 n)).toNat < 8192 ∧ 0 ≤ (x1 (ValueIdx.ix1 n)).toInt)
include h0 h1

theorem ref_total :
    val_main_v170 (F := Ideal) x0 x1 x2 x3 x4 x5 x6 ix0
      = Cert.Spec.total (idxOf x0) (idxOf x1) (omOf x2) (ceOf x3) (rsOf x4) (lvOf x5) (ldOf x6) := by
  rw [val_main_v170_apply, val_main_v168_apply, val_main_v166_apply, val_main_v164_apply, val_main_v162_apply,
    val_main_v163_apply, val_main_v165_apply, val_main_v167_apply, val_main_v169_apply, val_main_cst_38_apply,
    val_main_cst_39_apply, val_main_cst_40_apply, val_main_cst_41_apply, val_main_cst_42_apply,
    ref_lossDistance x0 x2 x3 x6 h0, ref_lossShape x0 x1 x3 x4 x5 h0 h1, ref_lossExceed x0 x1 x3 x4 h0 h1,
    ref_lossOverlap x0 x3 h0, ref_lossPositive x0 x3 h0]
  rfl

end Total

end Cert.Proof.RefValue

end
-- ==== Proof.lean ====
import proofs.«418439_j46445776339038_1_alg».proof.Defs
import proofs.«418439_j46445776339038_1_alg».proof.Proof.Gen.Kernel
import proofs.«418439_j46445776339038_1_alg».proof.Proof.Gen.KernelIdeal
import proofs.«418439_j46445776339038_1_alg».proof.Proof.Gen.ReferenceIdeal
import proofs.«418439_j46445776339038_1_alg».proof.Proof.Gen.Pre_finite_inputs
import proofs.«418439_j46445776339038_1_alg».proof.Proof.RefImports
import proofs.«418439_j46445776339038_1_alg».proof.Proof.Run
import proofs.«418439_j46445776339038_1_alg».proof.Proof.K.Run
import proofs.«418439_j46445776339038_1_alg».proof.Proof.KernelValue
import proofs.«418439_j46445776339038_1_alg».proof.Proof.RefTotal
import proofs.«418439_j46445776339038_1_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal.Hand in
/-- Both programs end at `Cert.Spec.total` of the seven inputs, which agree. -/
theorem algebraic : Cert.algebraic_KernelIdeal_ReferenceIdeal := by
  intro m ρ m' ρ' hpre hagree
  refine ⟨fun c _ => Cert.Spec.total (kIdx m c) (kPar m c) (kOm m c) (kCe m c) (kRs m c) (kLv m c) (kLd m c), ?_, ?_⟩
  · refine (θ_run Cert.KernelIdeal.defs _ _).mono (fun r h c => ⟨?_, (h c).2⟩) (Cert.KernelIdeal.Hand.run_value (F := Ideal) m ρ)
    rw [(h c).1]; funext i; rw [ValueIdx.eq_ix0 i]
    exact kernel_value m ρ hpre c
  · refine (θ_run Cert.ReferenceIdeal.defs _ _).mono (fun r h c => ⟨?_, (h c).2⟩) (Cert.ReferenceIdeal.Value.run (F := Ideal) m' ρ')
    rw [(h c).1, Cert.ReferenceIdeal.Read.val_main_v170_eq]
    obtain ⟨e0, e1, e2, e3, e4, e5, e6⟩ := hagree c
    rw [e0, e1, e2, e3, e4, e5, e6]; funext i; rw [ValueIdx.eq_ix0 i]
    exact Cert.Proof.RefValue.ref_total _ _ _ _ _ _ _
      (fun n => ⟨Cert.Proof.PreFacts.idx_lt m hpre c n, (Cert.Proof.PreFacts.idx_toInt m hpre c n).1⟩)
      (fun n => ⟨Cert.Proof.PreFacts.par_lt m hpre c n, (Cert.Proof.PreFacts.par_toInt m hpre c n).1⟩)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
